-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v29)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v29) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v219) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x768 : Shape := ⟨2, ![32768, 768]⟩
abbrev S32768 : Shape := ⟨1, ![32768]⟩
abbrev S65536x768 : Shape := ⟨2, ![65536, 768]⟩
abbrev S512x768 : Shape := ⟨2, ![512, 768]⟩
abbrev S512 : Shape := ⟨1, ![512]⟩
abbrev S512x512 : Shape := ⟨2, ![512, 512]⟩
abbrev S128x512 : Shape := ⟨2, ![128, 512]⟩
abbrev S128 : Shape := ⟨1, ![128]⟩
abbrev S32x128 : Shape := ⟨2, ![32, 128]⟩
abbrev S32 : Shape := ⟨1, ![32]⟩
abbrev S_ : Shape := ⟨0, ![]⟩

class Facts : Prop where
  bcast_S_S32768x768 : S_.BroadcastsInDim S32768x768 (![] : Fin 0 → Fin S32768x768.rank)
  reducesTo_S32768x768_S_d0_1 : S32768x768.ReducesTo [0, 1] S_
  h_S_ : 0 < S_.numel
  bcast_S_S65536x768 : S_.BroadcastsInDim S65536x768 (![] : Fin 0 → Fin S65536x768.rank)
  reducesTo_S65536x768_S_d0_1 : S65536x768.ReducesTo [0, 1] S_
  bcast_S_S512x768 : S_.BroadcastsInDim S512x768 (![] : Fin 0 → Fin S512x768.rank)
  reducesTo_S512x768_S_d0_1 : S512x768.ReducesTo [0, 1] S_
  bcast_S_S512 : S_.BroadcastsInDim S512 (![] : Fin 0 → Fin S512.rank)
  reducesTo_S512_S_d0 : S512.ReducesTo [0] S_
  bcast_S_S512x512 : S_.BroadcastsInDim S512x512 (![] : Fin 0 → Fin S512x512.rank)
  reducesTo_S512x512_S_d0_1 : S512x512.ReducesTo [0, 1] S_
  bcast_S_S128x512 : S_.BroadcastsInDim S128x512 (![] : Fin 0 → Fin S128x512.rank)
  reducesTo_S128x512_S_d0_1 : S128x512.ReducesTo [0, 1] S_
  bcast_S_S128 : S_.BroadcastsInDim S128 (![] : Fin 0 → Fin S128.rank)
  reducesTo_S128_S_d0 : S128.ReducesTo [0] S_
  bcast_S_S32x128 : S_.BroadcastsInDim S32x128 (![] : Fin 0 → Fin S32x128.rank)
  reducesTo_S32x128_S_d0_1 : S32x128.ReducesTo [0, 1] S_
  bcast_S_S32 : S_.BroadcastsInDim S32 (![] : Fin 0 → Fin S32.rank)
  reducesTo_S32_S_d0 : S32.ReducesTo [0] S_

variable [Facts]

def fn_part4 {F : FTy → Type} [FloatOps F] (main_arg15 : FVec F S32x128 .f32) (main_arg16 : FVec F S32 .f32) (main_v63 : IVec S_ 1) (main_v67 : IVec S_ 1) : IVec S_ 1 :=
  let main_v68 : IVec S_ 1 := andi main_v63 main_v67
  let main_v69 : FVec F S32x128 .f32 := Host.absf main_arg15
  let main_cst_26 : FVec F S_ .f32 := constant S_ .f32 0x7F800000#32
  let main_v70 : FVec F S32x128 .f32 := broadcastInDim S32x128 ![] bcast_S_S32x128 main_cst_26
  let main_v71 : IVec S32x128 1 := cmpf .olt main_v69 main_v70
  let main_c_27 : IVec S_ 1 := constantI S_ 1 1#1
  let main_v72 : IVec S_ 1 := (fun x v => Host.reduce IntOp.andi x v reducesTo_S32x128_S_d0_1 h_S_) main_v71 main_c_27
  let main_v73 : IVec S_ 1 := andi main_v68 main_v72
  let main_v74 : FVec F S32 .f32 := Host.absf main_arg16
  let main_cst_28 : FVec F S_ .f32 := constant S_ .f32 0x7F800000#32
  let main_v75 : FVec F S32 .f32 := broadcastInDim S32 ![] bcast_S_S32 main_cst_28
  let main_v76 : IVec S32 1 := cmpf .olt main_v74 main_v75
  let main_c_29 : IVec S_ 1 := constantI S_ 1 1#1
  let main_v77 : IVec S_ 1 := (fun x v => Host.reduce IntOp.andi x v reducesTo_S32_S_d0 h_S_) main_v76 main_c_29
  let main_v78 : IVec S_ 1 := andi main_v73 main_v77
  main_v78

def fn_part3 {F : FTy → Type} [FloatOps F] (main_arg12 : FVec F S128 .f32) (main_arg13 : FVec F S128 .f32) (main_arg14 : FVec F S128 .f32) (main_arg15 : FVec F S32x128 .f32) (main_arg16 : FVec F S32 .f32) (main_v48 : IVec S_ 1) (main_v49 : FVec F S128x512 .f32) (main_v50 : FVec F S128x512 .f32) : IVec S_ 1 :=
  let main_v51 : IVec S128x512 1 := cmpf .olt main_v49 main_v50
  let main_c_19 : IVec S_ 1 := constantI S_ 1 1#1
  let main_v52 : IVec S_ 1 := (fun x v => Host.reduce IntOp.andi x v reducesTo_S128x512_S_d0_1 h_S_) main_v51 main_c_19
  let main_v53 : IVec S_ 1 := andi main_v48 main_v52
  let main_v54 : FVec F S128 .f32 := Host.absf main_arg12
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128 .f32 := Host.absf main_arg13
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128 .f32 := Host.absf main_arg14
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg15 main_arg16 main_v63 main_v67

def fn_part2 {F : FTy → Type} [FloatOps F] (main_arg8 : FVec F S512 .f32) (main_arg9 : FVec F S512 .f32) (main_arg10 : FVec F S512 .f32) (main_arg11 : FVec F S128x512 .f32) (main_arg12 : FVec F S128 .f32) (main_arg13 : FVec F S128 .f32) (main_arg14 : FVec F S128 .f32) (main_arg15 : FVec F S32x128 .f32) (main_arg16 : FVec F S32 .f32) (main_v33 : IVec S_ 1) : IVec S_ 1 :=
  let main_v34 : FVec F S512 .f32 := Host.absf main_arg8
  let main_cst_12 : FVec F S_ .f32 := constant S_ .f32 0x7F800000#32
  let main_v35 : FVec F S512 .f32 := broadcastInDim S512 ![] bcast_S_S512 main_cst_12
  let main_v36 : IVec S512 1 := cmpf .olt main_v34 main_v35
  let main_c_13 : IVec S_ 1 := constantI S_ 1 1#1
  let main_v37 : IVec S_ 1 := (fun x v => Host.reduce IntOp.andi x v reducesTo_S512_S_d0 h_S_) main_v36 main_c_13
  let main_v38 : IVec S_ 1 := andi main_v33 main_v37
  let main_v39 : FVec F S512 .f32 := Host.absf main_arg9
  let main_cst_14 : FVec F S_ .f32 := constant S_ .f32 0x7F800000#32
  let main_v40 : FVec F S512 .f32 := broadcastInDim S512 ![] bcast_S_S512 main_cst_14
  let main_v41 : IVec S512 1 := cmpf .olt main_v39 main_v40
  let main_c_15 : IVec S_ 1 := constantI S_ 1 1#1
  let main_v42 : IVec S_ 1 := (fun x v => Host.reduce IntOp.andi x v reducesTo_S512_S_d0 h_S_) main_v41 main_c_15
  let main_v43 : IVec S_ 1 := andi main_v38 main_v42
  let main_v44 : FVec F S512 .f32 := Host.absf main_arg10
  let main_cst_16 : FVec F S_ .f32 := constant S_ .f32 0x7F800000#32
  let main_v45 : FVec F S512 .f32 := broadcastInDim S512 ![] bcast_S_S512 main_cst_16
  let main_v46 : IVec S512 1 := cmpf .olt main_v44 main_v45
  let main_c_17 : IVec S_ 1 := constantI S_ 1 1#1
  let main_v47 : IVec S_ 1 := (fun x v => Host.reduce IntOp.andi x v reducesTo_S512_S_d0 h_S_) main_v46 main_c_17
  let main_v48 : IVec S_ 1 := andi main_v43 main_v47
  let main_v49 : FVec F S128x512 .f32 := Host.absf main_arg11
  let main_cst_18 : FVec F S_ .f32 := constant S_ .f32 0x7F800000#32
  let main_v50 : FVec F S128x512 .f32 := broadcastInDim S128x512 ![] bcast_S_S128x512 main_cst_18
  fn_part3 (F := F) main_arg12 main_arg13 main_arg14 main_arg15 main_arg16 main_v48 main_v49 main_v50

def fn_part1 {F : FTy → Type} [FloatOps F] (main_arg5 : FVec F S512 .f32) (main_arg6 : FVec F S512 .f32) (main_arg7 : FVec F S512x512 .f32) (main_arg8 : FVec F S512 .f32) (main_arg9 : FVec F S512 .f32) (main_arg10 : FVec F S512 .f32) (main_arg11 : FVec F S128x512 .f32) (main_arg12 : FVec F S128 .f32) (main_arg13 : FVec F S128 .f32) (main_arg14 : FVec F S128 .f32) (main_arg15 : FVec F S32x128 .f32) (main_arg16 : FVec F S32 .f32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : FVec F S512 .f32 := Host.absf main_arg5
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S512 .f32 := Host.absf main_arg6
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  let main_v29 : FVec F S512x512 .f32 := Host.absf main_arg7
  let main_cst_10 : FVec F S_ .f32 := constant S_ .f32 0x7F800000#32
  let main_v30 : FVec F S512x512 .f32 := broadcastInDim S512x512 ![] bcast_S_S512x512 main_cst_10
  let main_v31 : IVec S512x512 1 := cmpf .olt main_v29 main_v30
  let main_c_11 : IVec S_ 1 := constantI S_ 1 1#1
  let main_v32 : IVec S_ 1 := (fun x v => Host.reduce IntOp.andi x v reducesTo_S512x512_S_d0_1 h_S_) main_v31 main_c_11
  let main_v33 : IVec S_ 1 := andi main_v28 main_v32
  fn_part2 (F := F) main_arg8 main_arg9 main_arg10 main_arg11 main_arg12 main_arg13 main_arg14 main_arg15 main_arg16 main_v33

def fn {F : FTy → Type} [FloatOps F] (main_arg0 : FVec F S32768x768 .f32) (main_arg1 : IVec S32768 32) (main_arg2 : FVec F S65536x768 .f32) (main_arg3 : FVec F S512x768 .f32) (main_arg4 : FVec F S512 .f32) (main_arg5 : FVec F S512 .f32) (main_arg6 : FVec F S512 .f32) (main_arg7 : FVec F S512x512 .f32) (main_arg8 : FVec F S512 .f32) (main_arg9 : FVec F S512 .f32) (main_arg10 : FVec F S512 .f32) (main_arg11 : FVec F S128x512 .f32) (main_arg12 : FVec F S128 .f32) (main_arg13 : FVec F S128 .f32) (main_arg14 : FVec F S128 .f32) (main_arg15 : FVec F S32x128 .f32) (main_arg16 : FVec F S32 .f32) : IVec S_ 1 :=
  let main_v0 : FVec F S32768x768 .f32 := Host.absf main_arg0
  let main_cst : FVec F S_ .f32 := constant S_ .f32 0x7F800000#32
  let main_v1 : FVec F S32768x768 .f32 := broadcastInDim S32768x768 ![] bcast_S_S32768x768 main_cst
  let main_v2 : IVec S32768x768 1 := cmpf .olt main_v0 main_v1
  let main_c : IVec S_ 1 := constantI S_ 1 1#1
  let main_v3 : IVec S_ 1 := (fun x v => Host.reduce IntOp.andi x v reducesTo_S32768x768_S_d0_1 h_S_) main_v2 main_c
  let main_v4 : FVec F S65536x768 .f32 := Host.absf main_arg2
  let main_cst_0 : FVec F S_ .f32 := constant S_ .f32 0x7F800000#32
  let main_v5 : FVec F S65536x768 .f32 := broadcastInDim S65536x768 ![] bcast_S_S65536x768 main_cst_0
  let main_v6 : IVec S65536x768 1 := cmpf .olt main_v4 main_v5
  let main_c_1 : IVec S_ 1 := constantI S_ 1 1#1
  let main_v7 : IVec S_ 1 := (fun x v => Host.reduce IntOp.andi x v reducesTo_S65536x768_S_d0_1 h_S_) main_v6 main_c_1
  let main_v8 : IVec S_ 1 := andi main_v3 main_v7
  let main_v9 : FVec F S512x768 .f32 := Host.absf main_arg3
  let main_cst_2 : FVec F S_ .f32 := constant S_ .f32 0x7F800000#32
  let main_v10 : FVec F S512x768 .f32 := broadcastInDim S512x768 ![] bcast_S_S512x768 main_cst_2
  let main_v11 : IVec S512x768 1 := cmpf .olt main_v9 main_v10
  let main_c_3 : IVec S_ 1 := constantI S_ 1 1#1
  let main_v12 : IVec S_ 1 := (fun x v => Host.reduce IntOp.andi x v reducesTo_S512x768_S_d0_1 h_S_) main_v11 main_c_3
  let main_v13 : IVec S_ 1 := andi main_v8 main_v12
  let main_v14 : FVec F S512 .f32 := Host.absf main_arg4
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg5 main_arg6 main_arg7 main_arg8 main_arg9 main_arg10 main_arg11 main_arg12 main_arg13 main_arg14 main_arg15 main_arg16 main_v13 main_v16
-- ==== Kernel.lean ====
abbrev S32768x768 : Shape := ⟨2, ![32768, 768]⟩
abbrev S32768 : Shape := ⟨1, ![32768]⟩
abbrev S65536x768 : Shape := ⟨2, ![65536, 768]⟩
abbrev S512x768 : Shape := ⟨2, ![512, 768]⟩
abbrev S512 : Shape := ⟨1, ![512]⟩
abbrev S512x512 : Shape := ⟨2, ![512, 512]⟩
abbrev S128x512 : Shape := ⟨2, ![128, 512]⟩
abbrev S128 : Shape := ⟨1, ![128]⟩
abbrev S32x128 : Shape := ⟨2, ![32, 128]⟩
abbrev S32 : Shape := ⟨1, ![32]⟩
abbrev S768x512 : Shape := ⟨2, ![768, 512]⟩
abbrev S512x128 : Shape := ⟨2, ![512, 128]⟩
abbrev S128x32 : Shape := ⟨2, ![128, 32]⟩
abbrev S2x64x32 : Shape := ⟨3, ![2, 64, 32]⟩
abbrev S2x64x1 : Shape := ⟨3, ![2, 64, 1]⟩
abbrev S2048x768 : Shape := ⟨2, ![2048, 768]⟩
abbrev S2048 : Shape := ⟨1, ![2048]⟩
abbrev S1x64x32 : Shape := ⟨3, ![1, 64, 32]⟩
abbrev S1x64x1 : Shape := ⟨3, ![1, 64, 1]⟩
abbrev S64x32 : Shape := ⟨2, ![64, 32]⟩
abbrev S64x1 : Shape := ⟨2, ![64, 1]⟩
abbrev S2048x512 : Shape := ⟨2, ![2048, 512]⟩
abbrev S1x512 : Shape := ⟨2, ![1, 512]⟩
abbrev S2048x1 : Shape := ⟨2, ![2048, 1]⟩
abbrev S2048x128 : Shape := ⟨2, ![2048, 128]⟩
abbrev S1x128 : Shape := ⟨2, ![1, 128]⟩
abbrev S2048x32 : Shape := ⟨2, ![2048, 32]⟩
abbrev S1x32 : Shape := ⟨2, ![1, 32]⟩
abbrev S2048x64 : Shape := ⟨2, ![2048, 64]⟩
abbrev S64 : Shape := ⟨1, ![64]⟩
abbrev S_ : Shape := ⟨0, ![]⟩
abbrev S32x64 : Shape := ⟨2, ![32, 64]⟩
abbrev S1x64 : Shape := ⟨2, ![1, 64]⟩
abbrev S65536x64 : Shape := ⟨2, ![65536, 64]⟩

abbrev nBuf : Space → Nat
  | .hbm => 50
  | .vmem => 44
  | .smem => 0
  | _ => 0

abbrev bufTy : (tb : Table) → Fin (tcTables nBuf tb) → BufTy
  | .hbm, ⟨0, _⟩ => ⟨S32768x768, .f32⟩
  | .hbm, ⟨1, _⟩ => ⟨S32768, .i32⟩
  | .hbm, ⟨2, _⟩ => ⟨S65536x768, .f32⟩
  | .hbm, ⟨3, _⟩ => ⟨S512x768, .f32⟩
  | .hbm, ⟨4, _⟩ => ⟨S512, .f32⟩
  | .hbm, ⟨5, _⟩ => ⟨S512, .f32⟩
  | .hbm, ⟨6, _⟩ => ⟨S512, .f32⟩
  | .hbm, ⟨7, _⟩ => ⟨S512x512, .f32⟩
  | .hbm, ⟨8, _⟩ => ⟨S512, .f32⟩
  | .hbm, ⟨9, _⟩ => ⟨S512, .f32⟩
  | .hbm, ⟨10, _⟩ => ⟨S512, .f32⟩
  | .hbm, ⟨11, _⟩ => ⟨S128x512, .f32⟩
  | .hbm, ⟨12, _⟩ => ⟨S128, .f32⟩
  | .hbm, ⟨13, _⟩ => ⟨S128, .f32⟩
  | .hbm, ⟨14, _⟩ => ⟨S128, .f32⟩
  | .hbm, ⟨15, _⟩ => ⟨S32x128, .f32⟩
  | .hbm, ⟨16, _⟩ => ⟨S32, .f32⟩
  | .hbm, ⟨17, _⟩ => ⟨S768x512, .f32⟩
  | .hbm, ⟨18, _⟩ => ⟨S768x512, .bf16⟩
  | .hbm, ⟨19, _⟩ => ⟨S512x512, .f32⟩
  | .hbm, ⟨20, _⟩ => ⟨S512x512, .bf16⟩
  | .hbm, ⟨21, _⟩ => ⟨S512x128, .f32⟩
  | .hbm, ⟨22, _⟩ => ⟨S512x128, .bf16⟩
  | .hbm, ⟨23, _⟩ => ⟨S128x32, .f32⟩
  | .hbm, ⟨24, _⟩ => ⟨S128x32, .bf16⟩
  | .hbm, ⟨25, _⟩ => ⟨S2x64x32, .f32⟩
  | .hbm, ⟨26, _⟩ => ⟨S2x64x1, .f32⟩
  | .hbm, ⟨27, _⟩ => ⟨S1x64x32, .f32⟩
  | .hbm, ⟨28, _⟩ => ⟨S64x32, .f32⟩
  | .hbm, ⟨29, _⟩ => ⟨S1x64x32, .f32⟩
  | .hbm, ⟨30, _⟩ => ⟨S64x32, .f32⟩
  | .hbm, ⟨31, _⟩ => ⟨S64x32, .f32⟩
  | .hbm, ⟨32, _⟩ => ⟨S1x64x1, .f32⟩
  | .hbm, ⟨33, _⟩ => ⟨S64x1, .f32⟩
  | .hbm, ⟨34, _⟩ => ⟨S1x64x1, .f32⟩
  | .hbm, ⟨35, _⟩ => ⟨S64x1, .f32⟩
  | .hbm, ⟨36, _⟩ => ⟨S64x1, .f32⟩
  | .hbm, ⟨37, _⟩ => ⟨S_, .f32⟩
  | .hbm, ⟨38, _⟩ => ⟨S64x1, .f32⟩
  | .hbm, ⟨39, _⟩ => ⟨S64x1, .f32⟩
  | .hbm, ⟨40, _⟩ => ⟨S64x32, .f32⟩
  | .hbm, ⟨41, _⟩ => ⟨S64x32, .f32⟩
  | .hbm, ⟨42, _⟩ => ⟨S32x64, .f32⟩
  | .hbm, ⟨43, _⟩ => ⟨S32x64, .bf16⟩
  | .hbm, ⟨44, _⟩ => ⟨S64x32, .f32⟩
  | .hbm, ⟨45, _⟩ => ⟨S_, .f32⟩
  | .hbm, ⟨46, _⟩ => ⟨S64, .f32⟩
  | .hbm, ⟨47, _⟩ => ⟨S64x1, .f32⟩
  | .hbm, ⟨48, _⟩ => ⟨S1x64, .f32⟩
  | .hbm, ⟨49, _⟩ => ⟨S65536x64, .f32⟩
  | .local _ .vmem, ⟨0, _⟩ => ⟨S2048x768, .f32⟩
  | .local _ .vmem, ⟨1, _⟩ => ⟨S2048x768, .f32⟩
  | .local _ .vmem, ⟨2, _⟩ => ⟨S2048, .i32⟩
  | .local _ .vmem, ⟨3, _⟩ => ⟨S2048, .i32⟩
  | .local _ .vmem, ⟨4, _⟩ => ⟨S768x512, .bf16⟩
  | .local _ .vmem, ⟨5, _⟩ => ⟨S512, .f32⟩
  | .local _ .vmem, ⟨6, _⟩ => ⟨S512, .f32⟩
  | .local _ .vmem, ⟨7, _⟩ => ⟨S512, .f32⟩
  | .local _ .vmem, ⟨8, _⟩ => ⟨S512x512, .bf16⟩
  | .local _ .vmem, ⟨9, _⟩ => ⟨S512, .f32⟩
  | .local _ .vmem, ⟨10, _⟩ => ⟨S512, .f32⟩
  | .local _ .vmem, ⟨11, _⟩ => ⟨S512, .f32⟩
  | .local _ .vmem, ⟨12, _⟩ => ⟨S512x128, .bf16⟩
  | .local _ .vmem, ⟨13, _⟩ => ⟨S128, .f32⟩
  | .local _ .vmem, ⟨14, _⟩ => ⟨S128, .f32⟩
  | .local _ .vmem, ⟨15, _⟩ => ⟨S128, .f32⟩
  | .local _ .vmem, ⟨16, _⟩ => ⟨S128x32, .bf16⟩
  | .local _ .vmem, ⟨17, _⟩ => ⟨S32, .f32⟩
  | .local _ .vmem, ⟨18, _⟩ => ⟨S1x64x32, .f32⟩
  | .local _ .vmem, ⟨19, _⟩ => ⟨S1x64x32, .f32⟩
  | .local _ .vmem, ⟨20, _⟩ => ⟨S1x64x1, .f32⟩
  | .local _ .vmem, ⟨21, _⟩ => ⟨S1x64x1, .f32⟩
  | .local _ .vmem, ⟨22, _⟩ => ⟨S64x32, .f32⟩
  | .local _ .vmem, ⟨23, _⟩ => ⟨S64x1, .f32⟩
  | .local _ .vmem, ⟨24, _⟩ => ⟨S2048x768, .f32⟩
  | .local _ .vmem, ⟨25, _⟩ => ⟨S2048x768, .f32⟩
  | .local _ .vmem, ⟨26, _⟩ => ⟨S768x512, .bf16⟩
  | .local _ .vmem, ⟨27, _⟩ => ⟨S512, .f32⟩
  | .local _ .vmem, ⟨28, _⟩ => ⟨S512, .f32⟩
  | .local _ .vmem, ⟨29, _⟩ => ⟨S512, .f32⟩
  | .local _ .vmem, ⟨30, _⟩ => ⟨S512x512, .bf16⟩
  | .local _ .vmem, ⟨31, _⟩ => ⟨S512, .f32⟩
  | .local _ .vmem, ⟨32, _⟩ => ⟨S512, .f32⟩
  | .local _ .vmem, ⟨33, _⟩ => ⟨S512, .f32⟩
  | .local _ .vmem, ⟨34, _⟩ => ⟨S512x128, .bf16⟩
  | .local _ .vmem, ⟨35, _⟩ => ⟨S128, .f32⟩
  | .local _ .vmem, ⟨36, _⟩ => ⟨S128, .f32⟩
  | .local _ .vmem, ⟨37, _⟩ => ⟨S128, .f32⟩
  | .local _ .vmem, ⟨38, _⟩ => ⟨S128x32, .bf16⟩
  | .local _ .vmem, ⟨39, _⟩ => ⟨S32, .f32⟩
  | .local _ .vmem, ⟨40, _⟩ => ⟨S32x64, .bf16⟩
  | .local _ .vmem, ⟨41, _⟩ => ⟨S1x64, .f32⟩
  | .local _ .vmem, ⟨42, _⟩ => ⟨S2048x64, .f32⟩
  | .local _ .vmem, ⟨43, _⟩ => ⟨S2048x64, .f32⟩
  | _, _ => ⟨S32768x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8_0 : Ref sig .tc := ⟨.hbm, 25, rfl⟩
abbrev main_v8_1 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_cst : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_cst_0 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg14_0 : Ref sig .tc := ⟨.vmem, 16, rfl⟩
abbrev cc0_stg15_0 : Ref sig .tc := ⟨.vmem, 17, rfl⟩
abbrev cc0_stg16_0 : Ref sig .tc := ⟨.vmem, 18, rfl⟩
abbrev cc0_stg16_1 : Ref sig .tc := ⟨.vmem, 19, rfl⟩
abbrev cc0_stg17_0 : Ref sig .tc := ⟨.vmem, 20, rfl⟩
abbrev cc0_stg17_1 : Ref sig .tc := ⟨.vmem, 21, rfl⟩
abbrev cc0_scratch0 : Ref sig .tc := ⟨.vmem, 22, rfl⟩
abbrev cc0_scratch1 : Ref sig .tc := ⟨.vmem, 23, rfl⟩
abbrev cc1_stg0_0 : Ref sig .tc := ⟨.vmem, 24, rfl⟩
abbrev cc1_stg0_1 : Ref sig .tc := ⟨.vmem, 25, rfl⟩
abbrev cc1_stg1_0 : Ref sig .tc := ⟨.vmem, 26, rfl⟩
abbrev cc1_stg2_0 : Ref sig .tc := ⟨.vmem, 27, rfl⟩
abbrev cc1_stg3_0 : Ref sig .tc := ⟨.vmem, 28, rfl⟩
abbrev cc1_stg4_0 : Ref sig .tc := ⟨.vmem, 29, rfl⟩
abbrev cc1_stg5_0 : Ref sig .tc := ⟨.vmem, 30, rfl⟩
abbrev cc1_stg6_0 : Ref sig .tc := ⟨.vmem, 31, rfl⟩
abbrev cc1_stg7_0 : Ref sig .tc := ⟨.vmem, 32, rfl⟩
abbrev cc1_stg8_0 : Ref sig .tc := ⟨.vmem, 33, rfl⟩
abbrev cc1_stg9_0 : Ref sig .tc := ⟨.vmem, 34, rfl⟩
abbrev cc1_stg10_0 : Ref sig .tc := ⟨.vmem, 35, rfl⟩
abbrev cc1_stg11_0 : Ref sig .tc := ⟨.vmem, 36, rfl⟩
abbrev cc1_stg12_0 : Ref sig .tc := ⟨.vmem, 37, rfl⟩
abbrev cc1_stg13_0 : Ref sig .tc := ⟨.vmem, 38, rfl⟩
abbrev cc1_stg14_0 : Ref sig .tc := ⟨.vmem, 39, rfl⟩
abbrev cc1_stg15_0 : Ref sig .tc := ⟨.vmem, 40, rfl⟩
abbrev cc1_stg16_0 : Ref sig .tc := ⟨.vmem, 41, rfl⟩
abbrev cc1_stg17_0 : Ref sig .tc := ⟨.vmem, 42, rfl⟩
abbrev cc1_stg17_1 : Ref sig .tc := ⟨.vmem, 43, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem14_0 : DmaSem sig := 16
abbrev cc0_sem15_0 : DmaSem sig := 17
abbrev cc0_sem16_0 : DmaSem sig := 18
abbrev cc0_sem16_1 : DmaSem sig := 19
abbrev cc0_sem17_0 : DmaSem sig := 20
abbrev cc0_sem17_1 : DmaSem sig := 21
abbrev cc1_sem0_0 : DmaSem sig := 22
abbrev cc1_sem0_1 : DmaSem sig := 23
abbrev cc1_sem1_0 : DmaSem sig := 24
abbrev cc1_sem2_0 : DmaSem sig := 25
abbrev cc1_sem3_0 : DmaSem sig := 26
abbrev cc1_sem4_0 : DmaSem sig := 27
abbrev cc1_sem5_0 : DmaSem sig := 28
abbrev cc1_sem6_0 : DmaSem sig := 29
abbrev cc1_sem7_0 : DmaSem sig := 30
abbrev cc1_sem8_0 : DmaSem sig := 31
abbrev cc1_sem9_0 : DmaSem sig := 32
abbrev cc1_sem10_0 : DmaSem sig := 33
abbrev cc1_sem11_0 : DmaSem sig := 34
abbrev cc1_sem12_0 : DmaSem sig := 35
abbrev cc1_sem13_0 : DmaSem sig := 36
abbrev cc1_sem14_0 : DmaSem sig := 37
abbrev cc1_sem15_0 : DmaSem sig := 38
abbrev cc1_sem16_0 : DmaSem sig := 39
abbrev cc1_sem17_0 : DmaSem sig := 40
abbrev cc1_sem17_1 : DmaSem sig := 41

abbrev nD : Nat := 1
abbrev τ : Topo := Topo.v7x

variable {F : FTy → Type} [FloatOps F]

abbrev grid0 : Pipeline.Grid := ⟨2, ![2, 8], ![false, false]⟩

def k0_cond2 (i : grid0.Coords) : BitVec 1 :=
  let arg1 : BitVec 32 := BitVec.ofNat 32 (i 1).val
  let c7_i32 : BitVec 32 := 7#32
  let v140 : BitVec 1 := Scalar.cmpi .eq arg1 c7_i32
  let v141 : BitVec 32 := Scalar.extui v140
  let c0_i32_52 : BitVec 32 := 0#32
  let v142 : BitVec 1 := Scalar.cmpi .ne v141 c0_i32_52
  v142

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 1 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  ![v1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_4 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_5 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_8 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_9 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_12 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_13 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S768x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S512x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S512x128 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S128x32 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S32 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 2 → Memref sig .tc .vmem S1x64x32 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, false]

abbrev stage0_17 : Fin 2 → Memref sig .tc .vmem S1x64x1 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, false]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_7 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_8 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_11 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_12 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_13 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_14 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_15 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_16 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_17 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2048x768 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S768x512 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S512 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S512 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S512x512 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S512 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S512 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S512 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S512x128 .bf16 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S128 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 1 → Memref sig .tc .vmem S128 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]

abbrev stage1_12 : Fin 1 → Memref sig .tc .vmem S128 .f32 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))
abbrev reads1_12 : Fin grid1.rank → Bool := ![false]

abbrev stage1_13 : Fin 1 → Memref sig .tc .vmem S128x32 .bf16 := fun | 0 => Memref.whole cc1_stg13_0 | ⟨_ + 1, h⟩ => absurd h (Nat.not_lt.2 (Nat.le_add_left _ _))
abbrev sem1_13 : Fin 1 → DmaSem sig := fun | 0 => cc1_sem13_0 | ⟨_ + 1, h⟩ => absurd h (Nat.not_lt.2 (Nat.le_add_left _ _))
abbrev reads1_13 : Fin grid1.rank → Bool := ![false]

abbrev stage1_14 : Fin 1 → Memref sig .tc .vmem S32 .f32 := fun | 0 => Memref.whole cc1_stg14_0 | ⟨_ + 1, h⟩ => absurd h (Nat.not_lt.2 (Nat.le_add_left _ _))
abbrev sem1_14 : Fin 1 → DmaSem sig := fun | 0 => cc1_sem14_0 | ⟨_ + 1, h⟩ => absurd h (Nat.not_lt.2 (Nat.le_add_left _ _))
abbrev reads1_14 : Fin grid1.rank → Bool := ![false]

abbrev stage1_15 : Fin 1 → Memref sig .tc .vmem S32x64 .bf16 := fun | 0 => Memref.whole cc1_stg15_0 | ⟨_ + 1, h⟩ => absurd h (Nat.not_lt.2 (Nat.le_add_left _ _))
abbrev sem1_15 : Fin 1 → DmaSem sig := fun | 0 => cc1_sem15_0 | ⟨_ + 1, h⟩ => absurd h (Nat.not_lt.2 (Nat.le_add_left _ _))
abbrev reads1_15 : Fin grid1.rank → Bool := ![false]

abbrev stage1_16 : Fin 1 → Memref sig .tc .vmem S1x64 .f32 := fun | 0 => Memref.whole cc1_stg16_0 | ⟨_ + 1, h⟩ => absurd h (Nat.not_lt.2 (Nat.le_add_left _ _))
abbrev sem1_16 : Fin 1 → DmaSem sig := fun | 0 => cc1_sem16_0 | ⟨_ + 1, h⟩ => absurd h (Nat.not_lt.2 (Nat.le_add_left _ _))
abbrev reads1_16 : Fin grid1.rank → Bool := ![false]

abbrev stage1_17 : Fin 2 → Memref sig .tc .vmem S2048x64 .f32 := fun | 0 => Memref.whole cc1_stg17_0 | 1 => Memref.whole cc1_stg17_1 | ⟨_ + 2, h⟩ => absurd h (Nat.not_lt.2 (Nat.le_add_left _ _))
abbrev sem1_17 : Fin 2 → DmaSem sig := fun | 0 => cc1_sem17_0 | 1 => cc1_sem17_1 | ⟨_ + 2, h⟩ => absurd h (Nat.not_lt.2 (Nat.le_add_left _ _))
abbrev reads1_17 : Fin grid1.rank → Bool := ![true]

class Facts₀ : Prop where
  transposes_S512x768_S768x512_1_0 : S512x768.Transposes [1, 0] S768x512
  bitsLt_bf16_f32 : FTy.bits .bf16 < FTy.bits .f32
  transposes_S512x512_S512x512_1_0 : S512x512.Transposes [1, 0] S512x512
  transposes_S128x512_S512x128_1_0 : S128x512.Transposes [1, 0] S512x128
  transposes_S32x128_S128x32_1_0 : S32x128.Transposes [1, 0] S128x32
  inb_S64x32_S64x32_0_0 : ∀ a, (![0, 0] : Fin 2 → Nat) a + S64x32.size a ≤ S64x32.size a
  h_S64x32 : 0 < S64x32.numel
  shapeCasts_S64x32_S64x32 : S64x32.ShapeCasts S64x32
  inb_S64x1_S64x1_0_0 : ∀ a, (![0, 0] : Fin 2 → Nat) a + S64x1.size a ≤ S64x1.size a
  h_S64x1 : 0 < S64x1.numel
  shapeCasts_S64x1_S64x1 : S64x1.ShapeCasts S64x1
  inb_S2048x768_S2048x768_0_0 : ∀ a, (![0, 0] : Fin 2 → Nat) a + S2048x768.size a ≤ S2048x768.size a
  h_S2048x768 : 0 < S2048x768.numel
  inb_S768x512_S768x512_0_0 : ∀ a, (![0, 0] : Fin 2 → Nat) a + S768x512.size a ≤ S768x512.size a
  h_S768x512 : 0 < S768x512.numel
  shapeCasts_S768x512_S768x512 : S768x512.ShapeCasts S768x512
  inb_S512_S512_0 : ∀ a, (![0] : Fin 1 → Nat) a + S512.size a ≤ S512.size a
  h_S512 : 0 < S512.numel
  shapeCasts_S512_S1x512 : S512.ShapeCasts S1x512
  broadcasts_S1x512_S2048x512 : S1x512.Broadcasts S2048x512
  reduces_S2048x512_S2048 : S2048x512.Reduces [1] S2048
  shapeCasts_S2048_S2048x1 : S2048.ShapeCasts S2048x1
  broadcasts_S2048x1_S2048x512 : S2048x1.Broadcasts S2048x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S512x128_S512x128_0_0 : ∀ a, (![0, 0] : Fin 2 → Nat) a + S512x128.size a ≤ S512x128.size a
  h_S512x128 : 0 < S512x128.numel
  shapeCasts_S512x128_S512x128 : S512x128.ShapeCasts S512x128
  inb_S128_S128_0 : ∀ a, (![0] : Fin 1 → Nat) a + S128.size a ≤ S128.size a
  h_S128 : 0 < S128.numel
  shapeCasts_S128_S1x128 : S128.ShapeCasts S1x128
  broadcasts_S1x128_S2048x128 : S1x128.Broadcasts S2048x128
  reduces_S2048x128_S2048 : S2048x128.Reduces [1] S2048
  broadcasts_S2048x1_S2048x128 : S2048x1.Broadcasts S2048x128
  inb_S128x32_S128x32_0_0 : ∀ a, (![0, 0] : Fin 2 → Nat) a + S128x32.size a ≤ S128x32.size a
  h_S128x32 : 0 < S128x32.numel
  shapeCasts_S128x32_S128x32 : S128x32.ShapeCasts S128x32
  inb_S32_S32_0 : ∀ a, (![0] : Fin 1 → Nat) a + S32.size a ≤ S32.size a
  h_S32 : 0 < S32.numel
  shapeCasts_S32_S1x32 : S32.ShapeCasts S1x32
  broadcasts_S1x32_S2048x32 : S1x32.Broadcasts S2048x32
  inb_S2048_S2048_0 : ∀ a, (![0] : Fin 1 → Nat) a + S2048.size a ≤ S2048.size a
  h_S2048 : 0 < S2048.numel
  iota_S2048x64_d1_w32 : S2048x64.Iotas .tc 32 [1]
  broadcasts_S2048x1_S2048x64 : S2048x1.Broadcasts S2048x64
  natLt_1_32 : 1 < 32
  reduces_S2048x64_S64 : S2048x64.Reduces [0] S64
  shapeCasts_S64_S64x1 : S64.ShapeCasts S64x1
  inb_S1x64x32_S1x64x32_0_0_0 : ∀ a, (![0, 0, 0] : Fin 3 → Nat) a + S1x64x32.size a ≤ S1x64x32.size a
  h_S1x64x32 : 0 < S1x64x32.numel
  shapeCasts_S1x64x32_S64x32 : S1x64x32.ShapeCasts S64x32
  shapeCasts_S64x32_S1x64x32 : S64x32.ShapeCasts S1x64x32
  inb_S1x64x1_S1x64x1_0_0_0 : ∀ a, (![0, 0, 0] : Fin 3 → Nat) a + S1x64x1.size a ≤ S1x64x1.size a
  h_S1x64x1 : 0 < S1x64x1.numel
  shapeCasts_S1x64x1_S64x1 : S1x64x1.ShapeCasts S64x1
  shapeCasts_S64x1_S1x64x1 : S64x1.ShapeCasts S1x64x1
  slices_S2x64x32_S1x64x32_0_0_0 : S2x64x32.Slices ![0, 0, 0] S1x64x32
  slices_S2x64x32_S1x64x32_1_0_0 : S2x64x32.Slices ![1, 0, 0] S1x64x32
  slices_S2x64x1_S1x64x1_0_0_0 : S2x64x1.Slices ![0, 0, 0] S1x64x1
  slices_S2x64x1_S1x64x1_1_0_0 : S2x64x1.Slices ![1, 0, 0] S1x64x1
  bcast_S_S64x1 : S_.BroadcastsInDim S64x1 (![] : Fin 0 → Fin S64x1.rank)
  bcast_S64x1_S64x32_0_1 : S64x1.BroadcastsInDim S64x32 (![0, 1] : Fin 2 → Fin S64x32.rank)
  transposes_S64x32_S32x64_1_0 : S64x32.Transposes [1, 0] S32x64
  reducesTo_S64x32_S64_d1 : S64x32.ReducesTo [1] S64
  h_S_ : 0 < S_.numel
  bcast_S64_S64x1_0 : S64.BroadcastsInDim S64x1 (![0] : Fin 1 → Fin S64x1.rank)
  transposes_S64x1_S1x64_1_0 : S64x1.Transposes [1, 0] S1x64
  reduces_S2048x32_S2048 : S2048x32.Reduces [1] S2048
  inb_S32x64_S32x64_0_0 : ∀ a, (![0, 0] : Fin 2 → Nat) a + S32x64.size a ≤ S32x64.size a
  h_S32x64 : 0 < S32x64.numel
  shapeCasts_S32x64_S32x64 : S32x64.ShapeCasts S32x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2048x64 : S1x64.Broadcasts S2048x64
  inb_S2048x64_S2048x64_0_0 : ∀ a, (![0, 0] : Fin 2 → Nat) a + S2048x64.size a ≤ S2048x64.size a
  h_S2048x64 : 0 < S2048x64.numel
  dot_S2048x768_S768x512_S2048x512_1_0_0_1_n_n_wf : DotDims.WF S2048x768 S768x512 S2048x512 [1] [0] [0] [1] [] []
  dot_S2048x512_S512x512_S2048x512_1_0_0_1_n_n_wf : DotDims.WF S2048x512 S512x512 S2048x512 [1] [0] [0] [1] [] []
  dot_S2048x512_S512x128_S2048x128_1_0_0_1_n_n_wf : DotDims.WF S2048x512 S512x128 S2048x128 [1] [0] [0] [1] [] []
  dot_S2048x128_S128x32_S2048x32_1_0_0_1_n_n_wf : DotDims.WF S2048x128 S128x32 S2048x32 [1] [0] [0] [1] [] []
  dot_S2048x64_S2048x32_S64x32_0_0_1_1_n_n_wf : DotDims.WF S2048x64 S2048x32 S64x32 [0] [0] [1] [1] [] []
  dot_S2048x32_S32x64_S2048x64_1_0_0_1_n_n_wf : DotDims.WF S2048x32 S32x64 S2048x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x768.size a ≤ S32768x768.size a
  hwx0_0 : ∀ i : grid0.Coords, EltTy.bits .f32 = 32 ∨ (Rect.block (s := S32768x768) S2048x768.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048.size a ≤ S32768.size a
  hwx0_1 : ∀ i : grid0.Coords, EltTy.bits .i32 = 32 ∨ (Rect.block (s := S32768) S2048.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S768x512.size a ≤ S768x512.size a
  hwx0_2 : ∀ i : grid0.Coords, EltTy.bits .bf16 = 32 ∨ (Rect.block (s := S768x512) S768x512.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512.size a ≤ S512.size a
  hwx0_3 : ∀ i : grid0.Coords, EltTy.bits .f32 = 32 ∨ (Rect.block (s := S512) S512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512.size a ≤ S512.size a
  hwx0_4 : ∀ i : grid0.Coords, EltTy.bits .f32 = 32 ∨ (Rect.block (s := S512) S512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512.size a ≤ S512.size a
  hwx0_5 : ∀ i : grid0.Coords, EltTy.bits .f32 = 32 ∨ (Rect.block (s := S512) S512.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S512x512.size a ≤ S512x512.size a
  hwx0_6 : ∀ i : grid0.Coords, EltTy.bits .bf16 = 32 ∨ (Rect.block (s := S512x512) S512x512.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S512.size a ≤ S512.size a
  hwx0_7 : ∀ i : grid0.Coords, EltTy.bits .f32 = 32 ∨ (Rect.block (s := S512) S512.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S512.size a ≤ S512.size a
  hwx0_8 : ∀ i : grid0.Coords, EltTy.bits .f32 = 32 ∨ (Rect.block (s := S512) S512.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S512.size a ≤ S512.size a
  hwx0_9 : ∀ i : grid0.Coords, EltTy.bits .f32 = 32 ∨ (Rect.block (s := S512) S512.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S512x128.size a ≤ S512x128.size a
  hwx0_10 : ∀ i : grid0.Coords, EltTy.bits .bf16 = 32 ∨ (Rect.block (s := S512x128) S512x128.size (cc0_transform_10 i) (hinb0_10 i)).WholeWords (EltTy.packing .bf16)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S128.size a ≤ S128.size a
  hwx0_11 : ∀ i : grid0.Coords, EltTy.bits .f32 = 32 ∨ (Rect.block (s := S128) S128.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S128.size a ≤ S128.size a
  hwx0_12 : ∀ i : grid0.Coords, EltTy.bits .f32 = 32 ∨ (Rect.block (s := S128) S128.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S128.size a ≤ S128.size a
  hwx0_13 : ∀ i : grid0.Coords, EltTy.bits .f32 = 32 ∨ (Rect.block (s := S128) S128.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S128x32.size a ≤ S128x32.size a
  hwx0_14 : ∀ i : grid0.Coords, EltTy.bits .bf16 = 32 ∨ (Rect.block (s := S128x32) S128x32.size (cc0_transform_14 i) (hinb0_14 i)).WholeWords (EltTy.packing .bf16)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S32.size a ≤ S32.size a
  hwx0_15 : ∀ i : grid0.Coords, EltTy.bits .f32 = 32 ∨ (Rect.block (s := S32) S32.size (cc0_transform_15 i) (hinb0_15 i)).WholeWords (EltTy.packing .f32)
  hstage0_16 : ∀ j, (stage0_16 j).IsWhole
  nbuf0_16 : grid0.bufCount reads0_16 false = 2
  hreads0_16 : ∀ i i' : grid0.Coords, (∀ a, reads0_16 a = true → i a = i' a) → cc0_transform_16 i = cc0_transform_16 i'
  hinb0_16 : ∀ (i : grid0.Coords) a, (cc0_transform_16 i a + 1) * S1x64x32.size a ≤ S2x64x32.size a
  hwx0_16 : ∀ i : grid0.Coords, EltTy.bits .f32 = 32 ∨ (Rect.block (s := S2x64x32) S1x64x32.size (cc0_transform_16 i) (hinb0_16 i)).WholeWords (EltTy.packing .f32)
  hstage0_17 : ∀ j, (stage0_17 j).IsWhole
  nbuf0_17 : grid0.bufCount reads0_17 false = 2
  hreads0_17 : ∀ i i' : grid0.Coords, (∀ a, reads0_17 a = true → i a = i' a) → cc0_transform_17 i = cc0_transform_17 i'
  hinb0_17 : ∀ (i : grid0.Coords) a, (cc0_transform_17 i a + 1) * S1x64x1.size a ≤ S2x64x1.size a
  hwx0_17 : ∀ i : grid0.Coords, EltTy.bits .f32 = 32 ∨ (Rect.block (s := S2x64x1) S1x64x1.size (cc0_transform_17 i) (hinb0_17 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x768.size a ≤ S65536x768.size a
  hwx1_0 : ∀ i : grid1.Coords, EltTy.bits .f32 = 32 ∨ (Rect.block (s := S65536x768) S2048x768.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S768x512.size a ≤ S768x512.size a
  hwx1_1 : ∀ i : grid1.Coords, EltTy.bits .bf16 = 32 ∨ (Rect.block (s := S768x512) S768x512.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S512.size a ≤ S512.size a
  hwx1_2 : ∀ i : grid1.Coords, EltTy.bits .f32 = 32 ∨ (Rect.block (s := S512) S512.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S512.size a ≤ S512.size a
  hwx1_3 : ∀ i : grid1.Coords, EltTy.bits .f32 = 32 ∨ (Rect.block (s := S512) S512.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S512.size a ≤ S512.size a
  hwx1_4 : ∀ i : grid1.Coords, EltTy.bits .f32 = 32 ∨ (Rect.block (s := S512) S512.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S512x512.size a ≤ S512x512.size a
  hwx1_5 : ∀ i : grid1.Coords, EltTy.bits .bf16 = 32 ∨ (Rect.block (s := S512x512) S512x512.size (cc1_transform_5 i) (hinb1_5 i)).WholeWords (EltTy.packing .bf16)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S512.size a ≤ S512.size a
  hwx1_6 : ∀ i : grid1.Coords, EltTy.bits .f32 = 32 ∨ (Rect.block (s := S512) S512.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S512.size a ≤ S512.size a
  hwx1_7 : ∀ i : grid1.Coords, EltTy.bits .f32 = 32 ∨ (Rect.block (s := S512) S512.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S512.size a ≤ S512.size a
  hwx1_8 : ∀ i : grid1.Coords, EltTy.bits .f32 = 32 ∨ (Rect.block (s := S512) S512.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S512x128.size a ≤ S512x128.size a
  hwx1_9 : ∀ i : grid1.Coords, EltTy.bits .bf16 = 32 ∨ (Rect.block (s := S512x128) S512x128.size (cc1_transform_9 i) (hinb1_9 i)).WholeWords (EltTy.packing .bf16)
  hstage1_10 : ∀ j, (stage1_10 j).IsWhole
  nbuf1_10 : grid1.bufCount reads1_10 true = 1
  hreads1_10 : ∀ i i' : grid1.Coords, (∀ a, reads1_10 a = true → i a = i' a) → cc1_transform_10 i = cc1_transform_10 i'
  hinb1_10 : ∀ (i : grid1.Coords) a, (cc1_transform_10 i a + 1) * S128.size a ≤ S128.size a
  hwx1_10 : ∀ i : grid1.Coords, EltTy.bits .f32 = 32 ∨ (Rect.block (s := S128) S128.size (cc1_transform_10 i) (hinb1_10 i)).WholeWords (EltTy.packing .f32)
  hstage1_11 : ∀ j, (stage1_11 j).IsWhole
  nbuf1_11 : grid1.bufCount reads1_11 true = 1
  hreads1_11 : ∀ i i' : grid1.Coords, (∀ a, reads1_11 a = true → i a = i' a) → cc1_transform_11 i = cc1_transform_11 i'
  hinb1_11 : ∀ (i : grid1.Coords) a, (cc1_transform_11 i a + 1) * S128.size a ≤ S128.size a
  hwx1_11 : ∀ i : grid1.Coords, EltTy.bits .f32 = 32 ∨ (Rect.block (s := S128) S128.size (cc1_transform_11 i) (hinb1_11 i)).WholeWords (EltTy.packing .f32)
  hstage1_12 : ∀ j, (stage1_12 j).IsWhole
  nbuf1_12 : grid1.bufCount reads1_12 true = 1
  hreads1_12 : ∀ i i' : grid1.Coords, (∀ a, reads1_12 a = true → i a = i' a) → cc1_transform_12 i = cc1_transform_12 i'
  hinb1_12 : ∀ (i : grid1.Coords) a, (cc1_transform_12 i a + 1) * S128.size a ≤ S128.size a
  hwx1_12 : ∀ i : grid1.Coords, EltTy.bits .f32 = 32 ∨ (Rect.block (s := S128) S128.size (cc1_transform_12 i) (hinb1_12 i)).WholeWords (EltTy.packing .f32)
  hstage1_13 : ∀ j, (stage1_13 j).IsWhole
  nbuf1_13 : grid1.bufCount reads1_13 true = 1
  hreads1_13 : ∀ i i' : grid1.Coords, (∀ a, reads1_13 a = true → i a = i' a) → cc1_transform_13 i = cc1_transform_13 i'
  hinb1_13 : ∀ (i : grid1.Coords) a, (cc1_transform_13 i a + 1) * S128x32.size a ≤ S128x32.size a
  hwx1_13 : ∀ i : grid1.Coords, EltTy.bits .bf16 = 32 ∨ (Rect.block (s := S128x32) S128x32.size (cc1_transform_13 i) (hinb1_13 i)).WholeWords (EltTy.packing .bf16)
  hstage1_14 : ∀ j, (stage1_14 j).IsWhole
  nbuf1_14 : grid1.bufCount reads1_14 true = 1
  hreads1_14 : ∀ i i' : grid1.Coords, (∀ a, reads1_14 a = true → i a = i' a) → cc1_transform_14 i = cc1_transform_14 i'
  hinb1_14 : ∀ (i : grid1.Coords) a, (cc1_transform_14 i a + 1) * S32.size a ≤ S32.size a
  hwx1_14 : ∀ i : grid1.Coords, EltTy.bits .f32 = 32 ∨ (Rect.block (s := S32) S32.size (cc1_transform_14 i) (hinb1_14 i)).WholeWords (EltTy.packing .f32)
  hstage1_15 : ∀ j, (stage1_15 j).IsWhole
  nbuf1_15 : grid1.bufCount reads1_15 true = 1
  hreads1_15 : ∀ i i' : grid1.Coords, (∀ a, reads1_15 a = true → i a = i' a) → cc1_transform_15 i = cc1_transform_15 i'
  hinb1_15 : ∀ (i : grid1.Coords) a, (cc1_transform_15 i a + 1) * S32x64.size a ≤ S32x64.size a
  hwx1_15 : ∀ i : grid1.Coords, EltTy.bits .bf16 = 32 ∨ (Rect.block (s := S32x64) S32x64.size (cc1_transform_15 i) (hinb1_15 i)).WholeWords (EltTy.packing .bf16)
  hstage1_16 : ∀ j, (stage1_16 j).IsWhole
  nbuf1_16 : grid1.bufCount reads1_16 true = 1
  hreads1_16 : ∀ i i' : grid1.Coords, (∀ a, reads1_16 a = true → i a = i' a) → cc1_transform_16 i = cc1_transform_16 i'
  hinb1_16 : ∀ (i : grid1.Coords) a, (cc1_transform_16 i a + 1) * S1x64.size a ≤ S1x64.size a
  hwx1_16 : ∀ i : grid1.Coords, EltTy.bits .f32 = 32 ∨ (Rect.block (s := S1x64) S1x64.size (cc1_transform_16 i) (hinb1_16 i)).WholeWords (EltTy.packing .f32)
  hstage1_17 : ∀ j, (stage1_17 j).IsWhole
  nbuf1_17 : grid1.bufCount reads1_17 false = 2
  hreads1_17 : ∀ i i' : grid1.Coords, (∀ a, reads1_17 a = true → i a = i' a) → cc1_transform_17 i = cc1_transform_17 i'
  hinb1_17 : ∀ (i : grid1.Coords) a, (cc1_transform_17 i a + 1) * S2048x64.size a ≤ S65536x64.size a
  hwx1_17 : ∀ i : grid1.Coords, EltTy.bits .f32 = 32 ∨ (Rect.block (s := S65536x64) S2048x64.size (cc1_transform_17 i) (hinb1_17 i)).WholeWords (EltTy.packing .f32)

variable [Facts₀]

def dot_S2048x768_S768x512_S2048x512_1_0_0_1_n_n : DotDims S2048x768 S768x512 S2048x512 where
  lhsContracting := [1]
  rhsContracting := [0]
  lhsNonContracting := [0]
  rhsNonContracting := [1]
  lhsBatch := []
  rhsBatch := []
  wf := dot_S2048x768_S768x512_S2048x512_1_0_0_1_n_n_wf
def dot_S2048x512_S512x512_S2048x512_1_0_0_1_n_n : DotDims S2048x512 S512x512 S2048x512 where
  lhsContracting := [1]
  rhsContracting := [0]
  lhsNonContracting := [0]
  rhsNonContracting := [1]
  lhsBatch := []
  rhsBatch := []
  wf := dot_S2048x512_S512x512_S2048x512_1_0_0_1_n_n_wf
def dot_S2048x512_S512x128_S2048x128_1_0_0_1_n_n : DotDims S2048x512 S512x128 S2048x128 where
  lhsContracting := [1]
  rhsContracting := [0]
  lhsNonContracting := [0]
  rhsNonContracting := [1]
  lhsBatch := []
  rhsBatch := []
  wf := dot_S2048x512_S512x128_S2048x128_1_0_0_1_n_n_wf
def dot_S2048x128_S128x32_S2048x32_1_0_0_1_n_n : DotDims S2048x128 S128x32 S2048x32 where
  lhsContracting := [1]
  rhsContracting := [0]
  lhsNonContracting := [0]
  rhsNonContracting := [1]
  lhsBatch := []
  rhsBatch := []
  wf := dot_S2048x128_S128x32_S2048x32_1_0_0_1_n_n_wf
def dot_S2048x64_S2048x32_S64x32_0_0_1_1_n_n : DotDims S2048x64 S2048x32 S64x32 where
  lhsContracting := [0]
  rhsContracting := [0]
  lhsNonContracting := [1]
  rhsNonContracting := [1]
  lhsBatch := []
  rhsBatch := []
  wf := dot_S2048x64_S2048x32_S64x32_0_0_1_1_n_n_wf
def dot_S2048x32_S32x64_S2048x64_1_0_0_1_n_n : DotDims S2048x32 S32x64 S2048x64 where
  lhsContracting := [1]
  rhsContracting := [0]
  lhsNonContracting := [0]
  rhsNonContracting := [1]
  lhsBatch := []
  rhsBatch := []
  wf := dot_S2048x32_S32x64_S2048x64_1_0_0_1_n_n_wf

abbrev win0_0 : Pipeline.Window sig grid0 :=
  Pipeline.Window.ofSpec (Memref.whole main_arg0) S2048x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S768x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg6) S512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v3) S512x512.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg8) S512.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg9) S512.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg10) S512.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v5) S512x128.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg12) S128.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_arg13) S128.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_arg14) S128.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v7) S128x32.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_arg16) S32.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_v8_0) S1x64x32.size cc0_transform_16 reads0_16 true false 2 stage0_16 sem0_16
    hrank0 hreads0_16 hinb0_16 nbuf0_16 (Memref.isWhole_whole _) hwx0_16 hstage0_16

abbrev win0_17 : Pipeline.Window sig grid0 :=
  Pipeline.Window.ofSpec (Memref.whole main_v8_1) S1x64x1.size cc0_transform_17 reads0_17 true false 2 stage0_17 sem0_17
    hrank0 hreads0_17 hinb0_17 nbuf0_17 (Memref.isWhole_whole _) hwx0_17 hstage0_17

abbrev win0 : Fin 18 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | ⟨_ + 18, h⟩ => absurd h (Nat.not_lt.2 (Nat.le_add_left _ _))
abbrev spec0 : Fin 18 → Pipeline.WinSpec sig grid0.rank := fun w => (win0 w).toWinSpec

abbrev idle0 : Fin 18 → grid0.Coords → Bool := fun | 0 => fun _ => false | 1 => fun _ => false | 2 => fun _ => false | 3 => fun _ => false | 4 => fun _ => false | 5 => fun _ => false | 6 => fun _ => false | 7 => fun _ => false | 8 => fun _ => false | 9 => fun _ => false | 10 => fun _ => false | 11 => fun _ => false | 12 => fun _ => false | 13 => fun _ => false | 14 => fun _ => false | 15 => fun _ => false | 16 => fun i => !(k0_cond2 i == 1#1) | 17 => fun i => !(k0_cond2 i == 1#1) | ⟨_ + 18, h⟩ => absurd h (Nat.not_lt.2 (Nat.le_add_left _ _))

abbrev win1_0 : Pipeline.Window sig grid1 :=
  Pipeline.Window.ofSpec (Memref.whole main_arg2) S2048x768.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S768x512.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S512.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg5) S512.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg6) S512.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v3) S512x512.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg8) S512.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_arg9) S512.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_arg10) S512.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v5) S512x128.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_arg12) S128.size cc1_transform_10 reads1_10 false true 1 stage1_10 sem1_10
    hrank1 hreads1_10 hinb1_10 nbuf1_10 (Memref.isWhole_whole _) hwx1_10 hstage1_10

abbrev win1_11 : Pipeline.Window sig grid1 :=
  Pipeline.Window.ofSpec (Memref.whole main_arg13) S128.size cc1_transform_11 reads1_11 false true 1 stage1_11 sem1_11
    hrank1 hreads1_11 hinb1_11 nbuf1_11 (Memref.isWhole_whole _) hwx1_11 hstage1_11

abbrev win1_12 : Pipeline.Window sig grid1 :=
  Pipeline.Window.ofSpec (Memref.whole main_arg14) S128.size cc1_transform_12 reads1_12 false true 1 stage1_12 sem1_12
    hrank1 hreads1_12 hinb1_12 nbuf1_12 (Memref.isWhole_whole _) hwx1_12 hstage1_12

abbrev win1_13 : Pipeline.Window sig grid1 :=
  Pipeline.Window.ofSpec (Memref.whole main_v7) S128x32.size cc1_transform_13 reads1_13 false true 1 stage1_13 sem1_13
    hrank1 hreads1_13 hinb1_13 nbuf1_13 (Memref.isWhole_whole _) hwx1_13 hstage1_13

abbrev win1_14 : Pipeline.Window sig grid1 :=
  Pipeline.Window.ofSpec (Memref.whole main_arg16) S32.size cc1_transform_14 reads1_14 false true 1 stage1_14 sem1_14
    hrank1 hreads1_14 hinb1_14 nbuf1_14 (Memref.isWhole_whole _) hwx1_14 hstage1_14

abbrev win1_15 : Pipeline.Window sig grid1 :=
  Pipeline.Window.ofSpec (Memref.whole main_v24) S32x64.size cc1_transform_15 reads1_15 false true 1 stage1_15 sem1_15
    hrank1 hreads1_15 hinb1_15 nbuf1_15 (Memref.isWhole_whole _) hwx1_15 hstage1_15

abbrev win1_16 : Pipeline.Window sig grid1 :=
  Pipeline.Window.ofSpec (Memref.whole main_v28) S1x64.size cc1_transform_16 reads1_16 false true 1 stage1_16 sem1_16
    hrank1 hreads1_16 hinb1_16 nbuf1_16 (Memref.isWhole_whole _) hwx1_16 hstage1_16

abbrev win1_17 : Pipeline.Window sig grid1 :=
  Pipeline.Window.ofSpec (Memref.whole main_v29) S2048x64.size cc1_transform_17 reads1_17 true false 2 stage1_17 sem1_17
    hrank1 hreads1_17 hinb1_17 nbuf1_17 (Memref.isWhole_whole _) hwx1_17 hstage1_17

abbrev win1 : Fin 18 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | 12 => win1_12 | 13 => win1_13 | 14 => win1_14 | 15 => win1_15 | 16 => win1_16 | 17 => win1_17 | ⟨_ + 18, h⟩ => absurd h (Nat.not_lt.2 (Nat.le_add_left _ _))
abbrev spec1 : Fin 18 → Pipeline.WinSpec sig grid1.rank := fun w => (win1 w).toWinSpec

class Facts : Prop extends Facts₀ where

variable [Facts]
-- ==== ReferenceIdeal.lean ====
abbrev S32768x768 : Shape := ⟨2, ![32768, 768]⟩
abbrev S32768 : Shape := ⟨1, ![32768]⟩
abbrev S65536x768 : Shape := ⟨2, ![65536, 768]⟩
abbrev S512x768 : Shape := ⟨2, ![512, 768]⟩
abbrev S512 : Shape := ⟨1, ![512]⟩
abbrev S512x512 : Shape := ⟨2, ![512, 512]⟩
abbrev S128x512 : Shape := ⟨2, ![128, 512]⟩
abbrev S128 : Shape := ⟨1, ![128]⟩
abbrev S32x128 : Shape := ⟨2, ![32, 128]⟩
abbrev S32 : Shape := ⟨1, ![32]⟩
abbrev S768x512 : Shape := ⟨2, ![768, 512]⟩
abbrev S32768x512 : Shape := ⟨2, ![32768, 512]⟩
abbrev S1x512 : Shape := ⟨2, ![1, 512]⟩
abbrev S_ : Shape := ⟨0, ![]⟩
abbrev S32768x1 : Shape := ⟨2, ![32768, 1]⟩
abbrev S512x128 : Shape := ⟨2, ![512, 128]⟩
abbrev S32768x128 : Shape := ⟨2, ![32768, 128]⟩
abbrev S1x128 : Shape := ⟨2, ![1, 128]⟩
abbrev S128x32 : Shape := ⟨2, ![128, 32]⟩
abbrev S32768x32 : Shape := ⟨2, ![32768, 32]⟩
abbrev S1x32 : Shape := ⟨2, ![1, 32]⟩
abbrev S65536x512 : Shape := ⟨2, ![65536, 512]⟩
abbrev S65536 : Shape := ⟨1, ![65536]⟩
abbrev S65536x1 : Shape := ⟨2, ![65536, 1]⟩
abbrev S65536x128 : Shape := ⟨2, ![65536, 128]⟩
abbrev S65536x32 : Shape := ⟨2, ![65536, 32]⟩
abbrev S64x32 : Shape := ⟨2, ![64, 32]⟩
abbrev S64 : Shape := ⟨1, ![64]⟩
abbrev S64x1 : Shape := ⟨2, ![64, 1]⟩
abbrev S1x64 : Shape := ⟨2, ![1, 64]⟩
abbrev S65536x64 : Shape := ⟨2, ![65536, 64]⟩
abbrev S32x64 : Shape := ⟨2, ![32, 64]⟩

abbrev nBuf : Space → Nat
  | .hbm => 287
  | .vmem => 0
  | .smem => 0
  | _ => 0

abbrev hbmTy0_0 (i : Nat) : BufTy := match i % 128 with
  | 0 => ⟨S32768x768, .f32⟩
  | 1 => ⟨S32768, .i32⟩
  | 2 => ⟨S65536x768, .f32⟩
  | 3 => ⟨S512x768, .f32⟩
  | 4 => ⟨S512, .f32⟩
  | 5 => ⟨S512, .f32⟩
  | 6 => ⟨S512, .f32⟩
  | 7 => ⟨S512x512, .f32⟩
  | 8 => ⟨S512, .f32⟩
  | 9 => ⟨S512, .f32⟩
  | 10 => ⟨S512, .f32⟩
  | 11 => ⟨S128x512, .f32⟩
  | 12 => ⟨S128, .f32⟩
  | 13 => ⟨S128, .f32⟩
  | 14 => ⟨S128, .f32⟩
  | 15 => ⟨S32x128, .f32⟩
  | 16 => ⟨S32, .f32⟩
  | 17 => ⟨S768x512, .f32⟩
  | 18 => ⟨S32768x512, .f32⟩
  | 19 => ⟨S1x512, .f32⟩
  | 20 => ⟨S32768x512, .f32⟩
  | 21 => ⟨S32768x512, .f32⟩
  | 22 => ⟨S_, .f32⟩
  | 23 => ⟨S32768, .f32⟩
  | 24 => ⟨S32768x1, .f32⟩
  | 25 => ⟨S_, .f32⟩
  | 26 => ⟨S32768x1, .f32⟩
  | 27 => ⟨S32768x1, .f32⟩
  | 28 => ⟨S32768x512, .f32⟩
  | 29 => ⟨S32768x512, .f32⟩
  | 30 => ⟨S32768x512, .f32⟩
  | 31 => ⟨S_, .f32⟩
  | 32 => ⟨S32768, .f32⟩
  | 33 => ⟨S32768x1, .f32⟩
  | 34 => ⟨S_, .f32⟩
  | 35 => ⟨S32768x1, .f32⟩
  | 36 => ⟨S32768x1, .f32⟩
  | 37 => ⟨S32768x512, .f32⟩
  | 38 => ⟨S32768x512, .f32⟩
  | 39 => ⟨S_, .f32⟩
  | 40 => ⟨S32768x1, .f32⟩
  | 41 => ⟨S32768x1, .f32⟩
  | 42 => ⟨S32768x1, .f32⟩
  | 43 => ⟨S32768x512, .f32⟩
  | 44 => ⟨S32768x512, .f32⟩
  | 45 => ⟨S1x512, .f32⟩
  | 46 => ⟨S32768x512, .f32⟩
  | 47 => ⟨S32768x512, .f32⟩
  | 48 => ⟨S1x512, .f32⟩
  | 49 => ⟨S32768x512, .f32⟩
  | 50 => ⟨S32768x512, .f32⟩
  | 51 => ⟨S_, .f32⟩
  | 52 => ⟨S32768x512, .f32⟩
  | 53 => ⟨S32768x512, .f32⟩
  | 54 => ⟨S512x512, .f32⟩
  | 55 => ⟨S32768x512, .f32⟩
  | 56 => ⟨S1x512, .f32⟩
  | 57 => ⟨S32768x512, .f32⟩
  | 58 => ⟨S32768x512, .f32⟩
  | 59 => ⟨S_, .f32⟩
  | 60 => ⟨S32768, .f32⟩
  | 61 => ⟨S32768x1, .f32⟩
  | 62 => ⟨S_, .f32⟩
  | 63 => ⟨S32768x1, .f32⟩
  | 64 => ⟨S32768x1, .f32⟩
  | 65 => ⟨S32768x512, .f32⟩
  | 66 => ⟨S32768x512, .f32⟩
  | 67 => ⟨S32768x512, .f32⟩
  | 68 => ⟨S_, .f32⟩
  | 69 => ⟨S32768, .f32⟩
  | 70 => ⟨S32768x1, .f32⟩
  | 71 => ⟨S_, .f32⟩
  | 72 => ⟨S32768x1, .f32⟩
  | 73 => ⟨S32768x1, .f32⟩
  | 74 => ⟨S32768x512, .f32⟩
  | 75 => ⟨S32768x512, .f32⟩
  | 76 => ⟨S_, .f32⟩
  | 77 => ⟨S32768x1, .f32⟩
  | 78 => ⟨S32768x1, .f32⟩
  | 79 => ⟨S32768x1, .f32⟩
  | 80 => ⟨S32768x512, .f32⟩
  | 81 => ⟨S32768x512, .f32⟩
  | 82 => ⟨S1x512, .f32⟩
  | 83 => ⟨S32768x512, .f32⟩
  | 84 => ⟨S32768x512, .f32⟩
  | 85 => ⟨S1x512, .f32⟩
  | 86 => ⟨S32768x512, .f32⟩
  | 87 => ⟨S32768x512, .f32⟩
  | 88 => ⟨S_, .f32⟩
  | 89 => ⟨S32768x512, .f32⟩
  | 90 => ⟨S32768x512, .f32⟩
  | 91 => ⟨S512x128, .f32⟩
  | 92 => ⟨S32768x128, .f32⟩
  | 93 => ⟨S1x128, .f32⟩
  | 94 => ⟨S32768x128, .f32⟩
  | 95 => ⟨S32768x128, .f32⟩
  | 96 => ⟨S_, .f32⟩
  | 97 => ⟨S32768, .f32⟩
  | 98 => ⟨S32768x1, .f32⟩
  | 99 => ⟨S_, .f32⟩
  | 100 => ⟨S32768x1, .f32⟩
  | 101 => ⟨S32768x1, .f32⟩
  | 102 => ⟨S32768x128, .f32⟩
  | 103 => ⟨S32768x128, .f32⟩
  | 104 => ⟨S32768x128, .f32⟩
  | 105 => ⟨S_, .f32⟩
  | 106 => ⟨S32768, .f32⟩
  | 107 => ⟨S32768x1, .f32⟩
  | 108 => ⟨S_, .f32⟩
  | 109 => ⟨S32768x1, .f32⟩
  | 110 => ⟨S32768x1, .f32⟩
  | 111 => ⟨S32768x128, .f32⟩
  | 112 => ⟨S32768x128, .f32⟩
  | 113 => ⟨S_, .f32⟩
  | 114 => ⟨S32768x1, .f32⟩
  | 115 => ⟨S32768x1, .f32⟩
  | 116 => ⟨S32768x1, .f32⟩
  | 117 => ⟨S32768x128, .f32⟩
  | 118 => ⟨S32768x128, .f32⟩
  | 119 => ⟨S1x128, .f32⟩
  | 120 => ⟨S32768x128, .f32⟩
  | 121 => ⟨S32768x128, .f32⟩
  | 122 => ⟨S1x128, .f32⟩
  | 123 => ⟨S32768x128, .f32⟩
  | 124 => ⟨S32768x128, .f32⟩
  | 125 => ⟨S_, .f32⟩
  | 126 => ⟨S32768x128, .f32⟩
  | 127 => ⟨S32768x128, .f32⟩
  | _ => ⟨S32768x768, .f32⟩

abbrev hbmTy0_1 (i : Nat) : BufTy := match i % 128 with
  | 0 => ⟨S128x32, .f32⟩
  | 1 => ⟨S32768x32, .f32⟩
  | 2 => ⟨S1x32, .f32⟩
  | 3 => ⟨S32768x32, .f32⟩
  | 4 => ⟨S32768x32, .f32⟩
  | 5 => ⟨S768x512, .f32⟩
  | 6 => ⟨S65536x512, .f32⟩
  | 7 => ⟨S1x512, .f32⟩
  | 8 => ⟨S65536x512, .f32⟩
  | 9 => ⟨S65536x512, .f32⟩
  | 10 => ⟨S_, .f32⟩
  | 11 => ⟨S65536, .f32⟩
  | 12 => ⟨S65536x1, .f32⟩
  | 13 => ⟨S_, .f32⟩
  | 14 => ⟨S65536x1, .f32⟩
  | 15 => ⟨S65536x1, .f32⟩
  | 16 => ⟨S65536x512, .f32⟩
  | 17 => ⟨S65536x512, .f32⟩
  | 18 => ⟨S65536x512, .f32⟩
  | 19 => ⟨S_, .f32⟩
  | 20 => ⟨S65536, .f32⟩
  | 21 => ⟨S65536x1, .f32⟩
  | 22 => ⟨S_, .f32⟩
  | 23 => ⟨S65536x1, .f32⟩
  | 24 => ⟨S65536x1, .f32⟩
  | 25 => ⟨S65536x512, .f32⟩
  | 26 => ⟨S65536x512, .f32⟩
  | 27 => ⟨S_, .f32⟩
  | 28 => ⟨S65536x1, .f32⟩
  | 29 => ⟨S65536x1, .f32⟩
  | 30 => ⟨S65536x1, .f32⟩
  | 31 => ⟨S65536x512, .f32⟩
  | 32 => ⟨S65536x512, .f32⟩
  | 33 => ⟨S1x512, .f32⟩
  | 34 => ⟨S65536x512, .f32⟩
  | 35 => ⟨S65536x512, .f32⟩
  | 36 => ⟨S1x512, .f32⟩
  | 37 => ⟨S65536x512, .f32⟩
  | 38 => ⟨S65536x512, .f32⟩
  | 39 => ⟨S_, .f32⟩
  | 40 => ⟨S65536x512, .f32⟩
  | 41 => ⟨S65536x512, .f32⟩
  | 42 => ⟨S512x512, .f32⟩
  | 43 => ⟨S65536x512, .f32⟩
  | 44 => ⟨S1x512, .f32⟩
  | 45 => ⟨S65536x512, .f32⟩
  | 46 => ⟨S65536x512, .f32⟩
  | 47 => ⟨S_, .f32⟩
  | 48 => ⟨S65536, .f32⟩
  | 49 => ⟨S65536x1, .f32⟩
  | 50 => ⟨S_, .f32⟩
  | 51 => ⟨S65536x1, .f32⟩
  | 52 => ⟨S65536x1, .f32⟩
  | 53 => ⟨S65536x512, .f32⟩
  | 54 => ⟨S65536x512, .f32⟩
  | 55 => ⟨S65536x512, .f32⟩
  | 56 => ⟨S_, .f32⟩
  | 57 => ⟨S65536, .f32⟩
  | 58 => ⟨S65536x1, .f32⟩
  | 59 => ⟨S_, .f32⟩
  | 60 => ⟨S65536x1, .f32⟩
  | 61 => ⟨S65536x1, .f32⟩
  | 62 => ⟨S65536x512, .f32⟩
  | 63 => ⟨S65536x512, .f32⟩
  | 64 => ⟨S_, .f32⟩
  | 65 => ⟨S65536x1, .f32⟩
  | 66 => ⟨S65536x1, .f32⟩
  | 67 => ⟨S65536x1, .f32⟩
  | 68 => ⟨S65536x512, .f32⟩
  | 69 => ⟨S65536x512, .f32⟩
  | 70 => ⟨S1x512, .f32⟩
  | 71 => ⟨S65536x512, .f32⟩
  | 72 => ⟨S65536x512, .f32⟩
  | 73 => ⟨S1x512, .f32⟩
  | 74 => ⟨S65536x512, .f32⟩
  | 75 => ⟨S65536x512, .f32⟩
  | 76 => ⟨S_, .f32⟩
  | 77 => ⟨S65536x512, .f32⟩
  | 78 => ⟨S65536x512, .f32⟩
  | 79 => ⟨S512x128, .f32⟩
  | 80 => ⟨S65536x128, .f32⟩
  | 81 => ⟨S1x128, .f32⟩
  | 82 => ⟨S65536x128, .f32⟩
  | 83 => ⟨S65536x128, .f32⟩
  | 84 => ⟨S_, .f32⟩
  | 85 => ⟨S65536, .f32⟩
  | 86 => ⟨S65536x1, .f32⟩
  | 87 => ⟨S_, .f32⟩
  | 88 => ⟨S65536x1, .f32⟩
  | 89 => ⟨S65536x1, .f32⟩
  | 90 => ⟨S65536x128, .f32⟩
  | 91 => ⟨S65536x128, .f32⟩
  | 92 => ⟨S65536x128, .f32⟩
  | 93 => ⟨S_, .f32⟩
  | 94 => ⟨S65536, .f32⟩
  | 95 => ⟨S65536x1, .f32⟩
  | 96 => ⟨S_, .f32⟩
  | 97 => ⟨S65536x1, .f32⟩
  | 98 => ⟨S65536x1, .f32⟩
  | 99 => ⟨S65536x128, .f32⟩
  | 100 => ⟨S65536x128, .f32⟩
  | 101 => ⟨S_, .f32⟩
  | 102 => ⟨S65536x1, .f32⟩
  | 103 => ⟨S65536x1, .f32⟩
  | 104 => ⟨S65536x1, .f32⟩
  | 105 => ⟨S65536x128, .f32⟩
  | 106 => ⟨S65536x128, .f32⟩
  | 107 => ⟨S1x128, .f32⟩
  | 108 => ⟨S65536x128, .f32⟩
  | 109 => ⟨S65536x128, .f32⟩
  | 110 => ⟨S1x128, .f32⟩
  | 111 => ⟨S65536x128, .f32⟩
  | 112 => ⟨S65536x128, .f32⟩
  | 113 => ⟨S_, .f32⟩
  | 114 => ⟨S65536x128, .f32⟩
  | 115 => ⟨S65536x128, .f32⟩
  | 116 => ⟨S128x32, .f32⟩
  | 117 => ⟨S65536x32, .f32⟩
  | 118 => ⟨S1x32, .f32⟩
  | 119 => ⟨S65536x32, .f32⟩
  | 120 => ⟨S65536x32, .f32⟩
  | 121 => ⟨S_, .f32⟩
  | 122 => ⟨S64x32, .f32⟩
  | 123 => ⟨S32768x1, .i32⟩
  | 124 => ⟨S64x32, .f32⟩
  | 125 => ⟨S_, .f32⟩
  | 126 => ⟨S32768, .f32⟩
  | 127 => ⟨S_, .f32⟩
  | _ => ⟨S32768x768, .f32⟩

abbrev hbmTy0_2 (i : Nat) : BufTy := match i % 128 with
  | 0 => ⟨S64, .f32⟩
  | 1 => ⟨S32768x1, .i32⟩
  | 2 => ⟨S64, .f32⟩
  | 3 => ⟨S_, .f32⟩
  | 4 => ⟨S64, .f32⟩
  | 5 => ⟨S64, .f32⟩
  | 6 => ⟨S64x1, .f32⟩
  | 7 => ⟨S64x32, .f32⟩
  | 8 => ⟨S64x32, .f32⟩
  | 9 => ⟨S65536x32, .f32⟩
  | 10 => ⟨S_, .f32⟩
  | 11 => ⟨S65536, .f32⟩
  | 12 => ⟨S65536x1, .f32⟩
  | 13 => ⟨S64x32, .f32⟩
  | 14 => ⟨S_, .f32⟩
  | 15 => ⟨S64, .f32⟩
  | 16 => ⟨S1x64, .f32⟩
  | 17 => ⟨S65536x64, .f32⟩
  | 18 => ⟨S65536x64, .f32⟩
  | 19 => ⟨S65536x64, .f32⟩
  | 20 => ⟨S_, .f32⟩
  | 21 => ⟨S65536x32, .f32⟩
  | 22 => ⟨S65536x32, .f32⟩
  | 23 => ⟨S32x64, .f32⟩
  | 24 => ⟨S65536x64, .f32⟩
  | 25 => ⟨S65536x64, .f32⟩
  | 26 => ⟨S_, .f32⟩
  | 27 => ⟨S65536x64, .f32⟩
  | 28 => ⟨S65536x64, .f32⟩
  | 29 => ⟨S65536x64, .f32⟩
  | 30 => ⟨S65536x64, .f32⟩
  | _ => ⟨S32768x768, .f32⟩

abbrev hbmTy (i : Nat) : BufTy := match i / 128 with
  | 0 => hbmTy0_0 i
  | 1 => hbmTy0_1 i
  | 2 => hbmTy0_2 i
  | _ => ⟨S32768x768, .f32⟩

abbrev bufTy : (tb : Table) → Fin (tcTables nBuf tb) → BufTy
  | .hbm, ⟨i, _⟩ => hbmTy i
  | _, _ => ⟨S32768x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_cst : Ref sig .tc := ⟨.hbm, 22, rfl⟩
abbrev main_v5 : Ref sig .tc := ⟨.hbm, 23, rfl⟩
abbrev main_v6 : Ref sig .tc := ⟨.hbm, 24, rfl⟩
abbrev main_cst_0 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_cst_1 : Ref sig .tc := ⟨.hbm, 31, rfl⟩
abbrev main_v12 : Ref sig .tc := ⟨.hbm, 32, rfl⟩
abbrev main_v13 : Ref sig .tc := ⟨.hbm, 33, rfl⟩
abbrev main_cst_2 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_cst_3 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_call0_cst : Ref sig .tc := ⟨.hbm, 51, rfl⟩
abbrev main_call0_v0 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_cst_4 : Ref sig .tc := ⟨.hbm, 59, rfl⟩
abbrev main_v35 : Ref sig .tc := ⟨.hbm, 60, rfl⟩
abbrev main_v36 : Ref sig .tc := ⟨.hbm, 61, rfl⟩
abbrev main_cst_5 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_cst_6 : Ref sig .tc := ⟨.hbm, 68, rfl⟩
abbrev main_v42 : Ref sig .tc := ⟨.hbm, 69, rfl⟩
abbrev main_v43 : Ref sig .tc := ⟨.hbm, 70, rfl⟩
abbrev main_cst_7 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_cst_8 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_call1_cst : Ref sig .tc := ⟨.hbm, 88, rfl⟩
abbrev main_call1_v0 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_cst_9 : Ref sig .tc := ⟨.hbm, 96, rfl⟩
abbrev main_v65 : Ref sig .tc := ⟨.hbm, 97, rfl⟩
abbrev main_v66 : Ref sig .tc := ⟨.hbm, 98, rfl⟩
abbrev main_cst_10 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_cst_11 : Ref sig .tc := ⟨.hbm, 105, rfl⟩
abbrev main_v72 : Ref sig .tc := ⟨.hbm, 106, rfl⟩
abbrev main_v73 : Ref sig .tc := ⟨.hbm, 107, rfl⟩
abbrev main_cst_12 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_cst_13 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_call2_cst : Ref sig .tc := ⟨.hbm, 125, rfl⟩
abbrev main_call2_v0 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩
abbrev main_cst_14 : Ref sig .tc := ⟨.hbm, 138, rfl⟩
abbrev main_v100 : Ref sig .tc := ⟨.hbm, 139, rfl⟩
abbrev main_v101 : Ref sig .tc := ⟨.hbm, 140, rfl⟩
abbrev main_cst_15 : Ref sig .tc := ⟨.hbm, 141, rfl⟩
abbrev main_v102 : Ref sig .tc := ⟨.hbm, 142, rfl⟩
abbrev main_v103 : Ref sig .tc := ⟨.hbm, 143, rfl⟩
abbrev main_v104 : Ref sig .tc := ⟨.hbm, 144, rfl⟩
abbrev main_v105 : Ref sig .tc := ⟨.hbm, 145, rfl⟩
abbrev main_v106 : Ref sig .tc := ⟨.hbm, 146, rfl⟩
abbrev main_cst_16 : Ref sig .tc := ⟨.hbm, 147, rfl⟩
abbrev main_v107 : Ref sig .tc := ⟨.hbm, 148, rfl⟩
abbrev main_v108 : Ref sig .tc := ⟨.hbm, 149, rfl⟩
abbrev main_cst_17 : Ref sig .tc := ⟨.hbm, 150, rfl⟩
abbrev main_v109 : Ref sig .tc := ⟨.hbm, 151, rfl⟩
abbrev main_v110 : Ref sig .tc := ⟨.hbm, 152, rfl⟩
abbrev main_v111 : Ref sig .tc := ⟨.hbm, 153, rfl⟩
abbrev main_v112 : Ref sig .tc := ⟨.hbm, 154, rfl⟩
abbrev main_cst_18 : Ref sig .tc := ⟨.hbm, 155, rfl⟩
abbrev main_v113 : Ref sig .tc := ⟨.hbm, 156, rfl⟩
abbrev main_v114 : Ref sig .tc := ⟨.hbm, 157, rfl⟩
abbrev main_v115 : Ref sig .tc := ⟨.hbm, 158, rfl⟩
abbrev main_v116 : Ref sig .tc := ⟨.hbm, 159, rfl⟩
abbrev main_v117 : Ref sig .tc := ⟨.hbm, 160, rfl⟩
abbrev main_v118 : Ref sig .tc := ⟨.hbm, 161, rfl⟩
abbrev main_v119 : Ref sig .tc := ⟨.hbm, 162, rfl⟩
abbrev main_v120 : Ref sig .tc := ⟨.hbm, 163, rfl⟩
abbrev main_v121 : Ref sig .tc := ⟨.hbm, 164, rfl⟩
abbrev main_v122 : Ref sig .tc := ⟨.hbm, 165, rfl⟩
abbrev main_v123 : Ref sig .tc := ⟨.hbm, 166, rfl⟩
abbrev main_call3_cst : Ref sig .tc := ⟨.hbm, 167, rfl⟩
abbrev main_call3_v0 : Ref sig .tc := ⟨.hbm, 168, rfl⟩
abbrev main_v124 : Ref sig .tc := ⟨.hbm, 169, rfl⟩
abbrev main_v125 : Ref sig .tc := ⟨.hbm, 170, rfl⟩
abbrev main_v126 : Ref sig .tc := ⟨.hbm, 171, rfl⟩
abbrev main_v127 : Ref sig .tc := ⟨.hbm, 172, rfl⟩
abbrev main_v128 : Ref sig .tc := ⟨.hbm, 173, rfl⟩
abbrev main_v129 : Ref sig .tc := ⟨.hbm, 174, rfl⟩
abbrev main_cst_19 : Ref sig .tc := ⟨.hbm, 175, rfl⟩
abbrev main_v130 : Ref sig .tc := ⟨.hbm, 176, rfl⟩
abbrev main_v131 : Ref sig .tc := ⟨.hbm, 177, rfl⟩
abbrev main_cst_20 : Ref sig .tc := ⟨.hbm, 178, rfl⟩
abbrev main_v132 : Ref sig .tc := ⟨.hbm, 179, rfl⟩
abbrev main_v133 : Ref sig .tc := ⟨.hbm, 180, rfl⟩
abbrev main_v134 : Ref sig .tc := ⟨.hbm, 181, rfl⟩
abbrev main_v135 : Ref sig .tc := ⟨.hbm, 182, rfl⟩
abbrev main_v136 : Ref sig .tc := ⟨.hbm, 183, rfl⟩
abbrev main_cst_21 : Ref sig .tc := ⟨.hbm, 184, rfl⟩
abbrev main_v137 : Ref sig .tc := ⟨.hbm, 185, rfl⟩
abbrev main_v138 : Ref sig .tc := ⟨.hbm, 186, rfl⟩
abbrev main_cst_22 : Ref sig .tc := ⟨.hbm, 187, rfl⟩
abbrev main_v139 : Ref sig .tc := ⟨.hbm, 188, rfl⟩
abbrev main_v140 : Ref sig .tc := ⟨.hbm, 189, rfl⟩
abbrev main_v141 : Ref sig .tc := ⟨.hbm, 190, rfl⟩
abbrev main_v142 : Ref sig .tc := ⟨.hbm, 191, rfl⟩
abbrev main_cst_23 : Ref sig .tc := ⟨.hbm, 192, rfl⟩
abbrev main_v143 : Ref sig .tc := ⟨.hbm, 193, rfl⟩
abbrev main_v144 : Ref sig .tc := ⟨.hbm, 194, rfl⟩
abbrev main_v145 : Ref sig .tc := ⟨.hbm, 195, rfl⟩
abbrev main_v146 : Ref sig .tc := ⟨.hbm, 196, rfl⟩
abbrev main_v147 : Ref sig .tc := ⟨.hbm, 197, rfl⟩
abbrev main_v148 : Ref sig .tc := ⟨.hbm, 198, rfl⟩
abbrev main_v149 : Ref sig .tc := ⟨.hbm, 199, rfl⟩
abbrev main_v150 : Ref sig .tc := ⟨.hbm, 200, rfl⟩
abbrev main_v151 : Ref sig .tc := ⟨.hbm, 201, rfl⟩
abbrev main_v152 : Ref sig .tc := ⟨.hbm, 202, rfl⟩
abbrev main_v153 : Ref sig .tc := ⟨.hbm, 203, rfl⟩
abbrev main_call4_cst : Ref sig .tc := ⟨.hbm, 204, rfl⟩
abbrev main_call4_v0 : Ref sig .tc := ⟨.hbm, 205, rfl⟩
abbrev main_v154 : Ref sig .tc := ⟨.hbm, 206, rfl⟩
abbrev main_v155 : Ref sig .tc := ⟨.hbm, 207, rfl⟩
abbrev main_v156 : Ref sig .tc := ⟨.hbm, 208, rfl⟩
abbrev main_v157 : Ref sig .tc := ⟨.hbm, 209, rfl⟩
abbrev main_v158 : Ref sig .tc := ⟨.hbm, 210, rfl⟩
abbrev main_v159 : Ref sig .tc := ⟨.hbm, 211, rfl⟩
abbrev main_cst_24 : Ref sig .tc := ⟨.hbm, 212, rfl⟩
abbrev main_v160 : Ref sig .tc := ⟨.hbm, 213, rfl⟩
abbrev main_v161 : Ref sig .tc := ⟨.hbm, 214, rfl⟩
abbrev main_cst_25 : Ref sig .tc := ⟨.hbm, 215, rfl⟩
abbrev main_v162 : Ref sig .tc := ⟨.hbm, 216, rfl⟩
abbrev main_v163 : Ref sig .tc := ⟨.hbm, 217, rfl⟩
abbrev main_v164 : Ref sig .tc := ⟨.hbm, 218, rfl⟩
abbrev main_v165 : Ref sig .tc := ⟨.hbm, 219, rfl⟩
abbrev main_v166 : Ref sig .tc := ⟨.hbm, 220, rfl⟩
abbrev main_cst_26 : Ref sig .tc := ⟨.hbm, 221, rfl⟩
abbrev main_v167 : Ref sig .tc := ⟨.hbm, 222, rfl⟩
abbrev main_v168 : Ref sig .tc := ⟨.hbm, 223, rfl⟩
abbrev main_cst_27 : Ref sig .tc := ⟨.hbm, 224, rfl⟩
abbrev main_v169 : Ref sig .tc := ⟨.hbm, 225, rfl⟩
abbrev main_v170 : Ref sig .tc := ⟨.hbm, 226, rfl⟩
abbrev main_v171 : Ref sig .tc := ⟨.hbm, 227, rfl⟩
abbrev main_v172 : Ref sig .tc := ⟨.hbm, 228, rfl⟩
abbrev main_cst_28 : Ref sig .tc := ⟨.hbm, 229, rfl⟩
abbrev main_v173 : Ref sig .tc := ⟨.hbm, 230, rfl⟩
abbrev main_v174 : Ref sig .tc := ⟨.hbm, 231, rfl⟩
abbrev main_v175 : Ref sig .tc := ⟨.hbm, 232, rfl⟩
abbrev main_v176 : Ref sig .tc := ⟨.hbm, 233, rfl⟩
abbrev main_v177 : Ref sig .tc := ⟨.hbm, 234, rfl⟩
abbrev main_v178 : Ref sig .tc := ⟨.hbm, 235, rfl⟩
abbrev main_v179 : Ref sig .tc := ⟨.hbm, 236, rfl⟩
abbrev main_v180 : Ref sig .tc := ⟨.hbm, 237, rfl⟩
abbrev main_v181 : Ref sig .tc := ⟨.hbm, 238, rfl⟩
abbrev main_v182 : Ref sig .tc := ⟨.hbm, 239, rfl⟩
abbrev main_v183 : Ref sig .tc := ⟨.hbm, 240, rfl⟩
abbrev main_call5_cst : Ref sig .tc := ⟨.hbm, 241, rfl⟩
abbrev main_call5_v0 : Ref sig .tc := ⟨.hbm, 242, rfl⟩
abbrev main_v184 : Ref sig .tc := ⟨.hbm, 243, rfl⟩
abbrev main_v185 : Ref sig .tc := ⟨.hbm, 244, rfl⟩
abbrev main_v186 : Ref sig .tc := ⟨.hbm, 245, rfl⟩
abbrev main_v187 : Ref sig .tc := ⟨.hbm, 246, rfl⟩
abbrev main_v188 : Ref sig .tc := ⟨.hbm, 247, rfl⟩
abbrev main_v189 : Ref sig .tc := ⟨.hbm, 248, rfl⟩
abbrev main_cst_29 : Ref sig .tc := ⟨.hbm, 249, rfl⟩
abbrev main_v190 : Ref sig .tc := ⟨.hbm, 250, rfl⟩
abbrev main_v191 : Ref sig .tc := ⟨.hbm, 251, rfl⟩
abbrev main_v192 : Ref sig .tc := ⟨.hbm, 252, rfl⟩
abbrev main_cst_30 : Ref sig .tc := ⟨.hbm, 253, rfl⟩
abbrev main_v193 : Ref sig .tc := ⟨.hbm, 254, rfl⟩
abbrev main_cst_31 : Ref sig .tc := ⟨.hbm, 255, rfl⟩
abbrev main_v194 : Ref sig .tc := ⟨.hbm, 256, rfl⟩
abbrev main_v195 : Ref sig .tc := ⟨.hbm, 257, rfl⟩
abbrev main_v196 : Ref sig .tc := ⟨.hbm, 258, rfl⟩
abbrev main_cst_32 : Ref sig .tc := ⟨.hbm, 259, rfl⟩
abbrev main_v197 : Ref sig .tc := ⟨.hbm, 260, rfl⟩
abbrev main_v198 : Ref sig .tc := ⟨.hbm, 261, rfl⟩
abbrev main_v199 : Ref sig .tc := ⟨.hbm, 262, rfl⟩
abbrev main_v200 : Ref sig .tc := ⟨.hbm, 263, rfl⟩
abbrev main_v201 : Ref sig .tc := ⟨.hbm, 264, rfl⟩
abbrev main_v202 : Ref sig .tc := ⟨.hbm, 265, rfl⟩
abbrev main_cst_33 : Ref sig .tc := ⟨.hbm, 266, rfl⟩
abbrev main_v203 : Ref sig .tc := ⟨.hbm, 267, rfl⟩
abbrev main_v204 : Ref sig .tc := ⟨.hbm, 268, rfl⟩
abbrev main_v205 : Ref sig .tc := ⟨.hbm, 269, rfl⟩
abbrev main_cst_34 : Ref sig .tc := ⟨.hbm, 270, rfl⟩
abbrev main_v206 : Ref sig .tc := ⟨.hbm, 271, rfl⟩
abbrev main_v207 : Ref sig .tc := ⟨.hbm, 272, rfl⟩
abbrev main_v208 : Ref sig .tc := ⟨.hbm, 273, rfl⟩
abbrev main_v209 : Ref sig .tc := ⟨.hbm, 274, rfl⟩
abbrev main_v210 : Ref sig .tc := ⟨.hbm, 275, rfl⟩
abbrev main_cst_35 : Ref sig .tc := ⟨.hbm, 276, rfl⟩
abbrev main_v211 : Ref sig .tc := ⟨.hbm, 277, rfl⟩
abbrev main_v212 : Ref sig .tc := ⟨.hbm, 278, rfl⟩
abbrev main_v213 : Ref sig .tc := ⟨.hbm, 279, rfl⟩
abbrev main_v214 : Ref sig .tc := ⟨.hbm, 280, rfl⟩
abbrev main_v215 : Ref sig .tc := ⟨.hbm, 281, rfl⟩
abbrev main_cst_36 : Ref sig .tc := ⟨.hbm, 282, rfl⟩
abbrev main_v216 : Ref sig .tc := ⟨.hbm, 283, rfl⟩
abbrev main_v217 : Ref sig .tc := ⟨.hbm, 284, rfl⟩
abbrev main_v218 : Ref sig .tc := ⟨.hbm, 285, rfl⟩
abbrev main_v219 : Ref sig .tc := ⟨.hbm, 286, rfl⟩

abbrev nD : Nat := 1
abbrev τ : Topo := Topo.v7x

variable {F : FTy → Type} [FloatOps F]

class Facts₀ : Prop where
  transposes_S512x768_S768x512_1_0 : S512x768.Transposes [1, 0] S768x512
  bcast_S512_S1x512_1 : S512.BroadcastsInDim S1x512 (![1] : Fin 1 → Fin S1x512.rank)
  bcast_S1x512_S32768x512_0_1 : S1x512.BroadcastsInDim S32768x512 (![0, 1] : Fin 2 → Fin S32768x512.rank)
  reducesTo_S32768x512_S32768_d1 : S32768x512.ReducesTo [1] S32768
  h_S_ : 0 < S_.numel
  bcast_S32768_S32768x1_0 : S32768.BroadcastsInDim S32768x1 (![0] : Fin 1 → Fin S32768x1.rank)
  bcast_S_S32768x1 : S_.BroadcastsInDim S32768x1 (![] : Fin 0 → Fin S32768x1.rank)
  bcast_S32768x1_S32768x512_0_1 : S32768x1.BroadcastsInDim S32768x512 (![0, 1] : Fin 2 → Fin S32768x512.rank)
  bcast_S_S32768x512 : S_.BroadcastsInDim S32768x512 (![] : Fin 0 → Fin S32768x512.rank)
  transposes_S512x512_S512x512_1_0 : S512x512.Transposes [1, 0] S512x512
  transposes_S128x512_S512x128_1_0 : S128x512.Transposes [1, 0] S512x128
  bcast_S128_S1x128_1 : S128.BroadcastsInDim S1x128 (![1] : Fin 1 → Fin S1x128.rank)
  bcast_S1x128_S32768x128_0_1 : S1x128.BroadcastsInDim S32768x128 (![0, 1] : Fin 2 → Fin S32768x128.rank)
  reducesTo_S32768x128_S32768_d1 : S32768x128.ReducesTo [1] S32768
  bcast_S32768x1_S32768x128_0_1 : S32768x1.BroadcastsInDim S32768x128 (![0, 1] : Fin 2 → Fin S32768x128.rank)
  bcast_S_S32768x128 : S_.BroadcastsInDim S32768x128 (![] : Fin 0 → Fin S32768x128.rank)
  transposes_S32x128_S128x32_1_0 : S32x128.Transposes [1, 0] S128x32
  bcast_S32_S1x32_1 : S32.BroadcastsInDim S1x32 (![1] : Fin 1 → Fin S1x32.rank)
  bcast_S1x32_S32768x32_0_1 : S1x32.BroadcastsInDim S32768x32 (![0, 1] : Fin 2 → Fin S32768x32.rank)
  bcast_S1x512_S65536x512_0_1 : S1x512.BroadcastsInDim S65536x512 (![0, 1] : Fin 2 → Fin S65536x512.rank)
  reducesTo_S65536x512_S65536_d1 : S65536x512.ReducesTo [1] S65536
  bcast_S65536_S65536x1_0 : S65536.BroadcastsInDim S65536x1 (![0] : Fin 1 → Fin S65536x1.rank)
  bcast_S_S65536x1 : S_.BroadcastsInDim S65536x1 (![] : Fin 0 → Fin S65536x1.rank)
  bcast_S65536x1_S65536x512_0_1 : S65536x1.BroadcastsInDim S65536x512 (![0, 1] : Fin 2 → Fin S65536x512.rank)
  bcast_S_S65536x512 : S_.BroadcastsInDim S65536x512 (![] : Fin 0 → Fin S65536x512.rank)
  bcast_S1x128_S65536x128_0_1 : S1x128.BroadcastsInDim S65536x128 (![0, 1] : Fin 2 → Fin S65536x128.rank)
  reducesTo_S65536x128_S65536_d1 : S65536x128.ReducesTo [1] S65536
  bcast_S65536x1_S65536x128_0_1 : S65536x1.BroadcastsInDim S65536x128 (![0, 1] : Fin 2 → Fin S65536x128.rank)
  bcast_S_S65536x128 : S_.BroadcastsInDim S65536x128 (![] : Fin 0 → Fin S65536x128.rank)
  bcast_S1x32_S65536x32_0_1 : S1x32.BroadcastsInDim S65536x32 (![0, 1] : Fin 2 → Fin S65536x32.rank)
  bcast_S_S64x32 : S_.BroadcastsInDim S64x32 (![] : Fin 0 → Fin S64x32.rank)
  bcast_S_S32768 : S_.BroadcastsInDim S32768 (![] : Fin 0 → Fin S32768.rank)
  bcast_S_S64 : S_.BroadcastsInDim S64 (![] : Fin 0 → Fin S64.rank)
  bcast_S64_S64x1_0 : S64.BroadcastsInDim S64x1 (![0] : Fin 1 → Fin S64x1.rank)
  bcast_S64x1_S64x32_0_1 : S64x1.BroadcastsInDim S64x32 (![0, 1] : Fin 2 → Fin S64x32.rank)
  reducesTo_S65536x32_S65536_d1 : S65536x32.ReducesTo [1] S65536
  reducesTo_S64x32_S64_d1 : S64x32.ReducesTo [1] S64
  bcast_S64_S1x64_1 : S64.BroadcastsInDim S1x64 (![1] : Fin 1 → Fin S1x64.rank)
  bcast_S65536x1_S65536x64_0_1 : S65536x1.BroadcastsInDim S65536x64 (![0, 1] : Fin 2 → Fin S65536x64.rank)
  bcast_S1x64_S65536x64_0_1 : S1x64.BroadcastsInDim S65536x64 (![0, 1] : Fin 2 → Fin S65536x64.rank)
  bcast_S_S65536x32 : S_.BroadcastsInDim S65536x32 (![] : Fin 0 → Fin S65536x32.rank)
  transposes_S64x32_S32x64_1_0 : S64x32.Transposes [1, 0] S32x64
  bcast_S_S65536x64 : S_.BroadcastsInDim S65536x64 (![] : Fin 0 → Fin S65536x64.rank)
  dot_S32768x768_S768x512_S32768x512_1_0_0_1_n_n_wf : DotDims.WF S32768x768 S768x512 S32768x512 [1] [0] [0] [1] [] []
  dot_S32768x512_S512x512_S32768x512_1_0_0_1_n_n_wf : DotDims.WF S32768x512 S512x512 S32768x512 [1] [0] [0] [1] [] []
  dot_S32768x512_S512x128_S32768x128_1_0_0_1_n_n_wf : DotDims.WF S32768x512 S512x128 S32768x128 [1] [0] [0] [1] [] []
  dot_S32768x128_S128x32_S32768x32_1_0_0_1_n_n_wf : DotDims.WF S32768x128 S128x32 S32768x32 [1] [0] [0] [1] [] []
  dot_S65536x768_S768x512_S65536x512_1_0_0_1_n_n_wf : DotDims.WF S65536x768 S768x512 S65536x512 [1] [0] [0] [1] [] []
  dot_S65536x512_S512x512_S65536x512_1_0_0_1_n_n_wf : DotDims.WF S65536x512 S512x512 S65536x512 [1] [0] [0] [1] [] []
  dot_S65536x512_S512x128_S65536x128_1_0_0_1_n_n_wf : DotDims.WF S65536x512 S512x128 S65536x128 [1] [0] [0] [1] [] []
  dot_S65536x128_S128x32_S65536x32_1_0_0_1_n_n_wf : DotDims.WF S65536x128 S128x32 S65536x32 [1] [0] [0] [1] [] []
  scatter_S64x32_S32768x1_S32768x32_1_0_0_1_wf : ScatterDims.WF S64x32 S32768x1 S32768x32 [1] [0] [0] 1
  scatter_S64_S32768x1_S32768_n_0_0_1_wf : ScatterDims.WF S64 S32768x1 S32768 [] [0] [0] 1
  dot_S65536x32_S32x64_S65536x64_1_0_0_1_n_n_wf : DotDims.WF S65536x32 S32x64 S65536x64 [1] [0] [0] [1] [] []

variable [Facts₀]

def dot_S32768x768_S768x512_S32768x512_1_0_0_1_n_n : DotDims S32768x768 S768x512 S32768x512 where
  lhsContracting := [1]
  rhsContracting := [0]
  lhsNonContracting := [0]
  rhsNonContracting := [1]
  lhsBatch := []
  rhsBatch := []
  wf := dot_S32768x768_S768x512_S32768x512_1_0_0_1_n_n_wf
def dot_S32768x512_S512x512_S32768x512_1_0_0_1_n_n : DotDims S32768x512 S512x512 S32768x512 where
  lhsContracting := [1]
  rhsContracting := [0]
  lhsNonContracting := [0]
  rhsNonContracting := [1]
  lhsBatch := []
  rhsBatch := []
  wf := dot_S32768x512_S512x512_S32768x512_1_0_0_1_n_n_wf
def dot_S32768x512_S512x128_S32768x128_1_0_0_1_n_n : DotDims S32768x512 S512x128 S32768x128 where
  lhsContracting := [1]
  rhsContracting := [0]
  lhsNonContracting := [0]
  rhsNonContracting := [1]
  lhsBatch := []
  rhsBatch := []
  wf := dot_S32768x512_S512x128_S32768x128_1_0_0_1_n_n_wf
def dot_S32768x128_S128x32_S32768x32_1_0_0_1_n_n : DotDims S32768x128 S128x32 S32768x32 where
  lhsContracting := [1]
  rhsContracting := [0]
  lhsNonContracting := [0]
  rhsNonContracting := [1]
  lhsBatch := []
  rhsBatch := []
  wf := dot_S32768x128_S128x32_S32768x32_1_0_0_1_n_n_wf
def dot_S65536x768_S768x512_S65536x512_1_0_0_1_n_n : DotDims S65536x768 S768x512 S65536x512 where
  lhsContracting := [1]
  rhsContracting := [0]
  lhsNonContracting := [0]
  rhsNonContracting := [1]
  lhsBatch := []
  rhsBatch := []
  wf := dot_S65536x768_S768x512_S65536x512_1_0_0_1_n_n_wf
def dot_S65536x512_S512x512_S65536x512_1_0_0_1_n_n : DotDims S65536x512 S512x512 S65536x512 where
  lhsContracting := [1]
  rhsContracting := [0]
  lhsNonContracting := [0]
  rhsNonContracting := [1]
  lhsBatch := []
  rhsBatch := []
  wf := dot_S65536x512_S512x512_S65536x512_1_0_0_1_n_n_wf
def dot_S65536x512_S512x128_S65536x128_1_0_0_1_n_n : DotDims S65536x512 S512x128 S65536x128 where
  lhsContracting := [1]
  rhsContracting := [0]
  lhsNonContracting := [0]
  rhsNonContracting := [1]
  lhsBatch := []
  rhsBatch := []
  wf := dot_S65536x512_S512x128_S65536x128_1_0_0_1_n_n_wf
def dot_S65536x128_S128x32_S65536x32_1_0_0_1_n_n : DotDims S65536x128 S128x32 S65536x32 where
  lhsContracting := [1]
  rhsContracting := [0]
  lhsNonContracting := [0]
  rhsNonContracting := [1]
  lhsBatch := []
  rhsBatch := []
  wf := dot_S65536x128_S128x32_S65536x32_1_0_0_1_n_n_wf
def scatter_S64x32_S32768x1_S32768x32_1_0_0_1 : ScatterDims S64x32 S32768x1 S32768x32 where
  updateWindowDims := [1]
  insertedWindowDims := [0]
  scatterDimsToOperandDims := [0]
  indexVectorDim := 1
  wf := scatter_S64x32_S32768x1_S32768x32_1_0_0_1_wf
def scatter_S64_S32768x1_S32768_n_0_0_1 : ScatterDims S64 S32768x1 S32768 where
  updateWindowDims := []
  insertedWindowDims := [0]
  scatterDimsToOperandDims := [0]
  indexVectorDim := 1
  wf := scatter_S64_S32768x1_S32768_n_0_0_1_wf
def dot_S65536x32_S32x64_S65536x64_1_0_0_1_n_n : DotDims S65536x32 S32x64 S65536x64 where
  lhsContracting := [1]
  rhsContracting := [0]
  lhsNonContracting := [0]
  rhsNonContracting := [1]
  lhsBatch := []
  rhsBatch := []
  wf := dot_S65536x32_S32x64_S65536x64_1_0_0_1_n_n_wf

class Facts : Prop extends Facts₀ where

variable [Facts]
-- ==== Proof.K0Runs.lean ====
import proofs.«407301_j76149770158544_3_alg».proof.Proof.Gen.KernelIdeal.Launch
import proofs.«407301_j76149770158544_3_alg».proof.Proof.Gen.KernelIdeal.Skeleton
import proofs.«407301_j76149770158544_3_alg».proof.Proof.Gen.KernelIdeal.Points
import Idealize.ShloMosaic.Lib.Pipeline.FrameBody
import Idealize.ShloMosaic.Lib.Pipeline.FrameSuffix
import Idealize.ShloMosaic.Lib.Pipeline.RegionsLoop
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 8 = 0 :=
  (by decide +kernel : ∀ t : Fin grid0.N, cond0_0 (grid0.coords t) ↔ t.val % 8 = 0)
abbrev cond0_1 (i : grid0.Coords) : Prop := k0_cond2 i = 1#1
theorem hcond0_1 : ∀ t : Fin cfg0.N, cond0_1 (grid0.coords t) ↔ t.val % 8 = 7 :=
  (by decide +kernel : ∀ t : Fin grid0.N, cond0_1 (grid0.coords t) ↔ t.val % 8 = 7)

theorem idle0 : ∀ t : Fin cfg0.N, ¬t.val % 8 = 7 → (cfg0.idle 16 (grid0.coords t) = true ∧ (cfg0.win 16).flush t = false) ∧ cfg0.idle 17 (grid0.coords t) = true ∧ (cfg0.win 17).flush t = false := by decide +kernel
theorem live0 : ∀ t : Fin cfg0.N, t.val % 8 = 7 → cfg0.idle 16 (grid0.coords t) = false ∧ cfg0.idle 17 (grid0.coords t) = false := by decide +kernel

abbrev VO0_16 : View sig .tc .vmem S1x64x32 .f32 := (Memref.whole cc0_stg16_0 : Memref sig .tc .vmem S1x64x32 .f32).view
abbrev VO0_17 : View sig .tc .vmem S1x64x1 .f32 := (Memref.whole cc0_stg17_0 : Memref sig .tc .vmem S1x64x1 .f32).view
section
variable (t : Fin cfg0.N)
abbrev ms0_0 : Memref sig .tc .vmem S2048x768 .f32 := win0_0.stage (cfg0.slots t 0)
abbrev hs0_0 : (ms0_0 t).IsWhole := hstage0_0 ((cfg0.slots t 0).cast nbuf0_0)
abbrev ms0_1 : Memref sig .tc .vmem S2048 .i32 := win0_1.stage (cfg0.slots t 1)
abbrev hs0_1 : (ms0_1 t).IsWhole := hstage0_1 ((cfg0.slots t 1).cast nbuf0_1)
abbrev ms0_2 : Memref sig .tc .vmem S768x512 .bf16 := win0_2.stage (cfg0.slots t 2)
abbrev hs0_2 : (ms0_2 t).IsWhole := hstage0_2 ((cfg0.slots t 2).cast nbuf0_2)
abbrev ms0_3 : Memref sig .tc .vmem S512 .f32 := win0_3.stage (cfg0.slots t 3)
abbrev hs0_3 : (ms0_3 t).IsWhole := hstage0_3 ((cfg0.slots t 3).cast nbuf0_3)
abbrev ms0_4 : Memref sig .tc .vmem S512 .f32 := win0_4.stage (cfg0.slots t 4)
abbrev hs0_4 : (ms0_4 t).IsWhole := hstage0_4 ((cfg0.slots t 4).cast nbuf0_4)
abbrev ms0_5 : Memref sig .tc .vmem S512 .f32 := win0_5.stage (cfg0.slots t 5)
abbrev hs0_5 : (ms0_5 t).IsWhole := hstage0_5 ((cfg0.slots t 5).cast nbuf0_5)
abbrev ms0_6 : Memref sig .tc .vmem S512x512 .bf16 := win0_6.stage (cfg0.slots t 6)
abbrev hs0_6 : (ms0_6 t).IsWhole := hstage0_6 ((cfg0.slots t 6).cast nbuf0_6)
abbrev ms0_7 : Memref sig .tc .vmem S512 .f32 := win0_7.stage (cfg0.slots t 7)
abbrev hs0_7 : (ms0_7 t).IsWhole := hstage0_7 ((cfg0.slots t 7).cast nbuf0_7)
abbrev ms0_8 : Memref sig .tc .vmem S512 .f32 := win0_8.stage (cfg0.slots t 8)
abbrev hs0_8 : (ms0_8 t).IsWhole := hstage0_8 ((cfg0.slots t 8).cast nbuf0_8)
abbrev ms0_9 : Memref sig .tc .vmem S512 .f32 := win0_9.stage (cfg0.slots t 9)
abbrev hs0_9 : (ms0_9 t).IsWhole := hstage0_9 ((cfg0.slots t 9).cast nbuf0_9)
abbrev ms0_10 : Memref sig .tc .vmem S512x128 .bf16 := win0_10.stage (cfg0.slots t 10)
abbrev hs0_10 : (ms0_10 t).IsWhole := hstage0_10 ((cfg0.slots t 10).cast nbuf0_10)
abbrev ms0_11 : Memref sig .tc .vmem S128 .f32 := win0_11.stage (cfg0.slots t 11)
abbrev hs0_11 : (ms0_11 t).IsWhole := hstage0_11 ((cfg0.slots t 11).cast nbuf0_11)
abbrev ms0_12 : Memref sig .tc .vmem S128 .f32 := win0_12.stage (cfg0.slots t 12)
abbrev hs0_12 : (ms0_12 t).IsWhole := hstage0_12 ((cfg0.slots t 12).cast nbuf0_12)
abbrev ms0_13 : Memref sig .tc .vmem S128 .f32 := win0_13.stage (cfg0.slots t 13)
abbrev hs0_13 : (ms0_13 t).IsWhole := hstage0_13 ((cfg0.slots t 13).cast nbuf0_13)
abbrev ms0_14 : Memref sig .tc .vmem S128x32 .bf16 := win0_14.stage (cfg0.slots t 14)
abbrev hs0_14 : (ms0_14 t).IsWhole := hstage0_14 ((cfg0.slots t 14).cast nbuf0_14)
abbrev ms0_15 : Memref sig .tc .vmem S32 .f32 := win0_15.stage (cfg0.slots t 15)
abbrev hs0_15 : (ms0_15 t).IsWhole := hstage0_15 ((cfg0.slots t 15).cast nbuf0_15)
abbrev ms0_16 : Memref sig .tc .vmem S1x64x32 .f32 := win0_16.stage (cfg0.slots t 16)
abbrev hs0_16 : (ms0_16 t).IsWhole := hstage0_16 ((cfg0.slots t 16).cast nbuf0_16)
abbrev ms0_17 : Memref sig .tc .vmem S1x64x1 .f32 := win0_17.stage (cfg0.slots t 17)
abbrev hs0_17 : (ms0_17 t).IsWhole := hstage0_17 ((cfg0.slots t 17).cast nbuf0_17)
end
abbrev scM0_0 : Memref sig .tc .vmem S64x32 .f32 := Memref.whole cc0_scratch0
abbrev scM0_1 : Memref sig .tc .vmem S64x1 .f32 := Memref.whole cc0_scratch1
abbrev VS0_0 : View sig .tc .vmem S64x32 .f32 := scM0_0.view
abbrev VS0_1 : View sig .tc .vmem S64x1 .f32 := scM0_1.view

def rest0 (c : Dev nD) : sProp 𝕄 :=
  bigSepL [cc1_stg0_0, cc1_stg0_1, cc1_stg1_0, cc1_stg2_0, cc1_stg3_0, cc1_stg4_0, cc1_stg5_0, cc1_stg6_0, cc1_stg7_0, cc1_stg8_0, cc1_stg9_0, cc1_stg10_0, cc1_stg11_0, cc1_stg12_0, cc1_stg13_0, cc1_stg14_0, cc1_stg15_0, cc1_stg16_0, cc1_stg17_0, cc1_stg17_1]
    fun b => iprop(∃ f : Buf (Elt F) ((c : Thread nD τ).loc b), ((c : Thread nD τ).loc b) ↦{fullShare} f)

theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ rest0 c) ∗ (∃ r, prngReg c r)) := by
  unfold Pipeline.ΦA rest0; rw [scopedRest0_eq]; simp only [scM0_0, scM0_1, owns_whole]; try rfl

-- A whole memref read at `X` holds the one raw contents that reads `X`.
theorem owns_eq_unread (c : Dev nD) {sp : Space} {sh : Shape} {e : EltTy} {m : Memref sig .tc sp sh e} (h : m.IsWhole) (q : PosShare TreeShare) (X : sh.Idx → Elt F e) :
    (owns (c : Thread nD τ) m q X : sProp 𝕄) = (m.view.loc (c : Thread nD τ) ↦[m.view.set]{q} h.unread X) := by
  have h₁ : (owns (c : Thread nD τ) m q X : sProp 𝕄) ⊢ (m.view.loc (c : Thread nD τ) ↦[m.view.set]{q} h.unread X) := by
    unfold owns; iintro ⟨%f, %hf, H⟩; obtain rfl := h.eq_unread hf; iexact H
  have h₂ := owns_intro (Val := Elt F) (Ix := Unit) (Name := ℕ) (U := UR sig nD τ) (Lvl := ℕ) (c : Thread nD τ) m q (h.unread X)
  rw [h.read_unread] at h₂
  exact BI.equiv_iff.mp ⟨h₁, h₂⟩

-- Stores that cover a memref leave it reading what they leave over anything.
theorem owns_writes (c : Dev nD) {sp sp' : Space} {sh : Shape} {e : EltTy} (m : Memref sig .tc sp sh e) (v : View sig .tc sp' sh e) (L : List (View.Piece (Elt F) sh e))
    (hc : ∀ y, ∃ pc ∈ L, y ∈ pc.1.set) :
    (iprop(∃ f, m.view.loc (c : Thread nD τ) ↦[m.view.set]{fullShare} m.view.writes (Elt F) f L) : sProp 𝕄)
      ⊢ owns (c : Thread nD τ) m fullShare (v.read (Elt F) (v.writes (Elt F) v.junk L)) := by
  unfold owns; iintro ⟨%f, H⟩; iexists _; isplitr
  swap; · iexact H
  ipureintro; exact View.read_writes_of_cover _ _ _ _ _ hc

-- The sixteen inputs at their contents, beside `R`.
abbrev ins0 (c : Dev nD) (arg2 : Memref sig .tc .vmem S2048x768 .f32) (arg3 : Memref sig .tc .vmem S2048 .i32) (arg4 : Memref sig .tc .vmem S768x512 .bf16) (arg5 : Memref sig .tc .vmem S512 .f32) (arg6 : Memref sig .tc .vmem S512 .f32) (arg7 : Memref sig .tc .vmem S512 .f32) (arg8 : Memref sig .tc .vmem S512x512 .bf16) (arg9 : Memref sig .tc .vmem S512 .f32) (arg10 : Memref sig .tc .vmem S512 .f32) (arg11 : Memref sig .tc .vmem S512 .f32) (arg12 : Memref sig .tc .vmem S512x128 .bf16) (arg13 : Memref sig .tc .vmem S128 .f32) (arg14 : Memref sig .tc .vmem S128 .f32) (arg15 : Memref sig .tc .vmem S128 .f32) (arg16 : Memref sig .tc .vmem S128x32 .bf16) (arg17 : Memref sig .tc .vmem S32 .f32) (x0 : Vec F S2048x768 .f32) (x1 : Vec F S2048 .i32) (x2 : Vec F S768x512 .bf16) (x3 : Vec F S512 .f32) (x4 : Vec F S512 .f32) (x5 : Vec F S512 .f32) (x6 : Vec F S512x512 .bf16) (x7 : Vec F S512 .f32) (x8 : Vec F S512 .f32) (x9 : Vec F S512 .f32) (x10 : Vec F S512x128 .bf16) (x11 : Vec F S128 .f32) (x12 : Vec F S128 .f32) (x13 : Vec F S128 .f32) (x14 : Vec F S128x32 .bf16) (x15 : Vec F S32 .f32) (R : sProp 𝕄) : sProp 𝕄 :=
  iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ R)

end Cert.KernelIdeal.Hand

end
-- ==== Proof.K0RunA.lean ====
import proofs.«407301_j76149770158544_3_alg».proof.Proof.K0Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid0.Coords) (arg2 : Memref sig .tc .vmem S2048x768 .f32) (harg2 : arg2.IsWhole) (arg3 : Memref sig .tc .vmem S2048 .i32) (harg3 : arg3.IsWhole) (arg4 : Memref sig .tc .vmem S768x512 .bf16) (harg4 : arg4.IsWhole) (arg5 : Memref sig .tc .vmem S512 .f32) (harg5 : arg5.IsWhole) (arg6 : Memref sig .tc .vmem S512 .f32) (harg6 : arg6.IsWhole) (arg7 : Memref sig .tc .vmem S512 .f32) (harg7 : arg7.IsWhole) (arg8 : Memref sig .tc .vmem S512x512 .bf16) (harg8 : arg8.IsWhole) (arg9 : Memref sig .tc .vmem S512 .f32) (harg9 : arg9.IsWhole) (arg10 : Memref sig .tc .vmem S512 .f32) (harg10 : arg10.IsWhole) (arg11 : Memref sig .tc .vmem S512 .f32) (harg11 : arg11.IsWhole) (arg12 : Memref sig .tc .vmem S512x128 .bf16) (harg12 : arg12.IsWhole) (arg13 : Memref sig .tc .vmem S128 .f32) (harg13 : arg13.IsWhole) (arg14 : Memref sig .tc .vmem S128 .f32) (harg14 : arg14.IsWhole) (arg15 : Memref sig .tc .vmem S128 .f32) (harg15 : arg15.IsWhole) (arg16 : Memref sig .tc .vmem S128x32 .bf16) (harg16 : arg16.IsWhole) (arg17 : Memref sig .tc .vmem S32 .f32) (harg17 : arg17.IsWhole) (arg18 : Memref sig .tc .vmem S1x64x32 .f32) (harg18 : arg18.IsWhole) (arg19 : Memref sig .tc .vmem S1x64x1 .f32) (harg19 : arg19.IsWhole) (arg20 : Memref sig .tc .vmem S64x32 .f32) (harg20 : arg20.IsWhole) (arg21 : Memref sig .tc .vmem S64x1 .f32) (harg21 : arg21.IsWhole)

set_option maxHeartbeats 4000000 in
noncomputable def kernelRun0_A (hc0 : cond0_0 i) (hc1 : ¬cond0_1 i)
    (x0 : Vec F S2048x768 .f32) (x1 : Vec F S2048 .i32) (x2 : Vec F S768x512 .bf16) (x3 : Vec F S512 .f32) (x4 : Vec F S512 .f32) (x5 : Vec F S512 .f32) (x6 : Vec F S512x512 .bf16) (x7 : Vec F S512 .f32) (x8 : Vec F S512 .f32) (x9 : Vec F S512 .f32) (x10 : Vec F S512x128 .bf16) (x11 : Vec F S128 .f32) (x12 : Vec F S128 .f32) (x13 : Vec F S128 .f32) (x14 : Vec F S128x32 .bf16) (x15 : Vec F S32 .f32) :
    Σ' (L16 : List (View.Piece (Elt F) S1x64x32 .f32)) (L17 : List (View.Piece (Elt F) S1x64x1 .f32)) (LS0 : List (View.Piece (Elt F) S64x32 .f32)), { LS1 : List (View.Piece (Elt F) S64x1 .f32) //
      ∀ (xi16 : Vec F S1x64x32 .f32) (xi17 : Vec F S1x64x1 .f32) (E : Set ℕ) (K : PUnit → sProp 𝕄),
        ins0 c arg2 arg3 arg4 arg5 arg6 arg7 arg8 arg9 arg10 arg11 arg12 arg13 arg14 arg15 arg16 arg17 x0 x1 x2 x3 x4 x5 x6 x7 x8 x9 x10 x11 x12 x13 x14 x15 iprop(owns (c : Thread nD τ) arg18 fullShare xi16 ∗ owns (c : Thread nD τ) arg19 fullShare xi17 ∗ (∃ d, owns (c : Thread nD τ) arg20 fullShare d) ∗ (∃ d, owns (c : Thread nD τ) arg21 fullShare d)
            ∗ (ins0 c arg2 arg3 arg4 arg5 arg6 arg7 arg8 arg9 arg10 arg11 arg12 arg13 arg14 arg15 arg16 arg17 x0 x1 x2 x3 x4 x5 x6 x7 x8 x9 x10 x11 x12 x13 x14 x15 iprop(owns (c : Thread nD τ) arg18 fullShare xi16 ∗ owns (c : Thread nD τ) arg19 fullShare xi17 ∗ (∃ f, arg20.view.loc (c : Thread nD τ) ↦[arg20.view.set]{fullShare} arg20.view.writes (Elt F) f LS0) ∗ (∃ f, arg21.view.loc (c : Thread nD τ) ↦[arg21.view.set]{fullShare} arg21.view.writes (Elt F) f LS1)) -∗ K ⟨⟩))
          ⊢ wp frame (wpE (defs₀ (F := F)) Variants.none c none) E (cc0__support_proto_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K } := by
  refine ⟨[], [], ?_, ?_, fun xi16 xi17 E K => ?run⟩
  case run =>
    simp only [cc0__support_proto_kernel_eq_skeleton]; unfold cc0__support_proto_kernel_skel
    simp only [k0_part1_eq_skeleton, k0_part2_eq_skeleton, k0_part3_eq_skeleton]
    unfold ins0
    rw [owns_eq_unread c harg2, owns_eq_unread c harg3, owns_eq_unread c harg4, owns_eq_unread c harg5, owns_eq_unread c harg6, owns_eq_unread c harg7, owns_eq_unread c harg8, owns_eq_unread c harg9, owns_eq_unread c harg10, owns_eq_unread c harg11, owns_eq_unread c harg12, owns_eq_unread c harg13, owns_eq_unread c harg14, owns_eq_unread c harg15, owns_eq_unread c harg16, owns_eq_unread c harg17, owns_eq_unread c harg18, owns_eq_unread c harg19]
    unfold owns
    iintro ⟨H0, H1, H2, H3, H4, H5, H6, H7, H8, H9, H10, H11, H12, H13, H14, H15, H16, H17, ⟨%ds0, %fs0, -, HS0⟩, ⟨%ds1, %fs1, -, HS1⟩, Hk⟩
    sl_exec (disch := first | exact hc0 | exact hc1)
    sl_step
    iapply Hk
    iframe
    isplitl [HS0]; · iexists _; iexact HS0
    iexists _; iexact HS1

set_option maxHeartbeats 4000000 in
noncomputable def kernelRun0_B (hc0 : ¬cond0_0 i) (hc1 : ¬cond0_1 i)
    (x0 : Vec F S2048x768 .f32) (x1 : Vec F S2048 .i32) (x2 : Vec F S768x512 .bf16) (x3 : Vec F S512 .f32) (x4 : Vec F S512 .f32) (x5 : Vec F S512 .f32) (x6 : Vec F S512x512 .bf16) (x7 : Vec F S512 .f32) (x8 : Vec F S512 .f32) (x9 : Vec F S512 .f32) (x10 : Vec F S512x128 .bf16) (x11 : Vec F S128 .f32) (x12 : Vec F S128 .f32) (x13 : Vec F S128 .f32) (x14 : Vec F S128x32 .bf16) (x15 : Vec F S32 .f32) (xs0 : Vec F S64x32 .f32) (xs1 : Vec F S64x1 .f32) :
    Σ' (L16 : List (View.Piece (Elt F) S1x64x32 .f32)) (L17 : List (View.Piece (Elt F) S1x64x1 .f32)) (LS0 : List (View.Piece (Elt F) S64x32 .f32)), { LS1 : List (View.Piece (Elt F) S64x1 .f32) //
      ∀ (xi16 : Vec F S1x64x32 .f32) (xi17 : Vec F S1x64x1 .f32) (E : Set ℕ) (K : PUnit → sProp 𝕄),
        ins0 c arg2 arg3 arg4 arg5 arg6 arg7 arg8 arg9 arg10 arg11 arg12 arg13 arg14 arg15 arg16 arg17 x0 x1 x2 x3 x4 x5 x6 x7 x8 x9 x10 x11 x12 x13 x14 x15 iprop(owns (c : Thread nD τ) arg18 fullShare xi16 ∗ owns (c : Thread nD τ) arg19 fullShare xi17 ∗ owns (c : Thread nD τ) arg20 fullShare xs0 ∗ owns (c : Thread nD τ) arg21 fullShare xs1
            ∗ (ins0 c arg2 arg3 arg4 arg5 arg6 arg7 arg8 arg9 arg10 arg11 arg12 arg13 arg14 arg15 arg16 arg17 x0 x1 x2 x3 x4 x5 x6 x7 x8 x9 x10 x11 x12 x13 x14 x15 iprop(owns (c : Thread nD τ) arg18 fullShare xi16 ∗ owns (c : Thread nD τ) arg19 fullShare xi17 ∗ (∃ f, arg20.view.loc (c : Thread nD τ) ↦[arg20.view.set]{fullShare} arg20.view.writes (Elt F) f LS0) ∗ (∃ f, arg21.view.loc (c : Thread nD τ) ↦[arg21.view.set]{fullShare} arg21.view.writes (Elt F) f LS1)) -∗ K ⟨⟩))
          ⊢ wp frame (wpE (defs₀ (F := F)) Variants.none c none) E (cc0__support_proto_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K } := by
  refine ⟨[], [], ?_, ?_, fun xi16 xi17 E K => ?run⟩
  case run =>
    simp only [cc0__support_proto_kernel_eq_skeleton]; unfold cc0__support_proto_kernel_skel
    simp only [k0_part1_eq_skeleton, k0_part2_eq_skeleton, k0_part3_eq_skeleton]
    unfold ins0
    rw [owns_eq_unread c harg2, owns_eq_unread c harg3, owns_eq_unread c harg4, owns_eq_unread c harg5, owns_eq_unread c harg6, owns_eq_unread c harg7, owns_eq_unread c harg8, owns_eq_unread c harg9, owns_eq_unread c harg10, owns_eq_unread c harg11, owns_eq_unread c harg12, owns_eq_unread c harg13, owns_eq_unread c harg14, owns_eq_unread c harg15, owns_eq_unread c harg16, owns_eq_unread c harg17, owns_eq_unread c harg18, owns_eq_unread c harg19, owns_eq_unread c harg20, owns_eq_unread c harg21]
    iintro ⟨H0, H1, H2, H3, H4, H5, H6, H7, H8, H9, H10, H11, H12, H13, H14, H15, H16, H17, HS0, HS1, Hk⟩
    sl_exec (disch := first | exact hc0 | exact hc1)
    sl_step
    iapply Hk
    iframe
    isplitl [HS0]; · iexists _; iexact HS0
    iexists _; iexact HS1

set_option maxHeartbeats 4000000 in
noncomputable def kernelRun0_C (hc0 : ¬cond0_0 i) (hc1 : cond0_1 i)
    (x0 : Vec F S2048x768 .f32) (x1 : Vec F S2048 .i32) (x2 : Vec F S768x512 .bf16) (x3 : Vec F S512 .f32) (x4 : Vec F S512 .f32) (x5 : Vec F S512 .f32) (x6 : Vec F S512x512 .bf16) (x7 : Vec F S512 .f32) (x8 : Vec F S512 .f32) (x9 : Vec F S512 .f32) (x10 : Vec F S512x128 .bf16) (x11 : Vec F S128 .f32) (x12 : Vec F S128 .f32) (x13 : Vec F S128 .f32) (x14 : Vec F S128x32 .bf16) (x15 : Vec F S32 .f32) (xs0 : Vec F S64x32 .f32) (xs1 : Vec F S64x1 .f32) :
    Σ' (L16 : List (View.Piece (Elt F) S1x64x32 .f32)) (L17 : List (View.Piece (Elt F) S1x64x1 .f32)) (LS0 : List (View.Piece (Elt F) S64x32 .f32)), { LS1 : List (View.Piece (Elt F) S64x1 .f32) //
      ∀ (E : Set ℕ) (K : PUnit → sProp 𝕄),
        ins0 c arg2 arg3 arg4 arg5 arg6 arg7 arg8 arg9 arg10 arg11 arg12 arg13 arg14 arg15 arg16 arg17 x0 x1 x2 x3 x4 x5 x6 x7 x8 x9 x10 x11 x12 x13 x14 x15 iprop((∃ d, owns (c : Thread nD τ) arg18 fullShare d) ∗ (∃ d, owns (c : Thread nD τ) arg19 fullShare d) ∗ owns (c : Thread nD τ) arg20 fullShare xs0 ∗ owns (c : Thread nD τ) arg21 fullShare xs1
            ∗ (ins0 c arg2 arg3 arg4 arg5 arg6 arg7 arg8 arg9 arg10 arg11 arg12 arg13 arg14 arg15 arg16 arg17 x0 x1 x2 x3 x4 x5 x6 x7 x8 x9 x10 x11 x12 x13 x14 x15 iprop((∃ f, arg18.view.loc (c : Thread nD τ) ↦[arg18.view.set]{fullShare} arg18.view.writes (Elt F) f L16) ∗ (∃ f, arg19.view.loc (c : Thread nD τ) ↦[arg19.view.set]{fullShare} arg19.view.writes (Elt F) f L17) ∗ (∃ f, arg20.view.loc (c : Thread nD τ) ↦[arg20.view.set]{fullShare} arg20.view.writes (Elt F) f LS0) ∗ (∃ f, arg21.view.loc (c : Thread nD τ) ↦[arg21.view.set]{fullShare} arg21.view.writes (Elt F) f LS1)) -∗ K ⟨⟩))
          ⊢ wp frame (wpE (defs₀ (F := F)) Variants.none c none) E (cc0__support_proto_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K } := by
  refine ⟨?_, ?_, ?_, ?_, fun E K => ?run⟩
  case run =>
    simp only [cc0__support_proto_kernel_eq_skeleton]; unfold cc0__support_proto_kernel_skel
    simp only [k0_part1_eq_skeleton, k0_part2_eq_skeleton, k0_part3_eq_skeleton]
    unfold ins0
    rw [owns_eq_unread c harg2, owns_eq_unread c harg3, owns_eq_unread c harg4, owns_eq_unread c harg5, owns_eq_unread c harg6, owns_eq_unread c harg7, owns_eq_unread c harg8, owns_eq_unread c harg9, owns_eq_unread c harg10, owns_eq_unread c harg11, owns_eq_unread c harg12, owns_eq_unread c harg13, owns_eq_unread c harg14, owns_eq_unread c harg15, owns_eq_unread c harg16, owns_eq_unread c harg17, owns_eq_unread c harg20, owns_eq_unread c harg21]
    unfold owns
    iintro ⟨H0, H1, H2, H3, H4, H5, H6, H7, H8, H9, H10, H11, H12, H13, H14, H15, ⟨%d16, %f16, -, H16⟩, ⟨%d17, %f17, -, H17⟩, HS0, HS1, Hk⟩
    sl_exec (disch := first | exact hc0 | exact hc1)
    sl_step
    iapply Hk
    iframe
    isplitl [H16]; · iexists _; iexact H16
    isplitl [H17]; · iexists _; iexact H17
    isplitl [HS0]; · iexists _; iexact HS0
    iexists _; iexact HS1

end Cert.KernelIdeal.Hand

end
-- ==== Proof.K0Data.lean ====
import proofs.«407301_j76149770158544_3_alg».proof.Proof.K0RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

def runA (c : Dev nD) (t : Fin cfg0.N) (h0 : t.val % 8 = 0) (h1 : ¬t.val % 8 = 7) :=
  kernelRun0_A (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) scM0_1 (Memref.isWhole_whole _) ((hcond0_0 t).mpr h0) (fun h => h1 ((hcond0_1 t).mp h)) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t) (iblk0 V c 15 t)
def runB (c : Dev nD) (t : Fin cfg0.N) (h0 : ¬t.val % 8 = 0) (h1 : ¬t.val % 8 = 7) (xs0 : Vec F S64x32 .f32) (xs1 : Vec F S64x1 .f32) :=
  kernelRun0_B (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t) (iblk0 V c 15 t) xs0 xs1
def runC (c : Dev nD) (t : Fin cfg0.N) (h0 : ¬t.val % 8 = 0) (h1 : t.val % 8 = 7) (xs0 : Vec F S64x32 .f32) (xs1 : Vec F S64x1 .f32) :=
  kernelRun0_C (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t) (iblk0 V c 15 t) xs0 xs1

theorem scoverA_0 (c : Dev nD) (t : Fin cfg0.N) (h0 : t.val % 8 = 0) (h1 : ¬t.val % 8 = 7) (y : S64x32.Idx) :
    ∃ pc ∈ (runA V c t h0 h1).2.2.1, y ∈ pc.1.set :=
  View.cover_of_tiledL (runA V c t h0 h1).2.2.1 S64x32.size (by sl_kernel_rfl) y
theorem scoverA_1 (c : Dev nD) (t : Fin cfg0.N) (h0 : t.val % 8 = 0) (h1 : ¬t.val % 8 = 7) (y : S64x1.Idx) :
    ∃ pc ∈ (runA V c t h0 h1).2.2.2.1, y ∈ pc.1.set :=
  View.cover_of_tiledL (runA V c t h0 h1).2.2.2.1 S64x1.size (by sl_kernel_rfl) y
theorem scoverB_0 (c : Dev nD) (t : Fin cfg0.N) (h0 : ¬t.val % 8 = 0) (h1 : ¬t.val % 8 = 7) (xs0 : Vec F S64x32 .f32) (xs1 : Vec F S64x1 .f32) (y : S64x32.Idx) :
    ∃ pc ∈ (runB V c t h0 h1 xs0 xs1).2.2.1, y ∈ pc.1.set :=
  View.cover_of_tiledL (runB V c t h0 h1 xs0 xs1).2.2.1 S64x32.size (by sl_kernel_rfl) y
theorem scoverB_1 (c : Dev nD) (t : Fin cfg0.N) (h0 : ¬t.val % 8 = 0) (h1 : ¬t.val % 8 = 7) (xs0 : Vec F S64x32 .f32) (xs1 : Vec F S64x1 .f32) (y : S64x1.Idx) :
    ∃ pc ∈ (runB V c t h0 h1 xs0 xs1).2.2.2.1, y ∈ pc.1.set :=
  View.cover_of_tiledL (runB V c t h0 h1 xs0 xs1).2.2.2.1 S64x1.size (by sl_kernel_rfl) y
theorem scoverC_0 (c : Dev nD) (t : Fin cfg0.N) (h0 : ¬t.val % 8 = 0) (h1 : t.val % 8 = 7) (xs0 : Vec F S64x32 .f32) (xs1 : Vec F S64x1 .f32) (y : S64x32.Idx) :
    ∃ pc ∈ (runC V c t h0 h1 xs0 xs1).2.2.1, y ∈ pc.1.set :=
  View.cover_of_tiledL (runC V c t h0 h1 xs0 xs1).2.2.1 S64x32.size (by sl_kernel_rfl) y
theorem scoverC_1 (c : Dev nD) (t : Fin cfg0.N) (h0 : ¬t.val % 8 = 0) (h1 : t.val % 8 = 7) (xs0 : Vec F S64x32 .f32) (xs1 : Vec F S64x1 .f32) (y : S64x1.Idx) :
    ∃ pc ∈ (runC V c t h0 h1 xs0 xs1).2.2.2.1, y ∈ pc.1.set :=
  View.cover_of_tiledL (runC V c t h0 h1 xs0 xs1).2.2.2.1 S64x1.size (by sl_kernel_rfl) y
theorem coverC_16 (c : Dev nD) (t : Fin cfg0.N) (h0 : ¬t.val % 8 = 0) (h1 : t.val % 8 = 7) (xs0 : Vec F S64x32 .f32) (xs1 : Vec F S64x1 .f32) (y : S1x64x32.Idx) :
    ∃ pc ∈ (runC V c t h0 h1 xs0 xs1).1, y ∈ pc.1.set :=
  View.cover_of_tiledL (runC V c t h0 h1 xs0 xs1).1 S1x64x32.size (by sl_kernel_rfl) y
theorem coverC_17 (c : Dev nD) (t : Fin cfg0.N) (h0 : ¬t.val % 8 = 0) (h1 : t.val % 8 = 7) (xs0 : Vec F S64x32 .f32) (xs1 : Vec F S64x1 .f32) (y : S1x64x1.Idx) :
    ∃ pc ∈ (runC V c t h0 h1 xs0 xs1).2.1, y ∈ pc.1.set :=
  View.cover_of_tiledL (runC V c t h0 h1 xs0 xs1).2.1 S1x64x1.size (by sl_kernel_rfl) y

abbrev rd16 (L : List (View.Piece (Elt F) S1x64x32 .f32)) : Vec F S1x64x32 .f32 := VO0_16.read (Elt F) (VO0_16.writes (Elt F) VO0_16.junk L)
abbrev rd17 (L : List (View.Piece (Elt F) S1x64x1 .f32)) : Vec F S1x64x1 .f32 := VO0_17.read (Elt F) (VO0_17.writes (Elt F) VO0_17.junk L)
abbrev rdS0 (L : List (View.Piece (Elt F) S64x32 .f32)) : Vec F S64x32 .f32 := VS0_0.read (Elt F) (VS0_0.writes (Elt F) VS0_0.junk L)
abbrev rdS1 (L : List (View.Piece (Elt F) S64x1 .f32)) : Vec F S64x1 .f32 := VS0_1.read (Elt F) (VS0_1.writes (Elt F) VS0_1.junk L)

abbrev Four : Type := Vec F S1x64x32 .f32 × Vec F S1x64x1 .f32 × Vec F S64x32 .f32 × Vec F S64x1 .f32
def leftA (c : Dev nD) (t : Fin cfg0.N) (h0 : t.val % 8 = 0) (h1 : ¬t.val % 8 = 7) : Four (F := F) :=
  (rd16 (runA V c t h0 h1).1, rd17 (runA V c t h0 h1).2.1, rdS0 (runA V c t h0 h1).2.2.1, rdS1 (runA V c t h0 h1).2.2.2.1)
def leftB (c : Dev nD) (t : Fin cfg0.N) (h0 : ¬t.val % 8 = 0) (h1 : ¬t.val % 8 = 7) (xs0 : Vec F S64x32 .f32) (xs1 : Vec F S64x1 .f32) : Four (F := F) :=
  (rd16 (runB V c t h0 h1 xs0 xs1).1, rd17 (runB V c t h0 h1 xs0 xs1).2.1, rdS0 (runB V c t h0 h1 xs0 xs1).2.2.1, rdS1 (runB V c t h0 h1 xs0 xs1).2.2.2.1)
def leftC (c : Dev nD) (t : Fin cfg0.N) (h0 : ¬t.val % 8 = 0) (h1 : t.val % 8 = 7) (xs0 : Vec F S64x32 .f32) (xs1 : Vec F S64x1 .f32) : Four (F := F) :=
  (rd16 (runC V c t h0 h1 xs0 xs1).1, rd17 (runC V c t h0 h1 xs0 xs1).2.1, rdS0 (runC V c t h0 h1 xs0 xs1).2.2.1, rdS1 (runC V c t h0 h1 xs0 xs1).2.2.2.1)

-- The accumulation, by recursion on the point: a first tile starts afresh, a later tile adds to what the point before left.
def accAt0 (c : Dev nD) : (n : ℕ) → n < cfg0.N → Four (F := F)
  | 0, hn => leftA V c ⟨0, hn⟩ (Nat.zero_mod _) (by simp)
  | n + 1, hn =>
    if h0 : (n + 1) % 8 = 0 then
      if h1 : (n + 1) % 8 = 7 then False.elim (by omega)
      else leftA V c ⟨n + 1, hn⟩ h0 h1
    else
      if h1 : (n + 1) % 8 = 7 then
        leftC V c ⟨n + 1, hn⟩ h0 h1 (accAt0 c n (Nat.lt_of_succ_lt hn)).2.2.1 (accAt0 c n (Nat.lt_of_succ_lt hn)).2.2.2
      else
        leftB V c ⟨n + 1, hn⟩ h0 h1 (accAt0 c n (Nat.lt_of_succ_lt hn)).2.2.1 (accAt0 c n (Nat.lt_of_succ_lt hn)).2.2.2
theorem accAt0_A (c : Dev nD) (t : Fin cfg0.N) (h0 : t.val % 8 = 0) (h1 : ¬t.val % 8 = 7) :
    accAt0 V c t.val t.isLt = leftA V c t h0 h1 := by
  obtain ⟨n, hn⟩ := t
  cases n with
  | zero => exact rfl
  | succ n => exact (dif_pos h0).trans ((dif_neg h1).trans rfl)
theorem accAt0_B (c : Dev nD) (t : Fin cfg0.N) (h0 : ¬t.val % 8 = 0) (h1 : ¬t.val % 8 = 7) :
    accAt0 V c t.val t.isLt = leftB V c t h0 h1 (accAt0 V c (t.val - 1) (Nat.lt_of_le_of_lt (Nat.sub_le _ _) t.isLt)).2.2.1 (accAt0 V c (t.val - 1) (Nat.lt_of_le_of_lt (Nat.sub_le _ _) t.isLt)).2.2.2 := by
  obtain ⟨n, hn⟩ := t
  cases n with
  | zero => exact (by exfalso; (try dsimp only at h0); exact absurd (Nat.zero_mod _) h0)
  | succ n => exact (dif_neg h0).trans ((dif_neg h1).trans rfl)
theorem accAt0_C (c : Dev nD) (t : Fin cfg0.N) (h0 : ¬t.val % 8 = 0) (h1 : t.val % 8 = 7) :
    accAt0 V c t.val t.isLt = leftC V c t h0 h1 (accAt0 V c (t.val - 1) (Nat.lt_of_le_of_lt (Nat.sub_le _ _) t.isLt)).2.2.1 (accAt0 V c (t.val - 1) (Nat.lt_of_le_of_lt (Nat.sub_le _ _) t.isLt)).2.2.2 := by
  obtain ⟨n, hn⟩ := t
  cases n with
  | zero => exact (by exfalso; (try dsimp only at h0); exact absurd (Nat.zero_mod _) h0)
  | succ n => exact (dif_neg h0).trans ((dif_pos h1).trans rfl)

-- The invariant once a point has run: the accumulators at `a`'s last two components.
abbrev inv0 (c : Dev nD) (a : Four (F := F)) : sProp 𝕄 :=
  iprop(iprop(owns (c : Thread nD τ) scM0_0 fullShare a.2.2.1 ∗ owns (c : Thread nD τ) scM0_1 fullShare a.2.2.2 ∗ rest0 c) ∗ (∃ r, prngReg c r))

def PhiS (c : Dev nD) : (n : ℕ) → n ≤ cfg0.N → sProp 𝕄
  | 0, _ => Pipeline.ΦA spec0 c
  | n + 1, hn => inv0 c (accAt0 V c n hn)

theorem PhiS_pos (c : Dev nD) (n : ℕ) (h : n ≤ cfg0.N) (hz : n ≠ 0) : PhiS V c n h = inv0 c (accAt0 V c (n - 1) (by omega)) := by
  cases n with
  | zero => exact absurd rfl hz
  | succ n => rfl

-- At every position the invariant gives the resting one back: the accumulators' contents are forgotten.
theorem PhiS_le (c : Dev nD) (n : ℕ) (h : n ≤ cfg0.N) : PhiS V c n h
    ⊢ iprop(iprop((∃ d, owns (c : Thread nD τ) scM0_0 fullShare d) ∗ (∃ d, owns (c : Thread nD τ) scM0_1 fullShare d) ∗ rest0 c) ∗ (∃ r, prngReg c r)) := by
  cases n with
  | zero => rw [← PhiA0_eq]; exact .rfl
  | succ n =>
    show inv0 c (accAt0 V c n h) ⊢ _
    iintro ⟨⟨HS0, HS1, HR⟩, Hg⟩
    iframe
    isplitl [HS0] <;> (iexists _; iassumption)

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => iblk0 V c 9 t
    | ⟨10, _⟩ => iblk0 V c 10 t
    | ⟨11, _⟩ => iblk0 V c 11 t
    | ⟨12, _⟩ => iblk0 V c 12 t
    | ⟨13, _⟩ => iblk0 V c 13 t
    | ⟨14, _⟩ => iblk0 V c 14 t
    | ⟨15, _⟩ => iblk0 V c 15 t
    | ⟨16, _⟩ => (accAt0 V c t.val t.isLt).1
    | ⟨17, _⟩ => (accAt0 V c t.val t.isLt).2.1
    | ⟨_ + 18, h⟩ => absurd h (Nat.not_lt.2 (Nat.le_add_left _ _))
  Φ t := PhiS V c t.val (Nat.le_of_lt_succ t.isLt)
  q _ := fullShare
  owed _ := 0

theorem A_eq0 (c : Dev nD) (w : Fin cfg0.W) : (dat0 V c).A w = V c (Pipeline.arrRef spec0 w) := rfl
theorem after0_16 (c : Dev nD) (t : Fin cfg0.N) : (dat0 V c).after 16 t = (accAt0 V c t.val t.isLt).1 := rfl
theorem after0_17 (c : Dev nD) (t : Fin cfg0.N) : (dat0 V c).after 17 t = (accAt0 V c t.val t.isLt).2.1 := rfl
theorem before0_0 (c : Dev nD) (t : Fin cfg0.N) (d) : (dat0 V c).before 0 t d = iblk0 V c 0 t :=
  ((dat0 V c).before_in_eq_fetched 0 rfl (fun _ => rfl) (fun _ _ _ => rfl) (fun _ => rfl) t d).trans rfl
theorem before0_1 (c : Dev nD) (t : Fin cfg0.N) (d) : (dat0 V c).before 1 t d = iblk0 V c 1 t :=
  ((dat0 V c).before_in_eq_fetched 1 rfl (fun _ => rfl) (fun _ _ _ => rfl) (fun _ => rfl) t d).trans rfl
theorem before0_2 (c : Dev nD) (t : Fin cfg0.N) (d) : (dat0 V c).before 2 t d = iblk0 V c 2 t :=
  ((dat0 V c).before_in_eq_fetched 2 rfl (fun _ => rfl) (fun _ _ _ => rfl) (fun _ => rfl) t d).trans rfl
theorem before0_3 (c : Dev nD) (t : Fin cfg0.N) (d) : (dat0 V c).before 3 t d = iblk0 V c 3 t :=
  ((dat0 V c).before_in_eq_fetched 3 rfl (fun _ => rfl) (fun _ _ _ => rfl) (fun _ => rfl) t d).trans rfl
theorem before0_4 (c : Dev nD) (t : Fin cfg0.N) (d) : (dat0 V c).before 4 t d = iblk0 V c 4 t :=
  ((dat0 V c).before_in_eq_fetched 4 rfl (fun _ => rfl) (fun _ _ _ => rfl) (fun _ => rfl) t d).trans rfl
theorem before0_5 (c : Dev nD) (t : Fin cfg0.N) (d) : (dat0 V c).before 5 t d = iblk0 V c 5 t :=
  ((dat0 V c).before_in_eq_fetched 5 rfl (fun _ => rfl) (fun _ _ _ => rfl) (fun _ => rfl) t d).trans rfl
theorem before0_6 (c : Dev nD) (t : Fin cfg0.N) (d) : (dat0 V c).before 6 t d = iblk0 V c 6 t :=
  ((dat0 V c).before_in_eq_fetched 6 rfl (fun _ => rfl) (fun _ _ _ => rfl) (fun _ => rfl) t d).trans rfl
theorem before0_7 (c : Dev nD) (t : Fin cfg0.N) (d) : (dat0 V c).before 7 t d = iblk0 V c 7 t :=
  ((dat0 V c).before_in_eq_fetched 7 rfl (fun _ => rfl) (fun _ _ _ => rfl) (fun _ => rfl) t d).trans rfl
theorem before0_8 (c : Dev nD) (t : Fin cfg0.N) (d) : (dat0 V c).before 8 t d = iblk0 V c 8 t :=
  ((dat0 V c).before_in_eq_fetched 8 rfl (fun _ => rfl) (fun _ _ _ => rfl) (fun _ => rfl) t d).trans rfl
theorem before0_9 (c : Dev nD) (t : Fin cfg0.N) (d) : (dat0 V c).before 9 t d = iblk0 V c 9 t :=
  ((dat0 V c).before_in_eq_fetched 9 rfl (fun _ => rfl) (fun _ _ _ => rfl) (fun _ => rfl) t d).trans rfl
theorem before0_10 (c : Dev nD) (t : Fin cfg0.N) (d) : (dat0 V c).before 10 t d = iblk0 V c 10 t :=
  ((dat0 V c).before_in_eq_fetched 10 rfl (fun _ => rfl) (fun _ _ _ => rfl) (fun _ => rfl) t d).trans rfl
theorem before0_11 (c : Dev nD) (t : Fin cfg0.N) (d) : (dat0 V c).before 11 t d = iblk0 V c 11 t :=
  ((dat0 V c).before_in_eq_fetched 11 rfl (fun _ => rfl) (fun _ _ _ => rfl) (fun _ => rfl) t d).trans rfl
theorem before0_12 (c : Dev nD) (t : Fin cfg0.N) (d) : (dat0 V c).before 12 t d = iblk0 V c 12 t :=
  ((dat0 V c).before_in_eq_fetched 12 rfl (fun _ => rfl) (fun _ _ _ => rfl) (fun _ => rfl) t d).trans rfl
theorem before0_13 (c : Dev nD) (t : Fin cfg0.N) (d) : (dat0 V c).before 13 t d = iblk0 V c 13 t :=
  ((dat0 V c).before_in_eq_fetched 13 rfl (fun _ => rfl) (fun _ _ _ => rfl) (fun _ => rfl) t d).trans rfl
theorem before0_14 (c : Dev nD) (t : Fin cfg0.N) (d) : (dat0 V c).before 14 t d = iblk0 V c 14 t :=
  ((dat0 V c).before_in_eq_fetched 14 rfl (fun _ => rfl) (fun _ _ _ => rfl) (fun _ => rfl) t d).trans rfl
theorem before0_15 (c : Dev nD) (t : Fin cfg0.N) (d) : (dat0 V c).before 15 t d = iblk0 V c 15 t :=
  ((dat0 V c).before_in_eq_fetched 15 rfl (fun _ => rfl) (fun _ _ _ => rfl) (fun _ => rfl) t d).trans rfl

end Cert.KernelIdeal.Hand

end
-- ==== Proof.K0Body.lean ====
import proofs.«407301_j76149770158544_3_alg».proof.Proof.K0Data

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def bodyPre0 (c : Dev nD) (t : Fin cfg0.N) : sProp 𝕄 :=
  iprop(PhiS V c t.val (Nat.le_of_lt t.isLt) ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d))
    ∗ (∃ d, owns (c : Thread nD τ) (ms0_7 t) fullShare ((dat0 V c).before 7 t d))
    ∗ (∃ d, owns (c : Thread nD τ) (ms0_8 t) fullShare ((dat0 V c).before 8 t d))
    ∗ (∃ d, owns (c : Thread nD τ) (ms0_9 t) fullShare ((dat0 V c).before 9 t d))
    ∗ (∃ d, owns (c : Thread nD τ) (ms0_10 t) fullShare ((dat0 V c).before 10 t d))
    ∗ (∃ d, owns (c : Thread nD τ) (ms0_11 t) fullShare ((dat0 V c).before 11 t d))
    ∗ (∃ d, owns (c : Thread nD τ) (ms0_12 t) fullShare ((dat0 V c).before 12 t d))
    ∗ (∃ d, owns (c : Thread nD τ) (ms0_13 t) fullShare ((dat0 V c).before 13 t d))
    ∗ (∃ d, owns (c : Thread nD τ) (ms0_14 t) fullShare ((dat0 V c).before 14 t d))
    ∗ (∃ d, owns (c : Thread nD τ) (ms0_15 t) fullShare ((dat0 V c).before 15 t d))
    ∗ (∃ d, owns (c : Thread nD τ) (ms0_16 t) fullShare ((dat0 V c).before 16 t d))
    ∗ (∃ d, owns (c : Thread nD τ) (ms0_17 t) fullShare ((dat0 V c).before 17 t d)))

def bodyPost0 (c : Dev nD) (t : Fin cfg0.N) : sProp 𝕄 :=
  iprop(inv0 c (accAt0 V c t.val t.isLt) ∗ (dat0 V c).owesAt () t.castSucc
    ∗ owns (c : Thread nD τ) (ms0_0 t) fullShare (iblk0 V c 0 t)
    ∗ owns (c : Thread nD τ) (ms0_1 t) fullShare (iblk0 V c 1 t)
    ∗ owns (c : Thread nD τ) (ms0_2 t) fullShare (iblk0 V c 2 t)
    ∗ owns (c : Thread nD τ) (ms0_3 t) fullShare (iblk0 V c 3 t)
    ∗ owns (c : Thread nD τ) (ms0_4 t) fullShare (iblk0 V c 4 t)
    ∗ owns (c : Thread nD τ) (ms0_5 t) fullShare (iblk0 V c 5 t)
    ∗ owns (c : Thread nD τ) (ms0_6 t) fullShare (iblk0 V c 6 t)
    ∗ owns (c : Thread nD τ) (ms0_7 t) fullShare (iblk0 V c 7 t)
    ∗ owns (c : Thread nD τ) (ms0_8 t) fullShare (iblk0 V c 8 t)
    ∗ owns (c : Thread nD τ) (ms0_9 t) fullShare (iblk0 V c 9 t)
    ∗ owns (c : Thread nD τ) (ms0_10 t) fullShare (iblk0 V c 10 t)
    ∗ owns (c : Thread nD τ) (ms0_11 t) fullShare (iblk0 V c 11 t)
    ∗ owns (c : Thread nD τ) (ms0_12 t) fullShare (iblk0 V c 12 t)
    ∗ owns (c : Thread nD τ) (ms0_13 t) fullShare (iblk0 V c 13 t)
    ∗ owns (c : Thread nD τ) (ms0_14 t) fullShare (iblk0 V c 14 t)
    ∗ owns (c : Thread nD τ) (ms0_15 t) fullShare (iblk0 V c 15 t)
    ∗ (dat0 V c).leavesExact 16 t ∗ (dat0 V c).leavesExact 17 t)

set_option maxHeartbeats 8000000 in
-- At a point the closed forms of the two conditions select the control case; its run takes the accumulators from the point before and hands every buffer back at the point's contents.
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7, before0_8, before0_9, before0_10, before0_11, before0_12, before0_13, before0_14, before0_15]
  by_cases h0 : t.val % 8 = 0
  · have h1 : ¬t.val % 8 = 7 := by omega
    rw [Dat.leavesExact_idle (dat0 V c) 16 t (idle0 t h1).1.1 (idle0 t h1).1.2, Dat.leavesExact_idle (dat0 V c) 17 t (idle0 t h1).2.1 (idle0 t h1).2.2, accAt0_A V c t h0 h1]
    unfold leftA inv0; dsimp only
    refine (sep_mono_left (PhiS_le V c _ _)).trans ?_
    have hrun := (runA V c t h0 h1).2.2.2.2; unfold ins0 at hrun
    iintro ⟨⟨⟨HS0, HS1, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩⟩
    iapply (hrun _ _ Set.univ _)
    iframe
    iintro ⟨H0, H1, H2, H3, H4, H5, H6, H7, H8, H9, H10, H11, H12, H13, H14, H15, H16, H17, HS0, HS1⟩
    ihave HS0 := owns_writes c scM0_0 VS0_0 _ (scoverA_0 V c t h0 h1) $$ HS0
    ihave HS1 := owns_writes c scM0_1 VS0_1 _ (scoverA_1 V c t h0 h1) $$ HS1
    iframe
    isplitl [H16]; · iexists _; iexact H16
    iexists _; iexact H17
  · have hz : t.val ≠ 0 := fun e => h0 (by rw [e])
    by_cases h1 : t.val % 8 = 7
    · rw [show (dat0 V c).leavesExact 16 t = owns (c : Thread nD τ) (ms0_16 t) fullShare ((dat0 V c).after 16 t) from by
          unfold Dat.leavesExact; rw [(live0 t h1).1],
        show (dat0 V c).leavesExact 17 t = owns (c : Thread nD τ) (ms0_17 t) fullShare ((dat0 V c).after 17 t) from by
          unfold Dat.leavesExact; rw [(live0 t h1).2],
        after0_16, after0_17, accAt0_C V c t h0 h1, PhiS_pos V c _ _ hz]
      unfold leftC inv0; dsimp only
      have hrun := fun xs0 xs1 => (runC V c t h0 h1 xs0 xs1).2.2.2.2; unfold ins0 at hrun
      iintro ⟨⟨⟨HS0, HS1, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩⟩
      iapply (hrun _ _ Set.univ _)
      iframe
      isplitl [H16]; · iexists _; iexact H16
      isplitl [H17]; · iexists _; iexact H17
      iintro ⟨H0, H1, H2, H3, H4, H5, H6, H7, H8, H9, H10, H11, H12, H13, H14, H15, H16, H17, HS0, HS1⟩
      ihave H16 := owns_writes c (ms0_16 t) VO0_16 _ (coverC_16 V c t h0 h1 _ _) $$ H16
      ihave H17 := owns_writes c (ms0_17 t) VO0_17 _ (coverC_17 V c t h0 h1 _ _) $$ H17
      ihave HS0 := owns_writes c scM0_0 VS0_0 _ (scoverC_0 V c t h0 h1 _ _) $$ HS0
      ihave HS1 := owns_writes c scM0_1 VS0_1 _ (scoverC_1 V c t h0 h1 _ _) $$ HS1
      iframe
    · rw [Dat.leavesExact_idle (dat0 V c) 16 t (idle0 t h1).1.1 (idle0 t h1).1.2, Dat.leavesExact_idle (dat0 V c) 17 t (idle0 t h1).2.1 (idle0 t h1).2.2, accAt0_B V c t h0 h1, PhiS_pos V c _ _ hz]
      unfold leftB inv0; dsimp only
      have hrun := fun xs0 xs1 => (runB V c t h0 h1 xs0 xs1).2.2.2.2; unfold ins0 at hrun
      iintro ⟨⟨⟨HS0, HS1, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩⟩
      iapply (hrun _ _ _ _ Set.univ _)
      iframe
      iintro ⟨H0, H1, H2, H3, H4, H5, H6, H7, H8, H9, H10, H11, H12, H13, H14, H15, H16, H17, HS0, HS1⟩
      ihave HS0 := owns_writes c scM0_0 VS0_0 _ (scoverB_0 V c t h0 h1 _ _) $$ HS0
      ihave HS1 := owns_writes c scM0_1 VS0_1 _ (scoverB_1 V c t h0 h1 _ _) $$ HS1
      iframe
      isplitl [H16]; · iexists _; iexact H16
      iexists _; iexact H17

theorem body_obligation0 (c : Dev nD) : BodyObligation (dat0 (F := F) V c) (defs₀ (F := F)) Variants.none () Set.univ := fun t => by
  rw [bigSep_W0, bigSep_W0]
  exact sound_body0 V c t

theorem hout0 (c : Dev nD) : (dat0 V c).Φ (Fin.last cfg0.N) ⊢ Pipeline.ΦA spec0 c := by
  rw [PhiA0_eq]; exact PhiS_le V c (Fin.last cfg0.N).val (Nat.le_of_lt_succ (Fin.last cfg0.N).isLt)

end Cert.KernelIdeal.Hand

end
-- ==== Proof.R1.lean ====
import proofs.«407301_j76149770158544_3_alg».proof.Proof.Gen.KernelIdeal.Launch
import proofs.«407301_j76149770158544_3_alg».proof.Proof.Gen.KernelIdeal.Skeleton
import proofs.«407301_j76149770158544_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1
variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev r1_0 : Rect S2048x768 := Rect.unit (s := S2048x768) ![0, 0] S2048x768.size inb_S2048x768_S2048x768_0_0
abbrev r1_1 : Rect S768x512 := Rect.unit (s := S768x512) ![0, 0] S768x512.size inb_S768x512_S768x512_0_0
abbrev r1_2 : Rect S512 := Rect.unit (s := S512) ![0] S512.size inb_S512_S512_0
abbrev r1_3 : Rect S512x512 := Rect.unit (s := S512x512) ![0, 0] S512x512.size inb_S512x512_S512x512_0_0
abbrev r1_4 : Rect S512x128 := Rect.unit (s := S512x128) ![0, 0] S512x128.size inb_S512x128_S512x128_0_0
abbrev r1_5 : Rect S128 := Rect.unit (s := S128) ![0] S128.size inb_S128_S128_0
abbrev r1_6 : Rect S128x32 := Rect.unit (s := S128x32) ![0, 0] S128x32.size inb_S128x32_S128x32_0_0
abbrev r1_7 : Rect S32 := Rect.unit (s := S32) ![0] S32.size inb_S32_S32_0
abbrev r1_8 : Rect S32x64 := Rect.unit (s := S32x64) ![0, 0] S32x64.size inb_S32x64_S32x64_0_0
abbrev r1_9 : Rect S1x64 := Rect.unit (s := S1x64) ![0, 0] S1x64.size inb_S1x64_S1x64_0_0
abbrev r1_10 : Rect S2048x64 := Rect.unit (s := S2048x64) ![0, 0] S2048x64.size inb_S2048x64_S2048x64_0_0
theorem off0_1 : (![0] : Fin 1 → ℕ) = fun _ => 0 := funext fun a => by fin_cases a <;> rfl
theorem off0_2 : (![0, 0] : Fin 2 → ℕ) = fun _ => 0 := funext fun a => by fin_cases a <;> rfl

def k1_val (x0 : Vec F S2048x768 .f32) (x1 : Vec F S768x512 .bf16) (x2 : Vec F S512 .f32) (x3 : Vec F S512 .f32) (x4 : Vec F S512 .f32) (x5 : Vec F S512x512 .bf16) (x6 : Vec F S512 .f32) (x7 : Vec F S512 .f32) (x8 : Vec F S512 .f32) (x9 : Vec F S512x128 .bf16) (x10 : Vec F S128 .f32) (x11 : Vec F S128 .f32) (x12 : Vec F S128 .f32) (x13 : Vec F S128x32 .bf16) (x14 : Vec F S32 .f32) (x15 : Vec F S32x64 .bf16) (x16 : Vec F S1x64 .f32) : FVec F S2048x64 .f32 :=
  k1_pay1
    (k1_pay6 (k1_pay3 (k1_pay2 x0 x1 x2 x3 x4 x5) x6 x7 x8 x9 x10) x11 x12 (k1_pay4 (k1_pay2 x0 x1 x2 x3 x4 x5) x6 x7 x8 x9 x10) (Scalar.ofBits .f32 0x43000000#32) x13 x14 x15)
    (k1_pay7 (k1_pay3 (k1_pay2 x0 x1 x2 x3 x4 x5) x6 x7 x8 x9 x10) x11 x12 (k1_pay4 (k1_pay2 x0 x1 x2 x3 x4 x5) x6 x7 x8 x9 x10) (Scalar.ofBits .f32 0x43000000#32) x13 x14 x16)
    (k1_pay8 (F := F))

def out1_17 (x0 : Vec F S2048x768 .f32) (x1 : Vec F S768x512 .bf16) (x2 : Vec F S512 .f32) (x3 : Vec F S512 .f32) (x4 : Vec F S512 .f32) (x5 : Vec F S512x512 .bf16) (x6 : Vec F S512 .f32) (x7 : Vec F S512 .f32) (x8 : Vec F S512 .f32) (x9 : Vec F S512x128 .bf16) (x10 : Vec F S128 .f32) (x11 : Vec F S128 .f32) (x12 : Vec F S128 .f32) (x13 : Vec F S128x32 .bf16) (x14 : Vec F S32 .f32) (x15 : Vec F S32x64 .bf16) (x16 : Vec F S1x64 .f32) : Vec F S2048x64 .f32 :=
  View.canon [⟨r1_10, k1_val (View.ld x0 r1_0) (View.ld x1 r1_1) (View.ld x2 r1_2) (View.ld x3 r1_2) (View.ld x4 r1_2) (View.ld x5 r1_3) (View.ld x6 r1_2) (View.ld x7 r1_2) (View.ld x8 r1_2) (View.ld x9 r1_4) (View.ld x10 r1_5) (View.ld x11 r1_5) (View.ld x12 r1_5) (View.ld x13 r1_6) (View.ld x14 r1_7) (View.ld x15 r1_8) (View.ld x16 r1_9)⟩]

theorem cover1_17 (p0 : Vec F S2048x64 .f32) (y : S2048x64.Idx) :
    ∃ pc ∈ ([⟨r1_10, p0⟩] : List (View.Piece (Elt F) S2048x64 .f32)), y ∈ pc.1.set :=
  ⟨_, List.mem_singleton_self _, View.mem_set_unit_zero off0_2 inb_S2048x64_S2048x64_0_0 y⟩

-- One covering store leaves its payload, and a load through the whole of a buffer reads its contents.
theorem out1_17_eq (x0 : Vec F S2048x768 .f32) (x1 : Vec F S768x512 .bf16) (x2 : Vec F S512 .f32) (x3 : Vec F S512 .f32) (x4 : Vec F S512 .f32) (x5 : Vec F S512x512 .bf16) (x6 : Vec F S512 .f32) (x7 : Vec F S512 .f32) (x8 : Vec F S512 .f32) (x9 : Vec F S512x128 .bf16) (x10 : Vec F S128 .f32) (x11 : Vec F S128 .f32) (x12 : Vec F S128 .f32) (x13 : Vec F S128x32 .bf16) (x14 : Vec F S32 .f32) (x15 : Vec F S32x64 .bf16) (x16 : Vec F S1x64 .f32) :
    out1_17 x0 x1 x2 x3 x4 x5 x6 x7 x8 x9 x10 x11 x12 x13 x14 x15 x16 = k1_val x0 x1 x2 x3 x4 x5 x6 x7 x8 x9 x10 x11 x12 x13 x14 x15 x16 := by
  unfold out1_17
  rw [View.canon_unit_zero (S := S2048x64) off0_2]
  simp only [View.ld_unit_zero (S := S2048x768) off0_2,
    View.ld_unit_zero (S := S768x512) off0_2,
    View.ld_unit_zero (S := S512) off0_1,
    View.ld_unit_zero (S := S512x512) off0_2,
    View.ld_unit_zero (S := S512x128) off0_2,
    View.ld_unit_zero (S := S128) off0_1,
    View.ld_unit_zero (S := S128x32) off0_2,
    View.ld_unit_zero (S := S32) off0_1,
    View.ld_unit_zero (S := S32x64) off0_2,
    View.ld_unit_zero (S := S1x64) off0_2]

set_option maxHeartbeats 4000000 in
theorem sound_kernel1 (c : Dev nD) (E : Set ℕ) (i : grid1.Coords) (arg1 : Memref sig .tc .vmem S2048x768 .f32) (harg1 : arg1.IsWhole) (arg2 : Memref sig .tc .vmem S768x512 .bf16) (harg2 : arg2.IsWhole) (arg3 : Memref sig .tc .vmem S512 .f32) (harg3 : arg3.IsWhole) (arg4 : Memref sig .tc .vmem S512 .f32) (harg4 : arg4.IsWhole) (arg5 : Memref sig .tc .vmem S512 .f32) (harg5 : arg5.IsWhole) (arg6 : Memref sig .tc .vmem S512x512 .bf16) (harg6 : arg6.IsWhole) (arg7 : Memref sig .tc .vmem S512 .f32) (harg7 : arg7.IsWhole) (arg8 : Memref sig .tc .vmem S512 .f32) (harg8 : arg8.IsWhole) (arg9 : Memref sig .tc .vmem S512 .f32) (harg9 : arg9.IsWhole) (arg10 : Memref sig .tc .vmem S512x128 .bf16) (harg10 : arg10.IsWhole) (arg11 : Memref sig .tc .vmem S128 .f32) (harg11 : arg11.IsWhole) (arg12 : Memref sig .tc .vmem S128 .f32) (harg12 : arg12.IsWhole) (arg13 : Memref sig .tc .vmem S128 .f32) (harg13 : arg13.IsWhole) (arg14 : Memref sig .tc .vmem S128x32 .bf16) (harg14 : arg14.IsWhole) (arg15 : Memref sig .tc .vmem S32 .f32) (harg15 : arg15.IsWhole) (arg16 : Memref sig .tc .vmem S32x64 .bf16) (harg16 : arg16.IsWhole) (arg17 : Memref sig .tc .vmem S1x64 .f32) (harg17 : arg17.IsWhole) (arg18 : Memref sig .tc .vmem S2048x64 .f32) (harg18 : arg18.IsWhole)
    (x0 : Vec F S2048x768 .f32) (x1 : Vec F S768x512 .bf16) (x2 : Vec F S512 .f32) (x3 : Vec F S512 .f32) (x4 : Vec F S512 .f32) (x5 : Vec F S512x512 .bf16) (x6 : Vec F S512 .f32) (x7 : Vec F S512 .f32) (x8 : Vec F S512 .f32) (x9 : Vec F S512x128 .bf16) (x10 : Vec F S128 .f32) (x11 : Vec F S128 .f32) (x12 : Vec F S128 .f32) (x13 : Vec F S128x32 .bf16) (x14 : Vec F S32 .f32) (x15 : Vec F S32x64 .bf16) (x16 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ (∃ d, owns (c : Thread nD τ) arg18 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare (out1_17 x0 x1 x2 x3 x4 x5 x6 x7 x8 x9 x10 x11 x12 x13 x14 x15 x16)) -∗ K ⟨⟩))
      ⊢ wp frame (wpE (defs₀ (F := F)) Variants.none c none) E (cc1__backbone_cdist_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  simp only [cc1__backbone_cdist_kernel_eq_skeleton]; unfold cc1__backbone_cdist_kernel_skel
  simp only [k1_part1_eq_skeleton, k1_part2_eq_skeleton, k1_part3_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%d17, %f17, -, H17⟩, Hk⟩
  subst hf0; subst hf1; subst hf2; subst hf3; subst hf4; subst hf5; subst hf6; subst hf7; subst hf8; subst hf9; subst hf10; subst hf11; subst hf12; subst hf13; subst hf14; subst hf15; subst hf16
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists f16; isplitr; · ipureintro; rfl
    iexact H16
  iexists _; isplitr
  swap; · iexact H17
  ipureintro
  exact View.read_writes_eq_canon _ _ _ (cover1_17 _)

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => iblk1 V c 9 t
    | ⟨10, _⟩ => iblk1 V c 10 t
    | ⟨11, _⟩ => iblk1 V c 11 t
    | ⟨12, _⟩ => iblk1 V c 12 t
    | ⟨13, _⟩ => iblk1 V c 13 t
    | ⟨14, _⟩ => iblk1 V c 14 t
    | ⟨15, _⟩ => iblk1 V c 15 t
    | ⟨16, _⟩ => iblk1 V c 16 t
    | ⟨17, _⟩ => out1_17 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) (iblk1 V c 14 t) (iblk1 V c 15 t) (iblk1 V c 16 t)
    | ⟨_ + 18, h⟩ => absurd h (Nat.not_lt.2 (Nat.le_add_left _ _))
  Φ _ := Pipeline.ΦA spec1 c
  q _ := fullShare
  owed _ := 0

theorem A_eq1 (c : Dev nD) (w : Fin cfg1.W) : (dat1 V c).A w = V c (Pipeline.arrRef spec1 w) := rfl
theorem after1_17 (c : Dev nD) (t : Fin cfg1.N) : (dat1 V c).after 17 t = out1_17 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) (iblk1 V c 14 t) (iblk1 V c 15 t) (iblk1 V c 16 t) := by dsimp only [dat1]
theorem before1_0 (c : Dev nD) (t : Fin cfg1.N) (d) : (dat1 V c).before 0 t d = iblk1 V c 0 t :=
  ((dat1 V c).before_in_eq_fetched 0 rfl (fun _ => rfl) (fun _ _ _ => rfl) (fun _ => rfl) t d).trans rfl
theorem before1_1 (c : Dev nD) (t : Fin cfg1.N) (d) : (dat1 V c).before 1 t d = iblk1 V c 1 t :=
  ((dat1 V c).before_in_eq_fetched 1 rfl (fun _ => rfl) (fun _ _ _ => rfl) (fun _ => rfl) t d).trans rfl
theorem before1_2 (c : Dev nD) (t : Fin cfg1.N) (d) : (dat1 V c).before 2 t d = iblk1 V c 2 t :=
  ((dat1 V c).before_in_eq_fetched 2 rfl (fun _ => rfl) (fun _ _ _ => rfl) (fun _ => rfl) t d).trans rfl
theorem before1_3 (c : Dev nD) (t : Fin cfg1.N) (d) : (dat1 V c).before 3 t d = iblk1 V c 3 t :=
  ((dat1 V c).before_in_eq_fetched 3 rfl (fun _ => rfl) (fun _ _ _ => rfl) (fun _ => rfl) t d).trans rfl
theorem before1_4 (c : Dev nD) (t : Fin cfg1.N) (d) : (dat1 V c).before 4 t d = iblk1 V c 4 t :=
  ((dat1 V c).before_in_eq_fetched 4 rfl (fun _ => rfl) (fun _ _ _ => rfl) (fun _ => rfl) t d).trans rfl
theorem before1_5 (c : Dev nD) (t : Fin cfg1.N) (d) : (dat1 V c).before 5 t d = iblk1 V c 5 t :=
  ((dat1 V c).before_in_eq_fetched 5 rfl (fun _ => rfl) (fun _ _ _ => rfl) (fun _ => rfl) t d).trans rfl
theorem before1_6 (c : Dev nD) (t : Fin cfg1.N) (d) : (dat1 V c).before 6 t d = iblk1 V c 6 t :=
  ((dat1 V c).before_in_eq_fetched 6 rfl (fun _ => rfl) (fun _ _ _ => rfl) (fun _ => rfl) t d).trans rfl
theorem before1_7 (c : Dev nD) (t : Fin cfg1.N) (d) : (dat1 V c).before 7 t d = iblk1 V c 7 t :=
  ((dat1 V c).before_in_eq_fetched 7 rfl (fun _ => rfl) (fun _ _ _ => rfl) (fun _ => rfl) t d).trans rfl
theorem before1_8 (c : Dev nD) (t : Fin cfg1.N) (d) : (dat1 V c).before 8 t d = iblk1 V c 8 t :=
  ((dat1 V c).before_in_eq_fetched 8 rfl (fun _ => rfl) (fun _ _ _ => rfl) (fun _ => rfl) t d).trans rfl
theorem before1_9 (c : Dev nD) (t : Fin cfg1.N) (d) : (dat1 V c).before 9 t d = iblk1 V c 9 t :=
  ((dat1 V c).before_in_eq_fetched 9 rfl (fun _ => rfl) (fun _ _ _ => rfl) (fun _ => rfl) t d).trans rfl
theorem before1_10 (c : Dev nD) (t : Fin cfg1.N) (d) : (dat1 V c).before 10 t d = iblk1 V c 10 t :=
  ((dat1 V c).before_in_eq_fetched 10 rfl (fun _ => rfl) (fun _ _ _ => rfl) (fun _ => rfl) t d).trans rfl
theorem before1_11 (c : Dev nD) (t : Fin cfg1.N) (d) : (dat1 V c).before 11 t d = iblk1 V c 11 t :=
  ((dat1 V c).before_in_eq_fetched 11 rfl (fun _ => rfl) (fun _ _ _ => rfl) (fun _ => rfl) t d).trans rfl
theorem before1_12 (c : Dev nD) (t : Fin cfg1.N) (d) : (dat1 V c).before 12 t d = iblk1 V c 12 t :=
  ((dat1 V c).before_in_eq_fetched 12 rfl (fun _ => rfl) (fun _ _ _ => rfl) (fun _ => rfl) t d).trans rfl
theorem before1_13 (c : Dev nD) (t : Fin cfg1.N) (d) : (dat1 V c).before 13 t d = iblk1 V c 13 t :=
  ((dat1 V c).before_in_eq_fetched 13 rfl (fun _ => rfl) (fun _ _ _ => rfl) (fun _ => rfl) t d).trans rfl
theorem before1_14 (c : Dev nD) (t : Fin cfg1.N) (d) : (dat1 V c).before 14 t d = iblk1 V c 14 t :=
  ((dat1 V c).before_in_eq_fetched 14 rfl (fun _ => rfl) (fun _ _ _ => rfl) (fun _ => rfl) t d).trans rfl
theorem before1_15 (c : Dev nD) (t : Fin cfg1.N) (d) : (dat1 V c).before 15 t d = iblk1 V c 15 t :=
  ((dat1 V c).before_in_eq_fetched 15 rfl (fun _ => rfl) (fun _ _ _ => rfl) (fun _ => rfl) t d).trans rfl
theorem before1_16 (c : Dev nD) (t : Fin cfg1.N) (d) : (dat1 V c).before 16 t d = iblk1 V c 16 t :=
  ((dat1 V c).before_in_eq_fetched 16 rfl (fun _ => rfl) (fun _ _ _ => rfl) (fun _ => rfl) t d).trans rfl

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d))
    ∗ (∃ d, owns (c : Thread nD τ) (st1_10 t) fullShare ((dat1 V c).before 10 t d))
    ∗ (∃ d, owns (c : Thread nD τ) (st1_11 t) fullShare ((dat1 V c).before 11 t d))
    ∗ (∃ d, owns (c : Thread nD τ) (st1_12 t) fullShare ((dat1 V c).before 12 t d))
    ∗ (∃ d, owns (c : Thread nD τ) (st1_13 t) fullShare ((dat1 V c).before 13 t d))
    ∗ (∃ d, owns (c : Thread nD τ) (st1_14 t) fullShare ((dat1 V c).before 14 t d))
    ∗ (∃ d, owns (c : Thread nD τ) (st1_15 t) fullShare ((dat1 V c).before 15 t d))
    ∗ (∃ d, owns (c : Thread nD τ) (st1_16 t) fullShare ((dat1 V c).before 16 t d))
    ∗ (∃ d, owns (c : Thread nD τ) (st1_17 t) fullShare ((dat1 V c).before 17 t d)))

def bodyPost1 (c : Dev nD) (t : Fin cfg1.N) : sProp 𝕄 :=
  iprop((dat1 V c).Φ t.castSucc ∗ (dat1 V c).owesAt () t.castSucc
    ∗ owns (c : Thread nD τ) (st1_0 t) fullShare (iblk1 V c 0 t)
    ∗ owns (c : Thread nD τ) (st1_1 t) fullShare (iblk1 V c 1 t)
    ∗ owns (c : Thread nD τ) (st1_2 t) fullShare (iblk1 V c 2 t)
    ∗ owns (c : Thread nD τ) (st1_3 t) fullShare (iblk1 V c 3 t)
    ∗ owns (c : Thread nD τ) (st1_4 t) fullShare (iblk1 V c 4 t)
    ∗ owns (c : Thread nD τ) (st1_5 t) fullShare (iblk1 V c 5 t)
    ∗ owns (c : Thread nD τ) (st1_6 t) fullShare (iblk1 V c 6 t)
    ∗ owns (c : Thread nD τ) (st1_7 t) fullShare (iblk1 V c 7 t)
    ∗ owns (c : Thread nD τ) (st1_8 t) fullShare (iblk1 V c 8 t)
    ∗ owns (c : Thread nD τ) (st1_9 t) fullShare (iblk1 V c 9 t)
    ∗ owns (c : Thread nD τ) (st1_10 t) fullShare (iblk1 V c 10 t)
    ∗ owns (c : Thread nD τ) (st1_11 t) fullShare (iblk1 V c 11 t)
    ∗ owns (c : Thread nD τ) (st1_12 t) fullShare (iblk1 V c 12 t)
    ∗ owns (c : Thread nD τ) (st1_13 t) fullShare (iblk1 V c 13 t)
    ∗ owns (c : Thread nD τ) (st1_14 t) fullShare (iblk1 V c 14 t)
    ∗ owns (c : Thread nD τ) (st1_15 t) fullShare (iblk1 V c 15 t)
    ∗ owns (c : Thread nD τ) (st1_16 t) fullShare (iblk1 V c 16 t)
    ∗ owns (c : Thread nD τ) (st1_17 t) fullShare ((dat1 V c).after 17 t))

set_option maxHeartbeats 1000000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8, before1_9, before1_10, before1_11, before1_12, before1_13, before1_14, before1_15, before1_16, after1_17]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩⟩
  iapply (sound_kernel1 c Set.univ _ _ _ _ _ _ _ _ _ _ _ _ _ _ _ _ _ _ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) (iblk1 V c 14 t) (iblk1 V c 15 t) (iblk1 V c 16 t) _)
  iframe
  isplitl [H17]; · iexists _; iexact H17
  iintro ⟨H0, H1, H2, H3, H4, H5, H6, H7, H8, H9, H10, H11, H12, H13, H14, H15, H16, H17⟩
  iframe

theorem body_obligation1 (c : Dev nD) : BodyObligation (dat1 (F := F) V c) (defs₀ (F := F)) Variants.none () Set.univ := fun t => by
  rw [bigSep_W1, bigSep_W1]
  exact sound_body1 V c t

end Region1

end Cert.KernelIdeal.Hand

end
-- ==== Proof.KRun.lean ====
import proofs.«407301_j76149770158544_3_alg».proof.Proof.K0Body
import proofs.«407301_j76149770158544_3_alg».proof.Proof.R1
import proofs.«407301_j76149770158544_3_alg».proof.Proof.Gen.KernelIdeal.Regions
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev Wb0 : Dev nD → Valuation τ sig (Elt F) := fun c b => (s₀ m ρ).mem ((c : Dev nD), b)

abbrev Wb1 : Dev nD → Valuation τ sig (Elt F) := fun c => StableHlo.after hostOps0 (Wb0 m ρ c)

abbrev Ve1 : (c : Dev nD) → (b : Ref sig .tc) → Buf (Elt F) ((c : Thread nD τ).loc b) := fun c b => Wb1 m ρ c b

def Wb2 (c : Dev nD) : Valuation τ sig (Elt F) :=
  Pipeline.withArrays spec0 c (Wb1 m ρ c) fun w => (dat0 (Ve1 m ρ) c).arrAt w cfg0.N

theorem Wb2_arr (c : Dev nD) (w : Fin cfg0.W) :
    Wb2 m ρ c (Proc.devRef .tc (Pipeline.arrRef spec0 w)) = (dat0 (Ve1 m ρ) c).arrAt w cfg0.N := by
  unfold Wb2; exact Pipeline.withArrays_arr spec0 launch0.win.arr_inj c _ _ w

theorem Wb2_of_ne (c : Dev nD) (b : Ref sig .tc) (hb : ∀ w, Pipeline.arrRef spec0 w ≠ b) :
    Wb2 m ρ c (Proc.devRef .tc b) = Wb1 m ρ c (Proc.devRef .tc b) := by
  unfold Wb2; exact Pipeline.withArrays_of_ne spec0 c _ _ b hb

abbrev Ve2 : (c : Dev nD) → (b : Ref sig .tc) → Buf (Elt F) ((c : Thread nD τ).loc b) := fun c b => Wb2 m ρ c b

theorem hF0 (c : Dev nD) (w : Fin cfg0.W) : (dat0 (Ve1 m ρ) c).arrAt w cfg0.N = Ve2 m ρ c (Pipeline.arrRef spec0 w) :=
  (Wb2_arr m ρ c w).symm

theorem hrest0 (c : Dev nD) : ∀ b, b ∉ Finset.univ.image (Pipeline.arrRef spec0) → Ve2 m ρ c b = Ve1 m ρ c b :=
  fun b hb => Wb2_of_ne m ρ c b fun w e => hb (Finset.mem_image.mpr ⟨w, Finset.mem_univ _, e⟩)

abbrev Wb3 : Dev nD → Valuation τ sig (Elt F) := fun c => StableHlo.after hostOps1 (Wb2 m ρ c)

abbrev Ve3 : (c : Dev nD) → (b : Ref sig .tc) → Buf (Elt F) ((c : Thread nD τ).loc b) := fun c b => Wb3 m ρ c b

def Wb4 (c : Dev nD) : Valuation τ sig (Elt F) :=
  Pipeline.withArrays spec1 c (Wb3 m ρ c) fun w => (dat1 (Ve3 m ρ) c).arrAt w cfg1.N

theorem Wb4_arr (c : Dev nD) (w : Fin cfg1.W) :
    Wb4 m ρ c (Proc.devRef .tc (Pipeline.arrRef spec1 w)) = (dat1 (Ve3 m ρ) c).arrAt w cfg1.N := by
  unfold Wb4; exact Pipeline.withArrays_arr spec1 launch1.win.arr_inj c _ _ w

theorem Wb4_of_ne (c : Dev nD) (b : Ref sig .tc) (hb : ∀ w, Pipeline.arrRef spec1 w ≠ b) :
    Wb4 m ρ c (Proc.devRef .tc b) = Wb3 m ρ c (Proc.devRef .tc b) := by
  unfold Wb4; exact Pipeline.withArrays_of_ne spec1 c _ _ b hb

abbrev Ve4 : (c : Dev nD) → (b : Ref sig .tc) → Buf (Elt F) ((c : Thread nD τ).loc b) := fun c b => Wb4 m ρ c b

theorem hF1 (c : Dev nD) (w : Fin cfg1.W) : (dat1 (Ve3 m ρ) c).arrAt w cfg1.N = Ve4 m ρ c (Pipeline.arrRef spec1 w) :=
  (Wb4_arr m ρ c w).symm

theorem hrest1 (c : Dev nD) : ∀ b, b ∉ Finset.univ.image (Pipeline.arrRef spec1) → Ve4 m ρ c b = Ve3 m ρ c b :=
  fun b hb => Wb4_of_ne m ρ c b fun w e => hb (Finset.mem_image.mpr ⟨w, Finset.mem_univ _, e⟩)

theorem Wb2_keep (c : Dev nD) (b : Ref sig .tc) (h16 : b ≠ Pipeline.arrRef spec0 16) (h17 : b ≠ Pipeline.arrRef spec0 17) :
    Wb2 m ρ c (Proc.devRef .tc b) = Wb1 m ρ c (Proc.devRef .tc b) := by
  by_cases hb : ∃ w, Pipeline.arrRef spec0 w = b
  · obtain ⟨w, rfl⟩ := hb
    have hin : (cfg0.win w).isOut = false := by
      fin_cases w <;> first | rfl | exact absurd rfl h16 | exact absurd rfl h17
    exact (Wb2_arr m ρ c w).trans (((dat0 (Ve1 m ρ) c).arrAt_in w hin _).trans (A_eq0 (Ve1 m ρ) c w))
  · exact Wb2_of_ne m ρ c b (fun w e => hb ⟨w, e⟩)

theorem Wb4_keep (c : Dev nD) (b : Ref sig .tc) (h17 : b ≠ Pipeline.arrRef spec1 17) :
    Wb4 m ρ c (Proc.devRef .tc b) = Wb3 m ρ c (Proc.devRef .tc b) := by
  by_cases hb : ∃ w, Pipeline.arrRef spec1 w = b
  · obtain ⟨w, rfl⟩ := hb
    have hin : (cfg1.win w).isOut = false := by
      fin_cases w <;> first | rfl | exact absurd rfl h17
    exact (Wb4_arr m ρ c w).trans (((dat1 (Ve3 m ρ) c).arrAt_in w hin _).trans (A_eq1 (Ve3 m ρ) c w))
  · exact Wb4_of_ne m ρ c b (fun w e => hb ⟨w, e⟩)

theorem Wb4_arg (c : Dev nD) (b : Ref sig .tc) (h0 : b ∉ hostOps0_W) (h1 : b ∉ hostOps1_W)
    (h16 : b ≠ Pipeline.arrRef spec0 16) (h17 : b ≠ Pipeline.arrRef spec0 17) (h29 : b ≠ Pipeline.arrRef spec1 17) :
    Wb4 m ρ c (Proc.devRef .tc b) = m ((c : Thread nD τ).loc b) :=
  calc Wb4 m ρ c (Proc.devRef .tc b)
    _ = Wb3 m ρ c (Proc.devRef .tc b) := Wb4_keep m ρ c b h29
    _ = Wb2 m ρ c (Proc.devRef .tc b) := StableHlo.after_of_writes_sub hostOps1 _ hostOps1_writes h1
    _ = Wb1 m ρ c (Proc.devRef .tc b) := Wb2_keep m ρ c b h16 h17
    _ = Wb0 m ρ c (Proc.devRef .tc b) := StableHlo.after_of_writes_sub hostOps0 _ hostOps0_writes h0
    _ = m ((c : Thread nD τ).loc b) := rfl

abbrev admH : (p : Fin 2) → (pcfgs (F := F) p).Adm := fun p => (cfgs p).toPCfg_adm

def pdat : (p : Fin 2) → (c : Dev nD) → Dat τ (Elt F) Unit ℕ (UR sig nD τ) ℕ (Pipeline.pin (pcfgs (F := F)) admH p) c
  | ⟨0, _⟩ => fun c => dat0 (Ve1 m ρ) c
  | ⟨1, _⟩ => fun c => dat1 (Ve3 m ρ) c

abbrev 𝒱h : Variants := Variants.none

abbrev Lh : GSem nD τ sig → Finset Unit := fun _ => ∅

abbrev lvh : GSem nD τ sig → Unit → ℕ := fun _ _ => 0

abbrev Rr (c : Dev nD) : sProp 𝕄 := iprop((∃ r, prngReg c r) ∗ ∃ W, owes (c : Thread nD τ) (0 : CellTallies nD τ sig Unit) W)

abbrev hsegH (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱h Lh lvh :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rr

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

-- A buffer that is unscoped, that no host stretch writes and that is no region's output ends as launched.
theorem arg_end {mem : (ℓ : Loc nD τ sig) → Buf (Elt F) ℓ} (h : ∀ c : Dev nD, ∀ b ∈ Pipeline.ucRefs τ sig, mem (((c : Thread nD τ)).1, b) = Wb4 m ρ c b)
    (c : Dev nD) (b : Ref sig .tc)
    (hb : ¬(Proc.devRef .tc b : DevRef τ sig).isScoped ∧ b ∉ hostOps0_W ∧ b ∉ hostOps1_W ∧ b ≠ Pipeline.arrRef spec0 16 ∧ b ≠ Pipeline.arrRef spec0 17 ∧ b ≠ Pipeline.arrRef spec1 17 := by decide) :
    mem ((c : Thread nD τ).loc b) = m ((c : Thread nD τ).loc b) :=
  (h c _ (mem_uc b hb.1)).trans (Wb4_arg m ρ c b hb.2.1 hb.2.2.1 hb.2.2.2.1 hb.2.2.2.2.1 hb.2.2.2.2.2)

abbrev Tend (c : Dev nD) : sProp 𝕄 := iprop(StableHlo.held (c : Thread nD τ) (Pipeline.ucRefs τ sig) (Wb4 m ρ c) ∗ ∃ r, prngReg c r)

set_option backward.isDefEq.respectTransparency.types false in

def reg0 : Pipeline.RegionSeg (pcfgs (F := F)) admH (pdat m ρ) () defs₀ 𝒱h Lh lvh 0 where
  win := launch0.win.to₀
  block_pos := launch0.block_pos
  stage_whole := launch0.stage_whole
  K := PEmpty
  osem k := k.elim
  ho := Pipeline.OwnSemFacts.none _
  hbody c := (body_obligation0 (Ve1 m ρ) c).loose
  hwaits := Pipeline.hwaits_of_owed_zero _ _ _ _ Lh lvh 0 fun _ _ => rfl
  pre c := iprop(StableHlo.held (c : Thread nD τ) (Pipeline.ucRefs τ sig) (Wb1 m ρ c) ∗ Rr c)
  post c := iprop(StableHlo.held (c : Thread nD τ) (Pipeline.ucRefs τ sig) (Wb2 m ρ c) ∗ Rr c)
  X c := iprop(∃ r, prngReg c r)
  Y c := iprop(∃ r, prngReg c r)
  Z c := Pipeline.unscopedRest (Ix := Unit) (Name := ℕ) (U := UR sig nD τ) (Lvl := ℕ) spec0 c (Ve1 m ρ c)
  hentry c := by
    rw [Pipeline.ownSems0_none]
    have hsplit := Pipeline.arrays_of_unscopedBufs (p := 0) (pcfgs (F := F)) admH (pdat m ρ) launch0.win launch0.arr_whole c
      ((pdat m ρ 0 c).share_full fun _ => rfl) (Ve1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdat m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdat m ρ 0 c).Φ (Fin.last _) = (dat0 (Ve1 m ρ) c).Φ (Fin.last cfg0.N) from rfl]
    have hrest := hout0 (Ve1 m ρ) c
    unfold Pipeline.ΦA at hrest
    have hsplit : (iprop(Pipeline.scopedRest spec0 c ∗ ∃ r, prngReg c r) : sProp 𝕄)
        ⊢ iprop((∃ r, prngReg c r) ∗ BI.emp ∗ Pipeline.scopedRest spec0 c) := by
      iintro ⟨Hr, Hp⟩
      isplitl [Hp]; · iexact Hp
      isplitr; · iempintro
      iexact Hr
    exact hrest.trans hsplit
  hexit c := by
    have hjoin := Pipeline.unscopedBufs_of_arrays (p := 0) (pcfgs (F := F)) admH (Ix := Unit) (Name := ℕ) (U := UR sig nD τ) (Lvl := ℕ)
      launch0.win launch0.arr_whole c (pdat m ρ) ((pdat m ρ 0 c).share_full fun _ => rfl)
      (Ve1 m ρ c) (Ve2 m ρ c) ((pdat m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in

def reg1 : Pipeline.RegionSeg (pcfgs (F := F)) admH (pdat m ρ) () defs₀ 𝒱h Lh lvh 1 where
  win := launch1.win.to₀
  block_pos := launch1.block_pos
  stage_whole := launch1.stage_whole
  K := PEmpty
  osem k := k.elim
  ho := Pipeline.OwnSemFacts.none _
  hbody c := (body_obligation1 (Ve3 m ρ) c).loose
  hwaits := Pipeline.hwaits_of_owed_zero _ _ _ _ Lh lvh 1 fun _ _ => rfl
  pre c := iprop(StableHlo.held (c : Thread nD τ) (Pipeline.ucRefs τ sig) (Wb3 m ρ c) ∗ Rr c)
  post c := iprop(Tend m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (Ve3 m ρ c)
  hentry c := by
    rw [Pipeline.ownSems0_none]
    have hsplit := Pipeline.arrays_of_unscopedBufs (p := 1) (pcfgs (F := F)) admH (pdat m ρ) launch1.win launch1.arr_whole c
      ((pdat m ρ 1 c).share_full fun _ => rfl) (Ve3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdat m ρ 1 c).Φ 0 = Pipeline.ΦA spec1 c from rfl]; unfold Pipeline.ΦA
    iintro ⟨Hp, -, Hr⟩
    isplitl [Hr]; · iexact Hr
    iexact Hp
  hout c := by
    rw [Pipeline.ownSems0_none]
    rw [show (pdat m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) admH (Ix := Unit) (Name := ℕ) (U := UR sig nD τ) (Lvl := ℕ)
      launch1.win launch1.arr_whole c (pdat m ρ) ((pdat m ρ 1 c).share_full fun _ => rfl)
      (Ve3 m ρ c) (Ve4 m ρ c) ((pdat m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

abbrev segsH : List (Pipeline.Seg (pcfgs (F := F)) admH (pdat m ρ) () defs₀ 𝒱h Lh lvh) :=
  [ .host (hsegH hostOps0 hostOps0_sub hostOps0_fresh (Wb0 m ρ)),
    .region (reg0 m ρ),
    .host (hsegH hostOps1 hostOps1_sub hostOps1_fresh (Wb2 m ρ)),
    .region (reg1 m ρ) ]

theorem main_run (c : Dev nD) : main (F := F) c = Pipeline.Seg.run (segsH m ρ) := (main_chain c).trans (by chain_rfl)

set_option backward.isDefEq.respectTransparency.types false in

theorem run_all : θ_run defs (onTc (τ := τ) (main (F := F))) ⟨m, fun _ => 0, ρ⟩ (fun r => ∀ c : Dev nD,
      ∀ b ∈ Pipeline.ucRefs τ sig, r.2.mem (((c : Thread nD τ)).1, b) = Wb4 m ρ c b) :=
  Pipeline.θ_run_regions_kit (pcfgs (F := F)) admH (pdat m ρ) () cellOf_inj emb₁ defs₀ 𝒱h Lh lvh m ρ main (segsH m ρ)
    (fun c Q => by rw [main_run m ρ c])
    (by simp only [segsH, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Wb0 m ρ c) ∗ Rr c)) (Tₙ := Tend m ρ)
    (hch := ⟨fun _ => .rfl, fun _ => .rfl, fun _ => .rfl, fun _ => .rfl, fun _ => .rfl⟩)
    (hinit := by
      refine Pipeline.initEach Lh lvh fun c => ?_
      rw [show unscopedBufs c (fun b => m ((c : Thread nD τ).loc b)) = StableHlo.held (c : Thread nD τ) (Pipeline.ucRefs τ sig) (Wb0 m ρ c)
        from Pipeline.unscopedBufs_held c (Wb0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Wb4 m ρ c b)
    (hfin := fun c s' => by
      iintro ⟨⟨Hh, -⟩, HSI⟩
      unfold StableHlo.held
      imodintro
      iapply (pointsTo_read_all (Pipeline.ucRefs τ sig) (fun b => (((c : Thread nD τ)).1, b)) (Wb4 m ρ c) s')
      isplitl [Hh] <;> iassumption)
    (hQ := fun s h c => h c)

end Cert.KernelIdeal.Hand
end
-- ==== Proof.K0RunsW.lean ====
import proofs.«407301_j76149770158544_3_alg».proof.Proof.Gen.Kernel.Launch
import proofs.«407301_j76149770158544_3_alg».proof.Proof.Gen.Kernel.Skeleton
import proofs.«407301_j76149770158544_3_alg».proof.Proof.Gen.Kernel.Points
import Idealize.ShloMosaic.Lib.Pipeline.FrameBody
import Idealize.ShloMosaic.Lib.Pipeline.FrameSuffix
import Idealize.ShloMosaic.Lib.Pipeline.RegionsLoop
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 8 = 0 :=
  (by decide +kernel : ∀ t : Fin grid0.N, cond0_0 (grid0.coords t) ↔ t.val % 8 = 0)
abbrev cond0_1 (i : grid0.Coords) : Prop := k0_cond2 i = 1#1
theorem hcond0_1 : ∀ t : Fin cfg0.N, cond0_1 (grid0.coords t) ↔ t.val % 8 = 7 :=
  (by decide +kernel : ∀ t : Fin grid0.N, cond0_1 (grid0.coords t) ↔ t.val % 8 = 7)

theorem idle0 : ∀ t : Fin cfg0.N, ¬t.val % 8 = 7 → (cfg0.idle 16 (grid0.coords t) = true ∧ (cfg0.win 16).flush t = false) ∧ cfg0.idle 17 (grid0.coords t) = true ∧ (cfg0.win 17).flush t = false := by decide +kernel
theorem live0 : ∀ t : Fin cfg0.N, t.val % 8 = 7 → cfg0.idle 16 (grid0.coords t) = false ∧ cfg0.idle 17 (grid0.coords t) = false := by decide +kernel

abbrev VO0_16 : View sig .tc .vmem S1x64x32 .f32 := (Memref.whole cc0_stg16_0 : Memref sig .tc .vmem S1x64x32 .f32).view
abbrev VO0_17 : View sig .tc .vmem S1x64x1 .f32 := (Memref.whole cc0_stg17_0 : Memref sig .tc .vmem S1x64x1 .f32).view
section
variable (t : Fin cfg0.N)
abbrev ms0_0 : Memref sig .tc .vmem S2048x768 .f32 := win0_0.stage (cfg0.slots t 0)
abbrev hs0_0 : (ms0_0 t).IsWhole := hstage0_0 ((cfg0.slots t 0).cast nbuf0_0)
abbrev ms0_1 : Memref sig .tc .vmem S2048 .i32 := win0_1.stage (cfg0.slots t 1)
abbrev hs0_1 : (ms0_1 t).IsWhole := hstage0_1 ((cfg0.slots t 1).cast nbuf0_1)
abbrev ms0_2 : Memref sig .tc .vmem S768x512 .bf16 := win0_2.stage (cfg0.slots t 2)
abbrev hs0_2 : (ms0_2 t).IsWhole := hstage0_2 ((cfg0.slots t 2).cast nbuf0_2)
abbrev ms0_3 : Memref sig .tc .vmem S512 .f32 := win0_3.stage (cfg0.slots t 3)
abbrev hs0_3 : (ms0_3 t).IsWhole := hstage0_3 ((cfg0.slots t 3).cast nbuf0_3)
abbrev ms0_4 : Memref sig .tc .vmem S512 .f32 := win0_4.stage (cfg0.slots t 4)
abbrev hs0_4 : (ms0_4 t).IsWhole := hstage0_4 ((cfg0.slots t 4).cast nbuf0_4)
abbrev ms0_5 : Memref sig .tc .vmem S512 .f32 := win0_5.stage (cfg0.slots t 5)
abbrev hs0_5 : (ms0_5 t).IsWhole := hstage0_5 ((cfg0.slots t 5).cast nbuf0_5)
abbrev ms0_6 : Memref sig .tc .vmem S512x512 .bf16 := win0_6.stage (cfg0.slots t 6)
abbrev hs0_6 : (ms0_6 t).IsWhole := hstage0_6 ((cfg0.slots t 6).cast nbuf0_6)
abbrev ms0_7 : Memref sig .tc .vmem S512 .f32 := win0_7.stage (cfg0.slots t 7)
abbrev hs0_7 : (ms0_7 t).IsWhole := hstage0_7 ((cfg0.slots t 7).cast nbuf0_7)
abbrev ms0_8 : Memref sig .tc .vmem S512 .f32 := win0_8.stage (cfg0.slots t 8)
abbrev hs0_8 : (ms0_8 t).IsWhole := hstage0_8 ((cfg0.slots t 8).cast nbuf0_8)
abbrev ms0_9 : Memref sig .tc .vmem S512 .f32 := win0_9.stage (cfg0.slots t 9)
abbrev hs0_9 : (ms0_9 t).IsWhole := hstage0_9 ((cfg0.slots t 9).cast nbuf0_9)
abbrev ms0_10 : Memref sig .tc .vmem S512x128 .bf16 := win0_10.stage (cfg0.slots t 10)
abbrev hs0_10 : (ms0_10 t).IsWhole := hstage0_10 ((cfg0.slots t 10).cast nbuf0_10)
abbrev ms0_11 : Memref sig .tc .vmem S128 .f32 := win0_11.stage (cfg0.slots t 11)
abbrev hs0_11 : (ms0_11 t).IsWhole := hstage0_11 ((cfg0.slots t 11).cast nbuf0_11)
abbrev ms0_12 : Memref sig .tc .vmem S128 .f32 := win0_12.stage (cfg0.slots t 12)
abbrev hs0_12 : (ms0_12 t).IsWhole := hstage0_12 ((cfg0.slots t 12).cast nbuf0_12)
abbrev ms0_13 : Memref sig .tc .vmem S128 .f32 := win0_13.stage (cfg0.slots t 13)
abbrev hs0_13 : (ms0_13 t).IsWhole := hstage0_13 ((cfg0.slots t 13).cast nbuf0_13)
abbrev ms0_14 : Memref sig .tc .vmem S128x32 .bf16 := win0_14.stage (cfg0.slots t 14)
abbrev hs0_14 : (ms0_14 t).IsWhole := hstage0_14 ((cfg0.slots t 14).cast nbuf0_14)
abbrev ms0_15 : Memref sig .tc .vmem S32 .f32 := win0_15.stage (cfg0.slots t 15)
abbrev hs0_15 : (ms0_15 t).IsWhole := hstage0_15 ((cfg0.slots t 15).cast nbuf0_15)
abbrev ms0_16 : Memref sig .tc .vmem S1x64x32 .f32 := win0_16.stage (cfg0.slots t 16)
abbrev hs0_16 : (ms0_16 t).IsWhole := hstage0_16 ((cfg0.slots t 16).cast nbuf0_16)
abbrev ms0_17 : Memref sig .tc .vmem S1x64x1 .f32 := win0_17.stage (cfg0.slots t 17)
abbrev hs0_17 : (ms0_17 t).IsWhole := hstage0_17 ((cfg0.slots t 17).cast nbuf0_17)
end
abbrev scM0_0 : Memref sig .tc .vmem S64x32 .f32 := Memref.whole cc0_scratch0
abbrev scM0_1 : Memref sig .tc .vmem S64x1 .f32 := Memref.whole cc0_scratch1
abbrev VS0_0 : View sig .tc .vmem S64x32 .f32 := scM0_0.view
abbrev VS0_1 : View sig .tc .vmem S64x1 .f32 := scM0_1.view

def rest0 (c : Dev nD) : sProp 𝕄 :=
  bigSepL [cc1_stg0_0, cc1_stg0_1, cc1_stg1_0, cc1_stg2_0, cc1_stg3_0, cc1_stg4_0, cc1_stg5_0, cc1_stg6_0, cc1_stg7_0, cc1_stg8_0, cc1_stg9_0, cc1_stg10_0, cc1_stg11_0, cc1_stg12_0, cc1_stg13_0, cc1_stg14_0, cc1_stg15_0, cc1_stg16_0, cc1_stg17_0, cc1_stg17_1]
    fun b => iprop(∃ f : Buf (Elt F) ((c : Thread nD τ).loc b), ((c : Thread nD τ).loc b) ↦{fullShare} f)

theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ rest0 c) ∗ (∃ r, prngReg c r)) := by
  unfold Pipeline.ΦA rest0; rw [scopedRest0_eq]; simp only [scM0_0, scM0_1, owns_whole]; try rfl

-- A whole memref read at `X` holds the one raw contents that reads `X`.
theorem owns_eq_unread (c : Dev nD) {sp : Space} {sh : Shape} {e : EltTy} {m : Memref sig .tc sp sh e} (h : m.IsWhole) (q : PosShare TreeShare) (X : sh.Idx → Elt F e) :
    (owns (c : Thread nD τ) m q X : sProp 𝕄) = (m.view.loc (c : Thread nD τ) ↦[m.view.set]{q} h.unread X) := by
  have h₁ : (owns (c : Thread nD τ) m q X : sProp 𝕄) ⊢ (m.view.loc (c : Thread nD τ) ↦[m.view.set]{q} h.unread X) := by
    unfold owns; iintro ⟨%f, %hf, H⟩; obtain rfl := h.eq_unread hf; iexact H
  have h₂ := owns_intro (Val := Elt F) (Ix := Unit) (Name := ℕ) (U := UR sig nD τ) (Lvl := ℕ) (c : Thread nD τ) m q (h.unread X)
  rw [h.read_unread] at h₂
  exact BI.equiv_iff.mp ⟨h₁, h₂⟩

-- Stores that cover a memref leave it reading what they leave over anything.
theorem owns_writes (c : Dev nD) {sp sp' : Space} {sh : Shape} {e : EltTy} (m : Memref sig .tc sp sh e) (v : View sig .tc sp' sh e) (L : List (View.Piece (Elt F) sh e))
    (hc : ∀ y, ∃ pc ∈ L, y ∈ pc.1.set) :
    (iprop(∃ f, m.view.loc (c : Thread nD τ) ↦[m.view.set]{fullShare} m.view.writes (Elt F) f L) : sProp 𝕄)
      ⊢ owns (c : Thread nD τ) m fullShare (v.read (Elt F) (v.writes (Elt F) v.junk L)) := by
  unfold owns; iintro ⟨%f, H⟩; iexists _; isplitr
  swap; · iexact H
  ipureintro; exact View.read_writes_of_cover _ _ _ _ _ hc

-- The sixteen inputs at their contents, beside `R`.
abbrev ins0 (c : Dev nD) (arg2 : Memref sig .tc .vmem S2048x768 .f32) (arg3 : Memref sig .tc .vmem S2048 .i32) (arg4 : Memref sig .tc .vmem S768x512 .bf16) (arg5 : Memref sig .tc .vmem S512 .f32) (arg6 : Memref sig .tc .vmem S512 .f32) (arg7 : Memref sig .tc .vmem S512 .f32) (arg8 : Memref sig .tc .vmem S512x512 .bf16) (arg9 : Memref sig .tc .vmem S512 .f32) (arg10 : Memref sig .tc .vmem S512 .f32) (arg11 : Memref sig .tc .vmem S512 .f32) (arg12 : Memref sig .tc .vmem S512x128 .bf16) (arg13 : Memref sig .tc .vmem S128 .f32) (arg14 : Memref sig .tc .vmem S128 .f32) (arg15 : Memref sig .tc .vmem S128 .f32) (arg16 : Memref sig .tc .vmem S128x32 .bf16) (arg17 : Memref sig .tc .vmem S32 .f32) (x0 : Vec F S2048x768 .f32) (x1 : Vec F S2048 .i32) (x2 : Vec F S768x512 .bf16) (x3 : Vec F S512 .f32) (x4 : Vec F S512 .f32) (x5 : Vec F S512 .f32) (x6 : Vec F S512x512 .bf16) (x7 : Vec F S512 .f32) (x8 : Vec F S512 .f32) (x9 : Vec F S512 .f32) (x10 : Vec F S512x128 .bf16) (x11 : Vec F S128 .f32) (x12 : Vec F S128 .f32) (x13 : Vec F S128 .f32) (x14 : Vec F S128x32 .bf16) (x15 : Vec F S32 .f32) (R : sProp 𝕄) : sProp 𝕄 :=
  iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ R)

end Cert.Kernel.Hand

end
-- ==== Proof.K0RunAW.lean ====
import proofs.«407301_j76149770158544_3_alg».proof.Proof.K0RunsW

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid0.Coords) (arg2 : Memref sig .tc .vmem S2048x768 .f32) (harg2 : arg2.IsWhole) (arg3 : Memref sig .tc .vmem S2048 .i32) (harg3 : arg3.IsWhole) (arg4 : Memref sig .tc .vmem S768x512 .bf16) (harg4 : arg4.IsWhole) (arg5 : Memref sig .tc .vmem S512 .f32) (harg5 : arg5.IsWhole) (arg6 : Memref sig .tc .vmem S512 .f32) (harg6 : arg6.IsWhole) (arg7 : Memref sig .tc .vmem S512 .f32) (harg7 : arg7.IsWhole) (arg8 : Memref sig .tc .vmem S512x512 .bf16) (harg8 : arg8.IsWhole) (arg9 : Memref sig .tc .vmem S512 .f32) (harg9 : arg9.IsWhole) (arg10 : Memref sig .tc .vmem S512 .f32) (harg10 : arg10.IsWhole) (arg11 : Memref sig .tc .vmem S512 .f32) (harg11 : arg11.IsWhole) (arg12 : Memref sig .tc .vmem S512x128 .bf16) (harg12 : arg12.IsWhole) (arg13 : Memref sig .tc .vmem S128 .f32) (harg13 : arg13.IsWhole) (arg14 : Memref sig .tc .vmem S128 .f32) (harg14 : arg14.IsWhole) (arg15 : Memref sig .tc .vmem S128 .f32) (harg15 : arg15.IsWhole) (arg16 : Memref sig .tc .vmem S128x32 .bf16) (harg16 : arg16.IsWhole) (arg17 : Memref sig .tc .vmem S32 .f32) (harg17 : arg17.IsWhole) (arg18 : Memref sig .tc .vmem S1x64x32 .f32) (harg18 : arg18.IsWhole) (arg19 : Memref sig .tc .vmem S1x64x1 .f32) (harg19 : arg19.IsWhole) (arg20 : Memref sig .tc .vmem S64x32 .f32) (harg20 : arg20.IsWhole) (arg21 : Memref sig .tc .vmem S64x1 .f32) (harg21 : arg21.IsWhole)

set_option maxHeartbeats 4000000 in
noncomputable def kernelRun0_A (hc0 : cond0_0 i) (hc1 : ¬cond0_1 i)
    (x0 : Vec F S2048x768 .f32) (x1 : Vec F S2048 .i32) (x2 : Vec F S768x512 .bf16) (x3 : Vec F S512 .f32) (x4 : Vec F S512 .f32) (x5 : Vec F S512 .f32) (x6 : Vec F S512x512 .bf16) (x7 : Vec F S512 .f32) (x8 : Vec F S512 .f32) (x9 : Vec F S512 .f32) (x10 : Vec F S512x128 .bf16) (x11 : Vec F S128 .f32) (x12 : Vec F S128 .f32) (x13 : Vec F S128 .f32) (x14 : Vec F S128x32 .bf16) (x15 : Vec F S32 .f32) :
    Σ' (L16 : List (View.Piece (Elt F) S1x64x32 .f32)) (L17 : List (View.Piece (Elt F) S1x64x1 .f32)) (LS0 : List (View.Piece (Elt F) S64x32 .f32)), { LS1 : List (View.Piece (Elt F) S64x1 .f32) //
      ∀ (xi16 : Vec F S1x64x32 .f32) (xi17 : Vec F S1x64x1 .f32) (E : Set ℕ) (K : PUnit → sProp 𝕄),
        ins0 c arg2 arg3 arg4 arg5 arg6 arg7 arg8 arg9 arg10 arg11 arg12 arg13 arg14 arg15 arg16 arg17 x0 x1 x2 x3 x4 x5 x6 x7 x8 x9 x10 x11 x12 x13 x14 x15 iprop(owns (c : Thread nD τ) arg18 fullShare xi16 ∗ owns (c : Thread nD τ) arg19 fullShare xi17 ∗ (∃ d, owns (c : Thread nD τ) arg20 fullShare d) ∗ (∃ d, owns (c : Thread nD τ) arg21 fullShare d)
            ∗ (ins0 c arg2 arg3 arg4 arg5 arg6 arg7 arg8 arg9 arg10 arg11 arg12 arg13 arg14 arg15 arg16 arg17 x0 x1 x2 x3 x4 x5 x6 x7 x8 x9 x10 x11 x12 x13 x14 x15 iprop(owns (c : Thread nD τ) arg18 fullShare xi16 ∗ owns (c : Thread nD τ) arg19 fullShare xi17 ∗ (∃ f, arg20.view.loc (c : Thread nD τ) ↦[arg20.view.set]{fullShare} arg20.view.writes (Elt F) f LS0) ∗ (∃ f, arg21.view.loc (c : Thread nD τ) ↦[arg21.view.set]{fullShare} arg21.view.writes (Elt F) f LS1)) -∗ K ⟨⟩))
          ⊢ wp frame (wpE (defs₀ (F := F)) Variants.none c none) E (cc0__support_proto_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K } := by
  refine ⟨[], [], ?_, ?_, fun xi16 xi17 E K => ?run⟩
  case run =>
    simp only [cc0__support_proto_kernel_eq_skeleton]; unfold cc0__support_proto_kernel_skel
    simp only [k0_part1_eq_skeleton, k0_part2_eq_skeleton, k0_part3_eq_skeleton]
    unfold ins0
    rw [owns_eq_unread c harg2, owns_eq_unread c harg3, owns_eq_unread c harg4, owns_eq_unread c harg5, owns_eq_unread c harg6, owns_eq_unread c harg7, owns_eq_unread c harg8, owns_eq_unread c harg9, owns_eq_unread c harg10, owns_eq_unread c harg11, owns_eq_unread c harg12, owns_eq_unread c harg13, owns_eq_unread c harg14, owns_eq_unread c harg15, owns_eq_unread c harg16, owns_eq_unread c harg17, owns_eq_unread c harg18, owns_eq_unread c harg19]
    unfold owns
    iintro ⟨H0, H1, H2, H3, H4, H5, H6, H7, H8, H9, H10, H11, H12, H13, H14, H15, H16, H17, ⟨%ds0, %fs0, -, HS0⟩, ⟨%ds1, %fs1, -, HS1⟩, Hk⟩
    sl_exec (disch := first | exact hc0 | exact hc1)
    sl_step
    iapply Hk
    iframe
    isplitl [HS0]; · iexists _; iexact HS0
    iexists _; iexact HS1

set_option maxHeartbeats 4000000 in
noncomputable def kernelRun0_B (hc0 : ¬cond0_0 i) (hc1 : ¬cond0_1 i)
    (x0 : Vec F S2048x768 .f32) (x1 : Vec F S2048 .i32) (x2 : Vec F S768x512 .bf16) (x3 : Vec F S512 .f32) (x4 : Vec F S512 .f32) (x5 : Vec F S512 .f32) (x6 : Vec F S512x512 .bf16) (x7 : Vec F S512 .f32) (x8 : Vec F S512 .f32) (x9 : Vec F S512 .f32) (x10 : Vec F S512x128 .bf16) (x11 : Vec F S128 .f32) (x12 : Vec F S128 .f32) (x13 : Vec F S128 .f32) (x14 : Vec F S128x32 .bf16) (x15 : Vec F S32 .f32) (xs0 : Vec F S64x32 .f32) (xs1 : Vec F S64x1 .f32) :
    Σ' (L16 : List (View.Piece (Elt F) S1x64x32 .f32)) (L17 : List (View.Piece (Elt F) S1x64x1 .f32)) (LS0 : List (View.Piece (Elt F) S64x32 .f32)), { LS1 : List (View.Piece (Elt F) S64x1 .f32) //
      ∀ (xi16 : Vec F S1x64x32 .f32) (xi17 : Vec F S1x64x1 .f32) (E : Set ℕ) (K : PUnit → sProp 𝕄),
        ins0 c arg2 arg3 arg4 arg5 arg6 arg7 arg8 arg9 arg10 arg11 arg12 arg13 arg14 arg15 arg16 arg17 x0 x1 x2 x3 x4 x5 x6 x7 x8 x9 x10 x11 x12 x13 x14 x15 iprop(owns (c : Thread nD τ) arg18 fullShare xi16 ∗ owns (c : Thread nD τ) arg19 fullShare xi17 ∗ owns (c : Thread nD τ) arg20 fullShare xs0 ∗ owns (c : Thread nD τ) arg21 fullShare xs1
            ∗ (ins0 c arg2 arg3 arg4 arg5 arg6 arg7 arg8 arg9 arg10 arg11 arg12 arg13 arg14 arg15 arg16 arg17 x0 x1 x2 x3 x4 x5 x6 x7 x8 x9 x10 x11 x12 x13 x14 x15 iprop(owns (c : Thread nD τ) arg18 fullShare xi16 ∗ owns (c : Thread nD τ) arg19 fullShare xi17 ∗ (∃ f, arg20.view.loc (c : Thread nD τ) ↦[arg20.view.set]{fullShare} arg20.view.writes (Elt F) f LS0) ∗ (∃ f, arg21.view.loc (c : Thread nD τ) ↦[arg21.view.set]{fullShare} arg21.view.writes (Elt F) f LS1)) -∗ K ⟨⟩))
          ⊢ wp frame (wpE (defs₀ (F := F)) Variants.none c none) E (cc0__support_proto_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K } := by
  refine ⟨[], [], ?_, ?_, fun xi16 xi17 E K => ?run⟩
  case run =>
    simp only [cc0__support_proto_kernel_eq_skeleton]; unfold cc0__support_proto_kernel_skel
    simp only [k0_part1_eq_skeleton, k0_part2_eq_skeleton, k0_part3_eq_skeleton]
    unfold ins0
    rw [owns_eq_unread c harg2, owns_eq_unread c harg3, owns_eq_unread c harg4, owns_eq_unread c harg5, owns_eq_unread c harg6, owns_eq_unread c harg7, owns_eq_unread c harg8, owns_eq_unread c harg9, owns_eq_unread c harg10, owns_eq_unread c harg11, owns_eq_unread c harg12, owns_eq_unread c harg13, owns_eq_unread c harg14, owns_eq_unread c harg15, owns_eq_unread c harg16, owns_eq_unread c harg17, owns_eq_unread c harg18, owns_eq_unread c harg19, owns_eq_unread c harg20, owns_eq_unread c harg21]
    iintro ⟨H0, H1, H2, H3, H4, H5, H6, H7, H8, H9, H10, H11, H12, H13, H14, H15, H16, H17, HS0, HS1, Hk⟩
    sl_exec (disch := first | exact hc0 | exact hc1)
    sl_step
    iapply Hk
    iframe
    isplitl [HS0]; · iexists _; iexact HS0
    iexists _; iexact HS1

set_option maxHeartbeats 4000000 in
noncomputable def kernelRun0_C (hc0 : ¬cond0_0 i) (hc1 : cond0_1 i)
    (x0 : Vec F S2048x768 .f32) (x1 : Vec F S2048 .i32) (x2 : Vec F S768x512 .bf16) (x3 : Vec F S512 .f32) (x4 : Vec F S512 .f32) (x5 : Vec F S512 .f32) (x6 : Vec F S512x512 .bf16) (x7 : Vec F S512 .f32) (x8 : Vec F S512 .f32) (x9 : Vec F S512 .f32) (x10 : Vec F S512x128 .bf16) (x11 : Vec F S128 .f32) (x12 : Vec F S128 .f32) (x13 : Vec F S128 .f32) (x14 : Vec F S128x32 .bf16) (x15 : Vec F S32 .f32) (xs0 : Vec F S64x32 .f32) (xs1 : Vec F S64x1 .f32) :
    Σ' (L16 : List (View.Piece (Elt F) S1x64x32 .f32)) (L17 : List (View.Piece (Elt F) S1x64x1 .f32)) (LS0 : List (View.Piece (Elt F) S64x32 .f32)), { LS1 : List (View.Piece (Elt F) S64x1 .f32) //
      ∀ (E : Set ℕ) (K : PUnit → sProp 𝕄),
        ins0 c arg2 arg3 arg4 arg5 arg6 arg7 arg8 arg9 arg10 arg11 arg12 arg13 arg14 arg15 arg16 arg17 x0 x1 x2 x3 x4 x5 x6 x7 x8 x9 x10 x11 x12 x13 x14 x15 iprop((∃ d, owns (c : Thread nD τ) arg18 fullShare d) ∗ (∃ d, owns (c : Thread nD τ) arg19 fullShare d) ∗ owns (c : Thread nD τ) arg20 fullShare xs0 ∗ owns (c : Thread nD τ) arg21 fullShare xs1
            ∗ (ins0 c arg2 arg3 arg4 arg5 arg6 arg7 arg8 arg9 arg10 arg11 arg12 arg13 arg14 arg15 arg16 arg17 x0 x1 x2 x3 x4 x5 x6 x7 x8 x9 x10 x11 x12 x13 x14 x15 iprop((∃ f, arg18.view.loc (c : Thread nD τ) ↦[arg18.view.set]{fullShare} arg18.view.writes (Elt F) f L16) ∗ (∃ f, arg19.view.loc (c : Thread nD τ) ↦[arg19.view.set]{fullShare} arg19.view.writes (Elt F) f L17) ∗ (∃ f, arg20.view.loc (c : Thread nD τ) ↦[arg20.view.set]{fullShare} arg20.view.writes (Elt F) f LS0) ∗ (∃ f, arg21.view.loc (c : Thread nD τ) ↦[arg21.view.set]{fullShare} arg21.view.writes (Elt F) f LS1)) -∗ K ⟨⟩))
          ⊢ wp frame (wpE (defs₀ (F := F)) Variants.none c none) E (cc0__support_proto_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K } := by
  refine ⟨?_, ?_, ?_, ?_, fun E K => ?run⟩
  case run =>
    simp only [cc0__support_proto_kernel_eq_skeleton]; unfold cc0__support_proto_kernel_skel
    simp only [k0_part1_eq_skeleton, k0_part2_eq_skeleton, k0_part3_eq_skeleton]
    unfold ins0
    rw [owns_eq_unread c harg2, owns_eq_unread c harg3, owns_eq_unread c harg4, owns_eq_unread c harg5, owns_eq_unread c harg6, owns_eq_unread c harg7, owns_eq_unread c harg8, owns_eq_unread c harg9, owns_eq_unread c harg10, owns_eq_unread c harg11, owns_eq_unread c harg12, owns_eq_unread c harg13, owns_eq_unread c harg14, owns_eq_unread c harg15, owns_eq_unread c harg16, owns_eq_unread c harg17, owns_eq_unread c harg20, owns_eq_unread c harg21]
    unfold owns
    iintro ⟨H0, H1, H2, H3, H4, H5, H6, H7, H8, H9, H10, H11, H12, H13, H14, H15, ⟨%d16, %f16, -, H16⟩, ⟨%d17, %f17, -, H17⟩, HS0, HS1, Hk⟩
    sl_exec (disch := first | exact hc0 | exact hc1)
    sl_step
    iapply Hk
    iframe
    isplitl [H16]; · iexists _; iexact H16
    isplitl [H17]; · iexists _; iexact H17
    isplitl [HS0]; · iexists _; iexact HS0
    iexists _; iexact HS1

end Cert.Kernel.Hand

end
-- ==== Proof.K0DataW.lean ====
import proofs.«407301_j76149770158544_3_alg».proof.Proof.K0RunAW

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

def runA (c : Dev nD) (t : Fin cfg0.N) (h0 : t.val % 8 = 0) (h1 : ¬t.val % 8 = 7) :=
  kernelRun0_A (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) scM0_1 (Memref.isWhole_whole _) ((hcond0_0 t).mpr h0) (fun h => h1 ((hcond0_1 t).mp h)) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t) (iblk0 V c 15 t)
def runB (c : Dev nD) (t : Fin cfg0.N) (h0 : ¬t.val % 8 = 0) (h1 : ¬t.val % 8 = 7) (xs0 : Vec F S64x32 .f32) (xs1 : Vec F S64x1 .f32) :=
  kernelRun0_B (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t) (iblk0 V c 15 t) xs0 xs1
def runC (c : Dev nD) (t : Fin cfg0.N) (h0 : ¬t.val % 8 = 0) (h1 : t.val % 8 = 7) (xs0 : Vec F S64x32 .f32) (xs1 : Vec F S64x1 .f32) :=
  kernelRun0_C (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t) (iblk0 V c 15 t) xs0 xs1

theorem scoverA_0 (c : Dev nD) (t : Fin cfg0.N) (h0 : t.val % 8 = 0) (h1 : ¬t.val % 8 = 7) (y : S64x32.Idx) :
    ∃ pc ∈ (runA V c t h0 h1).2.2.1, y ∈ pc.1.set :=
  View.cover_of_tiledL (runA V c t h0 h1).2.2.1 S64x32.size (by sl_kernel_rfl) y
theorem scoverA_1 (c : Dev nD) (t : Fin cfg0.N) (h0 : t.val % 8 = 0) (h1 : ¬t.val % 8 = 7) (y : S64x1.Idx) :
    ∃ pc ∈ (runA V c t h0 h1).2.2.2.1, y ∈ pc.1.set :=
  View.cover_of_tiledL (runA V c t h0 h1).2.2.2.1 S64x1.size (by sl_kernel_rfl) y
theorem scoverB_0 (c : Dev nD) (t : Fin cfg0.N) (h0 : ¬t.val % 8 = 0) (h1 : ¬t.val % 8 = 7) (xs0 : Vec F S64x32 .f32) (xs1 : Vec F S64x1 .f32) (y : S64x32.Idx) :
    ∃ pc ∈ (runB V c t h0 h1 xs0 xs1).2.2.1, y ∈ pc.1.set :=
  View.cover_of_tiledL (runB V c t h0 h1 xs0 xs1).2.2.1 S64x32.size (by sl_kernel_rfl) y
theorem scoverB_1 (c : Dev nD) (t : Fin cfg0.N) (h0 : ¬t.val % 8 = 0) (h1 : ¬t.val % 8 = 7) (xs0 : Vec F S64x32 .f32) (xs1 : Vec F S64x1 .f32) (y : S64x1.Idx) :
    ∃ pc ∈ (runB V c t h0 h1 xs0 xs1).2.2.2.1, y ∈ pc.1.set :=
  View.cover_of_tiledL (runB V c t h0 h1 xs0 xs1).2.2.2.1 S64x1.size (by sl_kernel_rfl) y
theorem scoverC_0 (c : Dev nD) (t : Fin cfg0.N) (h0 : ¬t.val % 8 = 0) (h1 : t.val % 8 = 7) (xs0 : Vec F S64x32 .f32) (xs1 : Vec F S64x1 .f32) (y : S64x32.Idx) :
    ∃ pc ∈ (runC V c t h0 h1 xs0 xs1).2.2.1, y ∈ pc.1.set :=
  View.cover_of_tiledL (runC V c t h0 h1 xs0 xs1).2.2.1 S64x32.size (by sl_kernel_rfl) y
theorem scoverC_1 (c : Dev nD) (t : Fin cfg0.N) (h0 : ¬t.val % 8 = 0) (h1 : t.val % 8 = 7) (xs0 : Vec F S64x32 .f32) (xs1 : Vec F S64x1 .f32) (y : S64x1.Idx) :
    ∃ pc ∈ (runC V c t h0 h1 xs0 xs1).2.2.2.1, y ∈ pc.1.set :=
  View.cover_of_tiledL (runC V c t h0 h1 xs0 xs1).2.2.2.1 S64x1.size (by sl_kernel_rfl) y
theorem coverC_16 (c : Dev nD) (t : Fin cfg0.N) (h0 : ¬t.val % 8 = 0) (h1 : t.val % 8 = 7) (xs0 : Vec F S64x32 .f32) (xs1 : Vec F S64x1 .f32) (y : S1x64x32.Idx) :
    ∃ pc ∈ (runC V c t h0 h1 xs0 xs1).1, y ∈ pc.1.set :=
  View.cover_of_tiledL (runC V c t h0 h1 xs0 xs1).1 S1x64x32.size (by sl_kernel_rfl) y
theorem coverC_17 (c : Dev nD) (t : Fin cfg0.N) (h0 : ¬t.val % 8 = 0) (h1 : t.val % 8 = 7) (xs0 : Vec F S64x32 .f32) (xs1 : Vec F S64x1 .f32) (y : S1x64x1.Idx) :
    ∃ pc ∈ (runC V c t h0 h1 xs0 xs1).2.1, y ∈ pc.1.set :=
  View.cover_of_tiledL (runC V c t h0 h1 xs0 xs1).2.1 S1x64x1.size (by sl_kernel_rfl) y

abbrev rd16 (L : List (View.Piece (Elt F) S1x64x32 .f32)) : Vec F S1x64x32 .f32 := VO0_16.read (Elt F) (VO0_16.writes (Elt F) VO0_16.junk L)
abbrev rd17 (L : List (View.Piece (Elt F) S1x64x1 .f32)) : Vec F S1x64x1 .f32 := VO0_17.read (Elt F) (VO0_17.writes (Elt F) VO0_17.junk L)
abbrev rdS0 (L : List (View.Piece (Elt F) S64x32 .f32)) : Vec F S64x32 .f32 := VS0_0.read (Elt F) (VS0_0.writes (Elt F) VS0_0.junk L)
abbrev rdS1 (L : List (View.Piece (Elt F) S64x1 .f32)) : Vec F S64x1 .f32 := VS0_1.read (Elt F) (VS0_1.writes (Elt F) VS0_1.junk L)

abbrev Four : Type := Vec F S1x64x32 .f32 × Vec F S1x64x1 .f32 × Vec F S64x32 .f32 × Vec F S64x1 .f32
def leftA (c : Dev nD) (t : Fin cfg0.N) (h0 : t.val % 8 = 0) (h1 : ¬t.val % 8 = 7) : Four (F := F) :=
  (rd16 (runA V c t h0 h1).1, rd17 (runA V c t h0 h1).2.1, rdS0 (runA V c t h0 h1).2.2.1, rdS1 (runA V c t h0 h1).2.2.2.1)
def leftB (c : Dev nD) (t : Fin cfg0.N) (h0 : ¬t.val % 8 = 0) (h1 : ¬t.val % 8 = 7) (xs0 : Vec F S64x32 .f32) (xs1 : Vec F S64x1 .f32) : Four (F := F) :=
  (rd16 (runB V c t h0 h1 xs0 xs1).1, rd17 (runB V c t h0 h1 xs0 xs1).2.1, rdS0 (runB V c t h0 h1 xs0 xs1).2.2.1, rdS1 (runB V c t h0 h1 xs0 xs1).2.2.2.1)
def leftC (c : Dev nD) (t : Fin cfg0.N) (h0 : ¬t.val % 8 = 0) (h1 : t.val % 8 = 7) (xs0 : Vec F S64x32 .f32) (xs1 : Vec F S64x1 .f32) : Four (F := F) :=
  (rd16 (runC V c t h0 h1 xs0 xs1).1, rd17 (runC V c t h0 h1 xs0 xs1).2.1, rdS0 (runC V c t h0 h1 xs0 xs1).2.2.1, rdS1 (runC V c t h0 h1 xs0 xs1).2.2.2.1)

-- The accumulation, by recursion on the point: a first tile starts afresh, a later tile adds to what the point before left.
def accAt0 (c : Dev nD) : (n : ℕ) → n < cfg0.N → Four (F := F)
  | 0, hn => leftA V c ⟨0, hn⟩ (Nat.zero_mod _) (by simp)
  | n + 1, hn =>
    if h0 : (n + 1) % 8 = 0 then
      if h1 : (n + 1) % 8 = 7 then False.elim (by omega)
      else leftA V c ⟨n + 1, hn⟩ h0 h1
    else
      if h1 : (n + 1) % 8 = 7 then
        leftC V c ⟨n + 1, hn⟩ h0 h1 (accAt0 c n (Nat.lt_of_succ_lt hn)).2.2.1 (accAt0 c n (Nat.lt_of_succ_lt hn)).2.2.2
      else
        leftB V c ⟨n + 1, hn⟩ h0 h1 (accAt0 c n (Nat.lt_of_succ_lt hn)).2.2.1 (accAt0 c n (Nat.lt_of_succ_lt hn)).2.2.2
theorem accAt0_A (c : Dev nD) (t : Fin cfg0.N) (h0 : t.val % 8 = 0) (h1 : ¬t.val % 8 = 7) :
    accAt0 V c t.val t.isLt = leftA V c t h0 h1 := by
  obtain ⟨n, hn⟩ := t
  cases n with
  | zero => exact rfl
  | succ n => exact (dif_pos h0).trans ((dif_neg h1).trans rfl)
theorem accAt0_B (c : Dev nD) (t : Fin cfg0.N) (h0 : ¬t.val % 8 = 0) (h1 : ¬t.val % 8 = 7) :
    accAt0 V c t.val t.isLt = leftB V c t h0 h1 (accAt0 V c (t.val - 1) (Nat.lt_of_le_of_lt (Nat.sub_le _ _) t.isLt)).2.2.1 (accAt0 V c (t.val - 1) (Nat.lt_of_le_of_lt (Nat.sub_le _ _) t.isLt)).2.2.2 := by
  obtain ⟨n, hn⟩ := t
  cases n with
  | zero => exact (by exfalso; (try dsimp only at h0); exact absurd (Nat.zero_mod _) h0)
  | succ n => exact (dif_neg h0).trans ((dif_neg h1).trans rfl)
theorem accAt0_C (c : Dev nD) (t : Fin cfg0.N) (h0 : ¬t.val % 8 = 0) (h1 : t.val % 8 = 7) :
    accAt0 V c t.val t.isLt = leftC V c t h0 h1 (accAt0 V c (t.val - 1) (Nat.lt_of_le_of_lt (Nat.sub_le _ _) t.isLt)).2.2.1 (accAt0 V c (t.val - 1) (Nat.lt_of_le_of_lt (Nat.sub_le _ _) t.isLt)).2.2.2 := by
  obtain ⟨n, hn⟩ := t
  cases n with
  | zero => exact (by exfalso; (try dsimp only at h0); exact absurd (Nat.zero_mod _) h0)
  | succ n => exact (dif_neg h0).trans ((dif_pos h1).trans rfl)

-- The invariant once a point has run: the accumulators at `a`'s last two components.
abbrev inv0 (c : Dev nD) (a : Four (F := F)) : sProp 𝕄 :=
  iprop(iprop(owns (c : Thread nD τ) scM0_0 fullShare a.2.2.1 ∗ owns (c : Thread nD τ) scM0_1 fullShare a.2.2.2 ∗ rest0 c) ∗ (∃ r, prngReg c r))

def PhiS (c : Dev nD) : (n : ℕ) → n ≤ cfg0.N → sProp 𝕄
  | 0, _ => Pipeline.ΦA spec0 c
  | n + 1, hn => inv0 c (accAt0 V c n hn)

theorem PhiS_pos (c : Dev nD) (n : ℕ) (h : n ≤ cfg0.N) (hz : n ≠ 0) : PhiS V c n h = inv0 c (accAt0 V c (n - 1) (by omega)) := by
  cases n with
  | zero => exact absurd rfl hz
  | succ n => rfl

-- At every position the invariant gives the resting one back: the accumulators' contents are forgotten.
theorem PhiS_le (c : Dev nD) (n : ℕ) (h : n ≤ cfg0.N) : PhiS V c n h
    ⊢ iprop(iprop((∃ d, owns (c : Thread nD τ) scM0_0 fullShare d) ∗ (∃ d, owns (c : Thread nD τ) scM0_1 fullShare d) ∗ rest0 c) ∗ (∃ r, prngReg c r)) := by
  cases n with
  | zero => rw [← PhiA0_eq]; exact .rfl
  | succ n =>
    show inv0 c (accAt0 V c n h) ⊢ _
    iintro ⟨⟨HS0, HS1, HR⟩, Hg⟩
    iframe
    isplitl [HS0] <;> (iexists _; iassumption)

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => iblk0 V c 9 t
    | ⟨10, _⟩ => iblk0 V c 10 t
    | ⟨11, _⟩ => iblk0 V c 11 t
    | ⟨12, _⟩ => iblk0 V c 12 t
    | ⟨13, _⟩ => iblk0 V c 13 t
    | ⟨14, _⟩ => iblk0 V c 14 t
    | ⟨15, _⟩ => iblk0 V c 15 t
    | ⟨16, _⟩ => (accAt0 V c t.val t.isLt).1
    | ⟨17, _⟩ => (accAt0 V c t.val t.isLt).2.1
    | ⟨_ + 18, h⟩ => absurd h (Nat.not_lt.2 (Nat.le_add_left _ _))
  Φ t := PhiS V c t.val (Nat.le_of_lt_succ t.isLt)
  q _ := fullShare
  owed _ := 0

theorem A_eq0 (c : Dev nD) (w : Fin cfg0.W) : (dat0 V c).A w = V c (Pipeline.arrRef spec0 w) := rfl
theorem after0_16 (c : Dev nD) (t : Fin cfg0.N) : (dat0 V c).after 16 t = (accAt0 V c t.val t.isLt).1 := rfl
theorem after0_17 (c : Dev nD) (t : Fin cfg0.N) : (dat0 V c).after 17 t = (accAt0 V c t.val t.isLt).2.1 := rfl
theorem before0_0 (c : Dev nD) (t : Fin cfg0.N) (d) : (dat0 V c).before 0 t d = iblk0 V c 0 t :=
  ((dat0 V c).before_in_eq_fetched 0 rfl (fun _ => rfl) (fun _ _ _ => rfl) (fun _ => rfl) t d).trans rfl
theorem before0_1 (c : Dev nD) (t : Fin cfg0.N) (d) : (dat0 V c).before 1 t d = iblk0 V c 1 t :=
  ((dat0 V c).before_in_eq_fetched 1 rfl (fun _ => rfl) (fun _ _ _ => rfl) (fun _ => rfl) t d).trans rfl
theorem before0_2 (c : Dev nD) (t : Fin cfg0.N) (d) : (dat0 V c).before 2 t d = iblk0 V c 2 t :=
  ((dat0 V c).before_in_eq_fetched 2 rfl (fun _ => rfl) (fun _ _ _ => rfl) (fun _ => rfl) t d).trans rfl
theorem before0_3 (c : Dev nD) (t : Fin cfg0.N) (d) : (dat0 V c).before 3 t d = iblk0 V c 3 t :=
  ((dat0 V c).before_in_eq_fetched 3 rfl (fun _ => rfl) (fun _ _ _ => rfl) (fun _ => rfl) t d).trans rfl
theorem before0_4 (c : Dev nD) (t : Fin cfg0.N) (d) : (dat0 V c).before 4 t d = iblk0 V c 4 t :=
  ((dat0 V c).before_in_eq_fetched 4 rfl (fun _ => rfl) (fun _ _ _ => rfl) (fun _ => rfl) t d).trans rfl
theorem before0_5 (c : Dev nD) (t : Fin cfg0.N) (d) : (dat0 V c).before 5 t d = iblk0 V c 5 t :=
  ((dat0 V c).before_in_eq_fetched 5 rfl (fun _ => rfl) (fun _ _ _ => rfl) (fun _ => rfl) t d).trans rfl
theorem before0_6 (c : Dev nD) (t : Fin cfg0.N) (d) : (dat0 V c).before 6 t d = iblk0 V c 6 t :=
  ((dat0 V c).before_in_eq_fetched 6 rfl (fun _ => rfl) (fun _ _ _ => rfl) (fun _ => rfl) t d).trans rfl
theorem before0_7 (c : Dev nD) (t : Fin cfg0.N) (d) : (dat0 V c).before 7 t d = iblk0 V c 7 t :=
  ((dat0 V c).before_in_eq_fetched 7 rfl (fun _ => rfl) (fun _ _ _ => rfl) (fun _ => rfl) t d).trans rfl
theorem before0_8 (c : Dev nD) (t : Fin cfg0.N) (d) : (dat0 V c).before 8 t d = iblk0 V c 8 t :=
  ((dat0 V c).before_in_eq_fetched 8 rfl (fun _ => rfl) (fun _ _ _ => rfl) (fun _ => rfl) t d).trans rfl
theorem before0_9 (c : Dev nD) (t : Fin cfg0.N) (d) : (dat0 V c).before 9 t d = iblk0 V c 9 t :=
  ((dat0 V c).before_in_eq_fetched 9 rfl (fun _ => rfl) (fun _ _ _ => rfl) (fun _ => rfl) t d).trans rfl
theorem before0_10 (c : Dev nD) (t : Fin cfg0.N) (d) : (dat0 V c).before 10 t d = iblk0 V c 10 t :=
  ((dat0 V c).before_in_eq_fetched 10 rfl (fun _ => rfl) (fun _ _ _ => rfl) (fun _ => rfl) t d).trans rfl
theorem before0_11 (c : Dev nD) (t : Fin cfg0.N) (d) : (dat0 V c).before 11 t d = iblk0 V c 11 t :=
  ((dat0 V c).before_in_eq_fetched 11 rfl (fun _ => rfl) (fun _ _ _ => rfl) (fun _ => rfl) t d).trans rfl
theorem before0_12 (c : Dev nD) (t : Fin cfg0.N) (d) : (dat0 V c).before 12 t d = iblk0 V c 12 t :=
  ((dat0 V c).before_in_eq_fetched 12 rfl (fun _ => rfl) (fun _ _ _ => rfl) (fun _ => rfl) t d).trans rfl
theorem before0_13 (c : Dev nD) (t : Fin cfg0.N) (d) : (dat0 V c).before 13 t d = iblk0 V c 13 t :=
  ((dat0 V c).before_in_eq_fetched 13 rfl (fun _ => rfl) (fun _ _ _ => rfl) (fun _ => rfl) t d).trans rfl
theorem before0_14 (c : Dev nD) (t : Fin cfg0.N) (d) : (dat0 V c).before 14 t d = iblk0 V c 14 t :=
  ((dat0 V c).before_in_eq_fetched 14 rfl (fun _ => rfl) (fun _ _ _ => rfl) (fun _ => rfl) t d).trans rfl
theorem before0_15 (c : Dev nD) (t : Fin cfg0.N) (d) : (dat0 V c).before 15 t d = iblk0 V c 15 t :=
  ((dat0 V c).before_in_eq_fetched 15 rfl (fun _ => rfl) (fun _ _ _ => rfl) (fun _ => rfl) t d).trans rfl

end Cert.Kernel.Hand

end
-- ==== Proof.K0BodyW.lean ====
import proofs.«407301_j76149770158544_3_alg».proof.Proof.K0DataW

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def bodyPre0 (c : Dev nD) (t : Fin cfg0.N) : sProp 𝕄 :=
  iprop(PhiS V c t.val (Nat.le_of_lt t.isLt) ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d))
    ∗ (∃ d, owns (c : Thread nD τ) (ms0_7 t) fullShare ((dat0 V c).before 7 t d))
    ∗ (∃ d, owns (c : Thread nD τ) (ms0_8 t) fullShare ((dat0 V c).before 8 t d))
    ∗ (∃ d, owns (c : Thread nD τ) (ms0_9 t) fullShare ((dat0 V c).before 9 t d))
    ∗ (∃ d, owns (c : Thread nD τ) (ms0_10 t) fullShare ((dat0 V c).before 10 t d))
    ∗ (∃ d, owns (c : Thread nD τ) (ms0_11 t) fullShare ((dat0 V c).before 11 t d))
    ∗ (∃ d, owns (c : Thread nD τ) (ms0_12 t) fullShare ((dat0 V c).before 12 t d))
    ∗ (∃ d, owns (c : Thread nD τ) (ms0_13 t) fullShare ((dat0 V c).before 13 t d))
    ∗ (∃ d, owns (c : Thread nD τ) (ms0_14 t) fullShare ((dat0 V c).before 14 t d))
    ∗ (∃ d, owns (c : Thread nD τ) (ms0_15 t) fullShare ((dat0 V c).before 15 t d))
    ∗ (∃ d, owns (c : Thread nD τ) (ms0_16 t) fullShare ((dat0 V c).before 16 t d))
    ∗ (∃ d, owns (c : Thread nD τ) (ms0_17 t) fullShare ((dat0 V c).before 17 t d)))

def bodyPost0 (c : Dev nD) (t : Fin cfg0.N) : sProp 𝕄 :=
  iprop(inv0 c (accAt0 V c t.val t.isLt) ∗ (dat0 V c).owesAt () t.castSucc
    ∗ owns (c : Thread nD τ) (ms0_0 t) fullShare (iblk0 V c 0 t)
    ∗ owns (c : Thread nD τ) (ms0_1 t) fullShare (iblk0 V c 1 t)
    ∗ owns (c : Thread nD τ) (ms0_2 t) fullShare (iblk0 V c 2 t)
    ∗ owns (c : Thread nD τ) (ms0_3 t) fullShare (iblk0 V c 3 t)
    ∗ owns (c : Thread nD τ) (ms0_4 t) fullShare (iblk0 V c 4 t)
    ∗ owns (c : Thread nD τ) (ms0_5 t) fullShare (iblk0 V c 5 t)
    ∗ owns (c : Thread nD τ) (ms0_6 t) fullShare (iblk0 V c 6 t)
    ∗ owns (c : Thread nD τ) (ms0_7 t) fullShare (iblk0 V c 7 t)
    ∗ owns (c : Thread nD τ) (ms0_8 t) fullShare (iblk0 V c 8 t)
    ∗ owns (c : Thread nD τ) (ms0_9 t) fullShare (iblk0 V c 9 t)
    ∗ owns (c : Thread nD τ) (ms0_10 t) fullShare (iblk0 V c 10 t)
    ∗ owns (c : Thread nD τ) (ms0_11 t) fullShare (iblk0 V c 11 t)
    ∗ owns (c : Thread nD τ) (ms0_12 t) fullShare (iblk0 V c 12 t)
    ∗ owns (c : Thread nD τ) (ms0_13 t) fullShare (iblk0 V c 13 t)
    ∗ owns (c : Thread nD τ) (ms0_14 t) fullShare (iblk0 V c 14 t)
    ∗ owns (c : Thread nD τ) (ms0_15 t) fullShare (iblk0 V c 15 t)
    ∗ (dat0 V c).leavesExact 16 t ∗ (dat0 V c).leavesExact 17 t)

set_option maxHeartbeats 8000000 in
-- At a point the closed forms of the two conditions select the control case; its run takes the accumulators from the point before and hands every buffer back at the point's contents.
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7, before0_8, before0_9, before0_10, before0_11, before0_12, before0_13, before0_14, before0_15]
  by_cases h0 : t.val % 8 = 0
  · have h1 : ¬t.val % 8 = 7 := by omega
    rw [Dat.leavesExact_idle (dat0 V c) 16 t (idle0 t h1).1.1 (idle0 t h1).1.2, Dat.leavesExact_idle (dat0 V c) 17 t (idle0 t h1).2.1 (idle0 t h1).2.2, accAt0_A V c t h0 h1]
    unfold leftA inv0; dsimp only
    refine (sep_mono_left (PhiS_le V c _ _)).trans ?_
    have hrun := (runA V c t h0 h1).2.2.2.2; unfold ins0 at hrun
    iintro ⟨⟨⟨HS0, HS1, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩⟩
    iapply (hrun _ _ Set.univ _)
    iframe
    iintro ⟨H0, H1, H2, H3, H4, H5, H6, H7, H8, H9, H10, H11, H12, H13, H14, H15, H16, H17, HS0, HS1⟩
    ihave HS0 := owns_writes c scM0_0 VS0_0 _ (scoverA_0 V c t h0 h1) $$ HS0
    ihave HS1 := owns_writes c scM0_1 VS0_1 _ (scoverA_1 V c t h0 h1) $$ HS1
    iframe
    isplitl [H16]; · iexists _; iexact H16
    iexists _; iexact H17
  · have hz : t.val ≠ 0 := fun e => h0 (by rw [e])
    by_cases h1 : t.val % 8 = 7
    · rw [show (dat0 V c).leavesExact 16 t = owns (c : Thread nD τ) (ms0_16 t) fullShare ((dat0 V c).after 16 t) from by
          unfold Dat.leavesExact; rw [(live0 t h1).1],
        show (dat0 V c).leavesExact 17 t = owns (c : Thread nD τ) (ms0_17 t) fullShare ((dat0 V c).after 17 t) from by
          unfold Dat.leavesExact; rw [(live0 t h1).2],
        after0_16, after0_17, accAt0_C V c t h0 h1, PhiS_pos V c _ _ hz]
      unfold leftC inv0; dsimp only
      have hrun := fun xs0 xs1 => (runC V c t h0 h1 xs0 xs1).2.2.2.2; unfold ins0 at hrun
      iintro ⟨⟨⟨HS0, HS1, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩⟩
      iapply (hrun _ _ Set.univ _)
      iframe
      isplitl [H16]; · iexists _; iexact H16
      isplitl [H17]; · iexists _; iexact H17
      iintro ⟨H0, H1, H2, H3, H4, H5, H6, H7, H8, H9, H10, H11, H12, H13, H14, H15, H16, H17, HS0, HS1⟩
      ihave H16 := owns_writes c (ms0_16 t) VO0_16 _ (coverC_16 V c t h0 h1 _ _) $$ H16
      ihave H17 := owns_writes c (ms0_17 t) VO0_17 _ (coverC_17 V c t h0 h1 _ _) $$ H17
      ihave HS0 := owns_writes c scM0_0 VS0_0 _ (scoverC_0 V c t h0 h1 _ _) $$ HS0
      ihave HS1 := owns_writes c scM0_1 VS0_1 _ (scoverC_1 V c t h0 h1 _ _) $$ HS1
      iframe
    · rw [Dat.leavesExact_idle (dat0 V c) 16 t (idle0 t h1).1.1 (idle0 t h1).1.2, Dat.leavesExact_idle (dat0 V c) 17 t (idle0 t h1).2.1 (idle0 t h1).2.2, accAt0_B V c t h0 h1, PhiS_pos V c _ _ hz]
      unfold leftB inv0; dsimp only
      have hrun := fun xs0 xs1 => (runB V c t h0 h1 xs0 xs1).2.2.2.2; unfold ins0 at hrun
      iintro ⟨⟨⟨HS0, HS1, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩⟩
      iapply (hrun _ _ _ _ Set.univ _)
      iframe
      iintro ⟨H0, H1, H2, H3, H4, H5, H6, H7, H8, H9, H10, H11, H12, H13, H14, H15, H16, H17, HS0, HS1⟩
      ihave HS0 := owns_writes c scM0_0 VS0_0 _ (scoverB_0 V c t h0 h1 _ _) $$ HS0
      ihave HS1 := owns_writes c scM0_1 VS0_1 _ (scoverB_1 V c t h0 h1 _ _) $$ HS1
      iframe
      isplitl [H16]; · iexists _; iexact H16
      iexists _; iexact H17

theorem body_obligation0 (c : Dev nD) : BodyObligation (dat0 (F := F) V c) (defs₀ (F := F)) Variants.none () Set.univ := fun t => by
  rw [bigSep_W0, bigSep_W0]
  exact sound_body0 V c t

theorem hout0 (c : Dev nD) : (dat0 V c).Φ (Fin.last cfg0.N) ⊢ Pipeline.ΦA spec0 c := by
  rw [PhiA0_eq]; exact PhiS_le V c (Fin.last cfg0.N).val (Nat.le_of_lt_succ (Fin.last cfg0.N).isLt)

end Cert.Kernel.Hand

end
-- ==== Proof.R1W.lean ====
import proofs.«407301_j76149770158544_3_alg».proof.Proof.Gen.Kernel.Launch
import proofs.«407301_j76149770158544_3_alg».proof.Proof.Gen.Kernel.Skeleton
import proofs.«407301_j76149770158544_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1
variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev r1_0 : Rect S2048x768 := Rect.unit (s := S2048x768) ![0, 0] S2048x768.size inb_S2048x768_S2048x768_0_0
abbrev r1_1 : Rect S768x512 := Rect.unit (s := S768x512) ![0, 0] S768x512.size inb_S768x512_S768x512_0_0
abbrev r1_2 : Rect S512 := Rect.unit (s := S512) ![0] S512.size inb_S512_S512_0
abbrev r1_3 : Rect S512x512 := Rect.unit (s := S512x512) ![0, 0] S512x512.size inb_S512x512_S512x512_0_0
abbrev r1_4 : Rect S512x128 := Rect.unit (s := S512x128) ![0, 0] S512x128.size inb_S512x128_S512x128_0_0
abbrev r1_5 : Rect S128 := Rect.unit (s := S128) ![0] S128.size inb_S128_S128_0
abbrev r1_6 : Rect S128x32 := Rect.unit (s := S128x32) ![0, 0] S128x32.size inb_S128x32_S128x32_0_0
abbrev r1_7 : Rect S32 := Rect.unit (s := S32) ![0] S32.size inb_S32_S32_0
abbrev r1_8 : Rect S32x64 := Rect.unit (s := S32x64) ![0, 0] S32x64.size inb_S32x64_S32x64_0_0
abbrev r1_9 : Rect S1x64 := Rect.unit (s := S1x64) ![0, 0] S1x64.size inb_S1x64_S1x64_0_0
abbrev r1_10 : Rect S2048x64 := Rect.unit (s := S2048x64) ![0, 0] S2048x64.size inb_S2048x64_S2048x64_0_0
theorem off0_1 : (![0] : Fin 1 → ℕ) = fun _ => 0 := funext fun a => by fin_cases a <;> rfl
theorem off0_2 : (![0, 0] : Fin 2 → ℕ) = fun _ => 0 := funext fun a => by fin_cases a <;> rfl

def k1_val (x0 : Vec F S2048x768 .f32) (x1 : Vec F S768x512 .bf16) (x2 : Vec F S512 .f32) (x3 : Vec F S512 .f32) (x4 : Vec F S512 .f32) (x5 : Vec F S512x512 .bf16) (x6 : Vec F S512 .f32) (x7 : Vec F S512 .f32) (x8 : Vec F S512 .f32) (x9 : Vec F S512x128 .bf16) (x10 : Vec F S128 .f32) (x11 : Vec F S128 .f32) (x12 : Vec F S128 .f32) (x13 : Vec F S128x32 .bf16) (x14 : Vec F S32 .f32) (x15 : Vec F S32x64 .bf16) (x16 : Vec F S1x64 .f32) : FVec F S2048x64 .f32 :=
  k1_pay1
    (k1_pay6 (k1_pay3 (k1_pay2 x0 x1 x2 x3 x4 x5) x6 x7 x8 x9 x10) x11 x12 (k1_pay4 (k1_pay2 x0 x1 x2 x3 x4 x5) x6 x7 x8 x9 x10) (Scalar.ofBits .f32 0x43000000#32) x13 x14 x15)
    (k1_pay7 (k1_pay3 (k1_pay2 x0 x1 x2 x3 x4 x5) x6 x7 x8 x9 x10) x11 x12 (k1_pay4 (k1_pay2 x0 x1 x2 x3 x4 x5) x6 x7 x8 x9 x10) (Scalar.ofBits .f32 0x43000000#32) x13 x14 x16)
    (k1_pay8 (F := F))

def out1_17 (x0 : Vec F S2048x768 .f32) (x1 : Vec F S768x512 .bf16) (x2 : Vec F S512 .f32) (x3 : Vec F S512 .f32) (x4 : Vec F S512 .f32) (x5 : Vec F S512x512 .bf16) (x6 : Vec F S512 .f32) (x7 : Vec F S512 .f32) (x8 : Vec F S512 .f32) (x9 : Vec F S512x128 .bf16) (x10 : Vec F S128 .f32) (x11 : Vec F S128 .f32) (x12 : Vec F S128 .f32) (x13 : Vec F S128x32 .bf16) (x14 : Vec F S32 .f32) (x15 : Vec F S32x64 .bf16) (x16 : Vec F S1x64 .f32) : Vec F S2048x64 .f32 :=
  View.canon [⟨r1_10, k1_val (View.ld x0 r1_0) (View.ld x1 r1_1) (View.ld x2 r1_2) (View.ld x3 r1_2) (View.ld x4 r1_2) (View.ld x5 r1_3) (View.ld x6 r1_2) (View.ld x7 r1_2) (View.ld x8 r1_2) (View.ld x9 r1_4) (View.ld x10 r1_5) (View.ld x11 r1_5) (View.ld x12 r1_5) (View.ld x13 r1_6) (View.ld x14 r1_7) (View.ld x15 r1_8) (View.ld x16 r1_9)⟩]

theorem cover1_17 (p0 : Vec F S2048x64 .f32) (y : S2048x64.Idx) :
    ∃ pc ∈ ([⟨r1_10, p0⟩] : List (View.Piece (Elt F) S2048x64 .f32)), y ∈ pc.1.set :=
  ⟨_, List.mem_singleton_self _, View.mem_set_unit_zero off0_2 inb_S2048x64_S2048x64_0_0 y⟩

-- One covering store leaves its payload, and a load through the whole of a buffer reads its contents.
theorem out1_17_eq (x0 : Vec F S2048x768 .f32) (x1 : Vec F S768x512 .bf16) (x2 : Vec F S512 .f32) (x3 : Vec F S512 .f32) (x4 : Vec F S512 .f32) (x5 : Vec F S512x512 .bf16) (x6 : Vec F S512 .f32) (x7 : Vec F S512 .f32) (x8 : Vec F S512 .f32) (x9 : Vec F S512x128 .bf16) (x10 : Vec F S128 .f32) (x11 : Vec F S128 .f32) (x12 : Vec F S128 .f32) (x13 : Vec F S128x32 .bf16) (x14 : Vec F S32 .f32) (x15 : Vec F S32x64 .bf16) (x16 : Vec F S1x64 .f32) :
    out1_17 x0 x1 x2 x3 x4 x5 x6 x7 x8 x9 x10 x11 x12 x13 x14 x15 x16 = k1_val x0 x1 x2 x3 x4 x5 x6 x7 x8 x9 x10 x11 x12 x13 x14 x15 x16 := by
  unfold out1_17
  rw [View.canon_unit_zero (S := S2048x64) off0_2]
  simp only [View.ld_unit_zero (S := S2048x768) off0_2,
    View.ld_unit_zero (S := S768x512) off0_2,
    View.ld_unit_zero (S := S512) off0_1,
    View.ld_unit_zero (S := S512x512) off0_2,
    View.ld_unit_zero (S := S512x128) off0_2,
    View.ld_unit_zero (S := S128) off0_1,
    View.ld_unit_zero (S := S128x32) off0_2,
    View.ld_unit_zero (S := S32) off0_1,
    View.ld_unit_zero (S := S32x64) off0_2,
    View.ld_unit_zero (S := S1x64) off0_2]

set_option maxHeartbeats 4000000 in
theorem sound_kernel1 (c : Dev nD) (E : Set ℕ) (i : grid1.Coords) (arg1 : Memref sig .tc .vmem S2048x768 .f32) (harg1 : arg1.IsWhole) (arg2 : Memref sig .tc .vmem S768x512 .bf16) (harg2 : arg2.IsWhole) (arg3 : Memref sig .tc .vmem S512 .f32) (harg3 : arg3.IsWhole) (arg4 : Memref sig .tc .vmem S512 .f32) (harg4 : arg4.IsWhole) (arg5 : Memref sig .tc .vmem S512 .f32) (harg5 : arg5.IsWhole) (arg6 : Memref sig .tc .vmem S512x512 .bf16) (harg6 : arg6.IsWhole) (arg7 : Memref sig .tc .vmem S512 .f32) (harg7 : arg7.IsWhole) (arg8 : Memref sig .tc .vmem S512 .f32) (harg8 : arg8.IsWhole) (arg9 : Memref sig .tc .vmem S512 .f32) (harg9 : arg9.IsWhole) (arg10 : Memref sig .tc .vmem S512x128 .bf16) (harg10 : arg10.IsWhole) (arg11 : Memref sig .tc .vmem S128 .f32) (harg11 : arg11.IsWhole) (arg12 : Memref sig .tc .vmem S128 .f32) (harg12 : arg12.IsWhole) (arg13 : Memref sig .tc .vmem S128 .f32) (harg13 : arg13.IsWhole) (arg14 : Memref sig .tc .vmem S128x32 .bf16) (harg14 : arg14.IsWhole) (arg15 : Memref sig .tc .vmem S32 .f32) (harg15 : arg15.IsWhole) (arg16 : Memref sig .tc .vmem S32x64 .bf16) (harg16 : arg16.IsWhole) (arg17 : Memref sig .tc .vmem S1x64 .f32) (harg17 : arg17.IsWhole) (arg18 : Memref sig .tc .vmem S2048x64 .f32) (harg18 : arg18.IsWhole)
    (x0 : Vec F S2048x768 .f32) (x1 : Vec F S768x512 .bf16) (x2 : Vec F S512 .f32) (x3 : Vec F S512 .f32) (x4 : Vec F S512 .f32) (x5 : Vec F S512x512 .bf16) (x6 : Vec F S512 .f32) (x7 : Vec F S512 .f32) (x8 : Vec F S512 .f32) (x9 : Vec F S512x128 .bf16) (x10 : Vec F S128 .f32) (x11 : Vec F S128 .f32) (x12 : Vec F S128 .f32) (x13 : Vec F S128x32 .bf16) (x14 : Vec F S32 .f32) (x15 : Vec F S32x64 .bf16) (x16 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ (∃ d, owns (c : Thread nD τ) arg18 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare (out1_17 x0 x1 x2 x3 x4 x5 x6 x7 x8 x9 x10 x11 x12 x13 x14 x15 x16)) -∗ K ⟨⟩))
      ⊢ wp frame (wpE (defs₀ (F := F)) Variants.none c none) E (cc1__backbone_cdist_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  simp only [cc1__backbone_cdist_kernel_eq_skeleton]; unfold cc1__backbone_cdist_kernel_skel
  simp only [k1_part1_eq_skeleton, k1_part2_eq_skeleton, k1_part3_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%d17, %f17, -, H17⟩, Hk⟩
  subst hf0; subst hf1; subst hf2; subst hf3; subst hf4; subst hf5; subst hf6; subst hf7; subst hf8; subst hf9; subst hf10; subst hf11; subst hf12; subst hf13; subst hf14; subst hf15; subst hf16
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists f16; isplitr; · ipureintro; rfl
    iexact H16
  iexists _; isplitr
  swap; · iexact H17
  ipureintro
  exact View.read_writes_eq_canon _ _ _ (cover1_17 _)

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => iblk1 V c 9 t
    | ⟨10, _⟩ => iblk1 V c 10 t
    | ⟨11, _⟩ => iblk1 V c 11 t
    | ⟨12, _⟩ => iblk1 V c 12 t
    | ⟨13, _⟩ => iblk1 V c 13 t
    | ⟨14, _⟩ => iblk1 V c 14 t
    | ⟨15, _⟩ => iblk1 V c 15 t
    | ⟨16, _⟩ => iblk1 V c 16 t
    | ⟨17, _⟩ => out1_17 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) (iblk1 V c 14 t) (iblk1 V c 15 t) (iblk1 V c 16 t)
    | ⟨_ + 18, h⟩ => absurd h (Nat.not_lt.2 (Nat.le_add_left _ _))
  Φ _ := Pipeline.ΦA spec1 c
  q _ := fullShare
  owed _ := 0

theorem A_eq1 (c : Dev nD) (w : Fin cfg1.W) : (dat1 V c).A w = V c (Pipeline.arrRef spec1 w) := rfl
theorem after1_17 (c : Dev nD) (t : Fin cfg1.N) : (dat1 V c).after 17 t = out1_17 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) (iblk1 V c 14 t) (iblk1 V c 15 t) (iblk1 V c 16 t) := by dsimp only [dat1]
theorem before1_0 (c : Dev nD) (t : Fin cfg1.N) (d) : (dat1 V c).before 0 t d = iblk1 V c 0 t :=
  ((dat1 V c).before_in_eq_fetched 0 rfl (fun _ => rfl) (fun _ _ _ => rfl) (fun _ => rfl) t d).trans rfl
theorem before1_1 (c : Dev nD) (t : Fin cfg1.N) (d) : (dat1 V c).before 1 t d = iblk1 V c 1 t :=
  ((dat1 V c).before_in_eq_fetched 1 rfl (fun _ => rfl) (fun _ _ _ => rfl) (fun _ => rfl) t d).trans rfl
theorem before1_2 (c : Dev nD) (t : Fin cfg1.N) (d) : (dat1 V c).before 2 t d = iblk1 V c 2 t :=
  ((dat1 V c).before_in_eq_fetched 2 rfl (fun _ => rfl) (fun _ _ _ => rfl) (fun _ => rfl) t d).trans rfl
theorem before1_3 (c : Dev nD) (t : Fin cfg1.N) (d) : (dat1 V c).before 3 t d = iblk1 V c 3 t :=
  ((dat1 V c).before_in_eq_fetched 3 rfl (fun _ => rfl) (fun _ _ _ => rfl) (fun _ => rfl) t d).trans rfl
theorem before1_4 (c : Dev nD) (t : Fin cfg1.N) (d) : (dat1 V c).before 4 t d = iblk1 V c 4 t :=
  ((dat1 V c).before_in_eq_fetched 4 rfl (fun _ => rfl) (fun _ _ _ => rfl) (fun _ => rfl) t d).trans rfl
theorem before1_5 (c : Dev nD) (t : Fin cfg1.N) (d) : (dat1 V c).before 5 t d = iblk1 V c 5 t :=
  ((dat1 V c).before_in_eq_fetched 5 rfl (fun _ => rfl) (fun _ _ _ => rfl) (fun _ => rfl) t d).trans rfl
theorem before1_6 (c : Dev nD) (t : Fin cfg1.N) (d) : (dat1 V c).before 6 t d = iblk1 V c 6 t :=
  ((dat1 V c).before_in_eq_fetched 6 rfl (fun _ => rfl) (fun _ _ _ => rfl) (fun _ => rfl) t d).trans rfl
theorem before1_7 (c : Dev nD) (t : Fin cfg1.N) (d) : (dat1 V c).before 7 t d = iblk1 V c 7 t :=
  ((dat1 V c).before_in_eq_fetched 7 rfl (fun _ => rfl) (fun _ _ _ => rfl) (fun _ => rfl) t d).trans rfl
theorem before1_8 (c : Dev nD) (t : Fin cfg1.N) (d) : (dat1 V c).before 8 t d = iblk1 V c 8 t :=
  ((dat1 V c).before_in_eq_fetched 8 rfl (fun _ => rfl) (fun _ _ _ => rfl) (fun _ => rfl) t d).trans rfl
theorem before1_9 (c : Dev nD) (t : Fin cfg1.N) (d) : (dat1 V c).before 9 t d = iblk1 V c 9 t :=
  ((dat1 V c).before_in_eq_fetched 9 rfl (fun _ => rfl) (fun _ _ _ => rfl) (fun _ => rfl) t d).trans rfl
theorem before1_10 (c : Dev nD) (t : Fin cfg1.N) (d) : (dat1 V c).before 10 t d = iblk1 V c 10 t :=
  ((dat1 V c).before_in_eq_fetched 10 rfl (fun _ => rfl) (fun _ _ _ => rfl) (fun _ => rfl) t d).trans rfl
theorem before1_11 (c : Dev nD) (t : Fin cfg1.N) (d) : (dat1 V c).before 11 t d = iblk1 V c 11 t :=
  ((dat1 V c).before_in_eq_fetched 11 rfl (fun _ => rfl) (fun _ _ _ => rfl) (fun _ => rfl) t d).trans rfl
theorem before1_12 (c : Dev nD) (t : Fin cfg1.N) (d) : (dat1 V c).before 12 t d = iblk1 V c 12 t :=
  ((dat1 V c).before_in_eq_fetched 12 rfl (fun _ => rfl) (fun _ _ _ => rfl) (fun _ => rfl) t d).trans rfl
theorem before1_13 (c : Dev nD) (t : Fin cfg1.N) (d) : (dat1 V c).before 13 t d = iblk1 V c 13 t :=
  ((dat1 V c).before_in_eq_fetched 13 rfl (fun _ => rfl) (fun _ _ _ => rfl) (fun _ => rfl) t d).trans rfl
theorem before1_14 (c : Dev nD) (t : Fin cfg1.N) (d) : (dat1 V c).before 14 t d = iblk1 V c 14 t :=
  ((dat1 V c).before_in_eq_fetched 14 rfl (fun _ => rfl) (fun _ _ _ => rfl) (fun _ => rfl) t d).trans rfl
theorem before1_15 (c : Dev nD) (t : Fin cfg1.N) (d) : (dat1 V c).before 15 t d = iblk1 V c 15 t :=
  ((dat1 V c).before_in_eq_fetched 15 rfl (fun _ => rfl) (fun _ _ _ => rfl) (fun _ => rfl) t d).trans rfl
theorem before1_16 (c : Dev nD) (t : Fin cfg1.N) (d) : (dat1 V c).before 16 t d = iblk1 V c 16 t :=
  ((dat1 V c).before_in_eq_fetched 16 rfl (fun _ => rfl) (fun _ _ _ => rfl) (fun _ => rfl) t d).trans rfl

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d))
    ∗ (∃ d, owns (c : Thread nD τ) (st1_10 t) fullShare ((dat1 V c).before 10 t d))
    ∗ (∃ d, owns (c : Thread nD τ) (st1_11 t) fullShare ((dat1 V c).before 11 t d))
    ∗ (∃ d, owns (c : Thread nD τ) (st1_12 t) fullShare ((dat1 V c).before 12 t d))
    ∗ (∃ d, owns (c : Thread nD τ) (st1_13 t) fullShare ((dat1 V c).before 13 t d))
    ∗ (∃ d, owns (c : Thread nD τ) (st1_14 t) fullShare ((dat1 V c).before 14 t d))
    ∗ (∃ d, owns (c : Thread nD τ) (st1_15 t) fullShare ((dat1 V c).before 15 t d))
    ∗ (∃ d, owns (c : Thread nD τ) (st1_16 t) fullShare ((dat1 V c).before 16 t d))
    ∗ (∃ d, owns (c : Thread nD τ) (st1_17 t) fullShare ((dat1 V c).before 17 t d)))

def bodyPost1 (c : Dev nD) (t : Fin cfg1.N) : sProp 𝕄 :=
  iprop((dat1 V c).Φ t.castSucc ∗ (dat1 V c).owesAt () t.castSucc
    ∗ owns (c : Thread nD τ) (st1_0 t) fullShare (iblk1 V c 0 t)
    ∗ owns (c : Thread nD τ) (st1_1 t) fullShare (iblk1 V c 1 t)
    ∗ owns (c : Thread nD τ) (st1_2 t) fullShare (iblk1 V c 2 t)
    ∗ owns (c : Thread nD τ) (st1_3 t) fullShare (iblk1 V c 3 t)
    ∗ owns (c : Thread nD τ) (st1_4 t) fullShare (iblk1 V c 4 t)
    ∗ owns (c : Thread nD τ) (st1_5 t) fullShare (iblk1 V c 5 t)
    ∗ owns (c : Thread nD τ) (st1_6 t) fullShare (iblk1 V c 6 t)
    ∗ owns (c : Thread nD τ) (st1_7 t) fullShare (iblk1 V c 7 t)
    ∗ owns (c : Thread nD τ) (st1_8 t) fullShare (iblk1 V c 8 t)
    ∗ owns (c : Thread nD τ) (st1_9 t) fullShare (iblk1 V c 9 t)
    ∗ owns (c : Thread nD τ) (st1_10 t) fullShare (iblk1 V c 10 t)
    ∗ owns (c : Thread nD τ) (st1_11 t) fullShare (iblk1 V c 11 t)
    ∗ owns (c : Thread nD τ) (st1_12 t) fullShare (iblk1 V c 12 t)
    ∗ owns (c : Thread nD τ) (st1_13 t) fullShare (iblk1 V c 13 t)
    ∗ owns (c : Thread nD τ) (st1_14 t) fullShare (iblk1 V c 14 t)
    ∗ owns (c : Thread nD τ) (st1_15 t) fullShare (iblk1 V c 15 t)
    ∗ owns (c : Thread nD τ) (st1_16 t) fullShare (iblk1 V c 16 t)
    ∗ owns (c : Thread nD τ) (st1_17 t) fullShare ((dat1 V c).after 17 t))

set_option maxHeartbeats 1000000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8, before1_9, before1_10, before1_11, before1_12, before1_13, before1_14, before1_15, before1_16, after1_17]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩⟩
  iapply (sound_kernel1 c Set.univ _ _ _ _ _ _ _ _ _ _ _ _ _ _ _ _ _ _ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) (iblk1 V c 14 t) (iblk1 V c 15 t) (iblk1 V c 16 t) _)
  iframe
  isplitl [H17]; · iexists _; iexact H17
  iintro ⟨H0, H1, H2, H3, H4, H5, H6, H7, H8, H9, H10, H11, H12, H13, H14, H15, H16, H17⟩
  iframe

theorem body_obligation1 (c : Dev nD) : BodyObligation (dat1 (F := F) V c) (defs₀ (F := F)) Variants.none () Set.univ := fun t => by
  rw [bigSep_W1, bigSep_W1]
  exact sound_body1 V c t

end Region1

end Cert.Kernel.Hand

end
-- ==== Proof.KRunW.lean ====
import proofs.«407301_j76149770158544_3_alg».proof.Proof.K0BodyW
import proofs.«407301_j76149770158544_3_alg».proof.Proof.R1W
import proofs.«407301_j76149770158544_3_alg».proof.Proof.Gen.Kernel.Regions
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev Wb0 : Dev nD → Valuation τ sig (Elt F) := fun c b => (s₀ m ρ).mem ((c : Dev nD), b)

abbrev Wb1 : Dev nD → Valuation τ sig (Elt F) := fun c => StableHlo.after hostOps0 (Wb0 m ρ c)

abbrev Ve1 : (c : Dev nD) → (b : Ref sig .tc) → Buf (Elt F) ((c : Thread nD τ).loc b) := fun c b => Wb1 m ρ c b

def Wb2 (c : Dev nD) : Valuation τ sig (Elt F) :=
  Pipeline.withArrays spec0 c (Wb1 m ρ c) fun w => (dat0 (Ve1 m ρ) c).arrAt w cfg0.N

theorem Wb2_arr (c : Dev nD) (w : Fin cfg0.W) :
    Wb2 m ρ c (Proc.devRef .tc (Pipeline.arrRef spec0 w)) = (dat0 (Ve1 m ρ) c).arrAt w cfg0.N := by
  unfold Wb2; exact Pipeline.withArrays_arr spec0 launch0.win.arr_inj c _ _ w

theorem Wb2_of_ne (c : Dev nD) (b : Ref sig .tc) (hb : ∀ w, Pipeline.arrRef spec0 w ≠ b) :
    Wb2 m ρ c (Proc.devRef .tc b) = Wb1 m ρ c (Proc.devRef .tc b) := by
  unfold Wb2; exact Pipeline.withArrays_of_ne spec0 c _ _ b hb

abbrev Ve2 : (c : Dev nD) → (b : Ref sig .tc) → Buf (Elt F) ((c : Thread nD τ).loc b) := fun c b => Wb2 m ρ c b

theorem hF0 (c : Dev nD) (w : Fin cfg0.W) : (dat0 (Ve1 m ρ) c).arrAt w cfg0.N = Ve2 m ρ c (Pipeline.arrRef spec0 w) :=
  (Wb2_arr m ρ c w).symm

theorem hrest0 (c : Dev nD) : ∀ b, b ∉ Finset.univ.image (Pipeline.arrRef spec0) → Ve2 m ρ c b = Ve1 m ρ c b :=
  fun b hb => Wb2_of_ne m ρ c b fun w e => hb (Finset.mem_image.mpr ⟨w, Finset.mem_univ _, e⟩)

abbrev Wb3 : Dev nD → Valuation τ sig (Elt F) := fun c => StableHlo.after hostOps1 (Wb2 m ρ c)

abbrev Ve3 : (c : Dev nD) → (b : Ref sig .tc) → Buf (Elt F) ((c : Thread nD τ).loc b) := fun c b => Wb3 m ρ c b

def Wb4 (c : Dev nD) : Valuation τ sig (Elt F) :=
  Pipeline.withArrays spec1 c (Wb3 m ρ c) fun w => (dat1 (Ve3 m ρ) c).arrAt w cfg1.N

theorem Wb4_arr (c : Dev nD) (w : Fin cfg1.W) :
    Wb4 m ρ c (Proc.devRef .tc (Pipeline.arrRef spec1 w)) = (dat1 (Ve3 m ρ) c).arrAt w cfg1.N := by
  unfold Wb4; exact Pipeline.withArrays_arr spec1 launch1.win.arr_inj c _ _ w

theorem Wb4_of_ne (c : Dev nD) (b : Ref sig .tc) (hb : ∀ w, Pipeline.arrRef spec1 w ≠ b) :
    Wb4 m ρ c (Proc.devRef .tc b) = Wb3 m ρ c (Proc.devRef .tc b) := by
  unfold Wb4; exact Pipeline.withArrays_of_ne spec1 c _ _ b hb

abbrev Ve4 : (c : Dev nD) → (b : Ref sig .tc) → Buf (Elt F) ((c : Thread nD τ).loc b) := fun c b => Wb4 m ρ c b

theorem hF1 (c : Dev nD) (w : Fin cfg1.W) : (dat1 (Ve3 m ρ) c).arrAt w cfg1.N = Ve4 m ρ c (Pipeline.arrRef spec1 w) :=
  (Wb4_arr m ρ c w).symm

theorem hrest1 (c : Dev nD) : ∀ b, b ∉ Finset.univ.image (Pipeline.arrRef spec1) → Ve4 m ρ c b = Ve3 m ρ c b :=
  fun b hb => Wb4_of_ne m ρ c b fun w e => hb (Finset.mem_image.mpr ⟨w, Finset.mem_univ _, e⟩)

theorem Wb2_keep (c : Dev nD) (b : Ref sig .tc) (h16 : b ≠ Pipeline.arrRef spec0 16) (h17 : b ≠ Pipeline.arrRef spec0 17) :
    Wb2 m ρ c (Proc.devRef .tc b) = Wb1 m ρ c (Proc.devRef .tc b) := by
  by_cases hb : ∃ w, Pipeline.arrRef spec0 w = b
  · obtain ⟨w, rfl⟩ := hb
    have hin : (cfg0.win w).isOut = false := by
      fin_cases w <;> first | rfl | exact absurd rfl h16 | exact absurd rfl h17
    exact (Wb2_arr m ρ c w).trans (((dat0 (Ve1 m ρ) c).arrAt_in w hin _).trans (A_eq0 (Ve1 m ρ) c w))
  · exact Wb2_of_ne m ρ c b (fun w e => hb ⟨w, e⟩)

theorem Wb4_keep (c : Dev nD) (b : Ref sig .tc) (h17 : b ≠ Pipeline.arrRef spec1 17) :
    Wb4 m ρ c (Proc.devRef .tc b) = Wb3 m ρ c (Proc.devRef .tc b) := by
  by_cases hb : ∃ w, Pipeline.arrRef spec1 w = b
  · obtain ⟨w, rfl⟩ := hb
    have hin : (cfg1.win w).isOut = false := by
      fin_cases w <;> first | rfl | exact absurd rfl h17
    exact (Wb4_arr m ρ c w).trans (((dat1 (Ve3 m ρ) c).arrAt_in w hin _).trans (A_eq1 (Ve3 m ρ) c w))
  · exact Wb4_of_ne m ρ c b (fun w e => hb ⟨w, e⟩)

theorem Wb4_arg (c : Dev nD) (b : Ref sig .tc) (h0 : b ∉ hostOps0_W) (h1 : b ∉ hostOps1_W)
    (h16 : b ≠ Pipeline.arrRef spec0 16) (h17 : b ≠ Pipeline.arrRef spec0 17) (h29 : b ≠ Pipeline.arrRef spec1 17) :
    Wb4 m ρ c (Proc.devRef .tc b) = m ((c : Thread nD τ).loc b) :=
  calc Wb4 m ρ c (Proc.devRef .tc b)
    _ = Wb3 m ρ c (Proc.devRef .tc b) := Wb4_keep m ρ c b h29
    _ = Wb2 m ρ c (Proc.devRef .tc b) := StableHlo.after_of_writes_sub hostOps1 _ hostOps1_writes h1
    _ = Wb1 m ρ c (Proc.devRef .tc b) := Wb2_keep m ρ c b h16 h17
    _ = Wb0 m ρ c (Proc.devRef .tc b) := StableHlo.after_of_writes_sub hostOps0 _ hostOps0_writes h0
    _ = m ((c : Thread nD τ).loc b) := rfl

abbrev admH : (p : Fin 2) → (pcfgs (F := F) p).Adm := fun p => (cfgs p).toPCfg_adm

def pdat : (p : Fin 2) → (c : Dev nD) → Dat τ (Elt F) Unit ℕ (UR sig nD τ) ℕ (Pipeline.pin (pcfgs (F := F)) admH p) c
  | ⟨0, _⟩ => fun c => dat0 (Ve1 m ρ) c
  | ⟨1, _⟩ => fun c => dat1 (Ve3 m ρ) c

abbrev 𝒱h : Variants := Variants.none

abbrev Lh : GSem nD τ sig → Finset Unit := fun _ => ∅

abbrev lvh : GSem nD τ sig → Unit → ℕ := fun _ _ => 0

abbrev Rr (c : Dev nD) : sProp 𝕄 := iprop((∃ r, prngReg c r) ∗ ∃ W, owes (c : Thread nD τ) (0 : CellTallies nD τ sig Unit) W)

abbrev hsegH (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱h Lh lvh :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rr

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

-- A buffer that is unscoped, that no host stretch writes and that is no region's output ends as launched.
theorem arg_end {mem : (ℓ : Loc nD τ sig) → Buf (Elt F) ℓ} (h : ∀ c : Dev nD, ∀ b ∈ Pipeline.ucRefs τ sig, mem (((c : Thread nD τ)).1, b) = Wb4 m ρ c b)
    (c : Dev nD) (b : Ref sig .tc)
    (hb : ¬(Proc.devRef .tc b : DevRef τ sig).isScoped ∧ b ∉ hostOps0_W ∧ b ∉ hostOps1_W ∧ b ≠ Pipeline.arrRef spec0 16 ∧ b ≠ Pipeline.arrRef spec0 17 ∧ b ≠ Pipeline.arrRef spec1 17 := by decide) :
    mem ((c : Thread nD τ).loc b) = m ((c : Thread nD τ).loc b) :=
  (h c _ (mem_uc b hb.1)).trans (Wb4_arg m ρ c b hb.2.1 hb.2.2.1 hb.2.2.2.1 hb.2.2.2.2.1 hb.2.2.2.2.2)

abbrev Tend (c : Dev nD) : sProp 𝕄 := iprop(StableHlo.held (c : Thread nD τ) (Pipeline.ucRefs τ sig) (Wb4 m ρ c) ∗ ∃ r, prngReg c r)

set_option backward.isDefEq.respectTransparency.types false in

def reg0 : Pipeline.RegionSeg (pcfgs (F := F)) admH (pdat m ρ) () defs₀ 𝒱h Lh lvh 0 where
  win := launch0.win.to₀
  block_pos := launch0.block_pos
  stage_whole := launch0.stage_whole
  K := PEmpty
  osem k := k.elim
  ho := Pipeline.OwnSemFacts.none _
  hbody c := (body_obligation0 (Ve1 m ρ) c).loose
  hwaits := Pipeline.hwaits_of_owed_zero _ _ _ _ Lh lvh 0 fun _ _ => rfl
  pre c := iprop(StableHlo.held (c : Thread nD τ) (Pipeline.ucRefs τ sig) (Wb1 m ρ c) ∗ Rr c)
  post c := iprop(StableHlo.held (c : Thread nD τ) (Pipeline.ucRefs τ sig) (Wb2 m ρ c) ∗ Rr c)
  X c := iprop(∃ r, prngReg c r)
  Y c := iprop(∃ r, prngReg c r)
  Z c := Pipeline.unscopedRest (Ix := Unit) (Name := ℕ) (U := UR sig nD τ) (Lvl := ℕ) spec0 c (Ve1 m ρ c)
  hentry c := by
    rw [Pipeline.ownSems0_none]
    have hsplit := Pipeline.arrays_of_unscopedBufs (p := 0) (pcfgs (F := F)) admH (pdat m ρ) launch0.win launch0.arr_whole c
      ((pdat m ρ 0 c).share_full fun _ => rfl) (Ve1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdat m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdat m ρ 0 c).Φ (Fin.last _) = (dat0 (Ve1 m ρ) c).Φ (Fin.last cfg0.N) from rfl]
    have hrest := hout0 (Ve1 m ρ) c
    unfold Pipeline.ΦA at hrest
    have hsplit : (iprop(Pipeline.scopedRest spec0 c ∗ ∃ r, prngReg c r) : sProp 𝕄)
        ⊢ iprop((∃ r, prngReg c r) ∗ BI.emp ∗ Pipeline.scopedRest spec0 c) := by
      iintro ⟨Hr, Hp⟩
      isplitl [Hp]; · iexact Hp
      isplitr; · iempintro
      iexact Hr
    exact hrest.trans hsplit
  hexit c := by
    have hjoin := Pipeline.unscopedBufs_of_arrays (p := 0) (pcfgs (F := F)) admH (Ix := Unit) (Name := ℕ) (U := UR sig nD τ) (Lvl := ℕ)
      launch0.win launch0.arr_whole c (pdat m ρ) ((pdat m ρ 0 c).share_full fun _ => rfl)
      (Ve1 m ρ c) (Ve2 m ρ c) ((pdat m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in

def reg1 : Pipeline.RegionSeg (pcfgs (F := F)) admH (pdat m ρ) () defs₀ 𝒱h Lh lvh 1 where
  win := launch1.win.to₀
  block_pos := launch1.block_pos
  stage_whole := launch1.stage_whole
  K := PEmpty
  osem k := k.elim
  ho := Pipeline.OwnSemFacts.none _
  hbody c := (body_obligation1 (Ve3 m ρ) c).loose
  hwaits := Pipeline.hwaits_of_owed_zero _ _ _ _ Lh lvh 1 fun _ _ => rfl
  pre c := iprop(StableHlo.held (c : Thread nD τ) (Pipeline.ucRefs τ sig) (Wb3 m ρ c) ∗ Rr c)
  post c := iprop(Tend m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (Ve3 m ρ c)
  hentry c := by
    rw [Pipeline.ownSems0_none]
    have hsplit := Pipeline.arrays_of_unscopedBufs (p := 1) (pcfgs (F := F)) admH (pdat m ρ) launch1.win launch1.arr_whole c
      ((pdat m ρ 1 c).share_full fun _ => rfl) (Ve3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdat m ρ 1 c).Φ 0 = Pipeline.ΦA spec1 c from rfl]; unfold Pipeline.ΦA
    iintro ⟨Hp, -, Hr⟩
    isplitl [Hr]; · iexact Hr
    iexact Hp
  hout c := by
    rw [Pipeline.ownSems0_none]
    rw [show (pdat m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) admH (Ix := Unit) (Name := ℕ) (U := UR sig nD τ) (Lvl := ℕ)
      launch1.win launch1.arr_whole c (pdat m ρ) ((pdat m ρ 1 c).share_full fun _ => rfl)
      (Ve3 m ρ c) (Ve4 m ρ c) ((pdat m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

abbrev segsH : List (Pipeline.Seg (pcfgs (F := F)) admH (pdat m ρ) () defs₀ 𝒱h Lh lvh) :=
  [ .host (hsegH hostOps0 hostOps0_sub hostOps0_fresh (Wb0 m ρ)),
    .region (reg0 m ρ),
    .host (hsegH hostOps1 hostOps1_sub hostOps1_fresh (Wb2 m ρ)),
    .region (reg1 m ρ) ]

theorem main_run (c : Dev nD) : main (F := F) c = Pipeline.Seg.run (segsH m ρ) := (main_chain c).trans (by chain_rfl)

set_option backward.isDefEq.respectTransparency.types false in

theorem run_all : θ_run defs (onTc (τ := τ) (main (F := F))) ⟨m, fun _ => 0, ρ⟩ (fun r => ∀ c : Dev nD,
      ∀ b ∈ Pipeline.ucRefs τ sig, r.2.mem (((c : Thread nD τ)).1, b) = Wb4 m ρ c b) :=
  Pipeline.θ_run_regions_kit (pcfgs (F := F)) admH (pdat m ρ) () cellOf_inj emb₁ defs₀ 𝒱h Lh lvh m ρ main (segsH m ρ)
    (fun c Q => by rw [main_run m ρ c])
    (by simp only [segsH, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Wb0 m ρ c) ∗ Rr c)) (Tₙ := Tend m ρ)
    (hch := ⟨fun _ => .rfl, fun _ => .rfl, fun _ => .rfl, fun _ => .rfl, fun _ => .rfl⟩)
    (hinit := by
      refine Pipeline.initEach Lh lvh fun c => ?_
      rw [show unscopedBufs c (fun b => m ((c : Thread nD τ).loc b)) = StableHlo.held (c : Thread nD τ) (Pipeline.ucRefs τ sig) (Wb0 m ρ c)
        from Pipeline.unscopedBufs_held c (Wb0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Wb4 m ρ c b)
    (hfin := fun c s' => by
      iintro ⟨⟨Hh, -⟩, HSI⟩
      unfold StableHlo.held
      imodintro
      iapply (pointsTo_read_all (Pipeline.ucRefs τ sig) (fun b => (((c : Thread nD τ)).1, b)) (Wb4 m ρ c) s')
      isplitl [Hh] <;> iassumption)
    (hQ := fun s h c => h c)

end Cert.Kernel.Hand
end
-- ==== Proof.Spec.lean ====
import Idealize.ShloMosaic.PureOps.Ideal

noncomputable section

namespace Cert.Spec

open Idealize.ShloMosaic

abbrev w512 : EReal := Ideal.ofBits .f32 0x44000000#32
abbrev w128 : EReal := Ideal.ofBits .f32 0x43000000#32
abbrev wEps : EReal := Ideal.ofBits .f32 0x3727C5AC#32
abbrev wOne : EReal := Ideal.ofBits .f32 0x3F800000#32
abbrev wTwo : EReal := Ideal.ofBits .f32 0x40000000#32

def affine {k n : ℕ} (W : Fin n → Fin k → EReal) (b : Fin n → EReal) (x : Fin k → EReal) : Fin n → EReal :=
  fun j => (∑ t : Fin k, x t * W j t) + b j

def mean {n : ℕ} (nn : EReal) (h : Fin n → EReal) : EReal := Ideal.div (∑ t : Fin n, h t) nn

def var {n : ℕ} (nn : EReal) (h : Fin n → EReal) : EReal :=
  Ideal.div (∑ t : Fin n, (h t - mean nn h) * (h t - mean nn h)) nn

def lnRelu {n : ℕ} (nn : EReal) (g be : Fin n → EReal) (h : Fin n → EReal) : Fin n → EReal :=
  fun j => max ((((h j - mean nn h) * Ideal.rsqrt (var nn h + wEps)) * g j) + be j) 0

structure Params where
  W1 : Fin 512 → Fin 768 → EReal
  b1 : Fin 512 → EReal
  g1 : Fin 512 → EReal
  be1 : Fin 512 → EReal
  W2 : Fin 512 → Fin 512 → EReal
  b2 : Fin 512 → EReal
  g2 : Fin 512 → EReal
  be2 : Fin 512 → EReal
  W3 : Fin 128 → Fin 512 → EReal
  b3 : Fin 128 → EReal
  g3 : Fin 128 → EReal
  be3 : Fin 128 → EReal
  W4 : Fin 32 → Fin 128 → EReal
  b4 : Fin 32 → EReal

def hid1 (P : Params) (x : Fin 768 → EReal) : Fin 512 → EReal := lnRelu w512 P.g1 P.be1 (affine P.W1 P.b1 x)
def hid2 (P : Params) (x : Fin 768 → EReal) : Fin 512 → EReal := lnRelu w512 P.g2 P.be2 (affine P.W2 P.b2 (hid1 P x))
def hid3 (P : Params) (x : Fin 768 → EReal) : Fin 128 → EReal := lnRelu w128 P.g3 P.be3 (affine P.W3 P.b3 (hid2 P x))
def rowEmb (P : Params) (x : Fin 768 → EReal) : Fin 32 → EReal := affine P.W4 P.b4 (hid3 P x)

abbrev inClass (lab : BitVec 32) (s : Fin 64) : Prop := lab = BitVec.ofNat 32 s.val

def classSum {N : ℕ} (z : Fin N → Fin 32 → EReal) (lab : Fin N → BitVec 32) (s : Fin 64) (k : Fin 32) : EReal :=
  ∑ r : Fin N, if inClass (lab r) s then z r k else 0
def classCount {N : ℕ} (lab : Fin N → BitVec 32) (s : Fin 64) : EReal :=
  ∑ r : Fin N, if inClass (lab r) s then (1 : EReal) else 0

def proto (sums : Fin 64 → Fin 32 → EReal) (counts : Fin 64 → EReal) (s : Fin 64) (k : Fin 32) : EReal :=
  Ideal.div (sums s k) (max (counts s) wOne)

def negDist (q p : Fin 32 → EReal) : EReal :=
  -(Ideal.sqrt (max (((∑ k : Fin 32, q k * q k) + (∑ k : Fin 32, p k * p k)) - (∑ k : Fin 32, (wTwo * q k) * p k)) 0))

def result (P : Params) (Xs : Fin 32768 → Fin 768 → EReal) (lab : Fin 32768 → BitVec 32)
    (Xq : Fin 65536 → Fin 768 → EReal) (i : Fin 65536) (j : Fin 64) : EReal :=
  negDist (rowEmb P (Xq i))
    (proto (classSum (fun r => rowEmb P (Xs r)) lab) (classCount lab) j)

end Cert.Spec

end
-- ==== Proof.K0Tiles.lean ====
import proofs.«407301_j76149770158544_3_alg».proof.Proof.Spec
import Mathlib.Algebra.BigOperators.Fin
import Mathlib.Data.Fintype.BigOperators
import Mathlib.Logic.Equiv.Fin.Basic

noncomputable section

namespace Cert.K0Final

def tileRow (n : ℕ) (p : Fin 2048) : Fin 32768 := ⟨(2048 * n + p.val) % 32768, Nat.mod_lt _ (by decide)⟩

def halfRow (κ : Fin 2) (r : Fin 16384) : Fin 32768 :=
  ⟨16384 * κ.val + r.val, by have := κ.isLt; have := r.isLt; omega⟩

theorem tileRow_val (n : ℕ) (hn : n < 16) (p : Fin 2048) : (tileRow n p).val = 2048 * n + p.val := by
  have := p.isLt
  show (2048 * n + p.val) % 32768 = _
  omega

theorem tileRow_eq_halfRow (κ : Fin 2) (i : Fin 8) (p : Fin 2048) :
    tileRow (8 * κ.val + i.val) p = halfRow κ (finProdFinEquiv (i, p)) := by
  apply Fin.ext
  have := κ.isLt; have := i.isLt; have := p.isLt
  show (2048 * (8 * κ.val + i.val) + p.val) % 32768 = 16384 * κ.val + (p.val + 2048 * i.val)
  omega

theorem halfRow_eq (κ : Fin 2) (r : Fin 16384) : halfRow κ r = finProdFinEquiv (κ, r) := by
  apply Fin.ext
  show 16384 * κ.val + r.val = r.val + 16384 * κ.val
  omega

variable {M : Type*} [AddCommMonoid M]

theorem sum_fin_mul (m n : ℕ) (f : Fin (m * n) → M) :
    ∑ r : Fin (m * n), f r = ∑ i : Fin m, ∑ p : Fin n, f (finProdFinEquiv (i, p)) := by
  rw [← Equiv.sum_comp finProdFinEquiv f, Fintype.sum_prod_type]

theorem sum_tiles (κ : Fin 2) (g : Fin 32768 → M) :
    ∑ i ∈ Finset.range 8, ∑ p : Fin 2048, g (tileRow (8 * κ.val + i) p) = ∑ r : Fin 16384, g (halfRow κ r) := by
  rw [Finset.sum_range (fun i => ∑ p : Fin 2048, g (tileRow (8 * κ.val + i) p))]
  refine Eq.trans ?_ (sum_fin_mul 8 2048 (fun r => g (halfRow κ r))).symm
  refine Finset.sum_congr rfl fun i _ => Finset.sum_congr rfl fun p _ => ?_
  rw [tileRow_eq_halfRow]

theorem sum_halves (g : Fin 32768 → M) :
    (∑ r : Fin 16384, g (halfRow 0 r)) + (∑ r : Fin 16384, g (halfRow 1 r)) = ∑ R : Fin 32768, g R := by
  refine Eq.trans ?_ (sum_fin_mul 2 16384 g).symm
  rw [Fin.sum_univ_two]
  simp only [halfRow_eq]

theorem classSum_halves (z : Fin 32768 → Fin 32 → EReal) (lab : Fin 32768 → BitVec 32) (s : Fin 64) (k : Fin 32) :
    (∑ r : Fin 16384, if Cert.Spec.inClass (lab (halfRow 0 r)) s then z (halfRow 0 r) k else 0)
      + (∑ r : Fin 16384, if Cert.Spec.inClass (lab (halfRow 1 r)) s then z (halfRow 1 r) k else 0)
      = Cert.Spec.classSum z lab s k :=
  sum_halves (fun R => if Cert.Spec.inClass (lab R) s then z R k else 0)

theorem classCount_halves (lab : Fin 32768 → BitVec 32) (s : Fin 64) :
    (∑ r : Fin 16384, if Cert.Spec.inClass (lab (halfRow 0 r)) s then (1 : EReal) else 0)
      + (∑ r : Fin 16384, if Cert.Spec.inClass (lab (halfRow 1 r)) s then (1 : EReal) else 0)
      = Cert.Spec.classCount lab s :=
  sum_halves (fun R => if Cert.Spec.inClass (lab R) s then (1 : EReal) else 0)

end Cert.K0Final

end
-- ==== Proof.K0Names.lean ====
import proofs.«407301_j76149770158544_3_alg».proof.Proof.K0Data
import proofs.«407301_j76149770158544_3_alg».proof.Proof.K0Tiles

noncomputable section

namespace Cert.K0Final

open Cert.KernelIdeal Cert.KernelIdeal.Gen Cert.KernelIdeal.Hand
open Idealize.ShloMosaic Idealize.ShloMosaic.TcCoe

variable {F : FTy → Type} [FloatOps F]
variable (V : (c : Dev nD) → (b : Ref sig .tc) → Buf (Elt F) ((c : Thread nD τ).loc b))

theorem hz1 : (![0] : Fin 1 → Nat) = fun _ => 0 := funext fun a => by fin_cases a <;> rfl
theorem hz2 : (![0, 0] : Fin 2 → Nat) = fun _ => 0 := funext fun a => by fin_cases a <;> rfl
theorem hz3 : (![0, 0, 0] : Fin 3 → Nat) = fun _ => 0 := funext fun a => by fin_cases a <;> rfl

abbrev xarr (c : Dev nD) : Vec F S32768x768 .f32 := V c main_arg0
abbrev larr (c : Dev nD) : Vec F S32768 .i32 := V c main_arg1

abbrev xblk (c : Dev nD) (t : Fin cfg0.N) : Vec F S2048x768 .f32 := iblk0 V c 0 t
abbrev lblk (c : Dev nD) (t : Fin cfg0.N) : Vec F S2048 .i32 := iblk0 V c 1 t

abbrev pblk2 (c : Dev nD) (t : Fin cfg0.N) : Vec F S768x512 .bf16 := iblk0 V c 2 t
abbrev pblk3 (c : Dev nD) (t : Fin cfg0.N) : Vec F S512 .f32 := iblk0 V c 3 t
abbrev pblk4 (c : Dev nD) (t : Fin cfg0.N) : Vec F S512 .f32 := iblk0 V c 4 t
abbrev pblk5 (c : Dev nD) (t : Fin cfg0.N) : Vec F S512 .f32 := iblk0 V c 5 t
abbrev pblk6 (c : Dev nD) (t : Fin cfg0.N) : Vec F S512x512 .bf16 := iblk0 V c 6 t
abbrev pblk7 (c : Dev nD) (t : Fin cfg0.N) : Vec F S512 .f32 := iblk0 V c 7 t
abbrev pblk8 (c : Dev nD) (t : Fin cfg0.N) : Vec F S512 .f32 := iblk0 V c 8 t
abbrev pblk9 (c : Dev nD) (t : Fin cfg0.N) : Vec F S512 .f32 := iblk0 V c 9 t
abbrev pblk10 (c : Dev nD) (t : Fin cfg0.N) : Vec F S512x128 .bf16 := iblk0 V c 10 t
abbrev pblk11 (c : Dev nD) (t : Fin cfg0.N) : Vec F S128 .f32 := iblk0 V c 11 t
abbrev pblk12 (c : Dev nD) (t : Fin cfg0.N) : Vec F S128 .f32 := iblk0 V c 12 t
abbrev pblk13 (c : Dev nD) (t : Fin cfg0.N) : Vec F S128 .f32 := iblk0 V c 13 t
abbrev pblk14 (c : Dev nD) (t : Fin cfg0.N) : Vec F S128x32 .bf16 := iblk0 V c 14 t
abbrev pblk15 (c : Dev nD) (t : Fin cfg0.N) : Vec F S32 .f32 := iblk0 V c 15 t

def partSum (c : Dev nD) (t : Fin cfg0.N) : FVec F S64x32 .f32 :=
  k0_pay10 (k0_pay8 (k0_pay7 (xblk V c t) (pblk2 V c t) (pblk3 V c t) (pblk4 V c t) (pblk5 V c t))
    (pblk6 V c t) (pblk7 V c t) (pblk8 V c t) (pblk9 V c t) (pblk10 V c t) (pblk11 V c t))
    (pblk12 V c t) (pblk13 V c t) (pblk14 V c t) (pblk15 V c t) (lblk V c t)

def partCnt (c : Dev nD) (t : Fin cfg0.N) : FVec F S64x1 .f32 := k0_pay11 (lblk V c t)

end Cert.K0Final

end
-- ==== Proof.K0PieceA.lean ====
import proofs.«407301_j76149770158544_3_alg».proof.Proof.K0Names
import Idealize.ShloMosaic.Lib.Pipeline.Value
import Idealize.ShloMosaic.Lib.Tactic

noncomputable section

namespace Cert.K0Final

open Cert.KernelIdeal Cert.KernelIdeal.Gen Cert.KernelIdeal.Hand
open Idealize.ShloMosaic Idealize.ShloMosaic.TcCoe Idealize.ShloMosaic.Tactic

variable {F : FTy → Type} [FloatOps F]
variable (V : (c : Dev nD) → (b : Ref sig .tc) → Buf (Elt F) ((c : Thread nD τ).loc b))

/-- A read of what was just written gives it back, and a load of a whole block is the block. -/
def reads0 (t : Fin cfg0.N) :=
  And.intro ((hs0_0 t).read_unread (Val := Elt F)) <|
    And.intro ((hs0_1 t).read_unread (Val := Elt F)) <|
    And.intro ((hs0_2 t).read_unread (Val := Elt F)) <|
    And.intro ((hs0_3 t).read_unread (Val := Elt F)) <|
    And.intro ((hs0_4 t).read_unread (Val := Elt F)) <|
    And.intro ((hs0_5 t).read_unread (Val := Elt F)) <|
    And.intro ((hs0_6 t).read_unread (Val := Elt F)) <|
    And.intro ((hs0_7 t).read_unread (Val := Elt F)) <|
    And.intro ((hs0_8 t).read_unread (Val := Elt F)) <|
    And.intro ((hs0_9 t).read_unread (Val := Elt F)) <|
    And.intro ((hs0_10 t).read_unread (Val := Elt F)) <|
    And.intro ((hs0_11 t).read_unread (Val := Elt F)) <|
    And.intro ((hs0_12 t).read_unread (Val := Elt F)) <|
    And.intro ((hs0_13 t).read_unread (Val := Elt F)) <|
    And.intro ((hs0_14 t).read_unread (Val := Elt F)) <|
    And.intro ((hs0_15 t).read_unread (Val := Elt F)) <|
    And.intro (fun (e : EltTy) => @View.ld_unit_zero (Elt F) S2048x768 e _ hz2) <|
    And.intro (fun (e : EltTy) => @View.ld_unit_zero (Elt F) S768x512 e _ hz2) <|
    And.intro (fun (e : EltTy) => @View.ld_unit_zero (Elt F) S512 e _ hz1) <|
    And.intro (fun (e : EltTy) => @View.ld_unit_zero (Elt F) S512x512 e _ hz2) <|
    And.intro (fun (e : EltTy) => @View.ld_unit_zero (Elt F) S512x128 e _ hz2) <|
    And.intro (fun (e : EltTy) => @View.ld_unit_zero (Elt F) S128 e _ hz1) <|
    And.intro (fun (e : EltTy) => @View.ld_unit_zero (Elt F) S128x32 e _ hz2) <|
    And.intro (fun (e : EltTy) => @View.ld_unit_zero (Elt F) S32 e _ hz1) <|
    And.intro (fun (e : EltTy) => @View.ld_unit_zero (Elt F) S2048 e _ hz1) <|
    And.intro (fun (e : EltTy) => @View.ld_unit_zero (Elt F) S64x32 e _ hz2) <|
    (fun (e : EltTy) => @View.ld_unit_zero (Elt F) S64x1 e _ hz2)

theorem leftA_sums (c : Dev nD) (t : Fin cfg0.N) (h0 : t.val % 8 = 0) (h1 : ¬t.val % 8 = 7) :
    (leftA V c t h0 h1).2.2.1 = k0_pay1 (partSum V c t) (k0_pay5 (F := F)) := by
  unfold leftA rdS0
  dsimp only
  rw [View.read_writes_eq_canon _ _ _ (scoverA_0 V c t h0 h1)]
  unfold runA kernelRun0_A
  dsimp only
  sl_unfold_words
  rw [View.canon_cons_unit_zero (S := S64x32) hz2, View.readCov_unit_zero (S := S64x32) _ hz2]
  unfold partSum
  simp only [View.readAt_eq_ld, reads0 (F := F) t]

theorem leftA_cnts (c : Dev nD) (t : Fin cfg0.N) (h0 : t.val % 8 = 0) (h1 : ¬t.val % 8 = 7) :
    (leftA V c t h0 h1).2.2.2 = k0_pay2 (partCnt V c t) (k0_pay6 (F := F)) := by
  unfold leftA rdS1
  dsimp only
  rw [View.read_writes_eq_canon _ _ _ (scoverA_1 V c t h0 h1)]
  unfold runA kernelRun0_A
  dsimp only
  sl_unfold_words
  rw [View.canon_cons_unit_zero (S := S64x1) hz2, View.readCov_unit_zero (S := S64x1) _ hz2]
  unfold partCnt
  simp only [View.readAt_eq_ld, reads0 (F := F) t]

end Cert.K0Final

end
-- ==== Proof.K0PieceB.lean ====
import proofs.«407301_j76149770158544_3_alg».proof.Proof.K0PieceA
import Idealize.ShloMosaic.Lib.Pipeline.Value
import Idealize.ShloMosaic.Lib.Tactic

noncomputable section

namespace Cert.K0Final

open Cert.KernelIdeal Cert.KernelIdeal.Gen Cert.KernelIdeal.Hand
open Idealize.ShloMosaic Idealize.ShloMosaic.TcCoe Idealize.ShloMosaic.Tactic

variable {F : FTy → Type} [FloatOps F]
variable (V : (c : Dev nD) → (b : Ref sig .tc) → Buf (Elt F) ((c : Thread nD τ).loc b))

theorem leftB_sums (c : Dev nD) (t : Fin cfg0.N) (h0 : ¬t.val % 8 = 0) (h1 : ¬t.val % 8 = 7)
    (xs0 : Vec F S64x32 .f32) (xs1 : Vec F S64x1 .f32) :
    (leftB V c t h0 h1 xs0 xs1).2.2.1 = k0_pay1 (partSum V c t) xs0 := by
  unfold leftB
  dsimp only
  unfold rdS0
  rw [View.read_writes_eq_canon _ _ _ (scoverB_0 V c t h0 h1 xs0 xs1)]
  unfold runB kernelRun0_B
  dsimp only
  sl_unfold_words
  rw [View.canon_unit_zero (S := S64x32) hz2]
  unfold partSum
  simp only [View.readAt_eq_ld, reads0 (F := F) t]
  exact congrArg (k0_pay1 _) ((Memref.isWhole_whole cc0_scratch0).read_unread xs0)

theorem leftB_cnts (c : Dev nD) (t : Fin cfg0.N) (h0 : ¬t.val % 8 = 0) (h1 : ¬t.val % 8 = 7)
    (xs0 : Vec F S64x32 .f32) (xs1 : Vec F S64x1 .f32) :
    (leftB V c t h0 h1 xs0 xs1).2.2.2 = k0_pay2 (partCnt V c t) xs1 := by
  unfold leftB
  dsimp only
  unfold rdS1
  rw [View.read_writes_eq_canon _ _ _ (scoverB_1 V c t h0 h1 xs0 xs1)]
  unfold runB kernelRun0_B
  dsimp only
  sl_unfold_words
  rw [View.canon_unit_zero (S := S64x1) hz2]
  unfold partCnt
  simp only [View.readAt_eq_ld, reads0 (F := F) t]
  exact congrArg (k0_pay2 _) ((Memref.isWhole_whole cc0_scratch1).read_unread xs1)

end Cert.K0Final

end
-- ==== Proof.K0PieceC.lean ====
import proofs.«407301_j76149770158544_3_alg».proof.Proof.K0PieceA
import Idealize.ShloMosaic.Lib.Pipeline.Value
import Idealize.ShloMosaic.Lib.Tactic

noncomputable section

namespace Cert.K0Final

open Cert.KernelIdeal Cert.KernelIdeal.Gen Cert.KernelIdeal.Hand
open Idealize.ShloMosaic Idealize.ShloMosaic.TcCoe Idealize.ShloMosaic.Tactic

variable {F : FTy → Type} [FloatOps F]
variable (V : (c : Dev nD) → (b : Ref sig .tc) → Buf (Elt F) ((c : Thread nD τ).loc b))

theorem leftC_sums (c : Dev nD) (t : Fin cfg0.N) (h0 : ¬t.val % 8 = 0) (h1 : t.val % 8 = 7) (xs0 : Vec F S64x32 .f32) (xs1 : Vec F S64x1 .f32) :
    (leftC V c t h0 h1 xs0 xs1).2.2.1 = k0_pay1 (partSum V c t) xs0 := by
  unfold leftC rdS0
  dsimp only
  rw [View.read_writes_eq_canon _ _ _ (scoverC_0 V c t h0 h1 xs0 xs1)]
  unfold runC kernelRun0_C
  dsimp only
  sl_unfold_words
  rw [View.canon_unit_zero (S := S64x32) hz2]
  unfold partSum
  simp only [View.readAt_eq_ld, reads0 (F := F) t]
  exact congrArg (k0_pay1 _) ((Memref.isWhole_whole cc0_scratch0).read_unread xs0)

theorem leftC_cnts (c : Dev nD) (t : Fin cfg0.N) (h0 : ¬t.val % 8 = 0) (h1 : t.val % 8 = 7) (xs0 : Vec F S64x32 .f32) (xs1 : Vec F S64x1 .f32) :
    (leftC V c t h0 h1 xs0 xs1).2.2.2 = k0_pay2 (partCnt V c t) xs1 := by
  unfold leftC rdS1
  dsimp only
  rw [View.read_writes_eq_canon _ _ _ (scoverC_1 V c t h0 h1 xs0 xs1)]
  unfold runC kernelRun0_C
  dsimp only
  sl_unfold_words
  rw [View.canon_unit_zero (S := S64x1) hz2]
  unfold partCnt
  simp only [View.readAt_eq_ld, reads0 (F := F) t]
  exact congrArg (k0_pay2 _) ((Memref.isWhole_whole cc0_scratch1).read_unread xs1)

theorem leftC_out16 (c : Dev nD) (t : Fin cfg0.N) (h0 : ¬t.val % 8 = 0) (h1 : t.val % 8 = 7) (xs0 : Vec F S64x32 .f32) (xs1 : Vec F S64x1 .f32) :
    (leftC V c t h0 h1 xs0 xs1).1 = k0_pay3 (k0_pay1 (partSum V c t) xs0) := by
  unfold leftC rd16
  dsimp only
  rw [View.read_writes_eq_canon _ _ _ (coverC_16 V c t h0 h1 xs0 xs1)]
  unfold runC kernelRun0_C
  dsimp only
  sl_unfold_words
  rw [View.canon_unit_zero (S := S1x64x32) hz3]
  unfold partSum
  simp only [View.readAt_eq_ld, reads0 (F := F) t, View.readCov_unit_zero (S := S64x32) _ hz2]
  exact congrArg (fun z => k0_pay3 (k0_pay1 _ z)) ((Memref.isWhole_whole cc0_scratch0).read_unread xs0)

theorem leftC_out17 (c : Dev nD) (t : Fin cfg0.N) (h0 : ¬t.val % 8 = 0) (h1 : t.val % 8 = 7) (xs0 : Vec F S64x32 .f32) (xs1 : Vec F S64x1 .f32) :
    (leftC V c t h0 h1 xs0 xs1).2.1 = k0_pay4 (k0_pay2 (partCnt V c t) xs1) := by
  unfold leftC rd17
  dsimp only
  rw [View.read_writes_eq_canon _ _ _ (coverC_17 V c t h0 h1 xs0 xs1)]
  unfold runC kernelRun0_C
  dsimp only
  sl_unfold_words
  rw [View.canon_unit_zero (S := S1x64x1) hz3]
  unfold partCnt
  simp only [View.readAt_eq_ld, reads0 (F := F) t, View.readCov_unit_zero (S := S64x1) _ hz2]
  exact congrArg (fun z => k0_pay4 (k0_pay2 _ z)) ((Memref.isWhole_whole cc0_scratch1).read_unread xs1)

end Cert.K0Final

end
-- ==== Proof.K0Blocks.lean ====
import proofs.«407301_j76149770158544_3_alg».proof.Proof.K0Names
import Idealize.ShloMosaic.Lib.Pipeline.Value
import Idealize.ShloMosaic.Lib.ValueIdx

noncomputable section

namespace Cert.K0Final

open Cert.KernelIdeal Cert.KernelIdeal.Gen Cert.KernelIdeal.Hand
open Idealize.ShloMosaic Idealize.ShloMosaic.TcCoe Idealize.ShloMosaic.ValueIdx

variable {F : FTy → Type} [FloatOps F]
variable (V : (c : Dev nD) → (b : Ref sig .tc) → Buf (Elt F) ((c : Thread nD τ).loc b))

theorem idx0 : ∀ t : Fin cfg0.N, win0_0.index t (0 : Fin 2) = t.val ∧ win0_0.index t (1 : Fin 2) = 0 :=
  (by decide +kernel : ∀ t : Fin grid0.N, _)

theorem idx1 : ∀ t : Fin cfg0.N, win0_1.index t (0 : Fin 1) = t.val :=
  (by decide +kernel : ∀ t : Fin grid0.N, _)

theorem xblk_apply (c : Dev nD) (t : Fin cfg0.N) (p : Fin 2048) (q : Fin 768) :
    xblk V c t (ix2 p q) = xarr V c (ix2 (tileRow t.val p) q) := by
  obtain ⟨e0, e1⟩ := idx0 t
  have hN : cfg0.N = 16 := N_0
  have ht := t.isLt
  have hp := p.isLt
  show iblk0 V c 0 t (ix2 p q) = _
  unfold iblk0
  rw [View.read_apply]
  show V c main_arg0 _ = V c main_arg0 _
  congr 1
  funext a; apply Fin.ext
  match a with
  | ⟨0, _⟩ => show win0_0.index t (0 : Fin 2) * 2048 + 1 * p.val = (tileRow t.val p).val; rw [tileRow_val _ (by omega)]; omega
  | ⟨1, _⟩ => show win0_0.index t (1 : Fin 2) * 768 + 1 * q.val = q.val; omega

theorem lblk_apply (c : Dev nD) (t : Fin cfg0.N) (p : Fin 2048) :
    lblk V c t (ix1 p) = larr V c (ix1 (tileRow t.val p)) := by
  have e0 := idx1 t
  have hN : cfg0.N = 16 := N_0
  have ht := t.isLt
  have hp := p.isLt
  show iblk0 V c 1 t (ix1 p) = _
  unfold iblk0
  rw [View.read_apply]
  show V c main_arg1 _ = V c main_arg1 _
  congr 1
  funext a; apply Fin.ext
  match a with
  | ⟨0, _⟩ => show win0_1.index t (0 : Fin 1) * 2048 + 1 * p.val = (tileRow t.val p).val; rw [tileRow_val _ (by omega)]; omega

/-- A window whose one block is its whole array reads the array. -/
theorem pblk2_eq (c : Dev nD) (t : Fin cfg0.N) : pblk2 V c t = V c main_v1 :=
  funext fun j => congrArg (V c main_v1) (funext fun a => Fin.ext (win0_2.rect_emb_val_of_index_zero t a (match a with | ⟨0, _⟩ => rfl | ⟨1, _⟩ => rfl) j))
theorem pblk3_eq (c : Dev nD) (t : Fin cfg0.N) : pblk3 V c t = V c main_arg4 :=
  funext fun j => congrArg (V c main_arg4) (funext fun a => Fin.ext (win0_3.rect_emb_val_of_index_zero t a (match a with | ⟨0, _⟩ => rfl) j))
theorem pblk4_eq (c : Dev nD) (t : Fin cfg0.N) : pblk4 V c t = V c main_arg5 :=
  funext fun j => congrArg (V c main_arg5) (funext fun a => Fin.ext (win0_4.rect_emb_val_of_index_zero t a (match a with | ⟨0, _⟩ => rfl) j))
theorem pblk5_eq (c : Dev nD) (t : Fin cfg0.N) : pblk5 V c t = V c main_arg6 :=
  funext fun j => congrArg (V c main_arg6) (funext fun a => Fin.ext (win0_5.rect_emb_val_of_index_zero t a (match a with | ⟨0, _⟩ => rfl) j))
theorem pblk6_eq (c : Dev nD) (t : Fin cfg0.N) : pblk6 V c t = V c main_v3 :=
  funext fun j => congrArg (V c main_v3) (funext fun a => Fin.ext (win0_6.rect_emb_val_of_index_zero t a (match a with | ⟨0, _⟩ => rfl | ⟨1, _⟩ => rfl) j))
theorem pblk7_eq (c : Dev nD) (t : Fin cfg0.N) : pblk7 V c t = V c main_arg8 :=
  funext fun j => congrArg (V c main_arg8) (funext fun a => Fin.ext (win0_7.rect_emb_val_of_index_zero t a (match a with | ⟨0, _⟩ => rfl) j))
theorem pblk8_eq (c : Dev nD) (t : Fin cfg0.N) : pblk8 V c t = V c main_arg9 :=
  funext fun j => congrArg (V c main_arg9) (funext fun a => Fin.ext (win0_8.rect_emb_val_of_index_zero t a (match a with | ⟨0, _⟩ => rfl) j))
theorem pblk9_eq (c : Dev nD) (t : Fin cfg0.N) : pblk9 V c t = V c main_arg10 :=
  funext fun j => congrArg (V c main_arg10) (funext fun a => Fin.ext (win0_9.rect_emb_val_of_index_zero t a (match a with | ⟨0, _⟩ => rfl) j))
theorem pblk10_eq (c : Dev nD) (t : Fin cfg0.N) : pblk10 V c t = V c main_v5 :=
  funext fun j => congrArg (V c main_v5) (funext fun a => Fin.ext (win0_10.rect_emb_val_of_index_zero t a (match a with | ⟨0, _⟩ => rfl | ⟨1, _⟩ => rfl) j))
theorem pblk11_eq (c : Dev nD) (t : Fin cfg0.N) : pblk11 V c t = V c main_arg12 :=
  funext fun j => congrArg (V c main_arg12) (funext fun a => Fin.ext (win0_11.rect_emb_val_of_index_zero t a (match a with | ⟨0, _⟩ => rfl) j))
theorem pblk12_eq (c : Dev nD) (t : Fin cfg0.N) : pblk12 V c t = V c main_arg13 :=
  funext fun j => congrArg (V c main_arg13) (funext fun a => Fin.ext (win0_12.rect_emb_val_of_index_zero t a (match a with | ⟨0, _⟩ => rfl) j))
theorem pblk13_eq (c : Dev nD) (t : Fin cfg0.N) : pblk13 V c t = V c main_arg14 :=
  funext fun j => congrArg (V c main_arg14) (funext fun a => Fin.ext (win0_13.rect_emb_val_of_index_zero t a (match a with | ⟨0, _⟩ => rfl) j))
theorem pblk14_eq (c : Dev nD) (t : Fin cfg0.N) : pblk14 V c t = V c main_v7 :=
  funext fun j => congrArg (V c main_v7) (funext fun a => Fin.ext (win0_14.rect_emb_val_of_index_zero t a (match a with | ⟨0, _⟩ => rfl | ⟨1, _⟩ => rfl) j))
theorem pblk15_eq (c : Dev nD) (t : Fin cfg0.N) : pblk15 V c t = V c main_arg16 :=
  funext fun j => congrArg (V c main_arg16) (funext fun a => Fin.ext (win0_15.rect_emb_val_of_index_zero t a (match a with | ⟨0, _⟩ => rfl) j))

end Cert.K0Final

end
-- ==== Proof.SpecArr.lean ====
import proofs.«407301_j76149770158544_3_alg».proof.Proof.Spec
import Idealize.ShloMosaic.Lib.ValueIdx

noncomputable section

namespace Cert.Spec

open Idealize.ShloMosaic Idealize.ShloMosaic.ValueIdx

def paramsOf
    (W1 : (⟨2, ![512, 768]⟩ : Shape).Idx → EReal) (b1 g1 be1 : (⟨1, ![512]⟩ : Shape).Idx → EReal)
    (W2 : (⟨2, ![512, 512]⟩ : Shape).Idx → EReal) (b2 g2 be2 : (⟨1, ![512]⟩ : Shape).Idx → EReal)
    (W3 : (⟨2, ![128, 512]⟩ : Shape).Idx → EReal) (b3 g3 be3 : (⟨1, ![128]⟩ : Shape).Idx → EReal)
    (W4 : (⟨2, ![32, 128]⟩ : Shape).Idx → EReal) (b4 : (⟨1, ![32]⟩ : Shape).Idx → EReal) : Params where
  W1 := fun j t => W1 (ix2 j t)
  b1 := fun j => b1 (ix1 j)
  g1 := fun j => g1 (ix1 j)
  be1 := fun j => be1 (ix1 j)
  W2 := fun j t => W2 (ix2 j t)
  b2 := fun j => b2 (ix1 j)
  g2 := fun j => g2 (ix1 j)
  be2 := fun j => be2 (ix1 j)
  W3 := fun j t => W3 (ix2 j t)
  b3 := fun j => b3 (ix1 j)
  g3 := fun j => g3 (ix1 j)
  be3 := fun j => be3 (ix1 j)
  W4 := fun j t => W4 (ix2 j t)
  b4 := fun j => b4 (ix1 j)

def rowOf {N : ℕ} (X : (⟨2, ![N, 768]⟩ : Shape).Idx → EReal) (r : Fin N) : Fin 768 → EReal := fun t => X (ix2 r t)

def labOf {N : ℕ} (lab : (⟨1, ![N]⟩ : Shape).Idx → BitVec 32) (r : Fin N) : BitVec 32 := lab (ix1 r)

def resultArr
    (Xs : (⟨2, ![32768, 768]⟩ : Shape).Idx → EReal) (lab : (⟨1, ![32768]⟩ : Shape).Idx → BitVec 32)
    (Xq : (⟨2, ![65536, 768]⟩ : Shape).Idx → EReal) (P : Params) : (⟨2, ![65536, 64]⟩ : Shape).Idx → EReal :=
  fun i => result P (rowOf Xs) (labOf lab) (rowOf Xq) (i 0) (i 1)

end Cert.Spec

end
-- ==== Proof.SpecArrT.lean ====
import proofs.«407301_j76149770158544_3_alg».proof.Proof.SpecArr

noncomputable section

namespace Cert.Spec

open Idealize.ShloMosaic Idealize.ShloMosaic.ValueIdx

def paramsOfT
    (W1t : (⟨2, ![768, 512]⟩ : Shape).Idx → EReal) (b1 g1 be1 : (⟨1, ![512]⟩ : Shape).Idx → EReal)
    (W2t : (⟨2, ![512, 512]⟩ : Shape).Idx → EReal) (b2 g2 be2 : (⟨1, ![512]⟩ : Shape).Idx → EReal)
    (W3t : (⟨2, ![512, 128]⟩ : Shape).Idx → EReal) (b3 g3 be3 : (⟨1, ![128]⟩ : Shape).Idx → EReal)
    (W4t : (⟨2, ![128, 32]⟩ : Shape).Idx → EReal) (b4 : (⟨1, ![32]⟩ : Shape).Idx → EReal) : Params where
  W1 := fun j t => W1t (ix2 t j)
  b1 := fun j => b1 (ix1 j)
  g1 := fun j => g1 (ix1 j)
  be1 := fun j => be1 (ix1 j)
  W2 := fun j t => W2t (ix2 t j)
  b2 := fun j => b2 (ix1 j)
  g2 := fun j => g2 (ix1 j)
  be2 := fun j => be2 (ix1 j)
  W3 := fun j t => W3t (ix2 t j)
  b3 := fun j => b3 (ix1 j)
  g3 := fun j => g3 (ix1 j)
  be3 := fun j => be3 (ix1 j)
  W4 := fun j t => W4t (ix2 t j)
  b4 := fun j => b4 (ix1 j)

theorem paramsOfT_eq
    (W1 : (⟨2, ![512, 768]⟩ : Shape).Idx → EReal) (W1t : (⟨2, ![768, 512]⟩ : Shape).Idx → EReal)
    (b1 g1 be1 : (⟨1, ![512]⟩ : Shape).Idx → EReal)
    (W2 : (⟨2, ![512, 512]⟩ : Shape).Idx → EReal) (W2t : (⟨2, ![512, 512]⟩ : Shape).Idx → EReal)
    (b2 g2 be2 : (⟨1, ![512]⟩ : Shape).Idx → EReal)
    (W3 : (⟨2, ![128, 512]⟩ : Shape).Idx → EReal) (W3t : (⟨2, ![512, 128]⟩ : Shape).Idx → EReal)
    (b3 g3 be3 : (⟨1, ![128]⟩ : Shape).Idx → EReal)
    (W4 : (⟨2, ![32, 128]⟩ : Shape).Idx → EReal) (W4t : (⟨2, ![128, 32]⟩ : Shape).Idx → EReal)
    (b4 : (⟨1, ![32]⟩ : Shape).Idx → EReal)
    (h1 : ∀ (t : Fin 768) (j : Fin 512), W1t (ix2 t j) = W1 (ix2 j t))
    (h2 : ∀ (t : Fin 512) (j : Fin 512), W2t (ix2 t j) = W2 (ix2 j t))
    (h3 : ∀ (t : Fin 512) (j : Fin 128), W3t (ix2 t j) = W3 (ix2 j t))
    (h4 : ∀ (t : Fin 128) (j : Fin 32), W4t (ix2 t j) = W4 (ix2 j t)) :
    paramsOfT W1t b1 g1 be1 W2t b2 g2 be2 W3t b3 g3 be3 W4t b4
      = paramsOf W1 b1 g1 be1 W2 b2 g2 be2 W3 b3 g3 be3 W4 b4 := by
  simp only [paramsOfT, paramsOf, h1, h2, h3, h4]

end Cert.Spec

end
-- ==== Proof.KLayers.lean ====
import proofs.«407301_j76149770158544_3_alg».proof.Proof.Gen.KernelIdeal
import proofs.«407301_j76149770158544_3_alg».proof.Proof.SpecArrT
import Idealize.ShloMosaic.Lib.StackMember
import Idealize.ShloMosaic.Lib.ValueLayout
import Idealize.ShloMosaic.PureOps.Ideal.Laws

noncomputable section

namespace Cert.KLayers

open Cert.KernelIdeal Cert.KernelIdeal.Gen Idealize.ShloMosaic Idealize.ShloMosaic.ValueIdx Idealize.SL.Sem

/-- A vector kept as a column: the added axis has one entry, so row-major positions agree. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    rw [Shape.rowMajor_val_two, Shape.rowMajor_val_one]
    show i.val = i.val * 1 + u.val
    omega)

/-- A column spread over `b` columns reads its own entry of the same row. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

section Shapes
variable (a n : ℕ)

/-- The shapes below conform for every row count `a` and width `n`. -/
theorem casts_row : (⟨1, ![n]⟩ : Shape).ShapeCasts ⟨2, ![1, n]⟩ := by simp [Shape.ShapeCasts, Shape.numel, Fin.prod_univ_succ]
theorem casts_col : (⟨1, ![a]⟩ : Shape).ShapeCasts ⟨2, ![a, 1]⟩ := by simp [Shape.ShapeCasts, Shape.numel, Fin.prod_univ_succ]
theorem bcast_row : (⟨2, ![1, n]⟩ : Shape).Broadcasts ⟨2, ![a, n]⟩ :=
  ⟨le_rfl, fun | ⟨0, _⟩ => .inl rfl | ⟨1, _⟩ => .inr fun _ => rfl⟩
theorem bcast_col : (⟨2, ![a, 1]⟩ : Shape).Broadcasts ⟨2, ![a, n]⟩ :=
  ⟨le_rfl, fun | ⟨0, _⟩ => .inr fun _ => rfl | ⟨1, _⟩ => .inl rfl⟩
theorem reduces_rows : (⟨2, ![a, n]⟩ : Shape).Reduces [1] ⟨1, ![a]⟩ :=
  ⟨rfl, Nat.one_pos, fun | ⟨0, _⟩ => rfl⟩

end Shapes

section Blocks
variable {F : FTy → Type} [FloatOps F] {a k n : ℕ}

/-- A tile times a weight block, summed from zero. -/
def dense (h : FVec F ⟨2, ![a, k]⟩ .f32) (w : Vec F ⟨2, ![k, n]⟩ .bf16) : FVec F ⟨2, ![a, n]⟩ .f32 :=
  matmul (DotDims.plain a k n) none (truncf .bf16 h bitsLt_bf16_f32) (shapeCast _ w rfl) (constant _ .f32 0x00000000#32)

/-- A vector laid along every row. -/
def row (b : Vec F ⟨1, ![n]⟩ .f32) : FVec F ⟨2, ![a, n]⟩ .f32 :=
  broadcastTo _ (shapeCast ⟨2, ![1, n]⟩ b (casts_row n)) (bcast_row a n)

def bias (m : FVec F ⟨2, ![a, n]⟩ .f32) (b : Vec F ⟨1, ![n]⟩ .f32) : FVec F ⟨2, ![a, n]⟩ .f32 := addf m (row b)

/-- Each row's sum, kept as a column. -/
def rowSum (h : FVec F ⟨2, ![a, n]⟩ .f32) : FVec F ⟨2, ![a, 1]⟩ .f32 :=
  shapeCast _ (multiReduction .add [1] ⟨1, ![a]⟩ h 0x00000000#32 (reduces_rows a n) (.inl rfl) rfl) (casts_col a)

/-- Each entry less its row's mean `s / c`. -/
def center (h : FVec F ⟨2, ![a, n]⟩ .f32) (s : FVec F ⟨2, ![a, 1]⟩ .f32) (c : F .f32) : FVec F ⟨2, ![a, n]⟩ .f32 :=
  subf h (broadcastTo _ (divf s (broadcast _ c)) (bcast_col a n))

/-- Centre, divide by the root of the variance plus a small constant, scale by `g`, shift by `be`, clamp at zero; `c` and the word `cw` stand for the row length. -/
def lnReluOf (cw : BitVec 32) (h : FVec F ⟨2, ![a, n]⟩ .f32) (s : FVec F ⟨2, ![a, 1]⟩ .f32) (c : F .f32)
    (g be : Vec F ⟨1, ![n]⟩ .f32) : FVec F ⟨2, ![a, n]⟩ .f32 :=
  maximumf
    (addf
      (mulf
        (mulf (center h s c)
          (broadcastTo _
            (rsqrt (addf (divf (rowSum (mulf (center h s c) (center h s c))) (broadcast _ (Scalar.ofBits .f32 cw)))
              (broadcast _ (Scalar.ofBits .f32 0x3727C5AC#32))))
            (bcast_col a n)))
        (row g))
      (row be))
    (broadcast _ (Scalar.ofBits .f32 0x00000000#32))

/-- The same with the row sums taken from the tile itself. -/
def lnBlock (cw : BitVec 32) (h : FVec F ⟨2, ![a, n]⟩ .f32) (g be : Vec F ⟨1, ![n]⟩ .f32) : FVec F ⟨2, ![a, n]⟩ .f32 :=
  lnReluOf cw h (rowSum h) (Scalar.ofBits .f32 cw) g be

end Blocks

section AtIdeal
variable {a k n : ℕ}

/-- A matrix product into zero is the sum, over the shared coordinate, of the products of entries. -/
theorem dense_apply (h : FVec Ideal ⟨2, ![a, k]⟩ .f32) (w : Vec Ideal ⟨2, ![k, n]⟩ .bf16) (p : Fin a) (j : Fin n) :
    dense h w (ix2 p j) = ∑ t : Fin k, h (ix2 p t) * w (ix2 t j) := by
  unfold dense
  rw [shapeCast_self]
  exact (Ideal.matmul_constant_zero_apply (φ₂ := .bf16) _ none _ w _).trans
    ((Ideal.dotGeneral_apply (φ₂ := .bf16) _ none _ _ w _).symm.trans (StackMember.dotGeneral_plain_apply (φ₂ := .bf16) none _ w p j))

theorem rsqrt_apply {s : Shape} {φ : FTy} (x : FVec Ideal s φ) (i : s.Idx) : rsqrt x i = Ideal.rsqrt (x i) := rfl

theorem row_apply (b : Vec Ideal ⟨1, ![n]⟩ .f32) (p : Fin a) (j : Fin n) : row b (ix2 p j) = b (ix1 j) := by
  rw [row, broadcastTo_1b_ab_apply, shapeCast_a_1a_apply]

/-- Reducing the column axis sums over the column coordinate. -/
theorem rowSum_apply (h : FVec Ideal ⟨2, ![a, n]⟩ .f32) (p : Fin a) (u : Fin 1) :
    rowSum h (ix2 p u) = ∑ t : Fin n, h (ix2 p t) := by
  rw [rowSum, shapeCast_a_a1_apply]
  refine (Ideal.multiReduction_add_single h _ (reduces_rows a n) (.inl rfl) rfl (ix1 p)).trans ?_
  exact Finset.sum_congr rfl fun t _ => congrArg h (funext fun | ⟨0, _⟩ => rfl | ⟨1, _⟩ => rfl)

theorem center_apply (h : FVec Ideal ⟨2, ![a, n]⟩ .f32) (s : FVec Ideal ⟨2, ![a, 1]⟩ .f32) (c : Ideal .f32) (p : Fin a) (j : Fin n) :
    center h s c (ix2 p j) = h (ix2 p j) - Ideal.div (s (ix2 p (0 : Fin 1))) c := by
  rw [center, subf_apply, broadcastTo_a1_ab_apply, divf_apply, broadcast_apply]

/-- Read entry by entry, the block is `Spec.lnRelu` of row `r`, given that `s` holds that row's sum. -/
theorem lnReluOf_row (cw : BitVec 32) (h : FVec Ideal ⟨2, ![a, n]⟩ .f32) (s : FVec Ideal ⟨2, ![a, 1]⟩ .f32) (g be : Vec Ideal ⟨1, ![n]⟩ .f32)
    (p : Fin a) (r : Fin n → EReal) (hr : ∀ t, h (ix2 p t) = r t) (hs : s (ix2 p (0 : Fin 1)) = ∑ t : Fin n, r t) (j : Fin n) :
    lnReluOf cw h s (Ideal.ofBits .f32 cw) g be (ix2 p j)
      = Cert.Spec.lnRelu (Ideal.ofBits .f32 cw) (fun j => g (ix1 j)) (fun j => be (ix1 j)) r j := by
  unfold lnReluOf
  rw [maximumf_apply, addf_apply, mulf_apply, mulf_apply, broadcastTo_a1_ab_apply, rsqrt_apply, addf_apply, divf_apply,
    rowSum_apply, broadcast_apply, broadcast_apply, broadcast_apply, row_apply, row_apply, center_apply, hr, hs]
  simp only [mulf_apply, center_apply, hr, hs]
  show max _ (Ideal.ofBits .f32 0x00000000#32) = _
  rw [Ideal.ofBits_zero_f32]
  rfl

theorem lnBlock_row (cw : BitVec 32) (h : FVec Ideal ⟨2, ![a, n]⟩ .f32) (g be : Vec Ideal ⟨1, ![n]⟩ .f32)
    (p : Fin a) (r : Fin n → EReal) (hr : ∀ t, h (ix2 p t) = r t) (j : Fin n) :
    lnBlock cw h g be (ix2 p j)
      = Cert.Spec.lnRelu (Ideal.ofBits .f32 cw) (fun j => g (ix1 j)) (fun j => be (ix1 j)) r j :=
  lnReluOf_row cw h _ g be p r hr ((rowSum_apply h p 0).trans (Finset.sum_congr rfl fun t _ => hr t)) j

/-- Product plus bias is `Spec.affine` of row `r`, the weight block indexed transposed. -/
theorem affine_row (h : FVec Ideal ⟨2, ![a, k]⟩ .f32) (w : Vec Ideal ⟨2, ![k, n]⟩ .bf16) (b : Vec Ideal ⟨1, ![n]⟩ .f32)
    (p : Fin a) (r : Fin k → EReal) (hr : ∀ t, h (ix2 p t) = r t) (j : Fin n) :
    bias (dense h w) b (ix2 p j) = Cert.Spec.affine (fun j t => w (ix2 t j)) (fun j => b (ix1 j)) r j := by
  rw [bias, addf_apply, row_apply, dense_apply]
  simp only [hr]
  rfl

end AtIdeal

section Mlp
variable {F : FTy → Type} [FloatOps F]

/-- Three normalised hidden layers and a last affine map, on a tile of 2048 rows. -/
def mlp (x : Vec F S2048x768 .f32) (w1t : Vec F S768x512 .bf16) (b1 g1 be1 : Vec F S512 .f32)
    (w2t : Vec F S512x512 .bf16) (b2 g2 be2 : Vec F S512 .f32) (w3t : Vec F S512x128 .bf16) (b3 g3 be3 : Vec F S128 .f32)
    (w4t : Vec F S128x32 .bf16) (b4 : Vec F S32 .f32) : FVec F S2048x32 .f32 :=
  bias (dense (lnBlock 0x43000000#32 (bias (dense (lnBlock 0x44000000#32 (bias (dense (lnBlock 0x44000000#32
    (bias (dense x w1t) b1) g1 be1) w2t) b2) g2 be2) w3t) b3) g3 be3) w4t) b4

end Mlp

/-- Each layer's row lemma feeds the next, from the input row up to `Spec.rowEmb`. -/
theorem mlp_row (x : Vec Ideal S2048x768 .f32) (w1t : Vec Ideal S768x512 .bf16) (b1 g1 be1 : Vec Ideal S512 .f32)
    (w2t : Vec Ideal S512x512 .bf16) (b2 g2 be2 : Vec Ideal S512 .f32) (w3t : Vec Ideal S512x128 .bf16) (b3 g3 be3 : Vec Ideal S128 .f32)
    (w4t : Vec Ideal S128x32 .bf16) (b4 : Vec Ideal S32 .f32) (p : Fin 2048) (k : Fin 32) :
    mlp x w1t b1 g1 be1 w2t b2 g2 be2 w3t b3 g3 be3 w4t b4 (ix2 p k)
      = Cert.Spec.rowEmb (Cert.Spec.paramsOfT w1t b1 g1 be1 w2t b2 g2 be2 w3t b3 g3 be3 w4t b4) (fun t => x (ix2 p t)) k :=
  affine_row _ w4t b4 p _ (fun j =>
    lnBlock_row _ _ g3 be3 p _ (fun j =>
      affine_row _ w3t b3 p _ (fun j =>
        lnBlock_row _ _ g2 be2 p _ (fun j =>
          affine_row _ w2t b2 p _ (fun j =>
            lnBlock_row _ _ g1 be1 p _ (fun j =>
              affine_row x w1t b1 p (fun t => x (ix2 p t)) (fun _ => rfl) j) j) j) j) j) j) k

end Cert.KLayers

end
-- ==== Proof.K0Value.lean ====
import Idealize.ShloMosaic.Lib.KernelVsHost
import proofs.«407301_j76149770158544_3_alg».proof.Proof.Gen.KernelIdeal.Skeleton
import proofs.«407301_j76149770158544_3_alg».proof.Proof.KLayers

noncomputable section

namespace Cert.K0Value

open Idealize.ShloMosaic Idealize.ShloMosaic.ValueIdx Cert.KernelIdeal Cert.KernelIdeal.Gen Cert.KLayers

theorem k0_acc_sum (v127 : FVec Ideal S64x32 .f32) (v130 : Vec Ideal S64x32 .f32) (i : S64x32.Idx) :
    k0_pay1 v127 v130 i = v130 i + v127 i := by
  rw [k0_pay1, shapeCast_self]
  rfl

theorem k0_acc_count (v129 : FVec Ideal S64x1 .f32) (v135 : Vec Ideal S64x1 .f32) (i : S64x1.Idx) :
    k0_pay2 v129 v135 i = v135 i + v129 i := by
  rw [k0_pay2, shapeCast_self]
  rfl

theorem k0_out_sum (v143 : Vec Ideal S64x32 .f32) (s : Fin 64) (k : Fin 32) :
    k0_pay3 v143 (ix3 0 s k) = v143 (ix2 s k) :=
  shapeCast_ab_1ab_apply v143 _ 0 s k

theorem k0_out_count (v147 : Vec Ideal S64x1 .f32) (s : Fin 64) :
    k0_pay4 v147 (ix3 0 s 0) = v147 (ix2 s 0) :=
  shapeCast_ab_1ab_apply v147 _ 0 s 0

theorem k0_zero_sum (i : S64x32.Idx) : k0_pay5 (F := Ideal) i = 0 := by
  rw [k0_pay5, shapeCast_self]
  exact Ideal.ofBits_zero_f32

theorem k0_zero_count (i : S64x1.Idx) : k0_pay6 (F := Ideal) i = 0 := by
  rw [k0_pay6, shapeCast_self]
  exact Ideal.ofBits_zero_f32

/-- A one-bit word is 0 or 1; both cases compute. -/
theorem bit_to_real (b : BitVec 1) :
    (FloatOps.sitofp (F := Ideal) .f32 (b.setWidth 32) : EReal) = if b = 1#1 then 1 else 0 := by
  show ((((b.setWidth 32).toInt : ℤ) : ℝ) : EReal) = _
  rw [toInt_setWidth_bit]
  rcases BitVec.eq_zero_or_eq_one b with h | h <;> subst h <;> simp

/-- Comparing a label with the column number gives the class indicator. -/
theorem onehot_apply (lab : Vec Ideal S2048 .i32) (p : Fin 2048) (s : Fin 64) :
    k0_pay9 (F := Ideal) lab (ix2 p s) = if Cert.Spec.inClass (lab (ix1 p)) s then (1 : EReal) else 0 := by
  show FloatOps.sitofp (F := Ideal) .f32 ((IntOp.cmpi .eq
      (broadcastTo S2048x64 (shapeCast S2048x1 lab shapeCasts_S2048_S2048x1) broadcasts_S2048x1_S2048x64 (ix2 p s))
      (iota .tc S2048x64 32 [1] iota_S2048x64_d1_w32 (ix2 p s))).setWidth 32) = _
  rw [bit_to_real, iota_single_apply, broadcastTo_a1_ab_apply, shapeCast_a_a1_apply]
  exact if_congr IntOp.cmpi_eq rfl rfl

/-- Reducing the row axis sums the indicator over the tile's rows. -/
theorem k0_partial_count (lab : Vec Ideal S2048 .i32) (s : Fin 64) :
    k0_pay11 (F := Ideal) lab (ix2 s 0)
      = ∑ p : Fin 2048, if Cert.Spec.inClass (lab (ix1 p)) s then (1 : EReal) else 0 := by
  unfold k0_pay11
  rw [shapeCast_a_a1_apply]
  refine (Ideal.multiReduction_add_single (k0_pay9 (F := Ideal) lab) _ reduces_S2048x64_S64 (.inl rfl) rfl (ix1 s)).trans
    (Finset.sum_congr rfl fun p _ => ?_)
  exact (congrArg _ (funext fun | ⟨0, _⟩ => rfl | ⟨1, _⟩ => rfl)).trans (onehot_apply lab p s)

/-- Both factors are contracted along their rows, so the shared coordinate is the row. -/
theorem rowdot_apply (A : FVec Ideal S2048x64 .f32) (B : FVec Ideal S2048x32 .f32) (s : Fin 64) (k : Fin 32) :
    matmul dot_S2048x64_S2048x32_S64x32_0_0_1_1_n_n (some .fp32) A B (constant (F := Ideal) S64x32 .f32 0x00000000#32) (ix2 s k)
      = ∑ p : Fin 2048, A (ix2 p s) * B (ix2 p k) := by
  simp only [matmul]
  rw [Ideal.matmul_constant_zero_apply, ← Equiv.sum_comp (contrEquiv1 dot_S2048x64_S2048x32_S64x32_0_0_1_1_n_n 2048 rfl rfl).symm]
  refine Finset.sum_congr rfl fun p _ => ?_
  have hp := contrEquiv1_symm_val dot_S2048x64_S2048x32_S64x32_0_0_1_1_n_n 2048 rfl rfl p
  congr 2 <;> funext a <;> apply Fin.ext <;> match a with
    | ⟨0, _⟩ => exact (DotDims.lhsIdx_val_of_single _ rfl _ _).trans hp
    | ⟨1, _⟩ => rfl

theorem k0_partial_sum (x : Vec Ideal S2048x768 .f32) (lab : Vec Ideal S2048 .i32)
    (w1t : Vec Ideal S768x512 .bf16) (b1 g1 be1 : Vec Ideal S512 .f32)
    (w2t : Vec Ideal S512x512 .bf16) (b2 g2 be2 : Vec Ideal S512 .f32)
    (w3t : Vec Ideal S512x128 .bf16) (b3 g3 be3 : Vec Ideal S128 .f32)
    (w4t : Vec Ideal S128x32 .bf16) (b4 : Vec Ideal S32 .f32) (s : Fin 64) (k : Fin 32) :
    k0_pay10 (k0_pay8 (k0_pay7 x w1t b1 g1 be1) w2t b2 g2 be2 w3t b3) g3 be3 w4t b4 lab (ix2 s k)
      = ∑ p : Fin 2048, if Cert.Spec.inClass (lab (ix1 p)) s
          then Cert.Spec.rowEmb (Cert.Spec.paramsOfT w1t b1 g1 be1 w2t b2 g2 be2 w3t b3 g3 be3 w4t b4) (fun t => x (ix2 p t)) k
          else 0 := by
  refine (rowdot_apply (k0_pay9 lab) (mlp x w1t b1 g1 be1 w2t b2 g2 be2 w3t b3 g3 be3 w4t b4) s k).trans
    (Finset.sum_congr rfl fun p _ => ?_)
  rw [onehot_apply, mlp_row, ite_mul, one_mul, zero_mul]

end Cert.K0Value

end
-- ==== Proof.K0Acc.lean ====
import proofs.«407301_j76149770158544_3_alg».proof.Proof.K0Names
import proofs.«407301_j76149770158544_3_alg».proof.Proof.K0PieceA
import proofs.«407301_j76149770158544_3_alg».proof.Proof.K0PieceB
import proofs.«407301_j76149770158544_3_alg».proof.Proof.K0PieceC
import proofs.«407301_j76149770158544_3_alg».proof.Proof.K0Blocks
import proofs.«407301_j76149770158544_3_alg».proof.Proof.K0Value

noncomputable section

namespace Cert.K0Final

open Cert.KernelIdeal Cert.KernelIdeal.Gen Cert.KernelIdeal.Hand
open Idealize.ShloMosaic Idealize.ShloMosaic.TcCoe Idealize.ShloMosaic.ValueIdx

variable (V : (c : Dev nD) → (b : Ref sig .tc) → Buf (Elt Ideal) ((c : Thread nD τ).loc b))

def P0 (c : Dev nD) : Cert.Spec.Params :=
  Cert.Spec.paramsOfT (V c main_v1) (V c main_arg4) (V c main_arg5) (V c main_arg6) (V c main_v3) (V c main_arg8)
    (V c main_arg9) (V c main_arg10) (V c main_v5) (V c main_arg12) (V c main_arg13) (V c main_arg14) (V c main_v7)
    (V c main_arg16)
def emb0 (c : Dev nD) (R : Fin 32768) : Fin 32 → EReal := Cert.Spec.rowEmb (P0 V c) (Cert.Spec.rowOf (V c main_arg0) R)
def lab0 (c : Dev nD) (R : Fin 32768) : BitVec 32 := Cert.Spec.labOf (V c main_arg1) R

def rowSum (c : Dev nD) (s : Fin 64) (k : Fin 32) (R : Fin 32768) : EReal :=
  if Cert.Spec.inClass (lab0 V c R) s then emb0 V c R k else 0
def rowCnt (c : Dev nD) (s : Fin 64) (R : Fin 32768) : EReal :=
  if Cert.Spec.inClass (lab0 V c R) s then 1 else 0

theorem partSum_apply (c : Dev nD) (t : Fin cfg0.N) (s : Fin 64) (k : Fin 32) :
    partSum V c t (ix2 s k) = ∑ p : Fin 2048, rowSum V c s k (tileRow t.val p) := by
  unfold partSum
  refine (Cert.K0Value.k0_partial_sum (xblk V c t) (lblk V c t) (pblk2 V c t) (pblk3 V c t) (pblk4 V c t) (pblk5 V c t)
    (pblk6 V c t) (pblk7 V c t) (pblk8 V c t) (pblk9 V c t) (pblk10 V c t) (pblk11 V c t) (pblk12 V c t) (pblk13 V c t)
    (pblk14 V c t) (pblk15 V c t) s k).trans ?_
  refine Finset.sum_congr rfl fun p _ => ?_
  have e : (fun q => xblk V c t (ix2 p q)) = Cert.Spec.rowOf (V c main_arg0) (tileRow t.val p) :=
    funext fun q => xblk_apply V c t p q
  rw [e, lblk_apply V c t p, pblk2_eq V c t, pblk3_eq V c t, pblk4_eq V c t, pblk5_eq V c t, pblk6_eq V c t, pblk7_eq V c t,
    pblk8_eq V c t, pblk9_eq V c t, pblk10_eq V c t, pblk11_eq V c t, pblk12_eq V c t, pblk13_eq V c t, pblk14_eq V c t,
    pblk15_eq V c t]
  rfl

theorem partCnt_apply (c : Dev nD) (t : Fin cfg0.N) (s : Fin 64) :
    partCnt V c t (ix2 s 0) = ∑ p : Fin 2048, rowCnt V c s (tileRow t.val p) := by
  unfold partCnt
  refine (Cert.K0Value.k0_partial_count (lblk V c t) s).trans ?_
  refine Finset.sum_congr rfl fun p _ => ?_
  rw [lblk_apply V c t p]
  rfl

theorem accS_first (c : Dev nD) (t : Fin cfg0.N) (h0 : t.val % 8 = 0) (s : Fin 64) (k : Fin 32) :
    (accAt0 V c t.val t.isLt).2.2.1 (ix2 s k) = partSum V c t (ix2 s k) := by
  have h1 : ¬t.val % 8 = 7 := by omega
  rw [accAt0_A V c t h0 h1]
  refine (congrFun (leftA_sums (F := Ideal) V c t h0 h1) (ix2 s k)).trans ?_
  rw [Cert.K0Value.k0_acc_sum, Cert.K0Value.k0_zero_sum, zero_add]

theorem accC_first (c : Dev nD) (t : Fin cfg0.N) (h0 : t.val % 8 = 0) (s : Fin 64) :
    (accAt0 V c t.val t.isLt).2.2.2 (ix2 s 0) = partCnt V c t (ix2 s 0) := by
  have h1 : ¬t.val % 8 = 7 := by omega
  rw [accAt0_A V c t h0 h1]
  refine (congrFun (leftA_cnts (F := Ideal) V c t h0 h1) (ix2 s 0)).trans ?_
  rw [Cert.K0Value.k0_acc_count, Cert.K0Value.k0_zero_count, zero_add]

abbrev prevS (c : Dev nD) (t : Fin cfg0.N) : Vec Ideal S64x32 .f32 :=
  (accAt0 V c (t.val - 1) (Nat.lt_of_le_of_lt (Nat.sub_le _ _) t.isLt)).2.2.1
abbrev prevC (c : Dev nD) (t : Fin cfg0.N) : Vec Ideal S64x1 .f32 :=
  (accAt0 V c (t.val - 1) (Nat.lt_of_le_of_lt (Nat.sub_le _ _) t.isLt)).2.2.2

theorem accS_later (c : Dev nD) (t : Fin cfg0.N) (h0 : ¬t.val % 8 = 0) :
    (accAt0 V c t.val t.isLt).2.2.1 = k0_pay1 (partSum V c t) (prevS V c t) := by
  by_cases h1 : t.val % 8 = 7
  · rw [accAt0_C V c t h0 h1]; exact leftC_sums (F := Ideal) V c t h0 h1 (prevS V c t) (prevC V c t)
  · rw [accAt0_B V c t h0 h1]; exact leftB_sums (F := Ideal) V c t h0 h1 (prevS V c t) (prevC V c t)

theorem accC_later (c : Dev nD) (t : Fin cfg0.N) (h0 : ¬t.val % 8 = 0) :
    (accAt0 V c t.val t.isLt).2.2.2 = k0_pay2 (partCnt V c t) (prevC V c t) := by
  by_cases h1 : t.val % 8 = 7
  · rw [accAt0_C V c t h0 h1]; exact leftC_cnts (F := Ideal) V c t h0 h1 (prevS V c t) (prevC V c t)
  · rw [accAt0_B V c t h0 h1]; exact leftB_cnts (F := Ideal) V c t h0 h1 (prevS V c t) (prevC V c t)

theorem out16_last (c : Dev nD) (t : Fin cfg0.N) (h1 : t.val % 8 = 7) :
    (accAt0 V c t.val t.isLt).1 = k0_pay3 ((accAt0 V c t.val t.isLt).2.2.1) := by
  have h0 : ¬t.val % 8 = 0 := by omega
  rw [accS_later V c t h0, accAt0_C V c t h0 h1]
  exact leftC_out16 (F := Ideal) V c t h0 h1 (prevS V c t) (prevC V c t)

theorem out17_last (c : Dev nD) (t : Fin cfg0.N) (h1 : t.val % 8 = 7) :
    (accAt0 V c t.val t.isLt).2.1 = k0_pay4 ((accAt0 V c t.val t.isLt).2.2.2) := by
  have h0 : ¬t.val % 8 = 0 := by omega
  rw [accC_later V c t h0, accAt0_C V c t h0 h1]
  exact leftC_out17 (F := Ideal) V c t h0 h1 (prevS V c t) (prevC V c t)

/-- An accumulator that holds the first tile's part at a core's first tile and adds each later tile's part holds, at the core's last tile, the sum over the core's half of the rows. -/
theorem acc_half {M : Type} [AddCommMonoid M] (a : (n : ℕ) → n < cfg0.N → M) (g : Fin 32768 → M)
    (hfirst : ∀ t : Fin cfg0.N, t.val % 8 = 0 → a t.val t.isLt = ∑ p : Fin 2048, g (tileRow t.val p))
    (hlater : ∀ t : Fin cfg0.N, ¬t.val % 8 = 0 →
      a t.val t.isLt = a (t.val - 1) (Nat.lt_of_le_of_lt (Nat.sub_le _ _) t.isLt) + ∑ p : Fin 2048, g (tileRow t.val p))
    (t : Fin cfg0.N) (h7 : t.val % 8 = 7) (κ : Fin 2) (hκ : κ.val = t.val / 8) :
    a t.val t.isLt = ∑ r : Fin 16384, g (halfRow κ r) := by
  have hN : cfg0.N = 16 := N_0
  have ht := t.isLt
  have ac : ∀ {n n' : ℕ} (e : n = n') (h : n < cfg0.N) (h' : n' < cfg0.N), a n h = a n' h' := fun e _ _ => by subst e; rfl
  have run : ∀ (j : ℕ), j < 8 → ∀ h : 8 * κ.val + j < cfg0.N,
      a (8 * κ.val + j) h = ∑ i ∈ Finset.range (j + 1), ∑ p : Fin 2048, g (tileRow (8 * κ.val + i) p) := by
    intro j
    induction j with
    | zero =>
      intro _ h
      rw [Finset.sum_range_one]
      exact hfirst ⟨8 * κ.val + 0, h⟩ (by show (8 * κ.val + 0) % 8 = 0; omega)
    | succ j ih =>
      intro hj h
      rw [Finset.sum_range_succ, ← ih (Nat.lt_of_succ_lt hj) (Nat.lt_of_succ_lt h)]
      refine (hlater ⟨8 * κ.val + (j + 1), h⟩ (by show ¬(8 * κ.val + (j + 1)) % 8 = 0; omega)).trans ?_
      exact congrArg (· + _) (ac (show 8 * κ.val + (j + 1) - 1 = 8 * κ.val + j by omega) _ _)
  rw [ac (show t.val = 8 * κ.val + 7 by omega) t.isLt (by omega), run 7 (by omega) (by omega)]
  exact sum_tiles κ g

theorem accS_half (c : Dev nD) (t : Fin cfg0.N) (h7 : t.val % 8 = 7) (κ : Fin 2) (hκ : κ.val = t.val / 8)
    (s : Fin 64) (k : Fin 32) :
    (accAt0 V c t.val t.isLt).2.2.1 (ix2 s k) = ∑ r : Fin 16384, rowSum V c s k (halfRow κ r) :=
  acc_half (fun n h => (accAt0 V c n h).2.2.1 (ix2 s k)) (rowSum V c s k)
    (fun t h0 => (accS_first V c t h0 s k).trans (partSum_apply V c t s k))
    (fun t h0 => by
      show (accAt0 V c t.val t.isLt).2.2.1 (ix2 s k) = _
      rw [accS_later V c t h0, Cert.K0Value.k0_acc_sum, partSum_apply]) t h7 κ hκ

theorem accC_half (c : Dev nD) (t : Fin cfg0.N) (h7 : t.val % 8 = 7) (κ : Fin 2) (hκ : κ.val = t.val / 8)
    (s : Fin 64) :
    (accAt0 V c t.val t.isLt).2.2.2 (ix2 s 0) = ∑ r : Fin 16384, rowCnt V c s (halfRow κ r) :=
  acc_half (fun n h => (accAt0 V c n h).2.2.2 (ix2 s 0)) (rowCnt V c s)
    (fun t h0 => (accC_first V c t h0 s).trans (partCnt_apply V c t s))
    (fun t h0 => by
      show (accAt0 V c t.val t.isLt).2.2.2 (ix2 s 0) = _
      rw [accC_later V c t h0, Cert.K0Value.k0_acc_count, partCnt_apply]) t h7 κ hκ

end Cert.K0Final

end
-- ==== Proof.K0Cover.lean ====
import proofs.«407301_j76149770158544_3_alg».proof.Proof.K0Runs
import Idealize.ShloMosaic.Lib.Pipeline.Value
import Idealize.ShloMosaic.Lib.ValueIdx

noncomputable section

namespace Cert.K0Final

open Cert.KernelIdeal Cert.KernelIdeal.Gen Idealize.ShloMosaic Idealize.ShloMosaic.ValueIdx

theorem N16 : cfg0.N = 16 := N_0

theorem idx16 : ∀ t : Fin cfg0.N, win0_16.index t (0 : Fin 3) = t.val / 8 ∧ win0_16.index t (1 : Fin 3) = 0 ∧ win0_16.index t (2 : Fin 3) = 0 :=
  (by decide +kernel : ∀ t : Fin grid0.N, _)

theorem idx17 : ∀ t : Fin cfg0.N, win0_17.index t (0 : Fin 3) = t.val / 8 ∧ win0_17.index t (1 : Fin 3) = 0 ∧ win0_17.index t (2 : Fin 3) = 0 :=
  (by decide +kernel : ∀ t : Fin grid0.N, _)

/-- The one written block at point `t` sits at core `t / 8` of the array. -/
theorem emb16 (t : Fin cfg0.N) (s : Fin 64) (k : Fin 32) :
    ((cfg0.win 16).blk t).view.emb (ix3 (0 : Fin 1) s k) = ix3 (⟨t.val / 8, by have := t.isLt; have := N16; omega⟩ : Fin 2) s k := by
  obtain ⟨e0, e1, e2⟩ := idx16 t
  funext a; apply Fin.ext
  match a with
  | ⟨0, _⟩ => show win0_16.index t (0 : Fin 3) * 1 + 1 * 0 = t.val / 8; omega
  | ⟨1, _⟩ => show win0_16.index t (1 : Fin 3) * 64 + 1 * s.val = s.val; omega
  | ⟨2, _⟩ => show win0_16.index t (2 : Fin 3) * 32 + 1 * k.val = k.val; omega

theorem emb17 (t : Fin cfg0.N) (s : Fin 64) :
    ((cfg0.win 17).blk t).view.emb (ix3 (0 : Fin 1) s (0 : Fin 1)) = ix3 (⟨t.val / 8, by have := t.isLt; have := N16; omega⟩ : Fin 2) s (0 : Fin 1) := by
  obtain ⟨e0, e1, e2⟩ := idx17 t
  funext a; apply Fin.ext
  match a with
  | ⟨0, _⟩ => show win0_17.index t (0 : Fin 3) * 1 + 1 * 0 = t.val / 8; omega
  | ⟨1, _⟩ => show win0_17.index t (1 : Fin 3) * 64 + 1 * s.val = s.val; omega
  | ⟨2, _⟩ => show win0_17.index t (2 : Fin 3) * 1 + 1 * 0 = 0; omega

/-- Core `i 0`'s slab is written at that core's last point, `8 · (i 0) + 7`. -/
theorem cover16 (i : S2x64x32.Idx) : ∃ t : Fin cfg0.N, (cfg0.win 16).flush t = true ∧ i ∈ ((cfg0.win 16).blk t).view.set := by
  have hi0 : (i 0).val < 2 := (i 0).isLt
  have hi1 : (i 1).val < 64 := (i 1).isLt
  have hi2 : (i 2).val < 32 := (i 2).isLt
  have hN := N16
  obtain ⟨t, ht⟩ : ∃ t : Fin cfg0.N, t.val = 8 * (i 0).val + 7 := ⟨⟨8 * (i 0).val + 7, by omega⟩, rfl⟩
  refine ⟨t, (flush0_16 t).mpr (by omega), ?_⟩
  show i ∈ ((View.whole main_v8_0).slice (win0_16.rect t)).set
  rw [View.set_slice_whole, Rect.mem_set_unit]
  obtain ⟨e0, e1, e2⟩ := idx16 t
  intro a
  match a with
  | ⟨0, _⟩ => show win0_16.index t (0 : Fin 3) * 1 ≤ (i 0).val ∧ (i 0).val < win0_16.index t (0 : Fin 3) * 1 + 1; omega
  | ⟨1, _⟩ => show win0_16.index t (1 : Fin 3) * 64 ≤ (i 1).val ∧ (i 1).val < win0_16.index t (1 : Fin 3) * 64 + 64; omega
  | ⟨2, _⟩ => show win0_16.index t (2 : Fin 3) * 32 ≤ (i 2).val ∧ (i 2).val < win0_16.index t (2 : Fin 3) * 32 + 32; omega

theorem cover17 (i : S2x64x1.Idx) : ∃ t : Fin cfg0.N, (cfg0.win 17).flush t = true ∧ i ∈ ((cfg0.win 17).blk t).view.set := by
  have hi0 : (i 0).val < 2 := (i 0).isLt
  have hi1 : (i 1).val < 64 := (i 1).isLt
  have hi2 : (i 2).val < 1 := (i 2).isLt
  have hN := N16
  obtain ⟨t, ht⟩ : ∃ t : Fin cfg0.N, t.val = 8 * (i 0).val + 7 := ⟨⟨8 * (i 0).val + 7, by omega⟩, rfl⟩
  refine ⟨t, (flush0_17 t).mpr (by omega), ?_⟩
  show i ∈ ((View.whole main_v8_1).slice (win0_17.rect t)).set
  rw [View.set_slice_whole, Rect.mem_set_unit]
  obtain ⟨e0, e1, e2⟩ := idx17 t
  intro a
  match a with
  | ⟨0, _⟩ => show win0_17.index t (0 : Fin 3) * 1 ≤ (i 0).val ∧ (i 0).val < win0_17.index t (0 : Fin 3) * 1 + 1; omega
  | ⟨1, _⟩ => show win0_17.index t (1 : Fin 3) * 64 ≤ (i 1).val ∧ (i 1).val < win0_17.index t (1 : Fin 3) * 64 + 64; omega
  | ⟨2, _⟩ => show win0_17.index t (2 : Fin 3) * 1 ≤ (i 2).val ∧ (i 2).val < win0_17.index t (2 : Fin 3) * 1 + 1; omega

end Cert.K0Final
end
-- ==== Proof.K0Final.lean ====
import proofs.«407301_j76149770158544_3_alg».proof.Proof.K0Acc
import proofs.«407301_j76149770158544_3_alg».proof.Proof.K0Cover
import Idealize.ShloMosaic.Lib.Pipeline.Value

noncomputable section

namespace Cert.K0Final

open Cert.KernelIdeal Cert.KernelIdeal.Gen Cert.KernelIdeal.Hand
open Idealize.ShloMosaic Idealize.ShloMosaic.TcCoe Idealize.ShloMosaic.ValueIdx

variable (V : (c : Dev nD) → (b : Ref sig .tc) → Buf (Elt Ideal) ((c : Thread nD τ).loc b))

def G16 (c : Dev nD) : Vec Ideal S2x64x32 .f32 :=
  fun i => ∑ r : Fin 16384, rowSum V c (i 1) (i 2) (halfRow (i 0) r)

def G17 (c : Dev nD) : Vec Ideal S2x64x1 .f32 :=
  fun i => ∑ r : Fin 16384, rowCnt V c (i 1) (halfRow (i 0) r)

theorem G16_apply (c : Dev nD) (κ : Fin 2) (s : Fin 64) (k : Fin 32) :
    G16 V c (ix3 κ s k) = ∑ r : Fin 16384,
      if Cert.Spec.inClass (lab0 V c (halfRow κ r)) s then emb0 V c (halfRow κ r) k else 0 := rfl
theorem G17_apply (c : Dev nD) (κ : Fin 2) (s : Fin 64) :
    G17 V c (ix3 κ s (0 : Fin 1)) = ∑ r : Fin 16384,
      if Cert.Spec.inClass (lab0 V c (halfRow κ r)) s then (1 : EReal) else 0 := rfl

theorem flushed16_eq (c : Dev nD) (t : Fin cfg0.N) (hf : (cfg0.win 16).flush t = true) :
    (dat0 V c).flushed 16 t = ((cfg0.win 16).blk t).view.read (Elt Ideal) (G16 V c) := by
  have h7 : t.val % 8 = 7 := (flush0_16 t).mp hf
  show (cfg0.win 16).cut (grid0.coords t) ((dat0 V c).after 16 t) = _
  rw [after0_16, out16_last V c t h7]
  refine funext fun (y : S1x64x32.Idx) => ?_
  obtain ⟨z, s, k, rfl⟩ : ∃ (z : Fin 1) (s : Fin 64) (k : Fin 32), y = ix3 z s k := ⟨y 0, y 1, y 2, eq_ix3 y⟩
  obtain rfl : z = 0 := Subsingleton.elim _ _
  have hG : G16 V c (ix3 (⟨t.val / 8, by have := t.isLt; have := N16; omega⟩ : Fin 2) s k)
      = (accAt0 V c t.val t.isLt).2.2.1 (ix2 s k) :=
    (accS_half V c t h7 ⟨t.val / 8, by have := t.isLt; have := N16; omega⟩ rfl s k).symm
  generalize G16 V c = G at hG ⊢
  rw [View.read_apply, emb16 t s k]
  show k0_pay3 ((accAt0 V c t.val t.isLt).2.2.1) (ix3 (0 : Fin 1) s k) = G (ix3 _ s k)
  rw [hG]
  exact Cert.K0Value.k0_out_sum _ s k

theorem flushed17_eq (c : Dev nD) (t : Fin cfg0.N) (hf : (cfg0.win 17).flush t = true) :
    (dat0 V c).flushed 17 t = ((cfg0.win 17).blk t).view.read (Elt Ideal) (G17 V c) := by
  have h7 : t.val % 8 = 7 := (flush0_17 t).mp hf
  show (cfg0.win 17).cut (grid0.coords t) ((dat0 V c).after 17 t) = _
  rw [after0_17, out17_last V c t h7]
  refine funext fun (y : S1x64x1.Idx) => ?_
  obtain ⟨z, s, k, rfl⟩ : ∃ (z : Fin 1) (s : Fin 64) (k : Fin 1), y = ix3 z s k := ⟨y 0, y 1, y 2, eq_ix3 y⟩
  obtain rfl : z = 0 := Subsingleton.elim _ _
  obtain rfl : k = 0 := Subsingleton.elim _ _
  have hG : G17 V c (ix3 (⟨t.val / 8, by have := t.isLt; have := N16; omega⟩ : Fin 2) s (0 : Fin 1))
      = (accAt0 V c t.val t.isLt).2.2.2 (ix2 s 0) :=
    (accC_half V c t h7 ⟨t.val / 8, by have := t.isLt; have := N16; omega⟩ rfl s).symm
  generalize G17 V c = G at hG ⊢
  rw [View.read_apply, emb17 t s]
  show k0_pay4 ((accAt0 V c t.val t.isLt).2.2.2) (ix3 (0 : Fin 1) s (0 : Fin 1)) = G (ix3 _ s (0 : Fin 1))
  rw [hG]
  exact Cert.K0Value.k0_out_count _ s

theorem final0_16 (c : Dev nD) : (dat0 V c).arrAt 16 cfg0.N = G16 V c :=
  (dat0 V c).arrAt_eq_of_cover 16 (G16 V c) (flushed16_eq V c) cover16

theorem final0_17 (c : Dev nD) : (dat0 V c).arrAt 17 cfg0.N = G17 V c :=
  (dat0 V c).arrAt_eq_of_cover 17 (G17 V c) (flushed17_eq V c) cover17

theorem sums0_halves (c : Dev nD) (s : Fin 64) (k : Fin 32) :
    G16 V c (ix3 (0 : Fin 2) s k) + G16 V c (ix3 (1 : Fin 2) s k)
      = Cert.Spec.classSum (emb0 V c) (lab0 V c) s k := by
  rw [G16_apply, G16_apply]
  exact classSum_halves (emb0 V c) (lab0 V c) s k

theorem counts0_halves (c : Dev nD) (s : Fin 64) :
    G17 V c (ix3 (0 : Fin 2) s (0 : Fin 1)) + G17 V c (ix3 (1 : Fin 2) s (0 : Fin 1))
      = Cert.Spec.classCount (lab0 V c) s := by
  rw [G17_apply, G17_apply]
  exact classCount_halves (lab0 V c) s

end Cert.K0Final

end
-- ==== Proof.K1Value.lean ====
import proofs.«407301_j76149770158544_3_alg».proof.Proof.Gen.KernelIdeal.Skeleton
import proofs.«407301_j76149770158544_3_alg».proof.Proof.KLayers

noncomputable section

namespace Cert.K1Value

open Cert.KernelIdeal Cert.KernelIdeal.Gen Idealize.ShloMosaic Idealize.ShloMosaic.ValueIdx Idealize.SL.Sem Cert.KLayers

section Pieces
variable {F : FTy → Type} [FloatOps F]

/-- The distance tile, composed from its pieces as the second kernel composes them. -/
def k1_out (x : Vec F S2048x768 .f32) (w1t : Vec F S768x512 .bf16) (b1 g1 be1 : Vec F S512 .f32)
    (w2t : Vec F S512x512 .bf16) (b2 g2 be2 : Vec F S512 .f32) (w3t : Vec F S512x128 .bf16) (b3 g3 be3 : Vec F S128 .f32)
    (w4t : Vec F S128x32 .bf16) (b4 : Vec F S32 .f32)
    (pt : Vec F S32x64 .bf16) (psq : Vec F S1x64 .f32) : FVec F S2048x64 .f32 :=
  k1_pay1
    (k1_pay6 (k1_pay3 (k1_pay2 x w1t b1 g1 be1 w2t) b2 g2 be2 w3t b3) g3 be3 (k1_pay4 (k1_pay2 x w1t b1 g1 be1 w2t) b2 g2 be2 w3t b3) (Scalar.ofBits .f32 0x43000000#32) w4t b4 pt)
    (k1_pay7 (k1_pay3 (k1_pay2 x w1t b1 g1 be1 w2t) b2 g2 be2 w3t b3) g3 be3 (k1_pay4 (k1_pay2 x w1t b1 g1 be1 w2t) b2 g2 be2 w3t b3) (Scalar.ofBits .f32 0x43000000#32) w4t b4 psq)
    k1_pay8

end Pieces

/-- Shorthand for `Spec.rowEmb` of row `p` of `x`. -/
abbrev emb (x : Vec Ideal S2048x768 .f32) (w1t : Vec Ideal S768x512 .bf16) (b1 g1 be1 : Vec Ideal S512 .f32)
    (w2t : Vec Ideal S512x512 .bf16) (b2 g2 be2 : Vec Ideal S512 .f32) (w3t : Vec Ideal S512x128 .bf16) (b3 g3 be3 : Vec Ideal S128 .f32)
    (w4t : Vec Ideal S128x32 .bf16) (b4 : Vec Ideal S32 .f32) (p : Fin 2048) : Fin 32 → EReal :=
  Cert.Spec.rowEmb (Cert.Spec.paramsOfT w1t b1 g1 be1 w2t b2 g2 be2 w3t b3 g3 be3 w4t b4) (fun t => x (ix2 p t))

/-- Zero less the root of the clamped `‖e‖² + psq − 2 · (e · pt)`, for row `p` of an embedding tile `e` and class `j`. -/
theorem dist_apply (e : FVec Ideal S2048x32 .f32) (pt : Vec Ideal S32x64 .bf16) (psq : Vec Ideal S1x64 .f32) (p : Fin 2048) (j : Fin 64) :
    k1_pay1 (dense e pt)
        (addf (broadcastTo S2048x64 (rowSum (mulf e e)) broadcasts_S2048x1_S2048x64)
          (broadcastTo S2048x64 (shapeCast S1x64 psq shapeCasts_S1x64_S1x64) broadcasts_S1x64_S2048x64))
        k1_pay8 (ix2 p j)
      = -(Ideal.sqrt (max (((∑ k : Fin 32, e (ix2 p k) * e (ix2 p k)) + psq (ix2 (0 : Fin 1) j))
            - Cert.Spec.wTwo * ∑ k : Fin 32, e (ix2 p k) * pt (ix2 k j)) 0)) := by
  show Ideal.ofBits .f32 0x00000000#32 - Ideal.sqrt (max (_ - Cert.Spec.wTwo * _) (Ideal.ofBits .f32 0x00000000#32)) = _
  rw [Ideal.ofBits_zero_f32, zero_sub, addf_apply, broadcastTo_a1_ab_apply, rowSum_apply, broadcastTo_1b_ab_apply,
    shapeCast_self, dense_apply]
  rfl

theorem k1_out_apply (x : Vec Ideal S2048x768 .f32) (w1t : Vec Ideal S768x512 .bf16) (b1 g1 be1 : Vec Ideal S512 .f32)
    (w2t : Vec Ideal S512x512 .bf16) (b2 g2 be2 : Vec Ideal S512 .f32) (w3t : Vec Ideal S512x128 .bf16) (b3 g3 be3 : Vec Ideal S128 .f32)
    (w4t : Vec Ideal S128x32 .bf16) (b4 : Vec Ideal S32 .f32)
    (pt : Vec Ideal S32x64 .bf16) (psq : Vec Ideal S1x64 .f32) (p : Fin 2048) (j : Fin 64) :
    k1_out x w1t b1 g1 be1 w2t b2 g2 be2 w3t b3 g3 be3 w4t b4 pt psq (ix2 p j)
      = -(Ideal.sqrt (max (((∑ k : Fin 32, emb x w1t b1 g1 be1 w2t b2 g2 be2 w3t b3 g3 be3 w4t b4 p k * emb x w1t b1 g1 be1 w2t b2 g2 be2 w3t b3 g3 be3 w4t b4 p k) + psq (ix2 (0 : Fin 1) j))
            - Cert.Spec.wTwo * ∑ k : Fin 32, emb x w1t b1 g1 be1 w2t b2 g2 be2 w3t b3 g3 be3 w4t b4 p k * pt (ix2 k j)) 0)) := by
  refine (dist_apply (mlp x w1t b1 g1 be1 w2t b2 g2 be2 w3t b3 g3 be3 w4t b4) pt psq p j).trans ?_
  simp only [mlp_row]

end Cert.K1Value

end
-- ==== Proof.K1Final.lean ====
import proofs.«407301_j76149770158544_3_alg».proof.Proof.R1
import proofs.«407301_j76149770158544_3_alg».proof.Proof.K1Value
import Idealize.ShloMosaic.Lib.Pipeline.Value
import Idealize.ShloMosaic.Lib.ValueIdx

noncomputable section

namespace Cert.K1Final

open Cert.KernelIdeal Cert.KernelIdeal.Gen Cert.KernelIdeal.Hand
open Idealize.ShloMosaic Idealize.ShloMosaic.TcCoe Idealize.SL.Sem Idealize.ShloMosaic.ValueIdx
open Idealize.ShloMosaic.Pipeline (Dat Cfg Window)

variable (V : (c : Dev nD) → (b : Ref sig .tc) → Buf (Elt Ideal) ((c : Thread nD τ).loc b))

theorem idx1_0 : ∀ t : Fin cfg1.N, win1_0.index t (0 : Fin 2) = t.val ∧ win1_0.index t (1 : Fin 2) = 0 :=
  (by decide +kernel : ∀ t : Fin grid1.N, _)
theorem idx1_17 : ∀ t : Fin cfg1.N, win1_17.index t (0 : Fin 2) = t.val ∧ win1_17.index t (1 : Fin 2) = 0 :=
  (by decide +kernel : ∀ t : Fin grid1.N, _)

/-- The query tile at point `t` is rows `2048 t …` of the query array. -/
theorem iblk1_0_apply (c : Dev nD) (t : Fin cfg1.N) (p : Fin 2048) (u : Fin 768) (k : S65536x768.Idx)
    (hk0 : (k 0).val = 2048 * t.val + p.val) (hk1 : (k 1).val = u.val) :
    (iblk1 V c 0 t : Vec Ideal S2048x768 .f32) (ix2 p u) = (V c main_arg2 : S65536x768.Idx → Elt Ideal .f32) k := by
  obtain ⟨e0, e1⟩ := idx1_0 t
  unfold iblk1
  rw [View.read_apply]
  show V c main_arg2 _ = V c main_arg2 _
  congr 1
  funext a
  apply Fin.ext
  match a with
  | ⟨0, _⟩ => show win1_0.index t 0 * 2048 + 1 * p.val = (k 0).val; rw [e0, hk0]; omega
  | ⟨1, _⟩ => show win1_0.index t 1 * 768 + 1 * u.val = (k 1).val; rw [e1, hk1]; omega

/-- A window whose one block is its whole array reads the array. -/
theorem iblk1_1 (c : Dev nD) (t : Fin cfg1.N) :
    (iblk1 V c 1 t : Vec Ideal S768x512 .bf16) = (V c main_v1 : S768x512.Idx → Elt Ideal .bf16) :=
  funext fun y => congrArg (V c main_v1) (funext fun a => Fin.ext (win1_1.rect_emb_val_of_index_zero t a (match a with | ⟨0, _⟩ => rfl | ⟨1, _⟩ => rfl) y))
theorem iblk1_2 (c : Dev nD) (t : Fin cfg1.N) :
    (iblk1 V c 2 t : Vec Ideal S512 .f32) = (V c main_arg4 : S512.Idx → Elt Ideal .f32) :=
  funext fun y => congrArg (V c main_arg4) (funext fun a => Fin.ext (win1_2.rect_emb_val_of_index_zero t a (match a with | ⟨0, _⟩ => rfl) y))
theorem iblk1_3 (c : Dev nD) (t : Fin cfg1.N) :
    (iblk1 V c 3 t : Vec Ideal S512 .f32) = (V c main_arg5 : S512.Idx → Elt Ideal .f32) :=
  funext fun y => congrArg (V c main_arg5) (funext fun a => Fin.ext (win1_3.rect_emb_val_of_index_zero t a (match a with | ⟨0, _⟩ => rfl) y))
theorem iblk1_4 (c : Dev nD) (t : Fin cfg1.N) :
    (iblk1 V c 4 t : Vec Ideal S512 .f32) = (V c main_arg6 : S512.Idx → Elt Ideal .f32) :=
  funext fun y => congrArg (V c main_arg6) (funext fun a => Fin.ext (win1_4.rect_emb_val_of_index_zero t a (match a with | ⟨0, _⟩ => rfl) y))
theorem iblk1_5 (c : Dev nD) (t : Fin cfg1.N) :
    (iblk1 V c 5 t : Vec Ideal S512x512 .bf16) = (V c main_v3 : S512x512.Idx → Elt Ideal .bf16) :=
  funext fun y => congrArg (V c main_v3) (funext fun a => Fin.ext (win1_5.rect_emb_val_of_index_zero t a (match a with | ⟨0, _⟩ => rfl | ⟨1, _⟩ => rfl) y))
theorem iblk1_6 (c : Dev nD) (t : Fin cfg1.N) :
    (iblk1 V c 6 t : Vec Ideal S512 .f32) = (V c main_arg8 : S512.Idx → Elt Ideal .f32) :=
  funext fun y => congrArg (V c main_arg8) (funext fun a => Fin.ext (win1_6.rect_emb_val_of_index_zero t a (match a with | ⟨0, _⟩ => rfl) y))
theorem iblk1_7 (c : Dev nD) (t : Fin cfg1.N) :
    (iblk1 V c 7 t : Vec Ideal S512 .f32) = (V c main_arg9 : S512.Idx → Elt Ideal .f32) :=
  funext fun y => congrArg (V c main_arg9) (funext fun a => Fin.ext (win1_7.rect_emb_val_of_index_zero t a (match a with | ⟨0, _⟩ => rfl) y))
theorem iblk1_8 (c : Dev nD) (t : Fin cfg1.N) :
    (iblk1 V c 8 t : Vec Ideal S512 .f32) = (V c main_arg10 : S512.Idx → Elt Ideal .f32) :=
  funext fun y => congrArg (V c main_arg10) (funext fun a => Fin.ext (win1_8.rect_emb_val_of_index_zero t a (match a with | ⟨0, _⟩ => rfl) y))
theorem iblk1_9 (c : Dev nD) (t : Fin cfg1.N) :
    (iblk1 V c 9 t : Vec Ideal S512x128 .bf16) = (V c main_v5 : S512x128.Idx → Elt Ideal .bf16) :=
  funext fun y => congrArg (V c main_v5) (funext fun a => Fin.ext (win1_9.rect_emb_val_of_index_zero t a (match a with | ⟨0, _⟩ => rfl | ⟨1, _⟩ => rfl) y))
theorem iblk1_10 (c : Dev nD) (t : Fin cfg1.N) :
    (iblk1 V c 10 t : Vec Ideal S128 .f32) = (V c main_arg12 : S128.Idx → Elt Ideal .f32) :=
  funext fun y => congrArg (V c main_arg12) (funext fun a => Fin.ext (win1_10.rect_emb_val_of_index_zero t a (match a with | ⟨0, _⟩ => rfl) y))
theorem iblk1_11 (c : Dev nD) (t : Fin cfg1.N) :
    (iblk1 V c 11 t : Vec Ideal S128 .f32) = (V c main_arg13 : S128.Idx → Elt Ideal .f32) :=
  funext fun y => congrArg (V c main_arg13) (funext fun a => Fin.ext (win1_11.rect_emb_val_of_index_zero t a (match a with | ⟨0, _⟩ => rfl) y))
theorem iblk1_12 (c : Dev nD) (t : Fin cfg1.N) :
    (iblk1 V c 12 t : Vec Ideal S128 .f32) = (V c main_arg14 : S128.Idx → Elt Ideal .f32) :=
  funext fun y => congrArg (V c main_arg14) (funext fun a => Fin.ext (win1_12.rect_emb_val_of_index_zero t a (match a with | ⟨0, _⟩ => rfl) y))
theorem iblk1_13 (c : Dev nD) (t : Fin cfg1.N) :
    (iblk1 V c 13 t : Vec Ideal S128x32 .bf16) = (V c main_v7 : S128x32.Idx → Elt Ideal .bf16) :=
  funext fun y => congrArg (V c main_v7) (funext fun a => Fin.ext (win1_13.rect_emb_val_of_index_zero t a (match a with | ⟨0, _⟩ => rfl | ⟨1, _⟩ => rfl) y))
theorem iblk1_14 (c : Dev nD) (t : Fin cfg1.N) :
    (iblk1 V c 14 t : Vec Ideal S32 .f32) = (V c main_arg16 : S32.Idx → Elt Ideal .f32) :=
  funext fun y => congrArg (V c main_arg16) (funext fun a => Fin.ext (win1_14.rect_emb_val_of_index_zero t a (match a with | ⟨0, _⟩ => rfl) y))
theorem iblk1_15 (c : Dev nD) (t : Fin cfg1.N) :
    (iblk1 V c 15 t : Vec Ideal S32x64 .bf16) = (V c main_v24 : S32x64.Idx → Elt Ideal .bf16) :=
  funext fun y => congrArg (V c main_v24) (funext fun a => Fin.ext (win1_15.rect_emb_val_of_index_zero t a (match a with | ⟨0, _⟩ => rfl | ⟨1, _⟩ => rfl) y))
theorem iblk1_16 (c : Dev nD) (t : Fin cfg1.N) :
    (iblk1 V c 16 t : Vec Ideal S1x64 .f32) = (V c main_v28 : S1x64.Idx → Elt Ideal .f32) :=
  funext fun y => congrArg (V c main_v28) (funext fun a => Fin.ext (win1_16.rect_emb_val_of_index_zero t a (match a with | ⟨0, _⟩ => rfl | ⟨1, _⟩ => rfl) y))

abbrev zq (c : Dev nD) (r : Fin 65536) : Fin 32 → EReal :=
  Cert.Spec.rowEmb (Cert.Spec.paramsOfT (V c main_v1) (V c main_arg4) (V c main_arg5) (V c main_arg6) (V c main_v3) (V c main_arg8) (V c main_arg9) (V c main_arg10) (V c main_v5) (V c main_arg12) (V c main_arg13) (V c main_arg14) (V c main_v7) (V c main_arg16))
    (fun u => (V c main_arg2 : S65536x768.Idx → EReal) (ix2 r u))

abbrev G1 (c : Dev nD) : S65536x64.Idx → EReal := fun i =>
  -(Ideal.sqrt (max (((∑ k : Fin 32, zq V c (i 0) k * zq V c (i 0) k) + (V c main_v28 : S1x64.Idx → EReal) (ix2 (0 : Fin 1) (i 1)))
      - Cert.Spec.wTwo * ∑ k : Fin 32, zq V c (i 0) k * (V c main_v24 : S32x64.Idx → EReal) (ix2 k (i 1))) 0))

/-- The stored tile at point `t`, read on the arrays. -/
theorem tile_apply (c : Dev nD) (t : Fin cfg1.N) (p : Fin 2048) (j : Fin 64) (h : 2048 * t.val + p.val < 65536) :
    k1_val (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) (iblk1 V c 14 t) (iblk1 V c 15 t) (iblk1 V c 16 t) (ix2 p j)
      = G1 V c (ix2 ⟨2048 * t.val + p.val, h⟩ j) := by
  refine (Cert.K1Value.k1_out_apply _ _ _ _ _ _ _ _ _ _ _ _ _ _ _ _ _ p j).trans ?_
  have hx : (fun u => (iblk1 V c 0 t : Vec Ideal S2048x768 .f32) (ix2 p u))
      = fun u => (V c main_arg2 : S65536x768.Idx → EReal) (ix2 ⟨2048 * t.val + p.val, h⟩ u) :=
    funext fun u => iblk1_0_apply V c t p u _ rfl rfl
  simp only [Cert.K1Value.emb, hx, iblk1_1 V c t, iblk1_2 V c t, iblk1_3 V c t, iblk1_4 V c t, iblk1_5 V c t, iblk1_6 V c t, iblk1_7 V c t, iblk1_8 V c t, iblk1_9 V c t, iblk1_10 V c t, iblk1_11 V c t, iblk1_12 V c t, iblk1_13 V c t, iblk1_14 V c t, iblk1_15 V c t, iblk1_16 V c t]

/-- Row `i 0` lies in the tile of point `i 0 / 2048`. -/
theorem cover1_17 (i : S65536x64.Idx) :
    ∃ t : Fin cfg1.N, (cfg1.win 17).flush t = true ∧ i ∈ ((cfg1.win 17).blk t).view.set := by
  have hN : cfg1.N = 32 := N_1
  have h0 : (i 0).val < 65536 := (i 0).isLt
  have h1 : (i 1).val < 64 := (i 1).isLt
  have ht : (i 0).val / 2048 < cfg1.N := by rw [hN]; omega
  obtain ⟨e0, e1⟩ := idx1_17 ⟨(i 0).val / 2048, ht⟩
  refine ⟨⟨(i 0).val / 2048, ht⟩, flush1_17 _, ?_⟩
  show i ∈ ((View.whole main_v29).slice (win1_17.rect ⟨(i 0).val / 2048, ht⟩)).set
  rw [View.set_slice_whole, Rect.mem_set_unit]
  intro a
  match a with
  | ⟨0, _⟩ =>
    show win1_17.index ⟨(i 0).val / 2048, ht⟩ (0 : Fin 2) * 2048 ≤ (i 0).val
      ∧ (i 0).val < win1_17.index ⟨(i 0).val / 2048, ht⟩ (0 : Fin 2) * 2048 + 2048
    rw [e0]
    show (i 0).val / 2048 * 2048 ≤ (i 0).val ∧ (i 0).val < (i 0).val / 2048 * 2048 + 2048
    omega
  | ⟨1, _⟩ =>
    show win1_17.index ⟨(i 0).val / 2048, ht⟩ (1 : Fin 2) * 64 ≤ (i 1).val
      ∧ (i 1).val < win1_17.index ⟨(i 0).val / 2048, ht⟩ (1 : Fin 2) * 64 + 64
    rw [e1]
    omega

theorem flushed1_17_eq (c : Dev nD) (t : Fin cfg1.N) :
    (dat1 (F := Ideal) V c).flushed 17 t = ((cfg1.win 17).blk t).view.read (Elt Ideal) (G1 V c) := by
  show (cfg1.win 17).cut (grid1.coords t) ((dat1 V c).after 17 t) = _
  rw [after1_17, out1_17_eq]
  obtain ⟨e0, e1⟩ := idx1_17 t
  have hN : cfg1.N = 32 := N_1
  have htN : t.val < 32 := lt_of_lt_of_eq t.isLt hN
  funext y
  have hy0 : (y 0).val < 2048 := (y 0).isLt
  have hy : (cfg1.win 17).xinj (grid1.coords t) y = (ix2 (n0 := 2048) (n1 := 64) (y 0) (y 1)) :=
    funext fun a => by match a with | ⟨0, _⟩ => rfl | ⟨1, _⟩ => rfl
  rw [View.read_apply]
  show k1_val (F := Ideal) _ _ _ _ _ _ _ _ _ _ _ _ _ _ _ _ _ ((cfg1.win 17).xinj (grid1.coords t) y)
    = G1 V c (((cfg1.win 17).blk t).view.emb y)
  rw [hy, tile_apply V c t (y 0) (y 1) (by omega)]
  refine congrArg (G1 V c) (funext fun a => Fin.ext ?_)
  match a with
  | ⟨0, _⟩ => show 2048 * t.val + (y 0).val = win1_17.index t 0 * 2048 + 1 * (y 0).val; rw [e0]; omega
  | ⟨1, _⟩ => show (y 1).val = win1_17.index t 1 * 64 + 1 * (y 1).val; rw [e1]; omega

/-- Every element is covered by a written tile, so the output array is `G1`. -/
theorem final1_17 (c : Dev nD) : (dat1 (F := Ideal) V c).arrAt 17 cfg1.N = G1 V c :=
  (dat1 V c).arrAt_eq_of_cover 17 (G1 V c) (fun t _ => flushed1_17_eq V c t) cover1_17

theorem final1_17_apply (c : Dev nD) (p : Fin 65536) (j : Fin 64) :
    ((dat1 (F := Ideal) V c).arrAt 17 cfg1.N : S65536x64.Idx → EReal) (ix2 p j)
      = -(Ideal.sqrt (max (((∑ k : Fin 32, zq V c p k * zq V c p k) + (V c main_v28 : S1x64.Idx → EReal) (ix2 (0 : Fin 1) j))
          - Cert.Spec.wTwo * ∑ k : Fin 32, zq V c p k * (V c main_v24 : S32x64.Idx → EReal) (ix2 k j)) 0)) := by
  rw [final1_17]

end Cert.K1Final

end
-- ==== Proof.HostMid.lean ====
import proofs.«407301_j76149770158544_3_alg».proof.Proof.Spec
import proofs.«407301_j76149770158544_3_alg».proof.Proof.Gen.KernelIdeal.Launch
import proofs.«407301_j76149770158544_3_alg».proof.Proof.Gen.KernelIdeal.Regions
import Idealize.ShloMosaic.Lib.Pipeline.Value
import Idealize.ShloMosaic.Lib.ValueIdx
import Idealize.ShloMosaic.Lib.ValueLayout
import Idealize.ShloMosaic.PureOps.Ideal.Laws

noncomputable section

namespace Cert.HostMid

open Cert.KernelIdeal Cert.KernelIdeal.Gen
open Idealize.ShloMosaic Idealize.ShloMosaic.TcCoe Idealize.SL.Sem Idealize.ShloMosaic.StableHlo
open Idealize.ShloMosaic.ValueIdx

/-- Each transposed, narrowed weight block read at `(t, j)` is the weight matrix at `(j, t)`. -/
theorem pre_v1 (W : Valuation τ sig (Elt Ideal)) (t : Fin 768) (j : Fin 512) :
    StableHlo.after (hostOps0 (F := Ideal)) W (Proc.devRef .tc main_v1) (ix2 t j) = W (Proc.devRef .tc main_arg3) (ix2 j t) := by
  have e : @Eq (FVec Ideal S768x512 .bf16) (StableHlo.after (hostOps0 (F := Ideal)) W (Proc.devRef .tc main_v1))
      (truncf (F := Ideal) .bf16 (transpose S768x512 [1, 0] (W (Proc.devRef .tc main_arg3) : FVec Ideal S512x768 .f32) transposes_S512x768_S768x512_1_0) bitsLt_bf16_f32) := by
    after_results_simp
  exact (congrFun e (ix2 t j)).trans (transpose_ix2_apply (W (Proc.devRef .tc main_arg3) : FVec Ideal S512x768 .f32) transposes_S512x768_S768x512_1_0 t j)

theorem pre_v3 (W : Valuation τ sig (Elt Ideal)) (t : Fin 512) (j : Fin 512) :
    StableHlo.after (hostOps0 (F := Ideal)) W (Proc.devRef .tc main_v3) (ix2 t j) = W (Proc.devRef .tc main_arg7) (ix2 j t) := by
  have e : @Eq (FVec Ideal S512x512 .bf16) (StableHlo.after (hostOps0 (F := Ideal)) W (Proc.devRef .tc main_v3))
      (truncf (F := Ideal) .bf16 (transpose S512x512 [1, 0] (W (Proc.devRef .tc main_arg7) : FVec Ideal S512x512 .f32) transposes_S512x512_S512x512_1_0) bitsLt_bf16_f32) := by
    after_results_simp
  exact (congrFun e (ix2 t j)).trans (transpose_ix2_apply (W (Proc.devRef .tc main_arg7) : FVec Ideal S512x512 .f32) transposes_S512x512_S512x512_1_0 t j)

theorem pre_v5 (W : Valuation τ sig (Elt Ideal)) (t : Fin 512) (j : Fin 128) :
    StableHlo.after (hostOps0 (F := Ideal)) W (Proc.devRef .tc main_v5) (ix2 t j) = W (Proc.devRef .tc main_arg11) (ix2 j t) := by
  have e : @Eq (FVec Ideal S512x128 .bf16) (StableHlo.after (hostOps0 (F := Ideal)) W (Proc.devRef .tc main_v5))
      (truncf (F := Ideal) .bf16 (transpose S512x128 [1, 0] (W (Proc.devRef .tc main_arg11) : FVec Ideal S128x512 .f32) transposes_S128x512_S512x128_1_0) bitsLt_bf16_f32) := by
    after_results_simp
  exact (congrFun e (ix2 t j)).trans (transpose_ix2_apply (W (Proc.devRef .tc main_arg11) : FVec Ideal S128x512 .f32) transposes_S128x512_S512x128_1_0 t j)

theorem pre_v7 (W : Valuation τ sig (Elt Ideal)) (t : Fin 128) (j : Fin 32) :
    StableHlo.after (hostOps0 (F := Ideal)) W (Proc.devRef .tc main_v7) (ix2 t j) = W (Proc.devRef .tc main_arg15) (ix2 j t) := by
  have e : @Eq (FVec Ideal S128x32 .bf16) (StableHlo.after (hostOps0 (F := Ideal)) W (Proc.devRef .tc main_v7))
      (truncf (F := Ideal) .bf16 (transpose S128x32 [1, 0] (W (Proc.devRef .tc main_arg15) : FVec Ideal S32x128 .f32) transposes_S32x128_S128x32_1_0) bitsLt_bf16_f32) := by
    after_results_simp
  exact (congrFun e (ix2 t j)).trans (transpose_ix2_apply (W (Proc.devRef .tc main_arg15) : FVec Ideal S32x128 .f32) transposes_S32x128_S128x32_1_0 t j)

abbrev sumArr (W : Valuation τ sig (Elt Ideal)) : FVec Ideal S2x64x32 .f32 := W (Proc.devRef .tc main_v8_0)

abbrev cntArr (W : Valuation τ sig (Elt Ideal)) : FVec Ideal S2x64x1 .f32 := W (Proc.devRef .tc main_v8_1)

/-- The two cores' partial class sums, added. -/
def sums (W : Valuation τ sig (Elt Ideal)) (s : Fin 64) (k : Fin 32) : EReal :=
  sumArr W (ix3 0 s k) + sumArr W (ix3 1 s k)

/-- The two cores' partial class counts, added. -/
def counts (W : Valuation τ sig (Elt Ideal)) (s : Fin 64) : EReal :=
  cntArr W (ix3 0 s 0) + cntArr W (ix3 1 s 0)

theorem sums_eq (W : Valuation τ sig (Elt Ideal)) (s : Fin 64) (k : Fin 32) :
    sums W s k = sumArr W (ix3 0 s k) + sumArr W (ix3 1 s k) := rfl
theorem counts_eq (W : Valuation τ sig (Elt Ideal)) (s : Fin 64) :
    counts W s = cntArr W (ix3 0 s 0) + cntArr W (ix3 1 s 0) := rfl

def stSum (A : FVec Ideal S2x64x32 .f32) : FVec Ideal S64x32 .f32 :=
  addf (shapeCast S64x32 (extractStridedSlice S1x64x32 ![0, 0, 0] A slices_S2x64x32_S1x64x32_0_0_0) shapeCasts_S1x64x32_S64x32)
    (shapeCast S64x32 (extractStridedSlice S1x64x32 ![1, 0, 0] A slices_S2x64x32_S1x64x32_1_0_0) shapeCasts_S1x64x32_S64x32)

def stCnt (B : FVec Ideal S2x64x1 .f32) : FVec Ideal S64x1 .f32 :=
  addf (shapeCast S64x1 (extractStridedSlice S1x64x1 ![0, 0, 0] B slices_S2x64x1_S1x64x1_0_0_0) shapeCasts_S1x64x1_S64x1)
    (shapeCast S64x1 (extractStridedSlice S1x64x1 ![1, 0, 0] B slices_S2x64x1_S1x64x1_1_0_0) shapeCasts_S1x64x1_S64x1)

def stDen (B : FVec Ideal S2x64x1 .f32) : FVec Ideal S64x32 .f32 :=
  broadcastInDim S64x32 ![0, 1] bcast_S64x1_S64x32_0_1
    (maximumf (stCnt B) (broadcastInDim S64x1 ![] bcast_S_S64x1 (constant (F := Ideal) S_ .f32 0x3F800000#32)))

def stProto (A : FVec Ideal S2x64x32 .f32) (B : FVec Ideal S2x64x1 .f32) : FVec Ideal S64x32 .f32 :=
  Host.divf (F := Ideal) (stSum A) (stDen B)

/-- The two cores' slices, each cast down a rank and added, read the two halves at the same coordinates. -/
theorem halves_apply {m n : ℕ} (A : FVec Ideal ⟨3, ![2, m, n]⟩ .f32)
    (h0 : (⟨3, ![2, m, n]⟩ : Shape).Slices ![0, 0, 0] ⟨3, ![1, m, n]⟩) (h1 : (⟨3, ![2, m, n]⟩ : Shape).Slices ![1, 0, 0] ⟨3, ![1, m, n]⟩)
    (hc : (⟨3, ![1, m, n]⟩ : Shape).ShapeCasts ⟨2, ![m, n]⟩) (s : Fin m) (k : Fin n) :
    addf (shapeCast ⟨2, ![m, n]⟩ (extractStridedSlice ⟨3, ![1, m, n]⟩ ![0, 0, 0] A h0) hc)
        (shapeCast ⟨2, ![m, n]⟩ (extractStridedSlice ⟨3, ![1, m, n]⟩ ![1, 0, 0] A h1) hc) (ix2 s k)
      = A (ix3 0 s k) + A (ix3 1 s k) := by
  refine (addf_apply _ _ _).trans (congrArg₂ (· + ·) ?_ ?_) <;>
    exact (shapeCast_1ab_ab_apply _ _ s k).trans (extractStridedSlice_apply _ A _ _ _ fun
      | ⟨0, _⟩ => rfl
      | ⟨1, _⟩ => (Nat.zero_add _).symm
      | ⟨2, _⟩ => (Nat.zero_add _).symm)

theorem stSum_apply (A : FVec Ideal S2x64x32 .f32) (s : Fin 64) (k : Fin 32) :
    stSum A (ix2 s k) = A (ix3 0 s k) + A (ix3 1 s k) :=
  halves_apply A _ _ _ s k

theorem stCnt_apply (B : FVec Ideal S2x64x1 .f32) (s : Fin 64) :
    stCnt B (ix2 s 0) = B (ix3 0 s 0) + B (ix3 1 s 0) :=
  halves_apply B _ _ _ s 0

/-- The denominator: the class count raised to at least one, the same along every column. -/
theorem stDen_apply (B : FVec Ideal S2x64x1 .f32) (s : Fin 64) (k : Fin 32) :
    stDen B (ix2 s k) = max (B (ix3 0 s 0) + B (ix3 1 s 0)) Cert.Spec.wOne := by
  unfold stDen
  generalize hy : maximumf (stCnt B) (broadcastInDim S64x1 ![] bcast_S_S64x1 (constant (F := Ideal) S_ .f32 0x3F800000#32)) = y
  refine (broadcastInDim_apply _ bcast_S64x1_S64x32_0_1 y (ix2 s k) (ix2 s 0) (fun a => match a with
    | ⟨0, _⟩ => by show s.val = if (64 : Nat) = 1 then 0 else s.val; rw [if_neg (by decide)]
    | ⟨1, _⟩ => by show 0 = if (1 : Nat) = 1 then 0 else k.val; rw [if_pos rfl])).trans ?_
  subst hy
  refine (maximumf_apply _ _ _).trans ?_
  refine congrArg₂ max (stCnt_apply B s) ?_
  exact (broadcastInDim_apply _ bcast_S_S64x1 (constant (F := Ideal) S_ .f32 0x3F800000#32) (ix2 s 0) ix0 (fun a => a.elim0)).trans rfl

theorem stProto_apply (A : FVec Ideal S2x64x32 .f32) (B : FVec Ideal S2x64x1 .f32) (s : Fin 64) (k : Fin 32) :
    stProto A B (ix2 s k)
      = Ideal.div (A (ix3 0 s k) + A (ix3 1 s k)) (max (B (ix3 0 s 0) + B (ix3 1 s 0)) Cert.Spec.wOne) := by
  unfold stProto
  show Ideal.div (stSum A (ix2 s k)) (stDen B (ix2 s k)) = _
  rw [stSum_apply, stDen_apply]

theorem v24_eq (W : Valuation τ sig (Elt Ideal)) :
    @Eq (FVec Ideal S32x64 .bf16) (StableHlo.after (hostOps1 (F := Ideal)) W (Proc.devRef .tc main_v24))
      (truncf (F := Ideal) .bf16 (transpose S32x64 [1, 0] (stProto (sumArr W) (cntArr W)) transposes_S64x32_S32x64_1_0) bitsLt_bf16_f32) := by
  after_results_simp
  rfl

theorem v28_eq (W : Valuation τ sig (Elt Ideal)) :
    @Eq (FVec Ideal S1x64 .f32) (StableHlo.after (hostOps1 (F := Ideal)) W (Proc.devRef .tc main_v28))
      (transpose S1x64 [1, 0] (broadcastInDim S64x1 ![0] bcast_S64_S64x1_0
        (Host.reduceAdd (F := Ideal) (mulf (stProto (sumArr W) (cntArr W)) (stProto (sumArr W) (cntArr W)))
          (constant (F := Ideal) S_ .f32 0x00000000#32) reducesTo_S64x32_S64_d1 h_S_)) transposes_S64x1_S1x64_1_0) := by
  after_results_simp
  rfl

/-- The class means, transposed, are `Spec.proto` of the added partials. -/
theorem mid_v24 (W : Valuation τ sig (Elt Ideal)) (k : Fin 32) (j : Fin 64) :
    StableHlo.after (hostOps1 (F := Ideal)) W (Proc.devRef .tc main_v24) (ix2 k j)
      = Cert.Spec.proto (sums W) (counts W) j k := by
  refine (congrFun (v24_eq W) (ix2 k j)).trans ?_
  refine (transpose_ix2_apply (stProto (sumArr W) (cntArr W)) transposes_S64x32_S32x64_1_0 k j).trans ?_
  exact stProto_apply (sumArr W) (cntArr W) j k

/-- A row's squared length as a sum over its coordinates. -/
theorem rowSq_apply (P : FVec Ideal S64x32 .f32) (j : Fin 64) :
    Host.reduceAdd (F := Ideal) (mulf P P) (constant (F := Ideal) S_ .f32 0x00000000#32) reducesTo_S64x32_S64_d1 h_S_ (ix1 j)
      = ∑ k : Fin 32, P (ix2 j k) * P (ix2 j k) := by
  simp only [Host.reduceAdd, Ideal.hostReduceAdd_def]
  rw [Ideal.hostReduceAdd_single reducesTo_S64x32_S64_d1 (by decide)]
  have hz : constant (F := Ideal) S_ .f32 0x00000000#32 (Shape.Idx.first h_S_) = (0 : EReal) := Ideal.ofBits_zero_f32
  rw [hz, zero_add]
  refine Finset.sum_congr rfl fun k _ => ?_
  refine (mulf_apply _ _ _).trans ?_
  exact congrArg (fun i => P i * P i) (funext fun a => Fin.ext (by match a with | ⟨0, _⟩ => rfl | ⟨1, _⟩ => rfl))

theorem mid_v28 (W : Valuation τ sig (Elt Ideal)) (j : Fin 64) :
    StableHlo.after (hostOps1 (F := Ideal)) W (Proc.devRef .tc main_v28) (ix2 0 j)
      = ∑ k : Fin 32, Cert.Spec.proto (sums W) (counts W) j k * Cert.Spec.proto (sums W) (counts W) j k := by
  refine (congrFun (v28_eq W) (ix2 0 j)).trans ?_
  generalize hP : stProto (sumArr W) (cntArr W) = P
  generalize hR : Host.reduceAdd (F := Ideal) (mulf P P) (constant (F := Ideal) S_ .f32 0x00000000#32) reducesTo_S64x32_S64_d1 h_S_ = R
  refine (transpose_ix2_apply (broadcastInDim S64x1 ![0] bcast_S64_S64x1_0 R) transposes_S64x1_S1x64_1_0 (0 : Fin 1) j).trans ?_
  refine (broadcastInDim_apply _ bcast_S64_S64x1_0 R (ix2 j 0) (ix1 j) (fun a => match a with
    | ⟨0, _⟩ => by show j.val = if (64 : Nat) = 1 then 0 else j.val; rw [if_neg (by decide)])).trans ?_
  subst hR
  refine (rowSq_apply P j).trans ?_
  subst hP
  refine Finset.sum_congr rfl fun k _ => ?_
  rw [stProto_apply]
  rfl

/-- A host stretch leaves the arrays it does not write as they were. -/
theorem after0_of (W : Valuation τ sig (Elt Ideal)) (r : Ref sig .tc) (h : r ∉ hostOps0_W) :
    StableHlo.after (hostOps0 (F := Ideal)) W (Proc.devRef .tc r) = W (Proc.devRef .tc r) :=
  StableHlo.after_of_writes_sub hostOps0 _ hostOps0_writes h

theorem after1_of (W : Valuation τ sig (Elt Ideal)) (r : Ref sig .tc) (h : r ∉ hostOps1_W) :
    StableHlo.after (hostOps1 (F := Ideal)) W (Proc.devRef .tc r) = W (Proc.devRef .tc r) :=
  StableHlo.after_of_writes_sub hostOps1 _ hostOps1_writes h

end Cert.HostMid
end
-- ==== Proof.SpecLaws.lean ====
import proofs.«407301_j76149770158544_3_alg».proof.Proof.Spec
import Mathlib.Data.EReal.Operations
import Mathlib.Algebra.BigOperators.Fin

noncomputable section

namespace Cert.Spec

open Idealize.ShloMosaic

theorem wTwo_eq : wTwo = ((2 : ℝ) : EReal) := by
  simp [Ideal.ofBits, Ideal.ieee, -EReal.coe_mul]; norm_num

theorem wTwo_nonneg : (0 : EReal) ≤ wTwo := by
  rw [wTwo_eq]; exact EReal.coe_nonneg.mpr (by norm_num)

theorem wTwo_ne_top : wTwo ≠ ⊤ := by
  rw [wTwo_eq]; exact EReal.coe_ne_top _

/-- A nonnegative finite scalar distributes over a finite sum of extended reals. -/
theorem mul_sum_of_nonneg_of_ne_top {ι : Type*} (s : Finset ι) {c : EReal} (hc : 0 ≤ c) (hc' : c ≠ ⊤)
    (f : ι → EReal) : c * ∑ i ∈ s, f i = ∑ i ∈ s, c * f i := by
  classical
  induction s using Finset.induction_on with
  | empty => simp
  | insert a s ha ih =>
    rw [Finset.sum_insert ha, Finset.sum_insert ha, EReal.left_distrib_of_nonneg_of_ne_top hc hc', ih]

theorem two_mul_sum (q p : Fin 32 → EReal) :
    wTwo * ∑ k : Fin 32, q k * p k = ∑ k : Fin 32, (wTwo * q k) * p k := by
  rw [mul_sum_of_nonneg_of_ne_top _ wTwo_nonneg wTwo_ne_top]
  exact Finset.sum_congr rfl fun k _ => (mul_assoc _ _ _).symm

end Cert.Spec

end
-- ==== Proof.KValueMath.lean ====
import proofs.«407301_j76149770158544_3_alg».proof.Proof.Spec
import proofs.«407301_j76149770158544_3_alg».proof.Proof.SpecArr
import proofs.«407301_j76149770158544_3_alg».proof.Proof.SpecLaws

noncomputable section

namespace Cert.KValue

open Idealize.ShloMosaic Idealize.ShloMosaic.ValueIdx Cert.Spec

theorem result_of_parts (P : Params) (Xs : (⟨2, ![32768, 768]⟩ : Shape).Idx → EReal)
    (lab : (⟨1, ![32768]⟩ : Shape).Idx → BitVec 32) (Xq : (⟨2, ![65536, 768]⟩ : Shape).Idx → EReal)
    (sums : Fin 64 → Fin 32 → EReal) (counts : Fin 64 → EReal)
    (hs : ∀ s k, sums s k = classSum (fun r => rowEmb P (rowOf Xs r)) (labOf lab) s k)
    (hc : ∀ s, counts s = classCount (labOf lab) s)
    (pt : (⟨2, ![32, 64]⟩ : Shape).Idx → EReal) (psq : (⟨2, ![1, 64]⟩ : Shape).Idx → EReal)
    (hpt : ∀ (k : Fin 32) (j : Fin 64), pt (ix2 k j) = proto sums counts j k)
    (hpsq : ∀ j : Fin 64, psq (ix2 0 j) = ∑ k : Fin 32, proto sums counts j k * proto sums counts j k)
    (p : Fin 65536) (j : Fin 64) :
    -(Ideal.sqrt (max (((∑ k : Fin 32, rowEmb P (rowOf Xq p) k * rowEmb P (rowOf Xq p) k) + psq (ix2 0 j))
        - wTwo * ∑ k : Fin 32, rowEmb P (rowOf Xq p) k * pt (ix2 k j)) 0))
      = resultArr Xs lab Xq P (ix2 p j) := by
  have es : sums = classSum (fun r => rowEmb P (rowOf Xs r)) (labOf lab) := funext fun s => funext fun k => hs s k
  have ec : counts = classCount (labOf lab) := funext fun s => hc s
  subst es ec
  rw [hpsq, two_mul_sum]
  simp only [hpt]
  rfl

end Cert.KValue

end
-- ==== Proof.KValueGlue.lean ====
import proofs.«407301_j76149770158544_3_alg».proof.Proof.HostMid
import proofs.«407301_j76149770158544_3_alg».proof.Proof.SpecArrT
import proofs.«407301_j76149770158544_3_alg».proof.Proof.KValueMath

noncomputable section

namespace Cert.KValue

open Cert.KernelIdeal Cert.KernelIdeal.Gen Cert.HostMid
open Idealize.ShloMosaic Idealize.ShloMosaic.TcCoe Idealize.SL.Sem Idealize.ShloMosaic.StableHlo
open Idealize.ShloMosaic.ValueIdx Cert.Spec

abbrev argParams (W0 : Valuation τ sig (Elt Ideal)) : Params :=
  paramsOf (W0 (Proc.devRef .tc main_arg3)) (W0 (Proc.devRef .tc main_arg4)) (W0 (Proc.devRef .tc main_arg5))
    (W0 (Proc.devRef .tc main_arg6)) (W0 (Proc.devRef .tc main_arg7)) (W0 (Proc.devRef .tc main_arg8))
    (W0 (Proc.devRef .tc main_arg9)) (W0 (Proc.devRef .tc main_arg10)) (W0 (Proc.devRef .tc main_arg11))
    (W0 (Proc.devRef .tc main_arg12)) (W0 (Proc.devRef .tc main_arg13)) (W0 (Proc.devRef .tc main_arg14))
    (W0 (Proc.devRef .tc main_arg15)) (W0 (Proc.devRef .tc main_arg16))

abbrev params1 (W0 : Valuation τ sig (Elt Ideal)) : Params :=
  paramsOfT (StableHlo.after (hostOps0 (F := Ideal)) W0 (Proc.devRef .tc main_v1))
    (StableHlo.after (hostOps0 (F := Ideal)) W0 (Proc.devRef .tc main_arg4))
    (StableHlo.after (hostOps0 (F := Ideal)) W0 (Proc.devRef .tc main_arg5))
    (StableHlo.after (hostOps0 (F := Ideal)) W0 (Proc.devRef .tc main_arg6))
    (StableHlo.after (hostOps0 (F := Ideal)) W0 (Proc.devRef .tc main_v3))
    (StableHlo.after (hostOps0 (F := Ideal)) W0 (Proc.devRef .tc main_arg8))
    (StableHlo.after (hostOps0 (F := Ideal)) W0 (Proc.devRef .tc main_arg9))
    (StableHlo.after (hostOps0 (F := Ideal)) W0 (Proc.devRef .tc main_arg10))
    (StableHlo.after (hostOps0 (F := Ideal)) W0 (Proc.devRef .tc main_v5))
    (StableHlo.after (hostOps0 (F := Ideal)) W0 (Proc.devRef .tc main_arg12))
    (StableHlo.after (hostOps0 (F := Ideal)) W0 (Proc.devRef .tc main_arg13))
    (StableHlo.after (hostOps0 (F := Ideal)) W0 (Proc.devRef .tc main_arg14))
    (StableHlo.after (hostOps0 (F := Ideal)) W0 (Proc.devRef .tc main_v7))
    (StableHlo.after (hostOps0 (F := Ideal)) W0 (Proc.devRef .tc main_arg16))

abbrev params3 (W2 : Valuation τ sig (Elt Ideal)) : Params :=
  paramsOfT (StableHlo.after (hostOps1 (F := Ideal)) W2 (Proc.devRef .tc main_v1))
    (StableHlo.after (hostOps1 (F := Ideal)) W2 (Proc.devRef .tc main_arg4))
    (StableHlo.after (hostOps1 (F := Ideal)) W2 (Proc.devRef .tc main_arg5))
    (StableHlo.after (hostOps1 (F := Ideal)) W2 (Proc.devRef .tc main_arg6))
    (StableHlo.after (hostOps1 (F := Ideal)) W2 (Proc.devRef .tc main_v3))
    (StableHlo.after (hostOps1 (F := Ideal)) W2 (Proc.devRef .tc main_arg8))
    (StableHlo.after (hostOps1 (F := Ideal)) W2 (Proc.devRef .tc main_arg9))
    (StableHlo.after (hostOps1 (F := Ideal)) W2 (Proc.devRef .tc main_arg10))
    (StableHlo.after (hostOps1 (F := Ideal)) W2 (Proc.devRef .tc main_v5))
    (StableHlo.after (hostOps1 (F := Ideal)) W2 (Proc.devRef .tc main_arg12))
    (StableHlo.after (hostOps1 (F := Ideal)) W2 (Proc.devRef .tc main_arg13))
    (StableHlo.after (hostOps1 (F := Ideal)) W2 (Proc.devRef .tc main_arg14))
    (StableHlo.after (hostOps1 (F := Ideal)) W2 (Proc.devRef .tc main_v7))
    (StableHlo.after (hostOps1 (F := Ideal)) W2 (Proc.devRef .tc main_arg16))

abbrev emb3 (W2 : Valuation τ sig (Elt Ideal)) (p : Fin 65536) : Fin 32 → EReal :=
  rowEmb (params3 W2) (fun t => StableHlo.after (hostOps1 (F := Ideal)) W2 (Proc.devRef .tc main_arg2) (ix2 p t))

/-- The first host stretch transposes the four weight matrices and leaves the other parameters alone. -/
theorem params_after0 (W0 : Valuation τ sig (Elt Ideal)) : params1 W0 = argParams W0 := by
  unfold params1
  simp (disch := decide) only [after0_of W0]
  exact paramsOfT_eq _ _ _ _ _ _ _ _ _ _ _ _ _ _ _ _ _ _ (pre_v1 W0) (pre_v3 W0) (pre_v5 W0) (pre_v7 W0)

theorem emb1_eq (W0 : Valuation τ sig (Elt Ideal)) (R : Fin 32768) :
    rowEmb (params1 W0) (rowOf (StableHlo.after (hostOps0 (F := Ideal)) W0 (Proc.devRef .tc main_arg0)) R)
      = rowEmb (argParams W0) (rowOf (W0 (Proc.devRef .tc main_arg0)) R) := by
  rw [params_after0 W0, after0_of W0 main_arg0 (by decide)]

theorem lab1_eq (W0 : Valuation τ sig (Elt Ideal)) :
    StableHlo.after (hostOps0 (F := Ideal)) W0 (Proc.devRef .tc main_arg1) = W0 (Proc.devRef .tc main_arg1) :=
  after0_of W0 main_arg1 (by decide)

section Keep
variable (W0 W2 : Valuation τ sig (Elt Ideal))
    (keep : ∀ b : Ref sig .tc, b ≠ main_v8_0 → b ≠ main_v8_1 →
      W2 (Proc.devRef .tc b) = StableHlo.after (hostOps0 (F := Ideal)) W0 (Proc.devRef .tc b))
include keep

/-- What the second host stretch does not write is still what the first one left. -/
theorem after1_keep (b : Ref sig .tc) (h1 : b ∉ hostOps1_W) (h16 : b ≠ main_v8_0) (h17 : b ≠ main_v8_1) :
    StableHlo.after (hostOps1 (F := Ideal)) W2 (Proc.devRef .tc b)
      = StableHlo.after (hostOps0 (F := Ideal)) W0 (Proc.devRef .tc b) :=
  (after1_of W2 b h1).trans (keep b h16 h17)

theorem params_after1 : params3 W2 = argParams W0 := by
  unfold params3
  simp (disch := decide) only [after1_keep W0 W2 keep]
  exact params_after0 W0

theorem query_after1 :
    StableHlo.after (hostOps1 (F := Ideal)) W2 (Proc.devRef .tc main_arg2) = W0 (Proc.devRef .tc main_arg2) :=
  (after1_keep W0 W2 keep main_arg2 (by decide) (by decide) (by decide)).trans (after0_of W0 main_arg2 (by decide))

theorem emb3_eq (p : Fin 65536) :
    emb3 W2 p = rowEmb (argParams W0) (rowOf (W0 (Proc.devRef .tc main_arg2)) p) := by
  unfold emb3
  rw [params_after1 W0 W2 keep, query_after1 W0 W2 keep]
  rfl

/-- From the values at the boundaries of the two kernels to the specification's result. -/
theorem value_of_boundaries (hs : ∀ (s : Fin 64) (k : Fin 32), sums W2 s k
      = classSum (fun R => rowEmb (argParams W0) (rowOf (W0 (Proc.devRef .tc main_arg0)) R))
          (labOf (W0 (Proc.devRef .tc main_arg1))) s k)
    (hc : ∀ s : Fin 64, counts W2 s = classCount (labOf (W0 (Proc.devRef .tc main_arg1))) s)
    (out : (⟨2, ![65536, 64]⟩ : Shape).Idx → EReal)
    (h29 : ∀ (p : Fin 65536) (j : Fin 64), out (ix2 p j)
      = -(Ideal.sqrt (max (((∑ k : Fin 32, emb3 W2 p k * emb3 W2 p k)
            + StableHlo.after (hostOps1 (F := Ideal)) W2 (Proc.devRef .tc main_v28) (ix2 0 j))
          - wTwo * ∑ k : Fin 32, emb3 W2 p k
              * StableHlo.after (hostOps1 (F := Ideal)) W2 (Proc.devRef .tc main_v24) (ix2 k j)) 0))) :
    out = resultArr (W0 (Proc.devRef .tc main_arg0)) (W0 (Proc.devRef .tc main_arg1)) (W0 (Proc.devRef .tc main_arg2))
      (argParams W0) := by
  funext i
  obtain ⟨p, j, rfl⟩ : ∃ (p : Fin 65536) (j : Fin 64), i = ix2 p j := ⟨i 0, i 1, eq_ix2 i⟩
  rw [h29 p j, emb3_eq W0 W2 keep p]
  exact result_of_parts (argParams W0) (W0 (Proc.devRef .tc main_arg0)) (W0 (Proc.devRef .tc main_arg1))
    (W0 (Proc.devRef .tc main_arg2)) (sums W2) (counts W2) hs hc
    (StableHlo.after (hostOps1 (F := Ideal)) W2 (Proc.devRef .tc main_v24))
    (StableHlo.after (hostOps1 (F := Ideal)) W2 (Proc.devRef .tc main_v28))
    (mid_v24 W2) (mid_v28 W2) p j

end Keep

end Cert.KValue

end
-- ==== Proof.KValue.lean ====
import proofs.«407301_j76149770158544_3_alg».proof.Proof.KRun
import proofs.«407301_j76149770158544_3_alg».proof.Proof.K0Final
import proofs.«407301_j76149770158544_3_alg».proof.Proof.K1Final
import proofs.«407301_j76149770158544_3_alg».proof.Proof.KValueGlue

noncomputable section

namespace Cert.KValue

open Cert.KernelIdeal Cert.KernelIdeal.Gen Cert.KernelIdeal.Hand Cert.HostMid
open Idealize.ShloMosaic Idealize.ShloMosaic.TcCoe Idealize.SL.Sem Idealize.ShloMosaic.StableHlo
open Idealize.ShloMosaic.ValueIdx Cert.Spec

variable (m : (ℓ : Loc nD τ sig) → Buf (Elt Ideal) ℓ) (ρ : Dev nD → PrngReg)

theorem emb0_eq (c : Dev nD) :
    Cert.K0Final.emb0 (Ve1 m ρ) c
      = fun R => rowEmb (argParams (Wb0 m ρ c)) (rowOf (Wb0 m ρ c (Proc.devRef .tc main_arg0)) R) :=
  funext fun R => emb1_eq (Wb0 m ρ c) R

theorem lab0_eq (c : Dev nD) :
    Cert.K0Final.lab0 (Ve1 m ρ) c = labOf (Wb0 m ρ c (Proc.devRef .tc main_arg1)) :=
  funext fun R => congrArg (fun l => labOf l R) (lab1_eq (Wb0 m ρ c))

theorem sums_Wb2 (c : Dev nD) (s : Fin 64) (k : Fin 32) :
    sums (Wb2 m ρ c) s k
      = classSum (fun R => rowEmb (argParams (Wb0 m ρ c)) (rowOf (Wb0 m ρ c (Proc.devRef .tc main_arg0)) R))
          (labOf (Wb0 m ρ c (Proc.devRef .tc main_arg1))) s k := by
  have h := Cert.K0Final.sums0_halves (Ve1 m ρ) c s k
  rw [emb0_eq, lab0_eq] at h
  rw [sums_eq, show sumArr (Wb2 m ρ c) = Cert.K0Final.G16 (Ve1 m ρ) c from
    (Wb2_arr m ρ c 16).trans (Cert.K0Final.final0_16 (Ve1 m ρ) c)]
  exact h

theorem counts_Wb2 (c : Dev nD) (s : Fin 64) :
    counts (Wb2 m ρ c) s = classCount (labOf (Wb0 m ρ c (Proc.devRef .tc main_arg1))) s := by
  have h := Cert.K0Final.counts0_halves (Ve1 m ρ) c s
  rw [lab0_eq] at h
  rw [counts_eq, show cntArr (Wb2 m ρ c) = Cert.K0Final.G17 (Ve1 m ρ) c from
    (Wb2_arr m ρ c 17).trans (Cert.K0Final.final0_17 (Ve1 m ρ) c)]
  exact h

theorem kernel_result (c : Dev nD) :
    Wb4 (F := Ideal) m ρ c (Proc.devRef .tc main_v29)
      = resultArr (m ((c.tc : Thread nD τ).loc main_arg0)) (m ((c.tc : Thread nD τ).loc main_arg1)) (m ((c.tc : Thread nD τ).loc main_arg2))
          (paramsOf (m ((c.tc : Thread nD τ).loc main_arg3)) (m ((c.tc : Thread nD τ).loc main_arg4)) (m ((c.tc : Thread nD τ).loc main_arg5))
            (m ((c.tc : Thread nD τ).loc main_arg6)) (m ((c.tc : Thread nD τ).loc main_arg7)) (m ((c.tc : Thread nD τ).loc main_arg8))
            (m ((c.tc : Thread nD τ).loc main_arg9)) (m ((c.tc : Thread nD τ).loc main_arg10)) (m ((c.tc : Thread nD τ).loc main_arg11))
            (m ((c.tc : Thread nD τ).loc main_arg12)) (m ((c.tc : Thread nD τ).loc main_arg13)) (m ((c.tc : Thread nD τ).loc main_arg14))
            (m ((c.tc : Thread nD τ).loc main_arg15)) (m ((c.tc : Thread nD τ).loc main_arg16))) := by
  refine value_of_boundaries (Wb0 m ρ c) (Wb2 m ρ c) (fun b h16 h17 => Wb2_keep m ρ c b h16 h17)
    (sums_Wb2 m ρ c) (counts_Wb2 m ρ c) _ (fun p j => ?_)
  rw [show Wb4 m ρ c (Proc.devRef .tc main_v29) = (dat1 (Ve3 m ρ) c).arrAt 17 cfg1.N from Wb4_arr m ρ c 17]
  exact Cert.K1Final.final1_17_apply (Ve3 m ρ) c p j

end Cert.KValue

end
-- ==== Proof.RefRunA.lean ====
import proofs.«407301_j76149770158544_3_alg».proof.Proof.Gen.ReferenceIdeal
import Idealize.ShloMosaic.Lib.StableHlo.Run

noncomputable section

namespace Cert.RefRun

open Cert.ReferenceIdeal Cert.ReferenceIdeal.Gen Idealize.ShloMosaic Idealize.ShloMosaic.TcCoe Idealize.SL.Sem Idealize.ShloMosaic.StableHlo

variable {F : FTy → Type} [FloatOps F]

abbrev ops_part0 : List (HloOp τ sig (Elt F)) :=
  [ unary main_arg3 main_v0 (transpose S768x512 [1, 0] · transposes_S512x768_S768x512_1_0),
    binary main_arg0 main_v0 main_v1 (fun l r => Host.dotGeneral dot_S32768x768_S768x512_S32768x512_1_0_0_1_n_n none l r),
    unary main_arg4 main_v2 (broadcastInDim S1x512 ![1] bcast_S512_S1x512_1),
    unary main_v2 main_v3 (broadcastInDim S32768x512 ![0, 1] bcast_S1x512_S32768x512_0_1),
    binary main_v1 main_v3 main_v4 addf,
    nullary main_cst (constant S_ .f32 0x00000000#32),
    binary main_v4 main_cst main_v5 (fun x v => Host.reduceAdd x v reducesTo_S32768x512_S32768_d1 h_S_),
    unary main_v5 main_v6 (broadcastInDim S32768x1 ![0] bcast_S32768_S32768x1_0),
    nullary main_cst_0 (constant S_ .f32 0x44000000#32),
    unary main_cst_0 main_v7 (broadcastInDim S32768x1 ![] bcast_S_S32768x1),
    binary main_v6 main_v7 main_v8 Host.divf,
    unary main_v8 main_v9 (broadcastInDim S32768x512 ![0, 1] bcast_S32768x1_S32768x512_0_1),
    binary main_v4 main_v9 main_v10 subf,
    binary main_v10 main_v10 main_v11 mulf,
    nullary main_cst_1 (constant S_ .f32 0x00000000#32),
    binary main_v11 main_cst_1 main_v12 (fun x v => Host.reduceAdd x v reducesTo_S32768x512_S32768_d1 h_S_),
    unary main_v12 main_v13 (broadcastInDim S32768x1 ![0] bcast_S32768_S32768x1_0),
    nullary main_cst_2 (constant S_ .f32 0x44000000#32),
    unary main_cst_2 main_v14 (broadcastInDim S32768x1 ![] bcast_S_S32768x1),
    binary main_v13 main_v14 main_v15 Host.divf,
    unary main_v8 main_v16 (broadcastInDim S32768x512 ![0, 1] bcast_S32768x1_S32768x512_0_1),
    binary main_v4 main_v16 main_v17 subf,
    nullary main_cst_3 (constant S_ .f32 0x3727C5AC#32),
    unary main_cst_3 main_v18 (broadcastInDim S32768x1 ![] bcast_S_S32768x1),
    binary main_v15 main_v18 main_v19 addf,
    unary main_v19 main_v20 Host.rsqrt,
    unary main_v20 main_v21 (broadcastInDim S32768x512 ![0, 1] bcast_S32768x1_S32768x512_0_1),
    binary main_v17 main_v21 main_v22 mulf,
    unary main_arg5 main_v23 (broadcastInDim S1x512 ![1] bcast_S512_S1x512_1),
    unary main_v23 main_v24 (broadcastInDim S32768x512 ![0, 1] bcast_S1x512_S32768x512_0_1),
    binary main_v22 main_v24 main_v25 mulf,
    unary main_arg6 main_v26 (broadcastInDim S1x512 ![1] bcast_S512_S1x512_1),
    unary main_v26 main_v27 (broadcastInDim S32768x512 ![0, 1] bcast_S1x512_S32768x512_0_1),
    binary main_v25 main_v27 main_v28 addf,
    TRef.nullary (TRef.of (T := ⟨S_, .f32⟩) main_call0_cst) (constant S_ .f32 0x00000000#32),
    TRef.unary (TRef.of (T := ⟨S_, .f32⟩) main_call0_cst) (TRef.of (T := ⟨S32768x512, .f32⟩) main_call0_v0) (broadcastInDim S32768x512 ![] bcast_S_S32768x512),
    TRef.binary (TRef.of (T := ⟨S32768x512, .f32⟩) main_v28) (TRef.of (T := ⟨S32768x512, .f32⟩) main_call0_v0) (TRef.of (T := ⟨S32768x512, .f32⟩) main_v29) maximumf,
    unary main_arg7 main_v30 (transpose S512x512 [1, 0] · transposes_S512x512_S512x512_1_0),
    binary main_v29 main_v30 main_v31 (fun l r => Host.dotGeneral dot_S32768x512_S512x512_S32768x512_1_0_0_1_n_n none l r),
    unary main_arg8 main_v32 (broadcastInDim S1x512 ![1] bcast_S512_S1x512_1),
    unary main_v32 main_v33 (broadcastInDim S32768x512 ![0, 1] bcast_S1x512_S32768x512_0_1),
    binary main_v31 main_v33 main_v34 addf,
    nullary main_cst_4 (constant S_ .f32 0x00000000#32),
    binary main_v34 main_cst_4 main_v35 (fun x v => Host.reduceAdd x v reducesTo_S32768x512_S32768_d1 h_S_),
    unary main_v35 main_v36 (broadcastInDim S32768x1 ![0] bcast_S32768_S32768x1_0),
    nullary main_cst_5 (constant S_ .f32 0x44000000#32),
    unary main_cst_5 main_v37 (broadcastInDim S32768x1 ![] bcast_S_S32768x1),
    binary main_v36 main_v37 main_v38 Host.divf,
    unary main_v38 main_v39 (broadcastInDim S32768x512 ![0, 1] bcast_S32768x1_S32768x512_0_1),
    binary main_v34 main_v39 main_v40 subf,
    binary main_v40 main_v40 main_v41 mulf,
    nullary main_cst_6 (constant S_ .f32 0x00000000#32),
    binary main_v41 main_cst_6 main_v42 (fun x v => Host.reduceAdd x v reducesTo_S32768x512_S32768_d1 h_S_),
    unary main_v42 main_v43 (broadcastInDim S32768x1 ![0] bcast_S32768_S32768x1_0),
    nullary main_cst_7 (constant S_ .f32 0x44000000#32),
    unary main_cst_7 main_v44 (broadcastInDim S32768x1 ![] bcast_S_S32768x1),
    binary main_v43 main_v44 main_v45 Host.divf,
    unary main_v38 main_v46 (broadcastInDim S32768x512 ![0, 1] bcast_S32768x1_S32768x512_0_1),
    binary main_v34 main_v46 main_v47 subf,
    nullary main_cst_8 (constant S_ .f32 0x3727C5AC#32),
    unary main_cst_8 main_v48 (broadcastInDim S32768x1 ![] bcast_S_S32768x1),
    binary main_v45 main_v48 main_v49 addf ]

theorem main_part0_eq (c : Dev nD) : main_part0 (F := F) c = seq ops_part0 := rfl

theorem ops_part0_sub : (ops_part0 : List (HloOp τ sig (Elt F))).Forall fun op => op.bufs ⊆ tcRefs τ sig :=
  ⟨unary_bufs_sub .., binary_bufs_sub .., unary_bufs_sub .., unary_bufs_sub .., binary_bufs_sub .., nullary_bufs_sub .., binary_bufs_sub .., unary_bufs_sub .., nullary_bufs_sub .., unary_bufs_sub .., binary_bufs_sub .., unary_bufs_sub .., binary_bufs_sub .., binary_bufs_sub .., nullary_bufs_sub .., binary_bufs_sub .., unary_bufs_sub .., nullary_bufs_sub .., unary_bufs_sub .., binary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., unary_bufs_sub .., binary_bufs_sub .., unary_bufs_sub .., unary_bufs_sub .., binary_bufs_sub .., nullary_bufs_sub .., binary_bufs_sub .., unary_bufs_sub .., nullary_bufs_sub .., unary_bufs_sub .., binary_bufs_sub .., unary_bufs_sub .., binary_bufs_sub .., binary_bufs_sub .., nullary_bufs_sub .., binary_bufs_sub .., unary_bufs_sub .., nullary_bufs_sub .., unary_bufs_sub .., binary_bufs_sub .., unary_bufs_sub .., binary_bufs_sub .., nullary_bufs_sub .., unary_bufs_sub .., binary_bufs_sub ..⟩

theorem ops_part0_fresh : ∀ op ∈ (ops_part0 : List (HloOp τ sig (Elt F))), op.fresh = ∅ := by
  intro _ h; (repeat (cases h with | head => rfl | tail _ h => ?_)); exact nomatch h

abbrev ops_part0_W : List (Ref sig .tc) := [main_v0, main_v1, main_v2, main_v3, main_v4, main_cst, main_v5, main_v6, main_cst_0, main_v7, main_v8, main_v9, main_v10, main_v11, main_cst_1, main_v12, main_v13, main_cst_2, main_v14, main_v15, main_v16, main_v17, main_cst_3, main_v18, main_v19, main_v20, main_v21, main_v22, main_v23, main_v24, main_v25, main_v26, main_v27, main_v28, main_call0_cst, main_call0_v0, main_v29, main_v30, main_v31, main_v32, main_v33, main_v34, main_cst_4, main_v35, main_v36, main_cst_5, main_v37, main_v38, main_v39, main_v40, main_v41, main_cst_6, main_v42, main_v43, main_cst_7, main_v44, main_v45, main_v46, main_v47, main_cst_8, main_v48, main_v49]

theorem ops_part0_writes : (ops_part0 : List (HloOp τ sig (Elt F))).Forall fun op => op.writes ⊆ (ops_part0_W.map (Proc.devRef (τ := τ) .tc)).toFinset := by
  simp only [List.Forall]
  repeat' constructor
  all_goals exact Finset.singleton_subset_iff.mpr (List.mem_toFinset.mpr (List.mem_map_of_mem (by decide)))

theorem keep_part0 (V : Valuation τ sig (Elt F)) (r : Ref sig .tc) (h : r ∉ ops_part0_W) :
    after ops_part0 V (Proc.devRef .tc r) = V (Proc.devRef .tc r) :=
  after_of_writes_sub ops_part0 V ops_part0_writes h

end Cert.RefRun

end
-- ==== Proof.RefRunB.lean ====
import proofs.«407301_j76149770158544_3_alg».proof.Proof.Gen.ReferenceIdeal
import Idealize.ShloMosaic.Lib.StableHlo.Run

noncomputable section

namespace Cert.RefRun

open Cert.ReferenceIdeal Cert.ReferenceIdeal.Gen Idealize.ShloMosaic Idealize.ShloMosaic.TcCoe Idealize.SL.Sem Idealize.ShloMosaic.StableHlo

variable {F : FTy → Type} [FloatOps F]

abbrev ops_part1 : List (HloOp τ sig (Elt F)) :=
  [ unary main_v49 main_v50 Host.rsqrt,
    unary main_v50 main_v51 (broadcastInDim S32768x512 ![0, 1] bcast_S32768x1_S32768x512_0_1),
    binary main_v47 main_v51 main_v52 mulf,
    unary main_arg9 main_v53 (broadcastInDim S1x512 ![1] bcast_S512_S1x512_1),
    unary main_v53 main_v54 (broadcastInDim S32768x512 ![0, 1] bcast_S1x512_S32768x512_0_1),
    binary main_v52 main_v54 main_v55 mulf,
    unary main_arg10 main_v56 (broadcastInDim S1x512 ![1] bcast_S512_S1x512_1),
    unary main_v56 main_v57 (broadcastInDim S32768x512 ![0, 1] bcast_S1x512_S32768x512_0_1),
    binary main_v55 main_v57 main_v58 addf,
    TRef.nullary (TRef.of (T := ⟨S_, .f32⟩) main_call1_cst) (constant S_ .f32 0x00000000#32),
    TRef.unary (TRef.of (T := ⟨S_, .f32⟩) main_call1_cst) (TRef.of (T := ⟨S32768x512, .f32⟩) main_call1_v0) (broadcastInDim S32768x512 ![] bcast_S_S32768x512),
    TRef.binary (TRef.of (T := ⟨S32768x512, .f32⟩) main_v58) (TRef.of (T := ⟨S32768x512, .f32⟩) main_call1_v0) (TRef.of (T := ⟨S32768x512, .f32⟩) main_v59) maximumf,
    unary main_arg11 main_v60 (transpose S512x128 [1, 0] · transposes_S128x512_S512x128_1_0),
    binary main_v59 main_v60 main_v61 (fun l r => Host.dotGeneral dot_S32768x512_S512x128_S32768x128_1_0_0_1_n_n none l r),
    unary main_arg12 main_v62 (broadcastInDim S1x128 ![1] bcast_S128_S1x128_1),
    unary main_v62 main_v63 (broadcastInDim S32768x128 ![0, 1] bcast_S1x128_S32768x128_0_1),
    binary main_v61 main_v63 main_v64 addf,
    nullary main_cst_9 (constant S_ .f32 0x00000000#32),
    binary main_v64 main_cst_9 main_v65 (fun x v => Host.reduceAdd x v reducesTo_S32768x128_S32768_d1 h_S_),
    unary main_v65 main_v66 (broadcastInDim S32768x1 ![0] bcast_S32768_S32768x1_0),
    nullary main_cst_10 (constant S_ .f32 0x43000000#32),
    unary main_cst_10 main_v67 (broadcastInDim S32768x1 ![] bcast_S_S32768x1),
    binary main_v66 main_v67 main_v68 Host.divf,
    unary main_v68 main_v69 (broadcastInDim S32768x128 ![0, 1] bcast_S32768x1_S32768x128_0_1),
    binary main_v64 main_v69 main_v70 subf,
    binary main_v70 main_v70 main_v71 mulf,
    nullary main_cst_11 (constant S_ .f32 0x00000000#32),
    binary main_v71 main_cst_11 main_v72 (fun x v => Host.reduceAdd x v reducesTo_S32768x128_S32768_d1 h_S_),
    unary main_v72 main_v73 (broadcastInDim S32768x1 ![0] bcast_S32768_S32768x1_0),
    nullary main_cst_12 (constant S_ .f32 0x43000000#32),
    unary main_cst_12 main_v74 (broadcastInDim S32768x1 ![] bcast_S_S32768x1),
    binary main_v73 main_v74 main_v75 Host.divf,
    unary main_v68 main_v76 (broadcastInDim S32768x128 ![0, 1] bcast_S32768x1_S32768x128_0_1),
    binary main_v64 main_v76 main_v77 subf,
    nullary main_cst_13 (constant S_ .f32 0x3727C5AC#32),
    unary main_cst_13 main_v78 (broadcastInDim S32768x1 ![] bcast_S_S32768x1),
    binary main_v75 main_v78 main_v79 addf,
    unary main_v79 main_v80 Host.rsqrt,
    unary main_v80 main_v81 (broadcastInDim S32768x128 ![0, 1] bcast_S32768x1_S32768x128_0_1),
    binary main_v77 main_v81 main_v82 mulf,
    unary main_arg13 main_v83 (broadcastInDim S1x128 ![1] bcast_S128_S1x128_1),
    unary main_v83 main_v84 (broadcastInDim S32768x128 ![0, 1] bcast_S1x128_S32768x128_0_1),
    binary main_v82 main_v84 main_v85 mulf,
    unary main_arg14 main_v86 (broadcastInDim S1x128 ![1] bcast_S128_S1x128_1),
    unary main_v86 main_v87 (broadcastInDim S32768x128 ![0, 1] bcast_S1x128_S32768x128_0_1),
    binary main_v85 main_v87 main_v88 addf,
    TRef.nullary (TRef.of (T := ⟨S_, .f32⟩) main_call2_cst) (constant S_ .f32 0x00000000#32),
    TRef.unary (TRef.of (T := ⟨S_, .f32⟩) main_call2_cst) (TRef.of (T := ⟨S32768x128, .f32⟩) main_call2_v0) (broadcastInDim S32768x128 ![] bcast_S_S32768x128),
    TRef.binary (TRef.of (T := ⟨S32768x128, .f32⟩) main_v88) (TRef.of (T := ⟨S32768x128, .f32⟩) main_call2_v0) (TRef.of (T := ⟨S32768x128, .f32⟩) main_v89) maximumf,
    unary main_arg15 main_v90 (transpose S128x32 [1, 0] · transposes_S32x128_S128x32_1_0),
    binary main_v89 main_v90 main_v91 (fun l r => Host.dotGeneral dot_S32768x128_S128x32_S32768x32_1_0_0_1_n_n none l r),
    unary main_arg16 main_v92 (broadcastInDim S1x32 ![1] bcast_S32_S1x32_1),
    unary main_v92 main_v93 (broadcastInDim S32768x32 ![0, 1] bcast_S1x32_S32768x32_0_1),
    binary main_v91 main_v93 main_v94 addf,
    unary main_arg3 main_v95 (transpose S768x512 [1, 0] · transposes_S512x768_S768x512_1_0),
    binary main_arg2 main_v95 main_v96 (fun l r => Host.dotGeneral dot_S65536x768_S768x512_S65536x512_1_0_0_1_n_n none l r),
    unary main_arg4 main_v97 (broadcastInDim S1x512 ![1] bcast_S512_S1x512_1),
    unary main_v97 main_v98 (broadcastInDim S65536x512 ![0, 1] bcast_S1x512_S65536x512_0_1),
    binary main_v96 main_v98 main_v99 addf,
    nullary main_cst_14 (constant S_ .f32 0x00000000#32),
    binary main_v99 main_cst_14 main_v100 (fun x v => Host.reduceAdd x v reducesTo_S65536x512_S65536_d1 h_S_),
    unary main_v100 main_v101 (broadcastInDim S65536x1 ![0] bcast_S65536_S65536x1_0),
    nullary main_cst_15 (constant S_ .f32 0x44000000#32),
    unary main_cst_15 main_v102 (broadcastInDim S65536x1 ![] bcast_S_S65536x1) ]

theorem main_part1_eq (c : Dev nD) : main_part1 (F := F) c = seq ops_part1 := rfl

theorem ops_part1_sub : (ops_part1 : List (HloOp τ sig (Elt F))).Forall fun op => op.bufs ⊆ tcRefs τ sig :=
  ⟨unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., unary_bufs_sub .., binary_bufs_sub .., unary_bufs_sub .., unary_bufs_sub .., binary_bufs_sub .., nullary_bufs_sub .., binary_bufs_sub .., unary_bufs_sub .., nullary_bufs_sub .., unary_bufs_sub .., binary_bufs_sub .., unary_bufs_sub .., binary_bufs_sub .., binary_bufs_sub .., nullary_bufs_sub .., binary_bufs_sub .., unary_bufs_sub .., nullary_bufs_sub .., unary_bufs_sub .., binary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., unary_bufs_sub .., binary_bufs_sub .., unary_bufs_sub .., unary_bufs_sub .., binary_bufs_sub .., unary_bufs_sub .., binary_bufs_sub .., unary_bufs_sub .., unary_bufs_sub .., binary_bufs_sub .., nullary_bufs_sub .., binary_bufs_sub .., unary_bufs_sub .., nullary_bufs_sub .., unary_bufs_sub ..⟩

theorem ops_part1_fresh : ∀ op ∈ (ops_part1 : List (HloOp τ sig (Elt F))), op.fresh = ∅ := by
  intro _ h; (repeat (cases h with | head => rfl | tail _ h => ?_)); exact nomatch h

abbrev ops_part1_W : List (Ref sig .tc) := [main_v50, main_v51, main_v52, main_v53, main_v54, main_v55, main_v56, main_v57, main_v58, main_call1_cst, main_call1_v0, main_v59, main_v60, main_v61, main_v62, main_v63, main_v64, main_cst_9, main_v65, main_v66, main_cst_10, main_v67, main_v68, main_v69, main_v70, main_v71, main_cst_11, main_v72, main_v73, main_cst_12, main_v74, main_v75, main_v76, main_v77, main_cst_13, main_v78, main_v79, main_v80, main_v81, main_v82, main_v83, main_v84, main_v85, main_v86, main_v87, main_v88, main_call2_cst, main_call2_v0, main_v89, main_v90, main_v91, main_v92, main_v93, main_v94, main_v95, main_v96, main_v97, main_v98, main_v99, main_cst_14, main_v100, main_v101, main_cst_15, main_v102]

theorem ops_part1_writes : (ops_part1 : List (HloOp τ sig (Elt F))).Forall fun op => op.writes ⊆ (ops_part1_W.map (Proc.devRef (τ := τ) .tc)).toFinset := by
  simp only [List.Forall]
  repeat' constructor
  all_goals exact Finset.singleton_subset_iff.mpr (List.mem_toFinset.mpr (List.mem_map_of_mem (by decide)))

theorem keep_part1 (V : Valuation τ sig (Elt F)) (r : Ref sig .tc) (h : r ∉ ops_part1_W) :
    after ops_part1 V (Proc.devRef .tc r) = V (Proc.devRef .tc r) :=
  after_of_writes_sub ops_part1 V ops_part1_writes h

end Cert.RefRun

end
-- ==== Proof.RefRunC.lean ====
import proofs.«407301_j76149770158544_3_alg».proof.Proof.Gen.ReferenceIdeal
import Idealize.ShloMosaic.Lib.StableHlo.Run

noncomputable section

namespace Cert.RefRun

open Cert.ReferenceIdeal Cert.ReferenceIdeal.Gen Idealize.ShloMosaic Idealize.ShloMosaic.TcCoe Idealize.SL.Sem Idealize.ShloMosaic.StableHlo

variable {F : FTy → Type} [FloatOps F]

abbrev ops_part2 : List (HloOp τ sig (Elt F)) :=
  [ binary main_v101 main_v102 main_v103 Host.divf,
    unary main_v103 main_v104 (broadcastInDim S65536x512 ![0, 1] bcast_S65536x1_S65536x512_0_1),
    binary main_v99 main_v104 main_v105 subf,
    binary main_v105 main_v105 main_v106 mulf,
    nullary main_cst_16 (constant S_ .f32 0x00000000#32),
    binary main_v106 main_cst_16 main_v107 (fun x v => Host.reduceAdd x v reducesTo_S65536x512_S65536_d1 h_S_),
    unary main_v107 main_v108 (broadcastInDim S65536x1 ![0] bcast_S65536_S65536x1_0),
    nullary main_cst_17 (constant S_ .f32 0x44000000#32),
    unary main_cst_17 main_v109 (broadcastInDim S65536x1 ![] bcast_S_S65536x1),
    binary main_v108 main_v109 main_v110 Host.divf,
    unary main_v103 main_v111 (broadcastInDim S65536x512 ![0, 1] bcast_S65536x1_S65536x512_0_1),
    binary main_v99 main_v111 main_v112 subf,
    nullary main_cst_18 (constant S_ .f32 0x3727C5AC#32),
    unary main_cst_18 main_v113 (broadcastInDim S65536x1 ![] bcast_S_S65536x1),
    binary main_v110 main_v113 main_v114 addf,
    unary main_v114 main_v115 Host.rsqrt,
    unary main_v115 main_v116 (broadcastInDim S65536x512 ![0, 1] bcast_S65536x1_S65536x512_0_1),
    binary main_v112 main_v116 main_v117 mulf,
    unary main_arg5 main_v118 (broadcastInDim S1x512 ![1] bcast_S512_S1x512_1),
    unary main_v118 main_v119 (broadcastInDim S65536x512 ![0, 1] bcast_S1x512_S65536x512_0_1),
    binary main_v117 main_v119 main_v120 mulf,
    unary main_arg6 main_v121 (broadcastInDim S1x512 ![1] bcast_S512_S1x512_1),
    unary main_v121 main_v122 (broadcastInDim S65536x512 ![0, 1] bcast_S1x512_S65536x512_0_1),
    binary main_v120 main_v122 main_v123 addf,
    TRef.nullary (TRef.of (T := ⟨S_, .f32⟩) main_call3_cst) (constant S_ .f32 0x00000000#32),
    TRef.unary (TRef.of (T := ⟨S_, .f32⟩) main_call3_cst) (TRef.of (T := ⟨S65536x512, .f32⟩) main_call3_v0) (broadcastInDim S65536x512 ![] bcast_S_S65536x512),
    TRef.binary (TRef.of (T := ⟨S65536x512, .f32⟩) main_v123) (TRef.of (T := ⟨S65536x512, .f32⟩) main_call3_v0) (TRef.of (T := ⟨S65536x512, .f32⟩) main_v124) maximumf,
    unary main_arg7 main_v125 (transpose S512x512 [1, 0] · transposes_S512x512_S512x512_1_0),
    binary main_v124 main_v125 main_v126 (fun l r => Host.dotGeneral dot_S65536x512_S512x512_S65536x512_1_0_0_1_n_n none l r),
    unary main_arg8 main_v127 (broadcastInDim S1x512 ![1] bcast_S512_S1x512_1),
    unary main_v127 main_v128 (broadcastInDim S65536x512 ![0, 1] bcast_S1x512_S65536x512_0_1),
    binary main_v126 main_v128 main_v129 addf,
    nullary main_cst_19 (constant S_ .f32 0x00000000#32),
    binary main_v129 main_cst_19 main_v130 (fun x v => Host.reduceAdd x v reducesTo_S65536x512_S65536_d1 h_S_),
    unary main_v130 main_v131 (broadcastInDim S65536x1 ![0] bcast_S65536_S65536x1_0),
    nullary main_cst_20 (constant S_ .f32 0x44000000#32),
    unary main_cst_20 main_v132 (broadcastInDim S65536x1 ![] bcast_S_S65536x1),
    binary main_v131 main_v132 main_v133 Host.divf,
    unary main_v133 main_v134 (broadcastInDim S65536x512 ![0, 1] bcast_S65536x1_S65536x512_0_1),
    binary main_v129 main_v134 main_v135 subf,
    binary main_v135 main_v135 main_v136 mulf,
    nullary main_cst_21 (constant S_ .f32 0x00000000#32),
    binary main_v136 main_cst_21 main_v137 (fun x v => Host.reduceAdd x v reducesTo_S65536x512_S65536_d1 h_S_),
    unary main_v137 main_v138 (broadcastInDim S65536x1 ![0] bcast_S65536_S65536x1_0),
    nullary main_cst_22 (constant S_ .f32 0x44000000#32),
    unary main_cst_22 main_v139 (broadcastInDim S65536x1 ![] bcast_S_S65536x1),
    binary main_v138 main_v139 main_v140 Host.divf,
    unary main_v133 main_v141 (broadcastInDim S65536x512 ![0, 1] bcast_S65536x1_S65536x512_0_1),
    binary main_v129 main_v141 main_v142 subf,
    nullary main_cst_23 (constant S_ .f32 0x3727C5AC#32),
    unary main_cst_23 main_v143 (broadcastInDim S65536x1 ![] bcast_S_S65536x1),
    binary main_v140 main_v143 main_v144 addf,
    unary main_v144 main_v145 Host.rsqrt,
    unary main_v145 main_v146 (broadcastInDim S65536x512 ![0, 1] bcast_S65536x1_S65536x512_0_1),
    binary main_v142 main_v146 main_v147 mulf,
    unary main_arg9 main_v148 (broadcastInDim S1x512 ![1] bcast_S512_S1x512_1),
    unary main_v148 main_v149 (broadcastInDim S65536x512 ![0, 1] bcast_S1x512_S65536x512_0_1),
    binary main_v147 main_v149 main_v150 mulf,
    unary main_arg10 main_v151 (broadcastInDim S1x512 ![1] bcast_S512_S1x512_1),
    unary main_v151 main_v152 (broadcastInDim S65536x512 ![0, 1] bcast_S1x512_S65536x512_0_1),
    binary main_v150 main_v152 main_v153 addf,
    TRef.nullary (TRef.of (T := ⟨S_, .f32⟩) main_call4_cst) (constant S_ .f32 0x00000000#32),
    TRef.unary (TRef.of (T := ⟨S_, .f32⟩) main_call4_cst) (TRef.of (T := ⟨S65536x512, .f32⟩) main_call4_v0) (broadcastInDim S65536x512 ![] bcast_S_S65536x512),
    TRef.binary (TRef.of (T := ⟨S65536x512, .f32⟩) main_v153) (TRef.of (T := ⟨S65536x512, .f32⟩) main_call4_v0) (TRef.of (T := ⟨S65536x512, .f32⟩) main_v154) maximumf ]

theorem main_part2_eq (c : Dev nD) : main_part2 (F := F) c = seq ops_part2 := rfl

theorem ops_part2_sub : (ops_part2 : List (HloOp τ sig (Elt F))).Forall fun op => op.bufs ⊆ tcRefs τ sig :=
  ⟨binary_bufs_sub .., unary_bufs_sub .., binary_bufs_sub .., binary_bufs_sub .., nullary_bufs_sub .., binary_bufs_sub .., unary_bufs_sub .., nullary_bufs_sub .., unary_bufs_sub .., binary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., unary_bufs_sub .., binary_bufs_sub .., unary_bufs_sub .., unary_bufs_sub .., binary_bufs_sub .., nullary_bufs_sub .., binary_bufs_sub .., unary_bufs_sub .., nullary_bufs_sub .., unary_bufs_sub .., binary_bufs_sub .., unary_bufs_sub .., binary_bufs_sub .., binary_bufs_sub .., nullary_bufs_sub .., binary_bufs_sub .., unary_bufs_sub .., nullary_bufs_sub .., unary_bufs_sub .., binary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub ..⟩

theorem ops_part2_fresh : ∀ op ∈ (ops_part2 : List (HloOp τ sig (Elt F))), op.fresh = ∅ := by
  intro _ h; (repeat (cases h with | head => rfl | tail _ h => ?_)); exact nomatch h

abbrev ops_part2_W : List (Ref sig .tc) := [main_v103, main_v104, main_v105, main_v106, main_cst_16, main_v107, main_v108, main_cst_17, main_v109, main_v110, main_v111, main_v112, main_cst_18, main_v113, main_v114, main_v115, main_v116, main_v117, main_v118, main_v119, main_v120, main_v121, main_v122, main_v123, main_call3_cst, main_call3_v0, main_v124, main_v125, main_v126, main_v127, main_v128, main_v129, main_cst_19, main_v130, main_v131, main_cst_20, main_v132, main_v133, main_v134, main_v135, main_v136, main_cst_21, main_v137, main_v138, main_cst_22, main_v139, main_v140, main_v141, main_v142, main_cst_23, main_v143, main_v144, main_v145, main_v146, main_v147, main_v148, main_v149, main_v150, main_v151, main_v152, main_v153, main_call4_cst, main_call4_v0, main_v154]

theorem ops_part2_writes : (ops_part2 : List (HloOp τ sig (Elt F))).Forall fun op => op.writes ⊆ (ops_part2_W.map (Proc.devRef (τ := τ) .tc)).toFinset := by
  simp only [List.Forall]
  repeat' constructor
  all_goals exact Finset.singleton_subset_iff.mpr (List.mem_toFinset.mpr (List.mem_map_of_mem (by decide)))

theorem keep_part2 (V : Valuation τ sig (Elt F)) (r : Ref sig .tc) (h : r ∉ ops_part2_W) :
    after ops_part2 V (Proc.devRef .tc r) = V (Proc.devRef .tc r) :=
  after_of_writes_sub ops_part2 V ops_part2_writes h

end Cert.RefRun

end
-- ==== Proof.RefRunD.lean ====
import proofs.«407301_j76149770158544_3_alg».proof.Proof.Gen.ReferenceIdeal
import Idealize.ShloMosaic.Lib.StableHlo.Run

noncomputable section

namespace Cert.RefRun

open Cert.ReferenceIdeal Cert.ReferenceIdeal.Gen Idealize.ShloMosaic Idealize.ShloMosaic.TcCoe Idealize.SL.Sem Idealize.ShloMosaic.StableHlo

variable {F : FTy → Type} [FloatOps F]

abbrev ops_part3 : List (HloOp τ sig (Elt F)) :=
  [ unary main_arg11 main_v155 (transpose S512x128 [1, 0] · transposes_S128x512_S512x128_1_0),
    binary main_v154 main_v155 main_v156 (fun l r => Host.dotGeneral dot_S65536x512_S512x128_S65536x128_1_0_0_1_n_n none l r),
    unary main_arg12 main_v157 (broadcastInDim S1x128 ![1] bcast_S128_S1x128_1),
    unary main_v157 main_v158 (broadcastInDim S65536x128 ![0, 1] bcast_S1x128_S65536x128_0_1),
    binary main_v156 main_v158 main_v159 addf,
    nullary main_cst_24 (constant S_ .f32 0x00000000#32),
    binary main_v159 main_cst_24 main_v160 (fun x v => Host.reduceAdd x v reducesTo_S65536x128_S65536_d1 h_S_),
    unary main_v160 main_v161 (broadcastInDim S65536x1 ![0] bcast_S65536_S65536x1_0),
    nullary main_cst_25 (constant S_ .f32 0x43000000#32),
    unary main_cst_25 main_v162 (broadcastInDim S65536x1 ![] bcast_S_S65536x1),
    binary main_v161 main_v162 main_v163 Host.divf,
    unary main_v163 main_v164 (broadcastInDim S65536x128 ![0, 1] bcast_S65536x1_S65536x128_0_1),
    binary main_v159 main_v164 main_v165 subf,
    binary main_v165 main_v165 main_v166 mulf,
    nullary main_cst_26 (constant S_ .f32 0x00000000#32),
    binary main_v166 main_cst_26 main_v167 (fun x v => Host.reduceAdd x v reducesTo_S65536x128_S65536_d1 h_S_),
    unary main_v167 main_v168 (broadcastInDim S65536x1 ![0] bcast_S65536_S65536x1_0),
    nullary main_cst_27 (constant S_ .f32 0x43000000#32),
    unary main_cst_27 main_v169 (broadcastInDim S65536x1 ![] bcast_S_S65536x1),
    binary main_v168 main_v169 main_v170 Host.divf,
    unary main_v163 main_v171 (broadcastInDim S65536x128 ![0, 1] bcast_S65536x1_S65536x128_0_1),
    binary main_v159 main_v171 main_v172 subf,
    nullary main_cst_28 (constant S_ .f32 0x3727C5AC#32),
    unary main_cst_28 main_v173 (broadcastInDim S65536x1 ![] bcast_S_S65536x1),
    binary main_v170 main_v173 main_v174 addf,
    unary main_v174 main_v175 Host.rsqrt,
    unary main_v175 main_v176 (broadcastInDim S65536x128 ![0, 1] bcast_S65536x1_S65536x128_0_1),
    binary main_v172 main_v176 main_v177 mulf,
    unary main_arg13 main_v178 (broadcastInDim S1x128 ![1] bcast_S128_S1x128_1),
    unary main_v178 main_v179 (broadcastInDim S65536x128 ![0, 1] bcast_S1x128_S65536x128_0_1),
    binary main_v177 main_v179 main_v180 mulf,
    unary main_arg14 main_v181 (broadcastInDim S1x128 ![1] bcast_S128_S1x128_1),
    unary main_v181 main_v182 (broadcastInDim S65536x128 ![0, 1] bcast_S1x128_S65536x128_0_1),
    binary main_v180 main_v182 main_v183 addf,
    TRef.nullary (TRef.of (T := ⟨S_, .f32⟩) main_call5_cst) (constant S_ .f32 0x00000000#32),
    TRef.unary (TRef.of (T := ⟨S_, .f32⟩) main_call5_cst) (TRef.of (T := ⟨S65536x128, .f32⟩) main_call5_v0) (broadcastInDim S65536x128 ![] bcast_S_S65536x128),
    TRef.binary (TRef.of (T := ⟨S65536x128, .f32⟩) main_v183) (TRef.of (T := ⟨S65536x128, .f32⟩) main_call5_v0) (TRef.of (T := ⟨S65536x128, .f32⟩) main_v184) maximumf,
    unary main_arg15 main_v185 (transpose S128x32 [1, 0] · transposes_S32x128_S128x32_1_0),
    binary main_v184 main_v185 main_v186 (fun l r => Host.dotGeneral dot_S65536x128_S128x32_S65536x32_1_0_0_1_n_n none l r),
    unary main_arg16 main_v187 (broadcastInDim S1x32 ![1] bcast_S32_S1x32_1),
    unary main_v187 main_v188 (broadcastInDim S65536x32 ![0, 1] bcast_S1x32_S65536x32_0_1),
    binary main_v186 main_v188 main_v189 addf,
    nullary main_cst_29 (constant S_ .f32 0x00000000#32),
    unary main_cst_29 main_v190 (broadcastInDim S64x32 ![] bcast_S_S64x32),
    unary main_arg1 main_v191 (broadcastInDim S32768x1 ![0] bcast_S32768_S32768x1_0),
    ternary main_v190 main_v191 main_v94 main_v192 (fun x i u => Host.scatterAdd scatter_S64x32_S32768x1_S32768x32_1_0_0_1 x i u),
    nullary main_cst_30 (constant S_ .f32 0x3F800000#32),
    unary main_cst_30 main_v193 (broadcastInDim S32768 ![] bcast_S_S32768),
    nullary main_cst_31 (constant S_ .f32 0x00000000#32),
    unary main_cst_31 main_v194 (broadcastInDim S64 ![] bcast_S_S64),
    unary main_arg1 main_v195 (broadcastInDim S32768x1 ![0] bcast_S32768_S32768x1_0),
    ternary main_v194 main_v195 main_v193 main_v196 (fun x i u => Host.scatterAdd scatter_S64_S32768x1_S32768_n_0_0_1 x i u),
    nullary main_cst_32 (constant S_ .f32 0x3F800000#32),
    unary main_cst_32 main_v197 (broadcastInDim S64 ![] bcast_S_S64),
    binary main_v196 main_v197 main_v198 maximumf,
    unary main_v198 main_v199 (broadcastInDim S64x1 ![0] bcast_S64_S64x1_0),
    unary main_v199 main_v200 (broadcastInDim S64x32 ![0, 1] bcast_S64x1_S64x32_0_1),
    binary main_v192 main_v200 main_v201 Host.divf,
    binary main_v189 main_v189 main_v202 mulf,
    nullary main_cst_33 (constant S_ .f32 0x00000000#32),
    binary main_v202 main_cst_33 main_v203 (fun x v => Host.reduceAdd x v reducesTo_S65536x32_S65536_d1 h_S_),
    unary main_v203 main_v204 (broadcastInDim S65536x1 ![0] bcast_S65536_S65536x1_0) ]

theorem main_part3_eq (c : Dev nD) : main_part3 (F := F) c = seq ops_part3 := rfl

theorem ops_part3_sub : (ops_part3 : List (HloOp τ sig (Elt F))).Forall fun op => op.bufs ⊆ tcRefs τ sig :=
  ⟨unary_bufs_sub .., binary_bufs_sub .., unary_bufs_sub .., unary_bufs_sub .., binary_bufs_sub .., nullary_bufs_sub .., binary_bufs_sub .., unary_bufs_sub .., nullary_bufs_sub .., unary_bufs_sub .., binary_bufs_sub .., unary_bufs_sub .., binary_bufs_sub .., binary_bufs_sub .., nullary_bufs_sub .., binary_bufs_sub .., unary_bufs_sub .., nullary_bufs_sub .., unary_bufs_sub .., binary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., unary_bufs_sub .., binary_bufs_sub .., unary_bufs_sub .., unary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., unary_bufs_sub .., binary_bufs_sub .., binary_bufs_sub .., nullary_bufs_sub .., binary_bufs_sub .., unary_bufs_sub ..⟩

theorem ops_part3_fresh : ∀ op ∈ (ops_part3 : List (HloOp τ sig (Elt F))), op.fresh = ∅ := by
  intro _ h; (repeat (cases h with | head => rfl | tail _ h => ?_)); exact nomatch h

abbrev ops_part3_W : List (Ref sig .tc) := [main_v155, main_v156, main_v157, main_v158, main_v159, main_cst_24, main_v160, main_v161, main_cst_25, main_v162, main_v163, main_v164, main_v165, main_v166, main_cst_26, main_v167, main_v168, main_cst_27, main_v169, main_v170, main_v171, main_v172, main_cst_28, main_v173, main_v174, main_v175, main_v176, main_v177, main_v178, main_v179, main_v180, main_v181, main_v182, main_v183, main_call5_cst, main_call5_v0, main_v184, main_v185, main_v186, main_v187, main_v188, main_v189, main_cst_29, main_v190, main_v191, main_v192, main_cst_30, main_v193, main_cst_31, main_v194, main_v195, main_v196, main_cst_32, main_v197, main_v198, main_v199, main_v200, main_v201, main_v202, main_cst_33, main_v203, main_v204]

theorem ops_part3_writes : (ops_part3 : List (HloOp τ sig (Elt F))).Forall fun op => op.writes ⊆ (ops_part3_W.map (Proc.devRef (τ := τ) .tc)).toFinset := by
  simp only [List.Forall]
  repeat' constructor
  all_goals exact Finset.singleton_subset_iff.mpr (List.mem_toFinset.mpr (List.mem_map_of_mem (by decide)))

theorem keep_part3 (V : Valuation τ sig (Elt F)) (r : Ref sig .tc) (h : r ∉ ops_part3_W) :
    after ops_part3 V (Proc.devRef .tc r) = V (Proc.devRef .tc r) :=
  after_of_writes_sub ops_part3 V ops_part3_writes h

end Cert.RefRun

end
-- ==== Proof.RefRunE.lean ====
import proofs.«407301_j76149770158544_3_alg».proof.Proof.Gen.ReferenceIdeal
import Idealize.ShloMosaic.Lib.StableHlo.Run

noncomputable section

namespace Cert.RefRun

open Cert.ReferenceIdeal Cert.ReferenceIdeal.Gen Idealize.ShloMosaic Idealize.ShloMosaic.TcCoe Idealize.SL.Sem Idealize.ShloMosaic.StableHlo

variable {F : FTy → Type} [FloatOps F]

abbrev ops_part4 : List (HloOp τ sig (Elt F)) :=
  [ binary main_v201 main_v201 main_v205 mulf,
    nullary main_cst_34 (constant S_ .f32 0x00000000#32),
    binary main_v205 main_cst_34 main_v206 (fun x v => Host.reduceAdd x v reducesTo_S64x32_S64_d1 h_S_),
    unary main_v206 main_v207 (broadcastInDim S1x64 ![1] bcast_S64_S1x64_1),
    unary main_v204 main_v208 (broadcastInDim S65536x64 ![0, 1] bcast_S65536x1_S65536x64_0_1),
    unary main_v207 main_v209 (broadcastInDim S65536x64 ![0, 1] bcast_S1x64_S65536x64_0_1),
    binary main_v208 main_v209 main_v210 addf,
    nullary main_cst_35 (constant S_ .f32 0x40000000#32),
    unary main_cst_35 main_v211 (broadcastInDim S65536x32 ![] bcast_S_S65536x32),
    binary main_v211 main_v189 main_v212 mulf,
    unary main_v201 main_v213 (transpose S32x64 [1, 0] · transposes_S64x32_S32x64_1_0),
    binary main_v212 main_v213 main_v214 (fun l r => Host.dotGeneral dot_S65536x32_S32x64_S65536x64_1_0_0_1_n_n none l r),
    binary main_v210 main_v214 main_v215 subf,
    nullary main_cst_36 (constant S_ .f32 0x00000000#32),
    unary main_cst_36 main_v216 (broadcastInDim S65536x64 ![] bcast_S_S65536x64),
    binary main_v215 main_v216 main_v217 maximumf,
    unary main_v217 main_v218 Host.sqrt,
    unary main_v218 main_v219 Host.negf ]

theorem main_part4_eq (c : Dev nD) : main_part4 (F := F) c = seq ops_part4 := rfl

theorem ops_part4_sub : (ops_part4 : List (HloOp τ sig (Elt F))).Forall fun op => op.bufs ⊆ tcRefs τ sig :=
  ⟨binary_bufs_sub .., nullary_bufs_sub .., binary_bufs_sub .., unary_bufs_sub .., unary_bufs_sub .., unary_bufs_sub .., binary_bufs_sub .., nullary_bufs_sub .., unary_bufs_sub .., binary_bufs_sub .., unary_bufs_sub .., binary_bufs_sub .., binary_bufs_sub .., nullary_bufs_sub .., unary_bufs_sub .., binary_bufs_sub .., unary_bufs_sub .., unary_bufs_sub ..⟩

theorem ops_part4_fresh : ∀ op ∈ (ops_part4 : List (HloOp τ sig (Elt F))), op.fresh = ∅ := by
  intro _ h; (repeat (cases h with | head => rfl | tail _ h => ?_)); exact nomatch h

abbrev ops_part4_W : List (Ref sig .tc) := [main_v205, main_cst_34, main_v206, main_v207, main_v208, main_v209, main_v210, main_cst_35, main_v211, main_v212, main_v213, main_v214, main_v215, main_cst_36, main_v216, main_v217, main_v218, main_v219]

theorem ops_part4_writes : (ops_part4 : List (HloOp τ sig (Elt F))).Forall fun op => op.writes ⊆ (ops_part4_W.map (Proc.devRef (τ := τ) .tc)).toFinset := by
  simp only [List.Forall]
  repeat' constructor
  all_goals exact Finset.singleton_subset_iff.mpr (List.mem_toFinset.mpr (List.mem_map_of_mem (by decide)))

theorem keep_part4 (V : Valuation τ sig (Elt F)) (r : Ref sig .tc) (h : r ∉ ops_part4_W) :
    after ops_part4 V (Proc.devRef .tc r) = V (Proc.devRef .tc r) :=
  after_of_writes_sub ops_part4 V ops_part4_writes h

end Cert.RefRun

end
-- ==== Proof.RefRunAll.lean ====
import proofs.«407301_j76149770158544_3_alg».proof.Proof.RefRunA
import proofs.«407301_j76149770158544_3_alg».proof.Proof.RefRunB
import proofs.«407301_j76149770158544_3_alg».proof.Proof.RefRunC
import proofs.«407301_j76149770158544_3_alg».proof.Proof.RefRunD
import proofs.«407301_j76149770158544_3_alg».proof.Proof.RefRunE
import Idealize.ShloMosaic.Lib.Pipeline.Frame

noncomputable section

namespace Cert.RefRun

open Cert.ReferenceIdeal Cert.ReferenceIdeal.Gen Idealize.ShloMosaic Idealize.ShloMosaic.TcCoe Idealize.SL.Sem Idealize.ShloMosaic.StableHlo

variable {F : FTy → Type} [FloatOps F]

abbrev ops : List (HloOp τ sig (Elt F)) :=
  ops_part0 ++ (ops_part1 ++ (ops_part2 ++ (ops_part3 ++ ops_part4)))

theorem main_eq (c : Dev nD) : main (F := F) c = seq ops := by
  rw [show (ops : List (HloOp τ sig (Elt F))) = ops_part0 ++ (ops_part1 ++ (ops_part2 ++ (ops_part3 ++ ops_part4))) from rfl,
    seq_append, seq_append, seq_append, seq_append,
    ← main_part0_eq c, ← main_part1_eq c, ← main_part2_eq c, ← main_part3_eq c, ← main_part4_eq c]
  rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  List.forall_iff_forall_mem.mpr fun op h => by
    rcases List.mem_append.mp h with h | h
    · exact List.forall_iff_forall_mem.mp ops_part0_sub op h
    rcases List.mem_append.mp h with h | h
    · exact List.forall_iff_forall_mem.mp ops_part1_sub op h
    rcases List.mem_append.mp h with h | h
    · exact List.forall_iff_forall_mem.mp ops_part2_sub op h
    rcases List.mem_append.mp h with h | h
    · exact List.forall_iff_forall_mem.mp ops_part3_sub op h
    · exact List.forall_iff_forall_mem.mp ops_part4_sub op h

theorem ops_fresh : ∀ op ∈ (ops : List (HloOp τ sig (Elt F))), op.fresh = ∅ := by
  intro op h
  rcases List.mem_append.mp h with h | h
  · exact ops_part0_fresh op h
  rcases List.mem_append.mp h with h | h
  · exact ops_part1_fresh op h
  rcases List.mem_append.mp h with h | h
  · exact ops_part2_fresh op h
  rcases List.mem_append.mp h with h | h
  · exact ops_part3_fresh op h
  · exact ops_part4_fresh op h

def val1 (V : Valuation τ sig (Elt F)) : Valuation τ sig (Elt F) := after ops_part0 V

def val2 (V : Valuation τ sig (Elt F)) : Valuation τ sig (Elt F) := after ops_part1 (val1 V)

def val3 (V : Valuation τ sig (Elt F)) : Valuation τ sig (Elt F) := after ops_part2 (val2 V)

def val4 (V : Valuation τ sig (Elt F)) : Valuation τ sig (Elt F) := after ops_part3 (val3 V)

def val5 (V : Valuation τ sig (Elt F)) : Valuation τ sig (Elt F) := after ops_part4 (val4 V)

theorem after_ops (V : Valuation τ sig (Elt F)) : after ops V = val5 V := by
  rw [show (ops : List (HloOp τ sig (Elt F))) = ops_part0 ++ (ops_part1 ++ (ops_part2 ++ (ops_part3 ++ ops_part4))) from rfl,
    StableHlo.after_append, StableHlo.after_append, StableHlo.after_append, StableHlo.after_append]
  rfl

theorem val1_keep (V : Valuation τ sig (Elt F)) (r : Ref sig .tc) (h : r ∉ ops_part0_W) :
    val1 V (Proc.devRef .tc r) = V (Proc.devRef .tc r) := keep_part0 V r h
theorem val2_keep (V : Valuation τ sig (Elt F)) (r : Ref sig .tc) (h : r ∉ ops_part0_W ++ ops_part1_W) :
    val2 V (Proc.devRef .tc r) = V (Proc.devRef .tc r) :=
  (keep_part1 _ r fun x => h (List.mem_append_right _ x)).trans (val1_keep V r fun x => h (List.mem_append_left _ x))
theorem val3_keep (V : Valuation τ sig (Elt F)) (r : Ref sig .tc) (h : r ∉ ops_part0_W ++ ops_part1_W ++ ops_part2_W) :
    val3 V (Proc.devRef .tc r) = V (Proc.devRef .tc r) :=
  (keep_part2 _ r fun x => h (List.mem_append_right _ x)).trans (val2_keep V r fun x => h (List.mem_append_left _ x))
theorem val4_keep (V : Valuation τ sig (Elt F)) (r : Ref sig .tc) (h : r ∉ ops_part0_W ++ ops_part1_W ++ ops_part2_W ++ ops_part3_W) :
    val4 V (Proc.devRef .tc r) = V (Proc.devRef .tc r) :=
  (keep_part3 _ r fun x => h (List.mem_append_right _ x)).trans (val3_keep V r fun x => h (List.mem_append_left _ x))
theorem val5_keep (V : Valuation τ sig (Elt F)) (r : Ref sig .tc)
    (h : r ∉ ops_part0_W ++ ops_part1_W ++ ops_part2_W ++ ops_part3_W ++ ops_part4_W) :
    val5 V (Proc.devRef .tc r) = V (Proc.devRef .tc r) :=
  (keep_part4 _ r fun x => h (List.mem_append_right _ x)).trans (val4_keep V r fun x => h (List.mem_append_left _ x))

def res219 (m : (ℓ : Loc nD τ sig) → Buf (Elt F) ℓ) (c : Dev nD) : Buf (Elt F) ((c.tc : Thread nD τ).loc main_v219) :=
  val5 (launchContents m c) (Proc.devRef .tc main_v219)

theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v219) = res219 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16) :=
  (θ_run defs _ _).mono (fun _ h c => ⟨(h c main_v219).trans (congrFun (after_ops _) _),
      (h c main_arg0).trans ((congrFun (after_ops _) _).trans (val5_keep _ main_arg0 (by decide))),
      (h c main_arg1).trans ((congrFun (after_ops _) _).trans (val5_keep _ main_arg1 (by decide))),
      (h c main_arg2).trans ((congrFun (after_ops _) _).trans (val5_keep _ main_arg2 (by decide))),
      (h c main_arg3).trans ((congrFun (after_ops _) _).trans (val5_keep _ main_arg3 (by decide))),
      (h c main_arg4).trans ((congrFun (after_ops _) _).trans (val5_keep _ main_arg4 (by decide))),
      (h c main_arg5).trans ((congrFun (after_ops _) _).trans (val5_keep _ main_arg5 (by decide))),
      (h c main_arg6).trans ((congrFun (after_ops _) _).trans (val5_keep _ main_arg6 (by decide))),
      (h c main_arg7).trans ((congrFun (after_ops _) _).trans (val5_keep _ main_arg7 (by decide))),
      (h c main_arg8).trans ((congrFun (after_ops _) _).trans (val5_keep _ main_arg8 (by decide))),
      (h c main_arg9).trans ((congrFun (after_ops _) _).trans (val5_keep _ main_arg9 (by decide))),
      (h c main_arg10).trans ((congrFun (after_ops _) _).trans (val5_keep _ main_arg10 (by decide))),
      (h c main_arg11).trans ((congrFun (after_ops _) _).trans (val5_keep _ main_arg11 (by decide))),
      (h c main_arg12).trans ((congrFun (after_ops _) _).trans (val5_keep _ main_arg12 (by decide))),
      (h c main_arg13).trans ((congrFun (after_ops _) _).trans (val5_keep _ main_arg13 (by decide))),
      (h c main_arg14).trans ((congrFun (after_ops _) _).trans (val5_keep _ main_arg14 (by decide))),
      (h c main_arg15).trans ((congrFun (after_ops _) _).trans (val5_keep _ main_arg15 (by decide))),
      (h c main_arg16).trans ((congrFun (after_ops _) _).trans (val5_keep _ main_arg16 (by decide)))⟩)
    (run_seq scopedRefs_eq scopedSems_eq defs main (fun _ => ops) main_eq (fun _ => ops_sub) m ρ (fun _ => ops_fresh))

end Cert.RefRun

end
-- ==== Proof.RefVal.lean ====
import proofs.«407301_j76149770158544_3_alg».proof.Proof.RefRunAll
import proofs.«407301_j76149770158544_3_alg».proof.Proof.RefRead

noncomputable section

namespace Cert.RefRun

open Cert.ReferenceIdeal Cert.ReferenceIdeal.Gen Idealize.ShloMosaic Idealize.ShloMosaic.TcCoe Idealize.SL.Sem Idealize.ShloMosaic.StableHlo

variable {F : FTy → Type} [FloatOps F] (V0 : Valuation τ sig (Elt F))

-- After each window, a buffer that a later window reads holds its stage of the arguments: the window's operations
-- composed and the stages unfolded if the window writes it, what it held before if the window only passes it on.

theorem at1_main_v47 : val1 V0 (Proc.devRef .tc main_v47) = Read.val_main_v47 (F := F) (V0 (Proc.devRef .tc main_arg0)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) := by
  unfold val1
  after_results_simp
  rfl
theorem at1_main_v49 : val1 V0 (Proc.devRef .tc main_v49) = Read.val_main_v49 (F := F) (V0 (Proc.devRef .tc main_arg0)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) := by
  unfold val1
  after_results_simp
  rfl

theorem at2_main_v94 : val2 V0 (Proc.devRef .tc main_v94) = Read.val_main_v94 (F := F) (V0 (Proc.devRef .tc main_arg0)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15)) (V0 (Proc.devRef .tc main_arg16)) := by
  unfold val2
  after_results_simp
  simp only [val1_keep V0 main_arg16 (by decide), val1_keep V0 main_arg15 (by decide), val1_keep V0 main_arg14 (by decide), val1_keep V0 main_arg13 (by decide), val1_keep V0 main_arg12 (by decide), val1_keep V0 main_arg11 (by decide), val1_keep V0 main_arg10 (by decide), val1_keep V0 main_arg9 (by decide), at1_main_v49 V0, at1_main_v47 V0]
  rfl
theorem at2_main_v99 : val2 V0 (Proc.devRef .tc main_v99) = Read.val_main_v99 (F := F) (V0 (Proc.devRef .tc main_arg2)) (V0 (Proc.devRef .tc main_arg3)) (V0 (Proc.devRef .tc main_arg4)) := by
  unfold val2
  after_results_simp
  simp only [val1_keep V0 main_arg4 (by decide), val1_keep V0 main_arg3 (by decide), val1_keep V0 main_arg2 (by decide)]
  rfl
theorem at2_main_v101 : val2 V0 (Proc.devRef .tc main_v101) = Read.val_main_v101 (F := F) (V0 (Proc.devRef .tc main_arg2)) (V0 (Proc.devRef .tc main_arg3)) (V0 (Proc.devRef .tc main_arg4)) := by
  unfold val2
  after_results_simp
  simp only [val1_keep V0 main_arg4 (by decide), val1_keep V0 main_arg3 (by decide), val1_keep V0 main_arg2 (by decide)]
  rfl
theorem at2_main_v102 : val2 V0 (Proc.devRef .tc main_v102) = Read.val_main_v102 (F := F) := by
  unfold val2
  after_results_simp
  rfl

theorem at3_main_v94 : val3 V0 (Proc.devRef .tc main_v94) = Read.val_main_v94 (F := F) (V0 (Proc.devRef .tc main_arg0)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15)) (V0 (Proc.devRef .tc main_arg16)) :=
  (keep_part2 (val2 V0) main_v94 (by decide)).trans (at2_main_v94 V0)
theorem at3_main_v154 : val3 V0 (Proc.devRef .tc main_v154) = Read.val_main_v154 (F := F) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) := by
  unfold val3
  after_results_simp
  simp only [val2_keep V0 main_arg10 (by decide), val2_keep V0 main_arg9 (by decide), val2_keep V0 main_arg8 (by decide), val2_keep V0 main_arg7 (by decide), val2_keep V0 main_arg6 (by decide), val2_keep V0 main_arg5 (by decide), at2_main_v102 V0, at2_main_v101 V0, at2_main_v99 V0]
  rfl

theorem at4_main_v189 : val4 V0 (Proc.devRef .tc main_v189) = Read.val_main_v189 (F := F) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15)) (V0 (Proc.devRef .tc main_arg16)) := by
  unfold val4
  after_results_simp
  simp only [val3_keep V0 main_arg16 (by decide), val3_keep V0 main_arg15 (by decide), val3_keep V0 main_arg14 (by decide), val3_keep V0 main_arg13 (by decide), val3_keep V0 main_arg12 (by decide), val3_keep V0 main_arg11 (by decide), at3_main_v154 V0]
  rfl
theorem at4_main_v201 : val4 V0 (Proc.devRef .tc main_v201) = Read.val_main_v201 (F := F) (V0 (Proc.devRef .tc main_arg0)) (V0 (Proc.devRef .tc main_arg1)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15)) (V0 (Proc.devRef .tc main_arg16)) := by
  unfold val4
  after_results_simp
  simp only [val3_keep V0 main_arg1 (by decide), at3_main_v94 V0]
  rfl
theorem at4_main_v204 : val4 V0 (Proc.devRef .tc main_v204) = Read.val_main_v204 (F := F) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15)) (V0 (Proc.devRef .tc main_arg16)) := by
  unfold val4
  after_results_simp
  simp only [val3_keep V0 main_arg16 (by decide), val3_keep V0 main_arg15 (by decide), val3_keep V0 main_arg14 (by decide), val3_keep V0 main_arg13 (by decide), val3_keep V0 main_arg12 (by decide), val3_keep V0 main_arg11 (by decide), at3_main_v154 V0]
  rfl

theorem at5_main_v219 : val5 V0 (Proc.devRef .tc main_v219) = Read.val_main_v219 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15)) (V0 (Proc.devRef .tc main_arg16)) := by
  unfold val5
  after_results_simp
  simp only [at4_main_v201 V0, at4_main_v189 V0, at4_main_v204 V0]
  rfl

-- The run's result buffer is the last stage of the arguments' launch contents.
theorem res219_eq (m : (ℓ : Loc nD τ sig) → Buf (Elt F) ℓ) (c : Dev nD) :
    res219 (F := F) m c = Cert.ReferenceIdeal.Read.val_main_v219 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) :=
  at5_main_v219 (launchContents m c)

end Cert.RefRun

end
-- ==== Proof.RefSupport.lean ====
import proofs.«407301_j76149770158544_3_alg».proof.Proof.RefRead
import proofs.«407301_j76149770158544_3_alg».proof.Proof.SpecArr

noncomputable section

namespace Cert.RefValue

open Cert.ReferenceIdeal Cert.ReferenceIdeal.Gen Cert.ReferenceIdeal.Read Idealize.ShloMosaic Idealize.ShloMosaic.ValueIdx

theorem aff1 (x0 : (⟨S32768x768, .f32⟩ : BufTy).Contents (Elt Ideal)) (x3 : (⟨S512x768, .f32⟩ : BufTy).Contents (Elt Ideal)) (x4 : (⟨S512, .f32⟩ : BufTy).Contents (Elt Ideal))
    (r : Fin 32768) (j : Fin 512) :
    val_main_v4 (F := Ideal) x0 x3 x4 (ix2 r j)
      = Cert.Spec.affine (fun j t => x3 (ix2 j t)) (fun j => x4 (ix1 j)) (fun t => x0 (ix2 r t)) j := by
  have e1 : ∀ k : Fin 768, lidx_main_v1 (ix2 r j) k = ix2 r k := fun k => eq_ix2 _
  have e2 : ∀ k : Fin 768, idx_main_v0 (ridx_main_v1 (ix2 r j) k) = ix2 j k := fun k => eq_ix2 _
  have e3 : idx_main_v2 (idx_main_v3 (ix2 r j)) = ix1 j := eq_ix1 _
  rw [val_main_v4_apply, val_main_v1_apply, val_main_v3_apply, val_main_v2_apply, e3]
  simp only [val_main_v0_apply, e1, e2, Ideal.addf_def, Cert.Spec.affine]

theorem mean1 (x0 : (⟨S32768x768, .f32⟩ : BufTy).Contents (Elt Ideal)) (x3 : (⟨S512x768, .f32⟩ : BufTy).Contents (Elt Ideal)) (x4 : (⟨S512, .f32⟩ : BufTy).Contents (Elt Ideal))
    (r : Fin 32768) (z : Fin 1) :
    val_main_v8 (F := Ideal) x0 x3 x4 (ix2 r z)
      = Cert.Spec.mean Cert.Spec.w512 (fun t => val_main_v4 (F := Ideal) x0 x3 x4 (ix2 r t)) := by
  have e1 : ∀ k : Fin 512, idx_main_v5 (idx_main_v6 (ix2 r z)) k = ix2 r k := fun k => eq_ix2 _
  rw [val_main_v8_apply, val_main_v6_apply, val_main_v5_apply, val_main_v7_apply, val_main_cst_apply, val_main_cst_0_apply]
  simp only [e1, Ideal.hostDivf_def, Ideal.ofBits_def, Ideal.ofBits_zero_f32, zero_add, Cert.Spec.mean]

theorem var1 (x0 : (⟨S32768x768, .f32⟩ : BufTy).Contents (Elt Ideal)) (x3 : (⟨S512x768, .f32⟩ : BufTy).Contents (Elt Ideal)) (x4 : (⟨S512, .f32⟩ : BufTy).Contents (Elt Ideal))
    (r : Fin 32768) (z : Fin 1) :
    val_main_v15 (F := Ideal) x0 x3 x4 (ix2 r z)
      = Cert.Spec.var Cert.Spec.w512 (fun t => val_main_v4 (F := Ideal) x0 x3 x4 (ix2 r t)) := by
  have e1 : ∀ k : Fin 512, idx_main_v12 (idx_main_v13 (ix2 r z)) k = ix2 r k := fun k => eq_ix2 _
  have e2 : ∀ k : Fin 512, idx_main_v9 (ix2 r k) = ix2 r (0 : Fin 1) := fun k => eq_ix2 _
  rw [val_main_v15_apply, val_main_v13_apply, val_main_v12_apply, val_main_v14_apply, val_main_cst_1_apply, val_main_cst_2_apply]
  simp only [e1, val_main_v11_apply, val_main_v10_apply, val_main_v9_apply, e2, mean1, Ideal.hostDivf_def, Ideal.mulf_def, Ideal.subf_def,
    Ideal.ofBits_def, Ideal.ofBits_zero_f32, zero_add, Cert.Spec.var]

theorem ln1 (x0 : (⟨S32768x768, .f32⟩ : BufTy).Contents (Elt Ideal)) (x3 : (⟨S512x768, .f32⟩ : BufTy).Contents (Elt Ideal)) (x4 x5 x6 : (⟨S512, .f32⟩ : BufTy).Contents (Elt Ideal))
    (r : Fin 32768) (j : Fin 512) :
    val_main_v29 (F := Ideal) x0 x3 x4 x5 x6 (ix2 r j)
      = Cert.Spec.lnRelu Cert.Spec.w512 (fun j => x5 (ix1 j)) (fun j => x6 (ix1 j)) (fun t => val_main_v4 (F := Ideal) x0 x3 x4 (ix2 r t)) j := by
  have e1 : idx_main_v16 (ix2 r j) = ix2 r (0 : Fin 1) := eq_ix2 _
  have e2 : idx_main_v21 (ix2 r j) = ix2 r (0 : Fin 1) := eq_ix2 _
  have e3 : idx_main_v23 (idx_main_v24 (ix2 r j)) = ix1 j := eq_ix1 _
  have e4 : idx_main_v26 (idx_main_v27 (ix2 r j)) = ix1 j := eq_ix1 _
  rw [val_main_v29_apply, val_main_v28_apply, val_main_v25_apply, val_main_v22_apply, val_main_v17_apply, val_main_v16_apply, e1, mean1,
    val_main_v21_apply, e2, val_main_v20_apply, val_main_v19_apply, var1, val_main_v18_apply, val_main_cst_3_apply,
    val_main_v24_apply, val_main_v23_apply, e3, val_main_v27_apply, val_main_v26_apply, e4,
    val_main_call0_v0_apply, val_main_call0_cst_apply]
  simp only [Ideal.maximumf_def, Ideal.addf_def, Ideal.mulf_def, Ideal.subf_def, Ideal.hostUnary_rsqrt_def, Ideal.ofBits_def,
    Ideal.ofBits_zero_f32, Cert.Spec.lnRelu]

theorem hid1_eq (x0 : (⟨S32768x768, .f32⟩ : BufTy).Contents (Elt Ideal)) (x3 : (⟨S512x768, .f32⟩ : BufTy).Contents (Elt Ideal)) (x4 x5 x6 : (⟨S512, .f32⟩ : BufTy).Contents (Elt Ideal)) (x7 : (⟨S512x512, .f32⟩ : BufTy).Contents (Elt Ideal)) (x8 x9 x10 : (⟨S512, .f32⟩ : BufTy).Contents (Elt Ideal)) (x11 : (⟨S128x512, .f32⟩ : BufTy).Contents (Elt Ideal)) (x12 x13 x14 : (⟨S128, .f32⟩ : BufTy).Contents (Elt Ideal)) (x15 : (⟨S32x128, .f32⟩ : BufTy).Contents (Elt Ideal)) (x16 : (⟨S32, .f32⟩ : BufTy).Contents (Elt Ideal))
    (r : Fin 32768) (j : Fin 512) :
    val_main_v29 (F := Ideal) x0 x3 x4 x5 x6 (ix2 r j)
      = Cert.Spec.hid1 (Cert.Spec.paramsOf x3 x4 x5 x6 x7 x8 x9 x10 x11 x12 x13 x14 x15 x16) (Cert.Spec.rowOf x0 r) j := by
  have ha : (fun t => val_main_v4 (F := Ideal) x0 x3 x4 (ix2 r t))
      = Cert.Spec.affine (fun j t => x3 (ix2 j t)) (fun j => x4 (ix1 j)) (fun t => x0 (ix2 r t)) :=
    funext fun t => aff1 x0 x3 x4 r t
  rw [ln1, ha]
  rfl

theorem aff2 (x0 : (⟨S32768x768, .f32⟩ : BufTy).Contents (Elt Ideal)) (x3 : (⟨S512x768, .f32⟩ : BufTy).Contents (Elt Ideal)) (x4 x5 x6 : (⟨S512, .f32⟩ : BufTy).Contents (Elt Ideal)) (x7 : (⟨S512x512, .f32⟩ : BufTy).Contents (Elt Ideal)) (x8 : (⟨S512, .f32⟩ : BufTy).Contents (Elt Ideal))
    (r : Fin 32768) (j : Fin 512) :
    val_main_v34 (F := Ideal) x0 x3 x4 x5 x6 x7 x8 (ix2 r j)
      = Cert.Spec.affine (fun j t => x7 (ix2 j t)) (fun j => x8 (ix1 j)) (fun t => val_main_v29 (F := Ideal) x0 x3 x4 x5 x6 (ix2 r t)) j := by
  have e1 : ∀ k : Fin 512, lidx_main_v31 (ix2 r j) k = ix2 r k := fun k => eq_ix2 _
  have e2 : ∀ k : Fin 512, idx_main_v30 (ridx_main_v31 (ix2 r j) k) = ix2 j k := fun k => eq_ix2 _
  have e3 : idx_main_v32 (idx_main_v33 (ix2 r j)) = ix1 j := eq_ix1 _
  rw [val_main_v34_apply, val_main_v31_apply, val_main_v33_apply, val_main_v32_apply, e3]
  simp only [val_main_v30_apply, e1, e2, Ideal.addf_def, Cert.Spec.affine]

theorem mean2 (x0 : (⟨S32768x768, .f32⟩ : BufTy).Contents (Elt Ideal)) (x3 : (⟨S512x768, .f32⟩ : BufTy).Contents (Elt Ideal)) (x4 x5 x6 : (⟨S512, .f32⟩ : BufTy).Contents (Elt Ideal)) (x7 : (⟨S512x512, .f32⟩ : BufTy).Contents (Elt Ideal)) (x8 : (⟨S512, .f32⟩ : BufTy).Contents (Elt Ideal))
    (r : Fin 32768) (z : Fin 1) :
    val_main_v38 (F := Ideal) x0 x3 x4 x5 x6 x7 x8 (ix2 r z)
      = Cert.Spec.mean Cert.Spec.w512 (fun t => val_main_v34 (F := Ideal) x0 x3 x4 x5 x6 x7 x8 (ix2 r t)) := by
  have e1 : ∀ k : Fin 512, idx_main_v35 (idx_main_v36 (ix2 r z)) k = ix2 r k := fun k => eq_ix2 _
  rw [val_main_v38_apply, val_main_v36_apply, val_main_v35_apply, val_main_v37_apply, val_main_cst_4_apply, val_main_cst_5_apply]
  simp only [e1, Ideal.hostDivf_def, Ideal.ofBits_def, Ideal.ofBits_zero_f32, zero_add, Cert.Spec.mean]

theorem var2 (x0 : (⟨S32768x768, .f32⟩ : BufTy).Contents (Elt Ideal)) (x3 : (⟨S512x768, .f32⟩ : BufTy).Contents (Elt Ideal)) (x4 x5 x6 : (⟨S512, .f32⟩ : BufTy).Contents (Elt Ideal)) (x7 : (⟨S512x512, .f32⟩ : BufTy).Contents (Elt Ideal)) (x8 : (⟨S512, .f32⟩ : BufTy).Contents (Elt Ideal))
    (r : Fin 32768) (z : Fin 1) :
    val_main_v45 (F := Ideal) x0 x3 x4 x5 x6 x7 x8 (ix2 r z)
      = Cert.Spec.var Cert.Spec.w512 (fun t => val_main_v34 (F := Ideal) x0 x3 x4 x5 x6 x7 x8 (ix2 r t)) := by
  have e1 : ∀ k : Fin 512, idx_main_v42 (idx_main_v43 (ix2 r z)) k = ix2 r k := fun k => eq_ix2 _
  have e2 : ∀ k : Fin 512, idx_main_v39 (ix2 r k) = ix2 r (0 : Fin 1) := fun k => eq_ix2 _
  rw [val_main_v45_apply, val_main_v43_apply, val_main_v42_apply, val_main_v44_apply, val_main_cst_6_apply, val_main_cst_7_apply]
  simp only [e1, val_main_v41_apply, val_main_v40_apply, val_main_v39_apply, e2, mean2, Ideal.hostDivf_def, Ideal.mulf_def, Ideal.subf_def,
    Ideal.ofBits_def, Ideal.ofBits_zero_f32, zero_add, Cert.Spec.var]

theorem ln2 (x0 : (⟨S32768x768, .f32⟩ : BufTy).Contents (Elt Ideal)) (x3 : (⟨S512x768, .f32⟩ : BufTy).Contents (Elt Ideal)) (x4 x5 x6 : (⟨S512, .f32⟩ : BufTy).Contents (Elt Ideal)) (x7 : (⟨S512x512, .f32⟩ : BufTy).Contents (Elt Ideal)) (x8 x9 x10 : (⟨S512, .f32⟩ : BufTy).Contents (Elt Ideal))
    (r : Fin 32768) (j : Fin 512) :
    val_main_v59 (F := Ideal) x0 x3 x4 x5 x6 x7 x8 x9 x10 (ix2 r j)
      = Cert.Spec.lnRelu Cert.Spec.w512 (fun j => x9 (ix1 j)) (fun j => x10 (ix1 j)) (fun t => val_main_v34 (F := Ideal) x0 x3 x4 x5 x6 x7 x8 (ix2 r t)) j := by
  have e1 : idx_main_v46 (ix2 r j) = ix2 r (0 : Fin 1) := eq_ix2 _
  have e2 : idx_main_v51 (ix2 r j) = ix2 r (0 : Fin 1) := eq_ix2 _
  have e3 : idx_main_v53 (idx_main_v54 (ix2 r j)) = ix1 j := eq_ix1 _
  have e4 : idx_main_v56 (idx_main_v57 (ix2 r j)) = ix1 j := eq_ix1 _
  rw [val_main_v59_apply, val_main_v58_apply, val_main_v55_apply, val_main_v52_apply, val_main_v47_apply, val_main_v46_apply, e1, mean2,
    val_main_v51_apply, e2, val_main_v50_apply, val_main_v49_apply, var2, val_main_v48_apply, val_main_cst_8_apply,
    val_main_v54_apply, val_main_v53_apply, e3, val_main_v57_apply, val_main_v56_apply, e4,
    val_main_call1_v0_apply, val_main_call1_cst_apply]
  simp only [Ideal.maximumf_def, Ideal.addf_def, Ideal.mulf_def, Ideal.subf_def, Ideal.hostUnary_rsqrt_def, Ideal.ofBits_def,
    Ideal.ofBits_zero_f32, Cert.Spec.lnRelu]

theorem hid2_eq (x0 : (⟨S32768x768, .f32⟩ : BufTy).Contents (Elt Ideal)) (x3 : (⟨S512x768, .f32⟩ : BufTy).Contents (Elt Ideal)) (x4 x5 x6 : (⟨S512, .f32⟩ : BufTy).Contents (Elt Ideal)) (x7 : (⟨S512x512, .f32⟩ : BufTy).Contents (Elt Ideal)) (x8 x9 x10 : (⟨S512, .f32⟩ : BufTy).Contents (Elt Ideal)) (x11 : (⟨S128x512, .f32⟩ : BufTy).Contents (Elt Ideal)) (x12 x13 x14 : (⟨S128, .f32⟩ : BufTy).Contents (Elt Ideal)) (x15 : (⟨S32x128, .f32⟩ : BufTy).Contents (Elt Ideal)) (x16 : (⟨S32, .f32⟩ : BufTy).Contents (Elt Ideal))
    (r : Fin 32768) (j : Fin 512) :
    val_main_v59 (F := Ideal) x0 x3 x4 x5 x6 x7 x8 x9 x10 (ix2 r j)
      = Cert.Spec.hid2 (Cert.Spec.paramsOf x3 x4 x5 x6 x7 x8 x9 x10 x11 x12 x13 x14 x15 x16) (Cert.Spec.rowOf x0 r) j := by
  have ha : (fun t => val_main_v34 (F := Ideal) x0 x3 x4 x5 x6 x7 x8 (ix2 r t))
      = Cert.Spec.affine (fun j t => x7 (ix2 j t)) (fun j => x8 (ix1 j)) (fun t => val_main_v29 (F := Ideal) x0 x3 x4 x5 x6 (ix2 r t)) :=
    funext fun t => aff2 x0 x3 x4 x5 x6 x7 x8 r t
  have hp : (fun t => val_main_v29 (F := Ideal) x0 x3 x4 x5 x6 (ix2 r t)) = Cert.Spec.hid1 (Cert.Spec.paramsOf x3 x4 x5 x6 x7 x8 x9 x10 x11 x12 x13 x14 x15 x16) (Cert.Spec.rowOf x0 r) :=
    funext fun t => hid1_eq x0 x3 x4 x5 x6 x7 x8 x9 x10 x11 x12 x13 x14 x15 x16 r t
  rw [ln2, ha, hp]
  rfl

theorem aff3 (x0 : (⟨S32768x768, .f32⟩ : BufTy).Contents (Elt Ideal)) (x3 : (⟨S512x768, .f32⟩ : BufTy).Contents (Elt Ideal)) (x4 x5 x6 : (⟨S512, .f32⟩ : BufTy).Contents (Elt Ideal)) (x7 : (⟨S512x512, .f32⟩ : BufTy).Contents (Elt Ideal)) (x8 x9 x10 : (⟨S512, .f32⟩ : BufTy).Contents (Elt Ideal)) (x11 : (⟨S128x512, .f32⟩ : BufTy).Contents (Elt Ideal)) (x12 : (⟨S128, .f32⟩ : BufTy).Contents (Elt Ideal))
    (r : Fin 32768) (j : Fin 128) :
    val_main_v64 (F := Ideal) x0 x3 x4 x5 x6 x7 x8 x9 x10 x11 x12 (ix2 r j)
      = Cert.Spec.affine (fun j t => x11 (ix2 j t)) (fun j => x12 (ix1 j)) (fun t => val_main_v59 (F := Ideal) x0 x3 x4 x5 x6 x7 x8 x9 x10 (ix2 r t)) j := by
  have e1 : ∀ k : Fin 512, lidx_main_v61 (ix2 r j) k = ix2 r k := fun k => eq_ix2 _
  have e2 : ∀ k : Fin 512, idx_main_v60 (ridx_main_v61 (ix2 r j) k) = ix2 j k := fun k => eq_ix2 _
  have e3 : idx_main_v62 (idx_main_v63 (ix2 r j)) = ix1 j := eq_ix1 _
  rw [val_main_v64_apply, val_main_v61_apply, val_main_v63_apply, val_main_v62_apply, e3]
  simp only [val_main_v60_apply, e1, e2, Ideal.addf_def, Cert.Spec.affine]

theorem mean3 (x0 : (⟨S32768x768, .f32⟩ : BufTy).Contents (Elt Ideal)) (x3 : (⟨S512x768, .f32⟩ : BufTy).Contents (Elt Ideal)) (x4 x5 x6 : (⟨S512, .f32⟩ : BufTy).Contents (Elt Ideal)) (x7 : (⟨S512x512, .f32⟩ : BufTy).Contents (Elt Ideal)) (x8 x9 x10 : (⟨S512, .f32⟩ : BufTy).Contents (Elt Ideal)) (x11 : (⟨S128x512, .f32⟩ : BufTy).Contents (Elt Ideal)) (x12 : (⟨S128, .f32⟩ : BufTy).Contents (Elt Ideal))
    (r : Fin 32768) (z : Fin 1) :
    val_main_v68 (F := Ideal) x0 x3 x4 x5 x6 x7 x8 x9 x10 x11 x12 (ix2 r z)
      = Cert.Spec.mean Cert.Spec.w128 (fun t => val_main_v64 (F := Ideal) x0 x3 x4 x5 x6 x7 x8 x9 x10 x11 x12 (ix2 r t)) := by
  have e1 : ∀ k : Fin 128, idx_main_v65 (idx_main_v66 (ix2 r z)) k = ix2 r k := fun k => eq_ix2 _
  rw [val_main_v68_apply, val_main_v66_apply, val_main_v65_apply, val_main_v67_apply, val_main_cst_9_apply, val_main_cst_10_apply]
  simp only [e1, Ideal.hostDivf_def, Ideal.ofBits_def, Ideal.ofBits_zero_f32, zero_add, Cert.Spec.mean]

theorem var3 (x0 : (⟨S32768x768, .f32⟩ : BufTy).Contents (Elt Ideal)) (x3 : (⟨S512x768, .f32⟩ : BufTy).Contents (Elt Ideal)) (x4 x5 x6 : (⟨S512, .f32⟩ : BufTy).Contents (Elt Ideal)) (x7 : (⟨S512x512, .f32⟩ : BufTy).Contents (Elt Ideal)) (x8 x9 x10 : (⟨S512, .f32⟩ : BufTy).Contents (Elt Ideal)) (x11 : (⟨S128x512, .f32⟩ : BufTy).Contents (Elt Ideal)) (x12 : (⟨S128, .f32⟩ : BufTy).Contents (Elt Ideal))
    (r : Fin 32768) (z : Fin 1) :
    val_main_v75 (F := Ideal) x0 x3 x4 x5 x6 x7 x8 x9 x10 x11 x12 (ix2 r z)
      = Cert.Spec.var Cert.Spec.w128 (fun t => val_main_v64 (F := Ideal) x0 x3 x4 x5 x6 x7 x8 x9 x10 x11 x12 (ix2 r t)) := by
  have e1 : ∀ k : Fin 128, idx_main_v72 (idx_main_v73 (ix2 r z)) k = ix2 r k := fun k => eq_ix2 _
  have e2 : ∀ k : Fin 128, idx_main_v69 (ix2 r k) = ix2 r (0 : Fin 1) := fun k => eq_ix2 _
  rw [val_main_v75_apply, val_main_v73_apply, val_main_v72_apply, val_main_v74_apply, val_main_cst_11_apply, val_main_cst_12_apply]
  simp only [e1, val_main_v71_apply, val_main_v70_apply, val_main_v69_apply, e2, mean3, Ideal.hostDivf_def, Ideal.mulf_def, Ideal.subf_def,
    Ideal.ofBits_def, Ideal.ofBits_zero_f32, zero_add, Cert.Spec.var]

theorem ln3 (x0 : (⟨S32768x768, .f32⟩ : BufTy).Contents (Elt Ideal)) (x3 : (⟨S512x768, .f32⟩ : BufTy).Contents (Elt Ideal)) (x4 x5 x6 : (⟨S512, .f32⟩ : BufTy).Contents (Elt Ideal)) (x7 : (⟨S512x512, .f32⟩ : BufTy).Contents (Elt Ideal)) (x8 x9 x10 : (⟨S512, .f32⟩ : BufTy).Contents (Elt Ideal)) (x11 : (⟨S128x512, .f32⟩ : BufTy).Contents (Elt Ideal)) (x12 x13 x14 : (⟨S128, .f32⟩ : BufTy).Contents (Elt Ideal))
    (r : Fin 32768) (j : Fin 128) :
    val_main_v89 (F := Ideal) x0 x3 x4 x5 x6 x7 x8 x9 x10 x11 x12 x13 x14 (ix2 r j)
      = Cert.Spec.lnRelu Cert.Spec.w128 (fun j => x13 (ix1 j)) (fun j => x14 (ix1 j)) (fun t => val_main_v64 (F := Ideal) x0 x3 x4 x5 x6 x7 x8 x9 x10 x11 x12 (ix2 r t)) j := by
  have e1 : idx_main_v76 (ix2 r j) = ix2 r (0 : Fin 1) := eq_ix2 _
  have e2 : idx_main_v81 (ix2 r j) = ix2 r (0 : Fin 1) := eq_ix2 _
  have e3 : idx_main_v83 (idx_main_v84 (ix2 r j)) = ix1 j := eq_ix1 _
  have e4 : idx_main_v86 (idx_main_v87 (ix2 r j)) = ix1 j := eq_ix1 _
  rw [val_main_v89_apply, val_main_v88_apply, val_main_v85_apply, val_main_v82_apply, val_main_v77_apply, val_main_v76_apply, e1, mean3,
    val_main_v81_apply, e2, val_main_v80_apply, val_main_v79_apply, var3, val_main_v78_apply, val_main_cst_13_apply,
    val_main_v84_apply, val_main_v83_apply, e3, val_main_v87_apply, val_main_v86_apply, e4,
    val_main_call2_v0_apply, val_main_call2_cst_apply]
  simp only [Ideal.maximumf_def, Ideal.addf_def, Ideal.mulf_def, Ideal.subf_def, Ideal.hostUnary_rsqrt_def, Ideal.ofBits_def,
    Ideal.ofBits_zero_f32, Cert.Spec.lnRelu]

theorem hid3_eq (x0 : (⟨S32768x768, .f32⟩ : BufTy).Contents (Elt Ideal)) (x3 : (⟨S512x768, .f32⟩ : BufTy).Contents (Elt Ideal)) (x4 x5 x6 : (⟨S512, .f32⟩ : BufTy).Contents (Elt Ideal)) (x7 : (⟨S512x512, .f32⟩ : BufTy).Contents (Elt Ideal)) (x8 x9 x10 : (⟨S512, .f32⟩ : BufTy).Contents (Elt Ideal)) (x11 : (⟨S128x512, .f32⟩ : BufTy).Contents (Elt Ideal)) (x12 x13 x14 : (⟨S128, .f32⟩ : BufTy).Contents (Elt Ideal)) (x15 : (⟨S32x128, .f32⟩ : BufTy).Contents (Elt Ideal)) (x16 : (⟨S32, .f32⟩ : BufTy).Contents (Elt Ideal))
    (r : Fin 32768) (j : Fin 128) :
    val_main_v89 (F := Ideal) x0 x3 x4 x5 x6 x7 x8 x9 x10 x11 x12 x13 x14 (ix2 r j)
      = Cert.Spec.hid3 (Cert.Spec.paramsOf x3 x4 x5 x6 x7 x8 x9 x10 x11 x12 x13 x14 x15 x16) (Cert.Spec.rowOf x0 r) j := by
  have ha : (fun t => val_main_v64 (F := Ideal) x0 x3 x4 x5 x6 x7 x8 x9 x10 x11 x12 (ix2 r t))
      = Cert.Spec.affine (fun j t => x11 (ix2 j t)) (fun j => x12 (ix1 j)) (fun t => val_main_v59 (F := Ideal) x0 x3 x4 x5 x6 x7 x8 x9 x10 (ix2 r t)) :=
    funext fun t => aff3 x0 x3 x4 x5 x6 x7 x8 x9 x10 x11 x12 r t
  have hp : (fun t => val_main_v59 (F := Ideal) x0 x3 x4 x5 x6 x7 x8 x9 x10 (ix2 r t)) = Cert.Spec.hid2 (Cert.Spec.paramsOf x3 x4 x5 x6 x7 x8 x9 x10 x11 x12 x13 x14 x15 x16) (Cert.Spec.rowOf x0 r) :=
    funext fun t => hid2_eq x0 x3 x4 x5 x6 x7 x8 x9 x10 x11 x12 x13 x14 x15 x16 r t
  rw [ln3, ha, hp]
  rfl

theorem aff4 (x0 : (⟨S32768x768, .f32⟩ : BufTy).Contents (Elt Ideal)) (x3 : (⟨S512x768, .f32⟩ : BufTy).Contents (Elt Ideal)) (x4 x5 x6 : (⟨S512, .f32⟩ : BufTy).Contents (Elt Ideal)) (x7 : (⟨S512x512, .f32⟩ : BufTy).Contents (Elt Ideal)) (x8 x9 x10 : (⟨S512, .f32⟩ : BufTy).Contents (Elt Ideal)) (x11 : (⟨S128x512, .f32⟩ : BufTy).Contents (Elt Ideal)) (x12 x13 x14 : (⟨S128, .f32⟩ : BufTy).Contents (Elt Ideal)) (x15 : (⟨S32x128, .f32⟩ : BufTy).Contents (Elt Ideal)) (x16 : (⟨S32, .f32⟩ : BufTy).Contents (Elt Ideal))
    (r : Fin 32768) (j : Fin 32) :
    val_main_v94 (F := Ideal) x0 x3 x4 x5 x6 x7 x8 x9 x10 x11 x12 x13 x14 x15 x16 (ix2 r j)
      = Cert.Spec.affine (fun j t => x15 (ix2 j t)) (fun j => x16 (ix1 j)) (fun t => val_main_v89 (F := Ideal) x0 x3 x4 x5 x6 x7 x8 x9 x10 x11 x12 x13 x14 (ix2 r t)) j := by
  have e1 : ∀ k : Fin 128, lidx_main_v91 (ix2 r j) k = ix2 r k := fun k => eq_ix2 _
  have e2 : ∀ k : Fin 128, idx_main_v90 (ridx_main_v91 (ix2 r j) k) = ix2 j k := fun k => eq_ix2 _
  have e3 : idx_main_v92 (idx_main_v93 (ix2 r j)) = ix1 j := eq_ix1 _
  rw [val_main_v94_apply, val_main_v91_apply, val_main_v93_apply, val_main_v92_apply, e3]
  simp only [val_main_v90_apply, e1, e2, Ideal.addf_def, Cert.Spec.affine]

theorem support_emb (x0 : (⟨S32768x768, .f32⟩ : BufTy).Contents (Elt Ideal)) (x3 : (⟨S512x768, .f32⟩ : BufTy).Contents (Elt Ideal)) (x4 x5 x6 : (⟨S512, .f32⟩ : BufTy).Contents (Elt Ideal)) (x7 : (⟨S512x512, .f32⟩ : BufTy).Contents (Elt Ideal)) (x8 x9 x10 : (⟨S512, .f32⟩ : BufTy).Contents (Elt Ideal)) (x11 : (⟨S128x512, .f32⟩ : BufTy).Contents (Elt Ideal)) (x12 x13 x14 : (⟨S128, .f32⟩ : BufTy).Contents (Elt Ideal)) (x15 : (⟨S32x128, .f32⟩ : BufTy).Contents (Elt Ideal)) (x16 : (⟨S32, .f32⟩ : BufTy).Contents (Elt Ideal))
    (r : Fin 32768) (q : Fin 32) :
    Cert.ReferenceIdeal.Read.val_main_v94 (F := Ideal) x0 x3 x4 x5 x6 x7 x8 x9 x10 x11 x12 x13 x14 x15 x16 (ix2 r q)
      = Cert.Spec.rowEmb (Cert.Spec.paramsOf x3 x4 x5 x6 x7 x8 x9 x10 x11 x12 x13 x14 x15 x16) (Cert.Spec.rowOf x0 r) q := by
  have hp : (fun t => val_main_v89 (F := Ideal) x0 x3 x4 x5 x6 x7 x8 x9 x10 x11 x12 x13 x14 (ix2 r t)) = Cert.Spec.hid3 (Cert.Spec.paramsOf x3 x4 x5 x6 x7 x8 x9 x10 x11 x12 x13 x14 x15 x16) (Cert.Spec.rowOf x0 r) :=
    funext fun t => hid3_eq x0 x3 x4 x5 x6 x7 x8 x9 x10 x11 x12 x13 x14 x15 x16 r t
  rw [aff4, hp]
  rfl

end Cert.RefValue

end
-- ==== Proof.RefQuery.lean ====
import proofs.«407301_j76149770158544_3_alg».proof.Proof.RefRead
import proofs.«407301_j76149770158544_3_alg».proof.Proof.Spec
import proofs.«407301_j76149770158544_3_alg».proof.Proof.SpecArr

noncomputable section

namespace Cert.RefValue.Query

open Cert.ReferenceIdeal Cert.ReferenceIdeal.Gen Cert.ReferenceIdeal.Read Idealize.ShloMosaic Idealize.ShloMosaic.ValueIdx

variable (x2 : (⟨S65536x768, .f32⟩ : BufTy).Contents (Elt Ideal)) (x3 : (⟨S512x768, .f32⟩ : BufTy).Contents (Elt Ideal))
  (x4 x5 x6 : (⟨S512, .f32⟩ : BufTy).Contents (Elt Ideal)) (x7 : (⟨S512x512, .f32⟩ : BufTy).Contents (Elt Ideal))
  (x8 x9 x10 : (⟨S512, .f32⟩ : BufTy).Contents (Elt Ideal)) (x11 : (⟨S128x512, .f32⟩ : BufTy).Contents (Elt Ideal))
  (x12 x13 x14 : (⟨S128, .f32⟩ : BufTy).Contents (Elt Ideal)) (x15 : (⟨S32x128, .f32⟩ : BufTy).Contents (Elt Ideal))
  (x16 : (⟨S32, .f32⟩ : BufTy).Contents (Elt Ideal))

theorem lidx96 (r : Fin 65536) (j : Fin 512) (k : Fin 768) : lidx_main_v96 (ix2 r j) k = ix2 r k := eq_ix2 _
theorem ridx96 (r : Fin 65536) (j : Fin 512) (k : Fin 768) : idx_main_v95 (ridx_main_v96 (ix2 r j) k) = ix2 j k := eq_ix2 _
theorem bidx98 (r : Fin 65536) (j : Fin 512) : idx_main_v97 (idx_main_v98 (ix2 r j)) = ix1 j := eq_ix1 _
theorem cidx104 (r : Fin 65536) (j : Fin 512) : idx_main_v104 (ix2 r j) = ix2 r (0 : Fin 1) := eq_ix2 _
theorem cidx111 (r : Fin 65536) (j : Fin 512) : idx_main_v111 (ix2 r j) = ix2 r (0 : Fin 1) := eq_ix2 _
theorem cidx116 (r : Fin 65536) (j : Fin 512) : idx_main_v116 (ix2 r j) = ix2 r (0 : Fin 1) := eq_ix2 _
theorem ridx101 (r : Fin 65536) (z : Fin 1) : idx_main_v101 (ix2 r z) = ix1 r := eq_ix1 _
theorem ridx108 (r : Fin 65536) (z : Fin 1) : idx_main_v108 (ix2 r z) = ix1 r := eq_ix1 _
theorem sidx100 (r : Fin 65536) (k : Fin 512) : idx_main_v100 (ix1 r) k = ix2 r k := eq_ix2 _
theorem sidx107 (r : Fin 65536) (k : Fin 512) : idx_main_v107 (ix1 r) k = ix2 r k := eq_ix2 _
theorem gidx119 (r : Fin 65536) (j : Fin 512) : idx_main_v118 (idx_main_v119 (ix2 r j)) = ix1 j := eq_ix1 _
theorem gidx122 (r : Fin 65536) (j : Fin 512) : idx_main_v121 (idx_main_v122 (ix2 r j)) = ix1 j := eq_ix1 _

theorem q_aff1 (r : Fin 65536) (j : Fin 512) :
    val_main_v99 (F := Ideal) x2 x3 x4 (ix2 r j)
      = Cert.Spec.affine (fun j t => x3 (ix2 j t)) (fun j => x4 (ix1 j)) (Cert.Spec.rowOf x2 r) j := by
  rw [val_main_v99_apply, val_main_v96_apply, val_main_v98_apply, val_main_v97_apply]
  simp only [val_main_v95_apply, Ideal.addf_def, lidx96, ridx96, bidx98]
  rfl

theorem q_mean1 (r : Fin 65536) (z : Fin 1) :
    val_main_v103 (F := Ideal) x2 x3 x4 (ix2 r z)
      = Cert.Spec.mean Cert.Spec.w512 (fun t => val_main_v99 (F := Ideal) x2 x3 x4 (ix2 r t)) := by
  rw [val_main_v103_apply, val_main_v101_apply, val_main_v100_apply, val_main_v102_apply, val_main_cst_14_apply,
    val_main_cst_15_apply]
  simp only [Ideal.hostDivf_def, Ideal.ofBits_def, Ideal.ofBits_zero_f32, zero_add, ridx101, sidx100]
  rfl

theorem q_var1 (r : Fin 65536) (z : Fin 1) :
    val_main_v110 (F := Ideal) x2 x3 x4 (ix2 r z)
      = Cert.Spec.var Cert.Spec.w512 (fun t => val_main_v99 (F := Ideal) x2 x3 x4 (ix2 r t)) := by
  rw [val_main_v110_apply, val_main_v108_apply, val_main_v107_apply, val_main_v109_apply, val_main_cst_16_apply,
    val_main_cst_17_apply]
  simp only [val_main_v106_apply, val_main_v105_apply, val_main_v104_apply, Ideal.hostDivf_def, Ideal.ofBits_def,
    Ideal.ofBits_zero_f32, zero_add, Ideal.mulf_def, Ideal.subf_def, ridx108, sidx107, cidx104, q_mean1]
  rfl

theorem q_ln1 (r : Fin 65536) (j : Fin 512) :
    val_main_v124 (F := Ideal) x2 x3 x4 x5 x6 (ix2 r j)
      = Cert.Spec.lnRelu Cert.Spec.w512 (fun j => x5 (ix1 j)) (fun j => x6 (ix1 j))
          (fun t => val_main_v99 (F := Ideal) x2 x3 x4 (ix2 r t)) j := by
  rw [val_main_v124_apply, val_main_v123_apply, val_main_v120_apply, val_main_v117_apply, val_main_v112_apply,
    val_main_v111_apply, val_main_v116_apply, val_main_v115_apply, val_main_v114_apply, val_main_v113_apply,
    val_main_cst_18_apply, val_main_v119_apply, val_main_v118_apply, val_main_v122_apply, val_main_v121_apply,
    val_main_call3_v0_apply, val_main_call3_cst_apply]
  simp only [Ideal.maximumf_def, Ideal.addf_def, Ideal.mulf_def, Ideal.subf_def, Ideal.hostUnary_rsqrt_def,
    Ideal.ofBits_def, Ideal.ofBits_zero_f32, cidx111, cidx116, gidx119, gidx122, q_mean1, q_var1]
  rfl

theorem lidx126 (r : Fin 65536) (j : Fin 512) (k : Fin 512) : lidx_main_v126 (ix2 r j) k = ix2 r k := eq_ix2 _
theorem ridx126 (r : Fin 65536) (j : Fin 512) (k : Fin 512) : idx_main_v125 (ridx_main_v126 (ix2 r j) k) = ix2 j k := eq_ix2 _
theorem bidx128 (r : Fin 65536) (j : Fin 512) : idx_main_v127 (idx_main_v128 (ix2 r j)) = ix1 j := eq_ix1 _
theorem cidx134 (r : Fin 65536) (j : Fin 512) : idx_main_v134 (ix2 r j) = ix2 r (0 : Fin 1) := eq_ix2 _
theorem cidx141 (r : Fin 65536) (j : Fin 512) : idx_main_v141 (ix2 r j) = ix2 r (0 : Fin 1) := eq_ix2 _
theorem cidx146 (r : Fin 65536) (j : Fin 512) : idx_main_v146 (ix2 r j) = ix2 r (0 : Fin 1) := eq_ix2 _
theorem ridx131 (r : Fin 65536) (z : Fin 1) : idx_main_v131 (ix2 r z) = ix1 r := eq_ix1 _
theorem ridx138 (r : Fin 65536) (z : Fin 1) : idx_main_v138 (ix2 r z) = ix1 r := eq_ix1 _
theorem sidx130 (r : Fin 65536) (k : Fin 512) : idx_main_v130 (ix1 r) k = ix2 r k := eq_ix2 _
theorem sidx137 (r : Fin 65536) (k : Fin 512) : idx_main_v137 (ix1 r) k = ix2 r k := eq_ix2 _
theorem gidx149 (r : Fin 65536) (j : Fin 512) : idx_main_v148 (idx_main_v149 (ix2 r j)) = ix1 j := eq_ix1 _
theorem gidx152 (r : Fin 65536) (j : Fin 512) : idx_main_v151 (idx_main_v152 (ix2 r j)) = ix1 j := eq_ix1 _

theorem q_aff2 (r : Fin 65536) (j : Fin 512) :
    val_main_v129 (F := Ideal) x2 x3 x4 x5 x6 x7 x8 (ix2 r j)
      = Cert.Spec.affine (fun j t => x7 (ix2 j t)) (fun j => x8 (ix1 j))
          (fun t => val_main_v124 (F := Ideal) x2 x3 x4 x5 x6 (ix2 r t)) j := by
  rw [val_main_v129_apply, val_main_v126_apply, val_main_v128_apply, val_main_v127_apply]
  simp only [val_main_v125_apply, Ideal.addf_def, lidx126, ridx126, bidx128]
  rfl

theorem q_mean2 (r : Fin 65536) (z : Fin 1) :
    val_main_v133 (F := Ideal) x2 x3 x4 x5 x6 x7 x8 (ix2 r z)
      = Cert.Spec.mean Cert.Spec.w512 (fun t => val_main_v129 (F := Ideal) x2 x3 x4 x5 x6 x7 x8 (ix2 r t)) := by
  rw [val_main_v133_apply, val_main_v131_apply, val_main_v130_apply, val_main_v132_apply, val_main_cst_19_apply,
    val_main_cst_20_apply]
  simp only [Ideal.hostDivf_def, Ideal.ofBits_def, Ideal.ofBits_zero_f32, zero_add, ridx131, sidx130]
  rfl

theorem q_var2 (r : Fin 65536) (z : Fin 1) :
    val_main_v140 (F := Ideal) x2 x3 x4 x5 x6 x7 x8 (ix2 r z)
      = Cert.Spec.var Cert.Spec.w512 (fun t => val_main_v129 (F := Ideal) x2 x3 x4 x5 x6 x7 x8 (ix2 r t)) := by
  rw [val_main_v140_apply, val_main_v138_apply, val_main_v137_apply, val_main_v139_apply, val_main_cst_21_apply,
    val_main_cst_22_apply]
  simp only [val_main_v136_apply, val_main_v135_apply, val_main_v134_apply, Ideal.hostDivf_def, Ideal.ofBits_def,
    Ideal.ofBits_zero_f32, zero_add, Ideal.mulf_def, Ideal.subf_def, ridx138, sidx137, cidx134, q_mean2]
  rfl

theorem q_ln2 (r : Fin 65536) (j : Fin 512) :
    val_main_v154 (F := Ideal) x2 x3 x4 x5 x6 x7 x8 x9 x10 (ix2 r j)
      = Cert.Spec.lnRelu Cert.Spec.w512 (fun j => x9 (ix1 j)) (fun j => x10 (ix1 j))
          (fun t => val_main_v129 (F := Ideal) x2 x3 x4 x5 x6 x7 x8 (ix2 r t)) j := by
  rw [val_main_v154_apply, val_main_v153_apply, val_main_v150_apply, val_main_v147_apply, val_main_v142_apply,
    val_main_v141_apply, val_main_v146_apply, val_main_v145_apply, val_main_v144_apply, val_main_v143_apply,
    val_main_cst_23_apply, val_main_v149_apply, val_main_v148_apply, val_main_v152_apply, val_main_v151_apply,
    val_main_call4_v0_apply, val_main_call4_cst_apply]
  simp only [Ideal.maximumf_def, Ideal.addf_def, Ideal.mulf_def, Ideal.subf_def, Ideal.hostUnary_rsqrt_def,
    Ideal.ofBits_def, Ideal.ofBits_zero_f32, cidx141, cidx146, gidx149, gidx152, q_mean2, q_var2]
  rfl

theorem lidx156 (r : Fin 65536) (j : Fin 128) (k : Fin 512) : lidx_main_v156 (ix2 r j) k = ix2 r k := eq_ix2 _
theorem ridx156 (r : Fin 65536) (j : Fin 128) (k : Fin 512) : idx_main_v155 (ridx_main_v156 (ix2 r j) k) = ix2 j k := eq_ix2 _
theorem bidx158 (r : Fin 65536) (j : Fin 128) : idx_main_v157 (idx_main_v158 (ix2 r j)) = ix1 j := eq_ix1 _
theorem cidx164 (r : Fin 65536) (j : Fin 128) : idx_main_v164 (ix2 r j) = ix2 r (0 : Fin 1) := eq_ix2 _
theorem cidx171 (r : Fin 65536) (j : Fin 128) : idx_main_v171 (ix2 r j) = ix2 r (0 : Fin 1) := eq_ix2 _
theorem cidx176 (r : Fin 65536) (j : Fin 128) : idx_main_v176 (ix2 r j) = ix2 r (0 : Fin 1) := eq_ix2 _
theorem ridx161 (r : Fin 65536) (z : Fin 1) : idx_main_v161 (ix2 r z) = ix1 r := eq_ix1 _
theorem ridx168 (r : Fin 65536) (z : Fin 1) : idx_main_v168 (ix2 r z) = ix1 r := eq_ix1 _
theorem sidx160 (r : Fin 65536) (k : Fin 128) : idx_main_v160 (ix1 r) k = ix2 r k := eq_ix2 _
theorem sidx167 (r : Fin 65536) (k : Fin 128) : idx_main_v167 (ix1 r) k = ix2 r k := eq_ix2 _
theorem gidx179 (r : Fin 65536) (j : Fin 128) : idx_main_v178 (idx_main_v179 (ix2 r j)) = ix1 j := eq_ix1 _
theorem gidx182 (r : Fin 65536) (j : Fin 128) : idx_main_v181 (idx_main_v182 (ix2 r j)) = ix1 j := eq_ix1 _

theorem q_aff3 (r : Fin 65536) (j : Fin 128) :
    val_main_v159 (F := Ideal) x2 x3 x4 x5 x6 x7 x8 x9 x10 x11 x12 (ix2 r j)
      = Cert.Spec.affine (fun j t => x11 (ix2 j t)) (fun j => x12 (ix1 j))
          (fun t => val_main_v154 (F := Ideal) x2 x3 x4 x5 x6 x7 x8 x9 x10 (ix2 r t)) j := by
  rw [val_main_v159_apply, val_main_v156_apply, val_main_v158_apply, val_main_v157_apply]
  simp only [val_main_v155_apply, Ideal.addf_def, lidx156, ridx156, bidx158]
  rfl

theorem q_mean3 (r : Fin 65536) (z : Fin 1) :
    val_main_v163 (F := Ideal) x2 x3 x4 x5 x6 x7 x8 x9 x10 x11 x12 (ix2 r z)
      = Cert.Spec.mean Cert.Spec.w128
          (fun t => val_main_v159 (F := Ideal) x2 x3 x4 x5 x6 x7 x8 x9 x10 x11 x12 (ix2 r t)) := by
  rw [val_main_v163_apply, val_main_v161_apply, val_main_v160_apply, val_main_v162_apply, val_main_cst_24_apply,
    val_main_cst_25_apply]
  simp only [Ideal.hostDivf_def, Ideal.ofBits_def, Ideal.ofBits_zero_f32, zero_add, ridx161, sidx160]
  rfl

theorem q_var3 (r : Fin 65536) (z : Fin 1) :
    val_main_v170 (F := Ideal) x2 x3 x4 x5 x6 x7 x8 x9 x10 x11 x12 (ix2 r z)
      = Cert.Spec.var Cert.Spec.w128
          (fun t => val_main_v159 (F := Ideal) x2 x3 x4 x5 x6 x7 x8 x9 x10 x11 x12 (ix2 r t)) := by
  rw [val_main_v170_apply, val_main_v168_apply, val_main_v167_apply, val_main_v169_apply, val_main_cst_26_apply,
    val_main_cst_27_apply]
  simp only [val_main_v166_apply, val_main_v165_apply, val_main_v164_apply, Ideal.hostDivf_def, Ideal.ofBits_def,
    Ideal.ofBits_zero_f32, zero_add, Ideal.mulf_def, Ideal.subf_def, ridx168, sidx167, cidx164, q_mean3]
  rfl

theorem q_ln3 (r : Fin 65536) (j : Fin 128) :
    val_main_v184 (F := Ideal) x2 x3 x4 x5 x6 x7 x8 x9 x10 x11 x12 x13 x14 (ix2 r j)
      = Cert.Spec.lnRelu Cert.Spec.w128 (fun j => x13 (ix1 j)) (fun j => x14 (ix1 j))
          (fun t => val_main_v159 (F := Ideal) x2 x3 x4 x5 x6 x7 x8 x9 x10 x11 x12 (ix2 r t)) j := by
  rw [val_main_v184_apply, val_main_v183_apply, val_main_v180_apply, val_main_v177_apply, val_main_v172_apply,
    val_main_v171_apply, val_main_v176_apply, val_main_v175_apply, val_main_v174_apply, val_main_v173_apply,
    val_main_cst_28_apply, val_main_v179_apply, val_main_v178_apply, val_main_v182_apply, val_main_v181_apply,
    val_main_call5_v0_apply, val_main_call5_cst_apply]
  simp only [Ideal.maximumf_def, Ideal.addf_def, Ideal.mulf_def, Ideal.subf_def, Ideal.hostUnary_rsqrt_def,
    Ideal.ofBits_def, Ideal.ofBits_zero_f32, cidx171, cidx176, gidx179, gidx182, q_mean3, q_var3]
  rfl

theorem lidx186 (r : Fin 65536) (q : Fin 32) (k : Fin 128) : lidx_main_v186 (ix2 r q) k = ix2 r k := eq_ix2 _
theorem ridx186 (r : Fin 65536) (q : Fin 32) (k : Fin 128) : idx_main_v185 (ridx_main_v186 (ix2 r q) k) = ix2 q k := eq_ix2 _
theorem bidx188 (r : Fin 65536) (q : Fin 32) : idx_main_v187 (idx_main_v188 (ix2 r q)) = ix1 q := eq_ix1 _

theorem q_aff4 (r : Fin 65536) (q : Fin 32) :
    val_main_v189 (F := Ideal) x2 x3 x4 x5 x6 x7 x8 x9 x10 x11 x12 x13 x14 x15 x16 (ix2 r q)
      = Cert.Spec.affine (fun j t => x15 (ix2 j t)) (fun j => x16 (ix1 j))
          (fun t => val_main_v184 (F := Ideal) x2 x3 x4 x5 x6 x7 x8 x9 x10 x11 x12 x13 x14 (ix2 r t)) q := by
  rw [val_main_v189_apply, val_main_v186_apply, val_main_v188_apply, val_main_v187_apply]
  simp only [val_main_v185_apply, Ideal.addf_def, lidx186, ridx186, bidx188]
  rfl

end Cert.RefValue.Query

namespace Cert.RefValue

open Cert.ReferenceIdeal Cert.ReferenceIdeal.Gen Cert.ReferenceIdeal.Read Idealize.ShloMosaic Idealize.ShloMosaic.ValueIdx
open Cert.RefValue.Query

variable (x2 : (⟨S65536x768, .f32⟩ : BufTy).Contents (Elt Ideal)) (x3 : (⟨S512x768, .f32⟩ : BufTy).Contents (Elt Ideal))
  (x4 x5 x6 : (⟨S512, .f32⟩ : BufTy).Contents (Elt Ideal)) (x7 : (⟨S512x512, .f32⟩ : BufTy).Contents (Elt Ideal))
  (x8 x9 x10 : (⟨S512, .f32⟩ : BufTy).Contents (Elt Ideal)) (x11 : (⟨S128x512, .f32⟩ : BufTy).Contents (Elt Ideal))
  (x12 x13 x14 : (⟨S128, .f32⟩ : BufTy).Contents (Elt Ideal)) (x15 : (⟨S32x128, .f32⟩ : BufTy).Contents (Elt Ideal))
  (x16 : (⟨S32, .f32⟩ : BufTy).Contents (Elt Ideal))

theorem query_emb (r : Fin 65536) (q : Fin 32) :
    val_main_v189 (F := Ideal) x2 x3 x4 x5 x6 x7 x8 x9 x10 x11 x12 x13 x14 x15 x16 (ix2 r q)
      = Cert.Spec.rowEmb (Cert.Spec.paramsOf x3 x4 x5 x6 x7 x8 x9 x10 x11 x12 x13 x14 x15 x16)
          (Cert.Spec.rowOf x2 r) q := by
  have a1 : (fun t => val_main_v99 (F := Ideal) x2 x3 x4 (ix2 r t))
      = Cert.Spec.affine (fun j t => x3 (ix2 j t)) (fun j => x4 (ix1 j)) (Cert.Spec.rowOf x2 r) :=
    funext fun t => q_aff1 x2 x3 x4 r t
  have h1 : (fun t => val_main_v124 (F := Ideal) x2 x3 x4 x5 x6 (ix2 r t))
      = Cert.Spec.hid1 (Cert.Spec.paramsOf x3 x4 x5 x6 x7 x8 x9 x10 x11 x12 x13 x14 x15 x16) (Cert.Spec.rowOf x2 r) :=
    funext fun t => by rw [q_ln1, a1]; rfl
  have a2 : (fun t => val_main_v129 (F := Ideal) x2 x3 x4 x5 x6 x7 x8 (ix2 r t))
      = Cert.Spec.affine (fun j t => x7 (ix2 j t)) (fun j => x8 (ix1 j))
          (Cert.Spec.hid1 (Cert.Spec.paramsOf x3 x4 x5 x6 x7 x8 x9 x10 x11 x12 x13 x14 x15 x16) (Cert.Spec.rowOf x2 r)) :=
    funext fun t => by rw [q_aff2, h1]
  have h2 : (fun t => val_main_v154 (F := Ideal) x2 x3 x4 x5 x6 x7 x8 x9 x10 (ix2 r t))
      = Cert.Spec.hid2 (Cert.Spec.paramsOf x3 x4 x5 x6 x7 x8 x9 x10 x11 x12 x13 x14 x15 x16) (Cert.Spec.rowOf x2 r) :=
    funext fun t => by rw [q_ln2, a2]; rfl
  have a3 : (fun t => val_main_v159 (F := Ideal) x2 x3 x4 x5 x6 x7 x8 x9 x10 x11 x12 (ix2 r t))
      = Cert.Spec.affine (fun j t => x11 (ix2 j t)) (fun j => x12 (ix1 j))
          (Cert.Spec.hid2 (Cert.Spec.paramsOf x3 x4 x5 x6 x7 x8 x9 x10 x11 x12 x13 x14 x15 x16) (Cert.Spec.rowOf x2 r)) :=
    funext fun t => by rw [q_aff3, h2]
  have h3 : (fun t => val_main_v184 (F := Ideal) x2 x3 x4 x5 x6 x7 x8 x9 x10 x11 x12 x13 x14 (ix2 r t))
      = Cert.Spec.hid3 (Cert.Spec.paramsOf x3 x4 x5 x6 x7 x8 x9 x10 x11 x12 x13 x14 x15 x16) (Cert.Spec.rowOf x2 r) :=
    funext fun t => by rw [q_ln3, a3]; rfl
  rw [q_aff4, h3]
  rfl

end Cert.RefValue

end
-- ==== Proof.RefTailScatter.lean ====
import proofs.«407301_j76149770158544_3_alg».proof.Proof.Gen.ReferenceIdeal
import proofs.«407301_j76149770158544_3_alg».proof.Proof.Spec
import Idealize.ShloMosaic.Lib.ValueIdx
import Idealize.ShloMosaic.Lib.ValueIdxRank1
import Idealize.ShloMosaic.PureOps.Ideal.Laws

noncomputable section

namespace Cert.RefValue.Tail

open Cert.ReferenceIdeal Cert.ReferenceIdeal.Gen Idealize.ShloMosaic Idealize.ShloMosaic.ValueIdx

abbrev d2 := scatter_S64x32_S32768x1_S32768x32_1_0_0_1

abbrev d1 := scatter_S64_S32768x1_S32768_n_0_0_1

theorem start2_0 (lab : IVec S32768x1 32) (r : Fin 32768) (k : Fin 32) :
    d2.start (ix2 r k) lab 0 = (lab (ix2 r 0)).toInt := by
  unfold ScatterDims.start
  rw [dif_pos (by decide)]
  refine congrArg (fun t => (lab t).toInt) ?_
  funext b
  match b with
  | ⟨0, _⟩ => rfl
  | ⟨1, _⟩ => rfl

theorem start2_1 (lab : IVec S32768x1 32) (r : Fin 32768) (k : Fin 32) :
    d2.start (ix2 r k) lab 1 = 0 := by
  unfold ScatterDims.start
  rw [dif_neg (by decide)]

theorem window2_0 (r : Fin 32768) (k : Fin 32) : d2.window (ix2 r k) 0 = 0 := by
  unfold ScatterDims.window
  rw [dif_neg (by decide)]

theorem window2_1 (r : Fin 32768) (k : Fin 32) : d2.window (ix2 r k) 1 = k.val := by
  unfold ScatterDims.window
  rw [dif_pos (by decide)]
  rfl

theorem resultIdx2 (lab : IVec S32768x1 32) (r : Fin 32768) (k : Fin 32) (s : Fin 64) (k' : Fin 32) :
    d2.resultIdx? (ix2 r k) lab = some (ix2 s k') ↔ (k = k' ∧ (lab (ix2 r 0)).toInt = (s.val : Int)) := by
  unfold ScatterDims.resultIdx?
  constructor
  · intro h
    split at h
    · rename_i hb
      have h' := Option.some.inj h
      have e0 := congrArg (fun f => (f 0).val) h'
      have e1 := congrArg (fun f => (f 1).val) h'
      simp only [start2_0, start2_1, window2_0, window2_1] at e0 e1
      have b0 := hb 0
      simp only [start2_0, window2_0] at b0
      refine ⟨Fin.ext ?_, ?_⟩
      · have : ((0 : Int) + (k.val : Int)).toNat = k'.val := e1
        omega
      · have : ((lab (ix2 r 0)).toInt + ((0:Nat) : Int)).toNat = s.val := e0
        omega
    · exact absurd h (by simp)
  · rintro ⟨rfl, hl⟩
    have hb : ∀ a, 0 ≤ d2.start (ix2 r k) lab a + d2.window (ix2 r k) a ∧ d2.start (ix2 r k) lab a + d2.window (ix2 r k) a < S64x32.size a := by
      intro a
      match a with
      | ⟨0, _⟩ =>
        show 0 ≤ d2.start (ix2 r k) lab 0 + d2.window (ix2 r k) 0 ∧ d2.start (ix2 r k) lab 0 + d2.window (ix2 r k) 0 < (64 : Nat)
        rw [start2_0, window2_0, hl]; have := s.isLt; omega
      | ⟨1, _⟩ =>
        show 0 ≤ d2.start (ix2 r k) lab 1 + d2.window (ix2 r k) 1 ∧ d2.start (ix2 r k) lab 1 + d2.window (ix2 r k) 1 < (32 : Nat)
        rw [start2_1, window2_1]; have := k.isLt; omega
    rw [dif_pos hb]
    refine congrArg some (funext fun a => Fin.ext ?_)
    match a with
    | ⟨0, _⟩ =>
      show (d2.start (ix2 r k) lab 0 + d2.window (ix2 r k) 0).toNat = s.val
      rw [start2_0, window2_0, hl]; omega
    | ⟨1, _⟩ =>
      show (d2.start (ix2 r k) lab 1 + d2.window (ix2 r k) 1).toNat = k.val
      rw [start2_1, window2_1]; omega

theorem toInt_eq_class (w : BitVec 32) (s : Fin 64) : w.toInt = (s.val : Int) ↔ w = BitVec.ofNat 32 s.val := by
  have hs : (BitVec.ofNat 32 s.val).toInt = (s.val : Int) := by
    rw [BitVec.toInt_eq_toNat_cond, BitVec.toNat_ofNat]
    have := s.isLt
    have h : s.val % 2 ^ 32 = s.val := Nat.mod_eq_of_lt (by omega)
    rw [h, if_pos (by omega)]
  constructor
  · intro h
    exact BitVec.eq_of_toInt_eq (h.trans hs.symm)
  · rintro rfl; exact hs

theorem scatter2_apply (x : FVec Ideal S64x32 .f32) (lab : IVec S32768x1 32) (zs : FVec Ideal S32768x32 .f32)
    (s : Fin 64) (k : Fin 32) :
    Host.scatterAdd (F := Ideal) d2 x lab zs (ix2 s k)
      = x (ix2 s k) + ∑ r : Fin 32768, if Cert.Spec.inClass (lab (ix2 r 0)) s then zs (ix2 r k) else 0 := by
  simp only [Host.scatterAdd, Ideal.hostScatterAdd_def, Ideal.hostScatterAdd]
  refine congrArg (x (ix2 s k) + ·) ?_
  rw [Finset.sum_filter, sum_idx2]
  refine Finset.sum_congr rfl fun r _ => ?_
  simp only [resultIdx2, toInt_eq_class]
  by_cases h : lab (ix2 r 0) = BitVec.ofNat 32 s.val
  · simp only [h, and_true, Cert.Spec.inClass, if_true]
    exact Finset.sum_ite_eq' Finset.univ k (fun q => zs (ix2 r q)) |>.trans (by simp)
  · simp only [h, and_false, if_false, Cert.Spec.inClass, Finset.sum_const_zero]

theorem start1_0 (lab : IVec S32768x1 32) (r : Fin 32768) :
    d1.start (ix1 r) lab 0 = (lab (ix2 r 0)).toInt := by
  unfold ScatterDims.start
  rw [dif_pos (by decide)]
  refine congrArg (fun t => (lab t).toInt) ?_
  funext b
  match b with
  | ⟨0, _⟩ => rfl
  | ⟨1, _⟩ => rfl

theorem window1_0 (r : Fin 32768) : d1.window (ix1 r) 0 = 0 := by
  unfold ScatterDims.window
  rw [dif_neg (by decide)]

theorem resultIdx1 (lab : IVec S32768x1 32) (r : Fin 32768) (s : Fin 64) :
    d1.resultIdx? (ix1 r) lab = some (ix1 s) ↔ (lab (ix2 r 0)).toInt = (s.val : Int) := by
  unfold ScatterDims.resultIdx?
  constructor
  · intro h
    split at h
    · have e0 := congrArg (fun f => (f 0).val) (Option.some.inj h)
      simp only [start1_0, window1_0] at e0
      rename_i hb
      have b0 := hb 0
      simp only [start1_0, window1_0] at b0
      have : ((lab (ix2 r 0)).toInt + ((0:Nat) : Int)).toNat = s.val := e0
      omega
    · exact absurd h (by simp)
  · intro hl
    have hb : ∀ a, 0 ≤ d1.start (ix1 r) lab a + d1.window (ix1 r) a ∧ d1.start (ix1 r) lab a + d1.window (ix1 r) a < S64.size a := by
      intro a
      match a with
      | ⟨0, _⟩ =>
        show 0 ≤ d1.start (ix1 r) lab 0 + d1.window (ix1 r) 0 ∧ d1.start (ix1 r) lab 0 + d1.window (ix1 r) 0 < (64 : Nat)
        rw [start1_0, window1_0, hl]; have := s.isLt; omega
    rw [dif_pos hb]
    refine congrArg some (funext fun a => Fin.ext ?_)
    match a with
    | ⟨0, _⟩ =>
      show (d1.start (ix1 r) lab 0 + d1.window (ix1 r) 0).toNat = s.val
      rw [start1_0, window1_0, hl]; omega

theorem scatter1_apply (x : FVec Ideal S64 .f32) (lab : IVec S32768x1 32) (u : FVec Ideal S32768 .f32) (s : Fin 64) :
    Host.scatterAdd (F := Ideal) d1 x lab u (ix1 s)
      = x (ix1 s) + ∑ r : Fin 32768, if Cert.Spec.inClass (lab (ix2 r 0)) s then u (ix1 r) else 0 := by
  simp only [Host.scatterAdd, Ideal.hostScatterAdd_def, Ideal.hostScatterAdd]
  refine congrArg (x (ix1 s) + ·) ?_
  rw [Finset.sum_filter, ← Equiv.sum_comp (idxEquiv1 (n := 32768)).symm]
  refine Finset.sum_congr rfl fun r _ => ?_
  show (if d1.resultIdx? (ix1 r) lab = some (ix1 s) then u (ix1 r) else 0) = _
  simp only [resultIdx1, toInt_eq_class, Cert.Spec.inClass]

theorem ofBits_one_f32 : Ideal.ofBits .f32 0x3F800000#32 = 1 := by
  simp [Ideal.ofBits, Ideal.ieee, -EReal.coe_mul]
  norm_num

end Cert.RefValue.Tail

end
-- ==== Proof.RefTail.lean ====
import proofs.«407301_j76149770158544_3_alg».proof.Proof.RefRead
import proofs.«407301_j76149770158544_3_alg».proof.Proof.SpecArr
import proofs.«407301_j76149770158544_3_alg».proof.Proof.RefTailScatter

noncomputable section

namespace Cert.RefValue

open Cert.ReferenceIdeal Cert.ReferenceIdeal.Gen Cert.ReferenceIdeal.Read Idealize.ShloMosaic Idealize.ShloMosaic.ValueIdx

section
variable (x0 : (⟨S32768x768, .f32⟩ : BufTy).Contents (Elt Ideal)) (x1 : (⟨S32768, .i32⟩ : BufTy).Contents (Elt Ideal)) (x2 : (⟨S65536x768, .f32⟩ : BufTy).Contents (Elt Ideal)) (x3 : (⟨S512x768, .f32⟩ : BufTy).Contents (Elt Ideal)) (x4 x5 x6 : (⟨S512, .f32⟩ : BufTy).Contents (Elt Ideal)) (x7 : (⟨S512x512, .f32⟩ : BufTy).Contents (Elt Ideal)) (x8 x9 x10 : (⟨S512, .f32⟩ : BufTy).Contents (Elt Ideal)) (x11 : (⟨S128x512, .f32⟩ : BufTy).Contents (Elt Ideal)) (x12 x13 x14 : (⟨S128, .f32⟩ : BufTy).Contents (Elt Ideal)) (x15 : (⟨S32x128, .f32⟩ : BufTy).Contents (Elt Ideal)) (x16 : (⟨S32, .f32⟩ : BufTy).Contents (Elt Ideal))

namespace Tail

theorem idx191_at (r : Fin 32768) : idx_main_v191 (ix2 r (0 : Fin 1)) = ix1 r := by
  funext a; match a with | ⟨0, _⟩ => rfl
theorem idx195_at (r : Fin 32768) : idx_main_v195 (ix2 r (0 : Fin 1)) = ix1 r := by
  funext a; match a with | ⟨0, _⟩ => rfl
theorem idx199_200_at (s : Fin 64) (k : Fin 32) : idx_main_v199 (idx_main_v200 (ix2 s k)) = ix1 s := by
  funext a; match a with | ⟨0, _⟩ => rfl
theorem idx203_at (i : Fin 65536) (k : Fin 32) : idx_main_v203 (ix1 i) k = ix2 i k := by
  funext a; match a with | ⟨0, _⟩ => rfl | ⟨1, _⟩ => rfl
theorem idx204_208_at (i : Fin 65536) (j : Fin 64) : idx_main_v204 (idx_main_v208 (ix2 i j)) = ix1 i := by
  funext a; match a with | ⟨0, _⟩ => rfl
theorem idx206_at (s : Fin 64) (k : Fin 32) : idx_main_v206 (ix1 s) k = ix2 s k := by
  funext a; match a with | ⟨0, _⟩ => rfl | ⟨1, _⟩ => rfl
theorem idx207_209_at (i : Fin 65536) (j : Fin 64) : idx_main_v207 (idx_main_v209 (ix2 i j)) = ix1 j := by
  funext a; match a with | ⟨0, _⟩ => rfl
theorem lidx214_at (i : Fin 65536) (j : Fin 64) (k : Fin 32) : lidx_main_v214 (ix2 i j) k = ix2 i k := by
  funext a; match a with | ⟨0, _⟩ => rfl | ⟨1, _⟩ => rfl
theorem idx213_214_at (i : Fin 65536) (j : Fin 64) (k : Fin 32) :
    idx_main_v213 (ridx_main_v214 (ix2 i j) k) = ix2 j k := by
  funext a; match a with | ⟨0, _⟩ => rfl | ⟨1, _⟩ => rfl

theorem counts_at (s : Fin 64) :
    val_main_v196 (F := Ideal) x1 (ix1 s) = Cert.Spec.classCount (Cert.Spec.labOf x1) s := by
  unfold val_main_v196
  rw [scatter1_apply, val_main_v194_apply, val_main_cst_31_apply, Ideal.ofBits_def, Ideal.ofBits_zero_f32, zero_add]
  unfold Cert.Spec.classCount
  refine Finset.sum_congr rfl fun r _ => ?_
  rw [val_main_v193_apply, val_main_cst_30_apply, Ideal.ofBits_def, ofBits_one_f32, val_main_v195_apply, idx195_at]
  rfl

theorem sums_at (s : Fin 64) (k : Fin 32) :
    val_main_v192 (F := Ideal) x0 x1 x3 x4 x5 x6 x7 x8 x9 x10 x11 x12 x13 x14 x15 x16 (ix2 s k)
      = Cert.Spec.classSum (fun r q => val_main_v94 (F := Ideal) x0 x3 x4 x5 x6 x7 x8 x9 x10 x11 x12 x13 x14 x15 x16 (ix2 r q)) (Cert.Spec.labOf x1) s k := by
  unfold val_main_v192
  generalize val_main_v94 (F := Ideal) x0 x3 x4 x5 x6 x7 x8 x9 x10 x11 x12 x13 x14 x15 x16 = zs
  rw [scatter2_apply, val_main_v190_apply, val_main_cst_29_apply, Ideal.ofBits_def, Ideal.ofBits_zero_f32, zero_add]
  unfold Cert.Spec.classSum
  refine Finset.sum_congr rfl fun r _ => ?_
  rw [val_main_v191_apply, idx191_at]
  rfl

def means : Fin 64 → Fin 32 → EReal :=
  Cert.Spec.proto (Cert.Spec.classSum (fun r q => val_main_v94 (F := Ideal) x0 x3 x4 x5 x6 x7 x8 x9 x10 x11 x12 x13 x14 x15 x16 (ix2 r q)) (Cert.Spec.labOf x1))
    (Cert.Spec.classCount (Cert.Spec.labOf x1))

theorem means_at (s : Fin 64) (k : Fin 32) :
    val_main_v201 (F := Ideal) x0 x1 x3 x4 x5 x6 x7 x8 x9 x10 x11 x12 x13 x14 x15 x16 (ix2 s k) = means x0 x1 x3 x4 x5 x6 x7 x8 x9 x10 x11 x12 x13 x14 x15 x16 s k := by
  rw [val_main_v201_apply, Ideal.hostDivf_def, sums_at, val_main_v200_apply, val_main_v199_apply, idx199_200_at,
    val_main_v198_apply, Ideal.maximumf_def, counts_at, val_main_v197_apply, val_main_cst_32_apply, Ideal.ofBits_def]
  rfl

theorem qnorm_at (i : Fin 65536) :
    val_main_v203 (F := Ideal) x2 x3 x4 x5 x6 x7 x8 x9 x10 x11 x12 x13 x14 x15 x16 (ix1 i)
      = ∑ k : Fin 32, val_main_v189 (F := Ideal) x2 x3 x4 x5 x6 x7 x8 x9 x10 x11 x12 x13 x14 x15 x16 (ix2 i k) * val_main_v189 (F := Ideal) x2 x3 x4 x5 x6 x7 x8 x9 x10 x11 x12 x13 x14 x15 x16 (ix2 i k) := by
  rw [val_main_v203_apply, val_main_cst_33_apply, Ideal.ofBits_def, Ideal.ofBits_zero_f32, zero_add]
  refine Finset.sum_congr rfl fun k _ => ?_
  rw [val_main_v202_apply, Ideal.mulf_def, idx203_at]

theorem pnorm_at (s : Fin 64) :
    val_main_v206 (F := Ideal) x0 x1 x3 x4 x5 x6 x7 x8 x9 x10 x11 x12 x13 x14 x15 x16 (ix1 s) = ∑ k : Fin 32, means x0 x1 x3 x4 x5 x6 x7 x8 x9 x10 x11 x12 x13 x14 x15 x16 s k * means x0 x1 x3 x4 x5 x6 x7 x8 x9 x10 x11 x12 x13 x14 x15 x16 s k := by
  rw [val_main_v206_apply, val_main_cst_34_apply, Ideal.ofBits_def, Ideal.ofBits_zero_f32, zero_add]
  refine Finset.sum_congr rfl fun k _ => ?_
  rw [val_main_v205_apply, Ideal.mulf_def, idx206_at, means_at]

theorem cross_at (i : Fin 65536) (j : Fin 64) :
    val_main_v214 (F := Ideal) x0 x1 x2 x3 x4 x5 x6 x7 x8 x9 x10 x11 x12 x13 x14 x15 x16 (ix2 i j)
      = ∑ k : Fin 32, (Cert.Spec.wTwo * val_main_v189 (F := Ideal) x2 x3 x4 x5 x6 x7 x8 x9 x10 x11 x12 x13 x14 x15 x16 (ix2 i k)) * means x0 x1 x3 x4 x5 x6 x7 x8 x9 x10 x11 x12 x13 x14 x15 x16 j k := by
  rw [val_main_v214_apply]
  refine Finset.sum_congr rfl fun k _ => ?_
  rw [lidx214_at, val_main_v212_apply, Ideal.mulf_def, val_main_v211_apply, val_main_cst_35_apply, Ideal.ofBits_def,
    val_main_v213_apply, idx213_214_at, means_at]

end Tail

open Tail

theorem tail_eq (i : Fin 65536) (j : Fin 64) :
    val_main_v219 (F := Ideal) x0 x1 x2 x3 x4 x5 x6 x7 x8 x9 x10 x11 x12 x13 x14 x15 x16 (ix2 i j)
      = Cert.Spec.negDist (fun k => val_main_v189 (F := Ideal) x2 x3 x4 x5 x6 x7 x8 x9 x10 x11 x12 x13 x14 x15 x16 (ix2 i k))
          (Cert.Spec.proto (Cert.Spec.classSum (fun r k => val_main_v94 (F := Ideal) x0 x3 x4 x5 x6 x7 x8 x9 x10 x11 x12 x13 x14 x15 x16 (ix2 r k)) (Cert.Spec.labOf x1))
            (Cert.Spec.classCount (Cert.Spec.labOf x1)) j) := by
  rw [val_main_v219_apply, Ideal.hostNegf_def, Ideal.negf_def, val_main_v218_apply, Ideal.hostUnary_sqrt_def,
    val_main_v217_apply, Ideal.maximumf_def, val_main_v215_apply, Ideal.subf_def, val_main_v210_apply, Ideal.addf_def,
    val_main_v208_apply, val_main_v204_apply, idx204_208_at, qnorm_at,
    val_main_v209_apply, val_main_v207_apply, idx207_209_at, pnorm_at, cross_at,
    val_main_v216_apply, val_main_cst_36_apply, Ideal.ofBits_def, Ideal.ofBits_zero_f32]
  rfl

theorem ref_result
    (hs : ∀ (r : Fin 32768) (q : Fin 32), val_main_v94 (F := Ideal) x0 x3 x4 x5 x6 x7 x8 x9 x10 x11 x12 x13 x14 x15 x16 (ix2 r q)
      = Cert.Spec.rowEmb (Cert.Spec.paramsOf x3 x4 x5 x6 x7 x8 x9 x10 x11 x12 x13 x14 x15 x16) (Cert.Spec.rowOf x0 r) q)
    (hq : ∀ (r : Fin 65536) (q : Fin 32), val_main_v189 (F := Ideal) x2 x3 x4 x5 x6 x7 x8 x9 x10 x11 x12 x13 x14 x15 x16 (ix2 r q)
      = Cert.Spec.rowEmb (Cert.Spec.paramsOf x3 x4 x5 x6 x7 x8 x9 x10 x11 x12 x13 x14 x15 x16) (Cert.Spec.rowOf x2 r) q) :
    val_main_v219 (F := Ideal) x0 x1 x2 x3 x4 x5 x6 x7 x8 x9 x10 x11 x12 x13 x14 x15 x16
      = Cert.Spec.resultArr x0 x1 x2 (Cert.Spec.paramsOf x3 x4 x5 x6 x7 x8 x9 x10 x11 x12 x13 x14 x15 x16) := by
  funext i
  obtain ⟨a, b, rfl⟩ : ∃ (a : Fin 65536) (b : Fin 64), i = ix2 a b := ⟨i 0, i 1, eq_ix2 i⟩
  rw [tail_eq]
  have e1 : (fun k => val_main_v189 (F := Ideal) x2 x3 x4 x5 x6 x7 x8 x9 x10 x11 x12 x13 x14 x15 x16 (ix2 a k))
      = Cert.Spec.rowEmb (Cert.Spec.paramsOf x3 x4 x5 x6 x7 x8 x9 x10 x11 x12 x13 x14 x15 x16) (Cert.Spec.rowOf x2 a) := funext fun k => hq a k
  have e2 : (fun r k => val_main_v94 (F := Ideal) x0 x3 x4 x5 x6 x7 x8 x9 x10 x11 x12 x13 x14 x15 x16 (ix2 r k))
      = fun r => Cert.Spec.rowEmb (Cert.Spec.paramsOf x3 x4 x5 x6 x7 x8 x9 x10 x11 x12 x13 x14 x15 x16) (Cert.Spec.rowOf x0 r) :=
    funext fun r => funext fun k => hs r k
  rw [e1, e2]
  rfl

end

end Cert.RefValue

end
-- ==== Proof.RefFinal.lean ====
import proofs.«407301_j76149770158544_3_alg».proof.Proof.RefRead
import proofs.«407301_j76149770158544_3_alg».proof.Proof.RefVal
import proofs.«407301_j76149770158544_3_alg».proof.Proof.SpecArr
import proofs.«407301_j76149770158544_3_alg».proof.Proof.RefSupport
import proofs.«407301_j76149770158544_3_alg».proof.Proof.RefQuery
import proofs.«407301_j76149770158544_3_alg».proof.Proof.RefTail

noncomputable section

namespace Cert.RefValue

open Cert.ReferenceIdeal Cert.ReferenceIdeal.Gen Cert.ReferenceIdeal.Read Idealize.ShloMosaic Idealize.ShloMosaic.TcCoe
  Idealize.ShloMosaic.ValueIdx Idealize.SL.Sem

theorem ref_value (m : (ℓ : Loc nD τ sig) → Buf (Elt Ideal) ℓ) (c : Dev nD) :
    Cert.RefRun.res219 (F := Ideal) m c
      = Cert.Spec.resultArr (m ((c.tc : Thread nD τ).loc main_arg0)) (m ((c.tc : Thread nD τ).loc main_arg1)) (m ((c.tc : Thread nD τ).loc main_arg2))
          (Cert.Spec.paramsOf (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16))) := by
  rw [Cert.RefRun.res219_eq]
  exact ref_result _ _ _ _ _ _ _ _ _ _ _ _ _ _ _ _ _
    (fun r q => support_emb _ _ _ _ _ _ _ _ _ _ _ _ _ _ _ r q)
    (fun r q => query_emb _ _ _ _ _ _ _ _ _ _ _ _ _ _ _ r q)

end Cert.RefValue

end
-- ==== Proof.lean ====
/-
  Both programs embed every support row and every query row by one perceptron (three hidden layers, each an
  affine map, layer normalisation with learnt scale and shift, and the rectifier; then an affine map to 32
  coordinates), average the support embeddings class by class, and return minus the Euclidean distance from each
  query embedding to each class mean.

  Over the extended reals the two results agree entry by entry. A matrix product into a zero accumulator is the
  finite sum that a contraction is; a product with a one-hot matrix is the sum over the rows of a class; sums over
  row tiles and over the two halves of the support set regroup into one sum over all rows, by commutativity and
  associativity alone; and 2·Σ q·p = Σ (2·q)·p because a nonnegative real factor distributes over a finite sum of
  extended reals. Finiteness of the inputs is never used.
-/
import proofs.«407301_j76149770158544_3_alg».proof.Defs
import proofs.«407301_j76149770158544_3_alg».proof.Proof.Gen.Kernel
import proofs.«407301_j76149770158544_3_alg».proof.Proof.Gen.KernelIdeal
import proofs.«407301_j76149770158544_3_alg».proof.Proof.Gen.ReferenceIdeal
import proofs.«407301_j76149770158544_3_alg».proof.Proof.Gen.Pre_finite_inputs
import proofs.«407301_j76149770158544_3_alg».proof.Proof.KRun
import proofs.«407301_j76149770158544_3_alg».proof.Proof.KRunW
import proofs.«407301_j76149770158544_3_alg».proof.Proof.KValue
import proofs.«407301_j76149770158544_3_alg».proof.Proof.RefFinal
import Idealize.ShloMosaic.Adequacy
import Idealize.ShloMosaic.Init

noncomputable section

namespace Cert.Proof

open Idealize.ShloMosaic Idealize.ShloMosaic.TcCoe Idealize.SL.Sem

open Cert.Kernel Cert.Kernel.Hand in
theorem frame_k : @Cert.frame_Kernel Cert.Kernel.Gen.facts Cert.Pre_finite_inputs.Gen.facts := fun m ρ _ =>
  (θ_run (defs (F := Bits)) _ _).mono (fun r h c =>
    ⟨arg_end m ρ h c main_arg0, arg_end m ρ h c main_arg1, arg_end m ρ h c main_arg2, arg_end m ρ h c main_arg3, arg_end m ρ h c main_arg4, arg_end m ρ h c main_arg5, arg_end m ρ h c main_arg6, arg_end m ρ h c main_arg7, arg_end m ρ h c main_arg8, arg_end m ρ h c main_arg9, arg_end m ρ h c main_arg10, arg_end m ρ h c main_arg11, arg_end m ρ h c main_arg12, arg_end m ρ h c main_arg13, arg_end m ρ h c main_arg14, arg_end m ρ h c main_arg15, arg_end m ρ h c main_arg16⟩)
    (run_all (F := Bits) m ρ)

open Cert.KernelIdeal Cert.KernelIdeal.Hand in
theorem frame_ki : @Cert.frame_KernelIdeal Cert.KernelIdeal.Gen.facts Cert.Pre_finite_inputs.Gen.facts := fun m ρ _ =>
  (θ_run (defs (F := Ideal)) _ _).mono (fun r h c =>
    ⟨arg_end m ρ h c main_arg0, arg_end m ρ h c main_arg1, arg_end m ρ h c main_arg2, arg_end m ρ h c main_arg3, arg_end m ρ h c main_arg4, arg_end m ρ h c main_arg5, arg_end m ρ h c main_arg6, arg_end m ρ h c main_arg7, arg_end m ρ h c main_arg8, arg_end m ρ h c main_arg9, arg_end m ρ h c main_arg10, arg_end m ρ h c main_arg11, arg_end m ρ h c main_arg12, arg_end m ρ h c main_arg13, arg_end m ρ h c main_arg14, arg_end m ρ h c main_arg15, arg_end m ρ h c main_arg16⟩)
    (run_all (F := Ideal) m ρ)

theorem frame_ri : @Cert.frame_ReferenceIdeal Cert.ReferenceIdeal.Gen.facts Cert.Pre_finite_inputs.Gen.facts := fun m ρ _ =>
  (θ_run Cert.ReferenceIdeal.defs _ _).mono (fun _ h c => (h c).2) (Cert.RefRun.run (F := Ideal) m ρ)

theorem algebraic : @Cert.algebraic_KernelIdeal_ReferenceIdeal Cert.KernelIdeal.Gen.facts Cert.ReferenceIdeal.Gen.facts Cert.Pre_finite_inputs.Gen.facts := by
  intro m ρ m' ρ' _ hagree
  refine ⟨fun c => Cert.KernelIdeal.Hand.Wb4 (F := Ideal) m ρ c (Proc.devRef .tc Cert.KernelIdeal.main_v29), ?_, ?_⟩
  · exact (θ_run (Cert.KernelIdeal.defs (F := Ideal)) _ _).mono (fun r h c =>
      ⟨h c _ (Cert.KernelIdeal.Hand.mem_uc Cert.KernelIdeal.main_v29 (by decide)), Cert.KernelIdeal.Hand.arg_end m ρ h c Cert.KernelIdeal.main_arg0, Cert.KernelIdeal.Hand.arg_end m ρ h c Cert.KernelIdeal.main_arg1, Cert.KernelIdeal.Hand.arg_end m ρ h c Cert.KernelIdeal.main_arg2, Cert.KernelIdeal.Hand.arg_end m ρ h c Cert.KernelIdeal.main_arg3, Cert.KernelIdeal.Hand.arg_end m ρ h c Cert.KernelIdeal.main_arg4, Cert.KernelIdeal.Hand.arg_end m ρ h c Cert.KernelIdeal.main_arg5, Cert.KernelIdeal.Hand.arg_end m ρ h c Cert.KernelIdeal.main_arg6, Cert.KernelIdeal.Hand.arg_end m ρ h c Cert.KernelIdeal.main_arg7, Cert.KernelIdeal.Hand.arg_end m ρ h c Cert.KernelIdeal.main_arg8, Cert.KernelIdeal.Hand.arg_end m ρ h c Cert.KernelIdeal.main_arg9, Cert.KernelIdeal.Hand.arg_end m ρ h c Cert.KernelIdeal.main_arg10, Cert.KernelIdeal.Hand.arg_end m ρ h c Cert.KernelIdeal.main_arg11, Cert.KernelIdeal.Hand.arg_end m ρ h c Cert.KernelIdeal.main_arg12, Cert.KernelIdeal.Hand.arg_end m ρ h c Cert.KernelIdeal.main_arg13, Cert.KernelIdeal.Hand.arg_end m ρ h c Cert.KernelIdeal.main_arg14, Cert.KernelIdeal.Hand.arg_end m ρ h c Cert.KernelIdeal.main_arg15, Cert.KernelIdeal.Hand.arg_end m ρ h c Cert.KernelIdeal.main_arg16⟩)
      (Cert.KernelIdeal.Hand.run_all (F := Ideal) m ρ)
  · refine (θ_run Cert.ReferenceIdeal.defs _ _).mono (fun _ h c => ⟨(h c).1.trans ?_, (h c).2⟩)
      (Cert.RefRun.run (F := Ideal) m' ρ')
    rw [Cert.RefValue.ref_value m' c]
    refine Eq.trans ?_ (Cert.KValue.kernel_result m ρ c).symm
    obtain ⟨e0, e1, e2, e3, e4, e5, e6, e7, e8, e9, e10, e11, e12, e13, e14, e15, e16⟩ := hagree c
    rw [e0, e1, e2, e3, e4, e5, e6, e7, e8, e9, e10, e11, e12, e13, e14, e15, e16]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
